-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v246) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S128x96 : Shape := ⟨2, ![128, 96]⟩
abbrev S96 : Shape := ⟨1, ![96]⟩
abbrev S1x96 : Shape := ⟨2, ![1, 96]⟩
abbrev S16x96 : Shape := ⟨2, ![16, 96]⟩
abbrev S96x96 : Shape := ⟨2, ![96, 96]⟩
abbrev S2x16x96 : Shape := ⟨3, ![2, 16, 96]⟩
abbrev S2x96 : Shape := ⟨2, ![2, 96]⟩
abbrev S2x96x96 : Shape := ⟨3, ![2, 96, 96]⟩
abbrev S2 : Shape := ⟨1, ![2]⟩
abbrev S3x96 : Shape := ⟨2, ![3, 96]⟩
abbrev S288x96 : Shape := ⟨2, ![288, 96]⟩
abbrev S96x64 : Shape := ⟨2, ![96, 64]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S1x96 : S_.BroadcastsInDim S1x96 (![] : Fin 0 → Fin S1x96.rank)
  reducesTo_S1x96_S_d0_1 : S1x96.ReducesTo [0, 1] S_
  bcast_S_S16x96 : S_.BroadcastsInDim S16x96 (![] : Fin 0 → Fin S16x96.rank)
  reducesTo_S16x96_S_d0_1 : S16x96.ReducesTo [0, 1] S_
  bcast_S_S96x96 : S_.BroadcastsInDim S96x96 (![] : Fin 0 → Fin S96x96.rank)
  reducesTo_S96x96_S_d0_1 : S96x96.ReducesTo [0, 1] S_
  bcast_S_S2x16x96 : S_.BroadcastsInDim S2x16x96 (![] : Fin 0 → Fin S2x16x96.rank)
  reducesTo_S2x16x96_S_d0_1_2 : S2x16x96.ReducesTo [0, 1, 2] S_
  bcast_S_S2x96 : S_.BroadcastsInDim S2x96 (![] : Fin 0 → Fin S2x96.rank)
  reducesTo_S2x96_S_d0_1 : S2x96.ReducesTo [0, 1] S_
  bcast_S_S2x96x96 : S_.BroadcastsInDim S2x96x96 (![] : Fin 0 → Fin S2x96x96.rank)
  reducesTo_S2x96x96_S_d0_1_2 : S2x96x96.ReducesTo [0, 1, 2] S_
  bcast_S_S2 : S_.BroadcastsInDim S2 (![] : Fin 0 → Fin S2.rank)
  reducesTo_S2_S_d0 : S2.ReducesTo [0] S_
  bcast_S_S3x96 : S_.BroadcastsInDim S3x96 (![] : Fin 0 → Fin S3x96.rank)
  reducesTo_S3x96_S_d0_1 : S3x96.ReducesTo [0, 1] S_
  bcast_S_S288x96 : S_.BroadcastsInDim S288x96 (![] : Fin 0 → Fin S288x96.rank)
  reducesTo_S288x96_S_d0_1 : S288x96.ReducesTo [0, 1] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part8 {F : FTy → Type} [FloatOps F] (main_v128 : IVec S_ 1) (main_v137 : IVec S800000 1) : IVec S_ 1 :=
  let main_c_52 : IVec S_ 1 := constantI S_ 1 1#1
  let main_v138 : IVec S_ 1 := (fun x v => Host.reduce IntOp.andi x v reducesTo_S800000_S_d0 h_S_) main_v137 main_c_52
  let main_v139 : IVec S_ 1 := andi main_v128 main_v138
  main_v139

def fn_part7 {F : FTy → Type} [FloatOps F] (main_arg1 : IVec S2x800000 32) (main_arg26 : FVec F S64 .f32) (main_v118 : IVec S_ 1) (main_v119 : FVec F S96x64 .f32) : IVec S_ 1 :=
  let main_cst_46 : FVec F S_ .f32 := constant S_ .f32 0x7F800000#32
  let main_v120 : FVec F S96x64 .f32 := broadcastInDim S96x64 ![] bcast_S_S96x64 main_cst_46
  let main_v121 : IVec S96x64 1 := cmpf .olt main_v119 main_v120
  let main_c_47 : IVec S_ 1 := constantI S_ 1 1#1
  let main_v122 : IVec S_ 1 := (fun x v => Host.reduce IntOp.andi x v reducesTo_S96x64_S_d0_1 h_S_) main_v121 main_c_47
  let main_v123 : IVec S_ 1 := andi main_v118 main_v122
  let main_v124 : FVec F S64 .f32 := Host.absf main_arg26
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : IVec S1x800000 32 := (extractStridedSlice S1x800000 ![0, 0] · slices_S2x800000_S1x800000_0_0) main_arg1
  let main_v130 : IVec S800000 32 := shapeCast S800000 main_v129 shapeCasts_S1x800000_S800000
  let main_c_50 : IVec S_ 32 := constantI S_ 32 4294917296#32
  let main_v131 : IVec S800000 32 := broadcastInDim S800000 ![] bcast_S_S800000 main_c_50
  let main_v132 : IVec S800000 1 := cmpi .sge main_v130 main_v131
  let main_v133 : IVec S1x800000 32 := (extractStridedSlice S1x800000 ![0, 0] · slices_S2x800000_S1x800000_0_0) main_arg1
  let main_v134 : IVec S800000 32 := shapeCast S800000 main_v133 shapeCasts_S1x800000_S800000
  let main_c_51 : IVec S_ 32 := constantI S_ 32 50000#32
  let main_v135 : IVec S800000 32 := broadcastInDim S800000 ![] bcast_S_S800000 main_c_51
  let main_v136 : IVec S800000 1 := cmpi .slt main_v134 main_v135
  let main_v137 : IVec S800000 1 := andi main_v132 main_v136
  fn_part8 (F := F) main_v128 main_v137

def fn_part6 {F : FTy → Type} [FloatOps F] (main_arg1 : IVec S2x800000 32) (main_arg22 : FVec F S3x96 .f32) (main_arg23 : FVec F S288x96 .f32) (main_arg24 : FVec F S96 .f32) (main_arg25 : FVec F S96x64 .f32) (main_arg26 : FVec F S64 .f32) (main_v98 : IVec S_ 1) (main_v101 : IVec S3x96 1) (main_c_39 : IVec S_ 1) : IVec S_ 1 :=
  let main_v102 : IVec S_ 1 := (fun x v => Host.reduce IntOp.andi x v reducesTo_S3x96_S_d0_1 h_S_) main_v101 main_c_39
  let main_v103 : IVec S_ 1 := andi main_v98 main_v102
  let main_v104 : FVec F S3x96 .f32 := Host.absf main_arg22
  let main_cst_40 : FVec F S_ .f32 := constant S_ .f32 0x7F800000#32
  let main_v105 : FVec F S3x96 .f32 := broadcastInDim S3x96 ![] bcast_S_S3x96 main_cst_40
  let main_v106 : IVec S3x96 1 := cmpf .olt main_v104 main_v105
  let main_c_41 : IVec S_ 1 := constantI S_ 1 1#1
  let main_v107 : IVec S_ 1 := (fun x v => Host.reduce IntOp.andi x v reducesTo_S3x96_S_d0_1 h_S_) main_v106 main_c_41
  let main_v108 : IVec S_ 1 := andi main_v103 main_v107
  let main_v109 : FVec F S288x96 .f32 := Host.absf main_arg23
  let main_cst_42 : FVec F S_ .f32 := constant S_ .f32 0x7F800000#32
  let main_v110 : FVec F S288x96 .f32 := broadcastInDim S288x96 ![] bcast_S_S288x96 main_cst_42
  let main_v111 : IVec S288x96 1 := cmpf .olt main_v109 main_v110
  let main_c_43 : IVec S_ 1 := constantI S_ 1 1#1
  let main_v112 : IVec S_ 1 := (fun x v => Host.reduce IntOp.andi x v reducesTo_S288x96_S_d0_1 h_S_) main_v111 main_c_43
  let main_v113 : IVec S_ 1 := andi main_v108 main_v112
  let main_v114 : FVec F S96 .f32 := Host.absf main_arg24
  let main_cst_44 : FVec F S_ .f32 := constant S_ .f32 0x7F800000#32
  let main_v115 : FVec F S96 .f32 := broadcastInDim S96 ![] bcast_S_S96 main_cst_44
  let main_v116 : IVec S96 1 := cmpf .olt main_v114 main_v115
  let main_c_45 : IVec S_ 1 := constantI S_ 1 1#1
  let main_v117 : IVec S_ 1 := (fun x v => Host.reduce IntOp.andi x v reducesTo_S96_S_d0 h_S_) main_v116 main_c_45
  let main_v118 : IVec S_ 1 := andi main_v113 main_v117
  let main_v119 : FVec F S96x64 .f32 := Host.absf main_arg25
  fn_part7 (F := F) main_arg1 main_arg26 main_v118 main_v119

def fn_part5 {F : FTy → Type} [FloatOps F] (main_arg1 : IVec S2x800000 32) (main_arg19 : FVec F S3x96 .f32) (main_arg20 : FVec F S3x96 .f32) (main_arg21 : FVec F S3x96 .f32) (main_arg22 : FVec F S3x96 .f32) (main_arg23 : FVec F S288x96 .f32) (main_arg24 : FVec F S96 .f32) (main_arg25 : FVec F S96x64 .f32) (main_arg26 : FVec F S64 .f32) (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  let main_v89 : FVec F S3x96 .f32 := Host.absf main_arg19
  let main_cst_34 : FVec F S_ .f32 := constant S_ .f32 0x7F800000#32
  let main_v90 : FVec F S3x96 .f32 := broadcastInDim S3x96 ![] bcast_S_S3x96 main_cst_34
  let main_v91 : IVec S3x96 1 := cmpf .olt main_v89 main_v90
  let main_c_35 : IVec S_ 1 := constantI S_ 1 1#1
  let main_v92 : IVec S_ 1 := (fun x v => Host.reduce IntOp.andi x v reducesTo_S3x96_S_d0_1 h_S_) main_v91 main_c_35
  let main_v93 : IVec S_ 1 := andi main_v88 main_v92
  let main_v94 : FVec F S3x96 .f32 := Host.absf main_arg20
  let main_cst_36 : FVec F S_ .f32 := constant S_ .f32 0x7F800000#32
  let main_v95 : FVec F S3x96 .f32 := broadcastInDim S3x96 ![] bcast_S_S3x96 main_cst_36
  let main_v96 : IVec S3x96 1 := cmpf .olt main_v94 main_v95
  let main_c_37 : IVec S_ 1 := constantI S_ 1 1#1
  let main_v97 : IVec S_ 1 := (fun x v => Host.reduce IntOp.andi x v reducesTo_S3x96_S_d0_1 h_S_) main_v96 main_c_37
  let main_v98 : IVec S_ 1 := andi main_v93 main_v97
  let main_v99 : FVec F S3x96 .f32 := Host.absf main_arg21
  let main_cst_38 : FVec F S_ .f32 := constant S_ .f32 0x7F800000#32
  let main_v100 : FVec F S3x96 .f32 := broadcastInDim S3x96 ![] bcast_S_S3x96 main_cst_38
  let main_v101 : IVec S3x96 1 := cmpf .olt main_v99 main_v100
  let main_c_39 : IVec S_ 1 := constantI S_ 1 1#1
  fn_part6 (F := F) main_arg1 main_arg22 main_arg23 main_arg24 main_arg25 main_arg26 main_v98 main_v101 main_c_39

def fn_part4 {F : FTy → Type} [FloatOps F] (main_arg1 : IVec S2x800000 32) (main_arg15 : FVec F S2x96 .f32) (main_arg16 : FVec F S2x96x96 .f32) (main_arg17 : FVec F S2x96 .f32) (main_arg18 : FVec F S2 .f32) (main_arg19 : FVec F S3x96 .f32) (main_arg20 : FVec F S3x96 .f32) (main_arg21 : FVec F S3x96 .f32) (main_arg22 : FVec F S3x96 .f32) (main_arg23 : FVec F S288x96 .f32) (main_arg24 : FVec F S96 .f32) (main_arg25 : FVec F S96x64 .f32) (main_arg26 : FVec F S64 .f32) (main_v63 : IVec S_ 1) (main_v67 : IVec S_ 1) : IVec S_ 1 :=
  let main_v68 : IVec S_ 1 := andi main_v63 main_v67
  let main_v69 : FVec F S2x96 .f32 := Host.absf main_arg15
  let main_cst_26 : FVec F S_ .f32 := constant S_ .f32 0x7F800000#32
  let main_v70 : FVec F S2x96 .f32 := broadcastInDim S2x96 ![] bcast_S_S2x96 main_cst_26
  let main_v71 : IVec S2x96 1 := cmpf .olt main_v69 main_v70
  let main_c_27 : IVec S_ 1 := constantI S_ 1 1#1
  let main_v72 : IVec S_ 1 := (fun x v => Host.reduce IntOp.andi x v reducesTo_S2x96_S_d0_1 h_S_) main_v71 main_c_27
  let main_v73 : IVec S_ 1 := andi main_v68 main_v72
  let main_v74 : FVec F S2x96x96 .f32 := Host.absf main_arg16
  let main_cst_28 : FVec F S_ .f32 := constant S_ .f32 0x7F800000#32
  let main_v75 : FVec F S2x96x96 .f32 := broadcastInDim S2x96x96 ![] bcast_S_S2x96x96 main_cst_28
  let main_v76 : IVec S2x96x96 1 := cmpf .olt main_v74 main_v75
  let main_c_29 : IVec S_ 1 := constantI S_ 1 1#1
  let main_v77 : IVec S_ 1 := (fun x v => Host.reduce IntOp.andi x v reducesTo_S2x96x96_S_d0_1_2 h_S_) main_v76 main_c_29
  let main_v78 : IVec S_ 1 := andi main_v73 main_v77
  let main_v79 : FVec F S2x96 .f32 := Host.absf main_arg17
  let main_cst_30 : FVec F S_ .f32 := constant S_ .f32 0x7F800000#32
  let main_v80 : FVec F S2x96 .f32 := broadcastInDim S2x96 ![] bcast_S_S2x96 main_cst_30
  let main_v81 : IVec S2x96 1 := cmpf .olt main_v79 main_v80
  let main_c_31 : IVec S_ 1 := constantI S_ 1 1#1
  let main_v82 : IVec S_ 1 := (fun x v => Host.reduce IntOp.andi x v reducesTo_S2x96_S_d0_1 h_S_) main_v81 main_c_31
  let main_v83 : IVec S_ 1 := andi main_v78 main_v82
  let main_v84 : FVec F S2 .f32 := Host.absf main_arg18
  let main_cst_32 : FVec F S_ .f32 := constant S_ .f32 0x7F800000#32
  fn_part5 (F := F) main_arg1 main_arg19 main_arg20 main_arg21 main_arg22 main_arg23 main_arg24 main_arg25 main_arg26 main_v83 main_v84 main_cst_32

def fn_part3 {F : FTy → Type} [FloatOps F] (main_arg1 : IVec S2x800000 32) (main_arg12 : FVec F S2x96x96 .f32) (main_arg13 : FVec F S2x96 .f32) (main_arg14 : FVec F S2x96x96 .f32) (main_arg15 : FVec F S2x96 .f32) (main_arg16 : FVec F S2x96x96 .f32) (main_arg17 : FVec F S2x96 .f32) (main_arg18 : FVec F S2 .f32) (main_arg19 : FVec F S3x96 .f32) (main_arg20 : FVec F S3x96 .f32) (main_arg21 : FVec F S3x96 .f32) (main_arg22 : FVec F S3x96 .f32) (main_arg23 : FVec F S288x96 .f32) (main_arg24 : FVec F S96 .f32) (main_arg25 : FVec F S96x64 .f32) (main_arg26 : FVec F S64 .f32) (main_v48 : IVec S_ 1) (main_v49 : FVec F S2x96 .f32) (main_v50 : FVec F S2x96 .f32) : IVec S_ 1 :=
  let main_v51 : IVec S2x96 1 := cmpf .olt main_v49 main_v50
  let main_c_19 : IVec S_ 1 := constantI S_ 1 1#1
  let main_v52 : IVec S_ 1 := (fun x v => Host.reduce IntOp.andi x v reducesTo_S2x96_S_d0_1 h_S_) main_v51 main_c_19
  let main_v53 : IVec S_ 1 := andi main_v48 main_v52
  let main_v54 : FVec F S2x96x96 .f32 := Host.absf main_arg12
  let main_cst_20 : FVec F S_ .f32 := constant S_ .f32 0x7F800000#32
  let main_v55 : FVec F S2x96x96 .f32 := broadcastInDim S2x96x96 ![] bcast_S_S2x96x96 main_cst_20
  let main_v56 : IVec S2x96x96 1 := cmpf .olt main_v54 main_v55
  let main_c_21 : IVec S_ 1 := constantI S_ 1 1#1
  let main_v57 : IVec S_ 1 := (fun x v => Host.reduce IntOp.andi x v reducesTo_S2x96x96_S_d0_1_2 h_S_) main_v56 main_c_21
  let main_v58 : IVec S_ 1 := andi main_v53 main_v57
  let main_v59 : FVec F S2x96 .f32 := Host.absf main_arg13
  let main_cst_22 : FVec F S_ .f32 := constant S_ .f32 0x7F800000#32
  let main_v60 : FVec F S2x96 .f32 := broadcastInDim S2x96 ![] bcast_S_S2x96 main_cst_22
  let main_v61 : IVec S2x96 1 := cmpf .olt main_v59 main_v60
  let main_c_23 : IVec S_ 1 := constantI S_ 1 1#1
  let main_v62 : IVec S_ 1 := (fun x v => Host.reduce IntOp.andi x v reducesTo_S2x96_S_d0_1 h_S_) main_v61 main_c_23
  let main_v63 : IVec S_ 1 := andi main_v58 main_v62
  let main_v64 : FVec F S2x96x96 .f32 := Host.absf main_arg14
  let main_cst_24 : FVec F S_ .f32 := constant S_ .f32 0x7F800000#32
  let main_v65 : FVec F S2x96x96 .f32 := broadcastInDim S2x96x96 ![] bcast_S_S2x96x96 main_cst_24
  let main_v66 : IVec S2x96x96 1 := cmpf .olt main_v64 main_v65
  let main_c_25 : IVec S_ 1 := constantI S_ 1 1#1
  let main_v67 : IVec S_ 1 := (fun x v => Host.reduce IntOp.andi x v reducesTo_S2x96x96_S_d0_1_2 h_S_) main_v66 main_c_25
  fn_part4 (F := F) main_arg1 main_arg15 main_arg16 main_arg17 main_arg18 main_arg19 main_arg20 main_arg21 main_arg22 main_arg23 main_arg24 main_arg25 main_arg26 main_v63 main_v67

def fn_part2 {F : FTy → Type} [FloatOps F] (main_arg1 : IVec S2x800000 32) (main_arg8 : FVec F S96x96 .f32) (main_arg9 : FVec F S96 .f32) (main_arg10 : FVec F S2x16x96 .f32) (main_arg11 : FVec F S2x96 .f32) (main_arg12 : FVec F S2x96x96 .f32) (main_arg13 : FVec F S2x96 .f32) (main_arg14 : FVec F S2x96x96 .f32) (main_arg15 : FVec F S2x96 .f32) (main_arg16 : FVec F S2x96x96 .f32) (main_arg17 : FVec F S2x96 .f32) (main_arg18 : FVec F S2 .f32) (main_arg19 : FVec F S3x96 .f32) (main_arg20 : FVec F S3x96 .f32) (main_arg21 : FVec F S3x96 .f32) (main_arg22 : FVec F S3x96 .f32) (main_arg23 : FVec F S288x96 .f32) (main_arg24 : FVec F S96 .f32) (main_arg25 : FVec F S96x64 .f32) (main_arg26 : FVec F S64 .f32) (main_v33 : IVec S_ 1) : IVec S_ 1 :=
  let main_v34 : FVec F S96x96 .f32 := Host.absf main_arg8
  let main_cst_12 : FVec F S_ .f32 := constant S_ .f32 0x7F800000#32
  let main_v35 : FVec F S96x96 .f32 := broadcastInDim S96x96 ![] bcast_S_S96x96 main_cst_12
  let main_v36 : IVec S96x96 1 := cmpf .olt main_v34 main_v35
  let main_c_13 : IVec S_ 1 := constantI S_ 1 1#1
  let main_v37 : IVec S_ 1 := (fun x v => Host.reduce IntOp.andi x v reducesTo_S96x96_S_d0_1 h_S_) main_v36 main_c_13
  let main_v38 : IVec S_ 1 := andi main_v33 main_v37
  let main_v39 : FVec F S96 .f32 := Host.absf main_arg9
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  let main_v44 : FVec F S2x16x96 .f32 := Host.absf main_arg10
  let main_cst_16 : FVec F S_ .f32 := constant S_ .f32 0x7F800000#32
  let main_v45 : FVec F S2x16x96 .f32 := broadcastInDim S2x16x96 ![] bcast_S_S2x16x96 main_cst_16
  let main_v46 : IVec S2x16x96 1 := cmpf .olt main_v44 main_v45
  let main_c_17 : IVec S_ 1 := constantI S_ 1 1#1
  let main_v47 : IVec S_ 1 := (fun x v => Host.reduce IntOp.andi x v reducesTo_S2x16x96_S_d0_1_2 h_S_) main_v46 main_c_17
  let main_v48 : IVec S_ 1 := andi main_v43 main_v47
  let main_v49 : FVec F S2x96 .f32 := Host.absf main_arg11
  let main_cst_18 : FVec F S_ .f32 := constant S_ .f32 0x7F800000#32
  let main_v50 : FVec F S2x96 .f32 := broadcastInDim S2x96 ![] bcast_S_S2x96 main_cst_18
  fn_part3 (F := F) main_arg1 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg1 : IVec S2x800000 32) (main_arg5 : FVec F S1x96 .f32) (main_arg6 : FVec F S16x96 .f32) (main_arg7 : FVec F S96 .f32) (main_arg8 : FVec F S96x96 .f32) (main_arg9 : FVec F S96 .f32) (main_arg10 : FVec F S2x16x96 .f32) (main_arg11 : FVec F S2x96 .f32) (main_arg12 : FVec F S2x96x96 .f32) (main_arg13 : FVec F S2x96 .f32) (main_arg14 : FVec F S2x96x96 .f32) (main_arg15 : FVec F S2x96 .f32) (main_arg16 : FVec F S2x96x96 .f32) (main_arg17 : FVec F S2x96 .f32) (main_arg18 : FVec F S2 .f32) (main_arg19 : FVec F S3x96 .f32) (main_arg20 : FVec F S3x96 .f32) (main_arg21 : FVec F S3x96 .f32) (main_arg22 : FVec F S3x96 .f32) (main_arg23 : FVec F S288x96 .f32) (main_arg24 : FVec F S96 .f32) (main_arg25 : FVec F S96x64 .f32) (main_arg26 : FVec F S64 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S1x96 .f32 := Host.absf main_arg5
  let main_cst_6 : FVec F S_ .f32 := constant S_ .f32 0x7F800000#32
  let main_v20 : FVec F S1x96 .f32 := broadcastInDim S1x96 ![] bcast_S_S1x96 main_cst_6
  let main_v21 : IVec S1x96 1 := cmpf .olt main_v19 main_v20
  let main_c_7 : IVec S_ 1 := constantI S_ 1 1#1
  let main_v22 : IVec S_ 1 := (fun x v => Host.reduce IntOp.andi x v reducesTo_S1x96_S_d0_1 h_S_) main_v21 main_c_7
  let main_v23 : IVec S_ 1 := andi main_v18 main_v22
  let main_v24 : FVec F S16x96 .f32 := Host.absf main_arg6
  let main_cst_8 : FVec F S_ .f32 := constant S_ .f32 0x7F800000#32
  let main_v25 : FVec F S16x96 .f32 := broadcastInDim S16x96 ![] bcast_S_S16x96 main_cst_8
  let main_v26 : IVec S16x96 1 := cmpf .olt main_v24 main_v25
  let main_c_9 : IVec S_ 1 := constantI S_ 1 1#1
  let main_v27 : IVec S_ 1 := (fun x v => Host.reduce IntOp.andi x v reducesTo_S16x96_S_d0_1 h_S_) main_v26 main_c_9
  let main_v28 : IVec S_ 1 := andi main_v23 main_v27
  let main_v29 : FVec F S96 .f32 := Host.absf main_arg7
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S50000x128 .f32) (main_arg1 : IVec S2x800000 32) (main_arg2 : FVec F S800000x16 .f32) (main_arg3 : FVec F S128x96 .f32) (main_arg4 : FVec F S96 .f32) (main_arg5 : FVec F S1x96 .f32) (main_arg6 : FVec F S16x96 .f32) (main_arg7 : FVec F S96 .f32) (main_arg8 : FVec F S96x96 .f32) (main_arg9 : FVec F S96 .f32) (main_arg10 : FVec F S2x16x96 .f32) (main_arg11 : FVec F S2x96 .f32) (main_arg12 : FVec F S2x96x96 .f32) (main_arg13 : FVec F S2x96 .f32) (main_arg14 : FVec F S2x96x96 .f32) (main_arg15 : FVec F S2x96 .f32) (main_arg16 : FVec F S2x96x96 .f32) (main_arg17 : FVec F S2x96 .f32) (main_arg18 : FVec F S2 .f32) (main_arg19 : FVec F S3x96 .f32) (main_arg20 : FVec F S3x96 .f32) (main_arg21 : FVec F S3x96 .f32) (main_arg22 : FVec F S3x96 .f32) (main_arg23 : FVec F S288x96 .f32) (main_arg24 : FVec F S96 .f32) (main_arg25 : FVec F S96x64 .f32) (main_arg26 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S128x96 .f32 := Host.absf main_arg3
  let main_cst_2 : FVec F S_ .f32 := constant S_ .f32 0x7F800000#32
  let main_v10 : FVec F S128x96 .f32 := broadcastInDim S128x96 ![] bcast_S_S128x96 main_cst_2
  let main_v11 : IVec S128x96 1 := cmpf .olt main_v9 main_v10
  let main_c_3 : IVec S_ 1 := constantI S_ 1 1#1
  let main_v12 : IVec S_ 1 := (fun x v => Host.reduce IntOp.andi x v reducesTo_S128x96_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S128x96 : Shape := ⟨2, ![128, 96]⟩
abbrev S96 : Shape := ⟨1, ![96]⟩
abbrev S1x96 : Shape := ⟨2, ![1, 96]⟩
abbrev S16x96 : Shape := ⟨2, ![16, 96]⟩
abbrev S96x96 : Shape := ⟨2, ![96, 96]⟩
abbrev S2x16x96 : Shape := ⟨3, ![2, 16, 96]⟩
abbrev S2x96 : Shape := ⟨2, ![2, 96]⟩
abbrev S2x96x96 : Shape := ⟨3, ![2, 96, 96]⟩
abbrev S2 : Shape := ⟨1, ![2]⟩
abbrev S3x96 : Shape := ⟨2, ![3, 96]⟩
abbrev S288x96 : Shape := ⟨2, ![288, 96]⟩
abbrev S96x64 : Shape := ⟨2, ![96, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1 : Shape := ⟨1, ![1]⟩
abbrev S1x1 : Shape := ⟨2, ![1, 1]⟩
abbrev S800000x17 : Shape := ⟨2, ![800000, 17]⟩
abbrev S50000x96 : Shape := ⟨2, ![50000, 96]⟩
abbrev S5000x128 : Shape := ⟨2, ![5000, 128]⟩
abbrev S5000x96 : Shape := ⟨2, ![5000, 96]⟩
abbrev S800000x96 : Shape := ⟨2, ![800000, 96]⟩
abbrev S5000x17 : Shape := ⟨2, ![5000, 17]⟩
abbrev S5000x16 : Shape := ⟨2, ![5000, 16]⟩
abbrev S5000x1 : Shape := ⟨2, ![5000, 1]⟩
abbrev S50000x1 : Shape := ⟨2, ![50000, 1]⟩
abbrev S50000x97 : Shape := ⟨2, ![50000, 97]⟩
abbrev S5000x97 : Shape := ⟨2, ![5000, 97]⟩
abbrev S1x16x96 : Shape := ⟨3, ![1, 16, 96]⟩
abbrev S1x96x96 : Shape := ⟨3, ![1, 96, 96]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 269
  | .vmem => 91
  | .smem => 0
  | _ => 0

abbrev hbmTy0_0 (i : Nat) : BufTy := match i % 128 with
  | 0 => ⟨S50000x128, .f32⟩
  | 1 => ⟨S2x800000, .i32⟩
  | 2 => ⟨S800000x16, .f32⟩
  | 3 => ⟨S128x96, .f32⟩
  | 4 => ⟨S96, .f32⟩
  | 5 => ⟨S1x96, .f32⟩
  | 6 => ⟨S16x96, .f32⟩
  | 7 => ⟨S96, .f32⟩
  | 8 => ⟨S96x96, .f32⟩
  | 9 => ⟨S96, .f32⟩
  | 10 => ⟨S2x16x96, .f32⟩
  | 11 => ⟨S2x96, .f32⟩
  | 12 => ⟨S2x96x96, .f32⟩
  | 13 => ⟨S2x96, .f32⟩
  | 14 => ⟨S2x96x96, .f32⟩
  | 15 => ⟨S2x96, .f32⟩
  | 16 => ⟨S2x96x96, .f32⟩
  | 17 => ⟨S2x96, .f32⟩
  | 18 => ⟨S2, .f32⟩
  | 19 => ⟨S3x96, .f32⟩
  | 20 => ⟨S3x96, .f32⟩
  | 21 => ⟨S3x96, .f32⟩
  | 22 => ⟨S3x96, .f32⟩
  | 23 => ⟨S288x96, .f32⟩
  | 24 => ⟨S96, .f32⟩
  | 25 => ⟨S96x64, .f32⟩
  | 26 => ⟨S64, .f32⟩
  | 27 => ⟨S1x800000, .i32⟩
  | 28 => ⟨S800000, .i32⟩
  | 29 => ⟨S1x800000, .i32⟩
  | 30 => ⟨S800000, .i32⟩
  | 31 => ⟨S_, .f32⟩
  | 32 => ⟨S800000, .f32⟩
  | 33 => ⟨S_, .f32⟩
  | 34 => ⟨S50000, .f32⟩
  | 35 => ⟨S800000x1, .i32⟩
  | 36 => ⟨S50000, .f32⟩
  | 37 => ⟨S_, .f32⟩
  | 38 => ⟨S50000, .f32⟩
  | 39 => ⟨S50000, .f32⟩
  | 40 => ⟨S50000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S1, .i32⟩
  | 50 => ⟨S_, .i32⟩
  | 51 => ⟨S800000x1, .i32⟩
  | 52 => ⟨S800000x1, .i1⟩
  | 53 => ⟨S1x1, .i32⟩
  | 54 => ⟨S800000x1, .i32⟩
  | 55 => ⟨S800000x1, .i1⟩
  | 56 => ⟨S800000x1, .i1⟩
  | 57 => ⟨S_, .i1⟩
  | 58 => ⟨S800000, .i1⟩
  | 59 => ⟨S800000, .f32⟩
  | 60 => ⟨S_, .f32⟩
  | 61 => ⟨S800000, .f32⟩
  | 62 => ⟨S800000, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S1, .i32⟩
  | 72 => ⟨S_, .i32⟩
  | 73 => ⟨S800000x1, .i32⟩
  | 74 => ⟨S800000x1, .i1⟩
  | 75 => ⟨S1x1, .i32⟩
  | 76 => ⟨S800000x1, .i32⟩
  | 77 => ⟨S800000x1, .i1⟩
  | 78 => ⟨S800000x1, .i1⟩
  | 79 => ⟨S_, .i1⟩
  | 80 => ⟨S800000, .i1⟩
  | 81 => ⟨S800000, .f32⟩
  | 82 => ⟨S_, .f32⟩
  | 83 => ⟨S800000, .f32⟩
  | 84 => ⟨S800000, .f32⟩
  | 85 => ⟨S800000, .f32⟩
  | 86 => ⟨S800000x1, .f32⟩
  | 87 => ⟨S800000x17, .f32⟩
  | 88 => ⟨S1x96, .f32⟩
  | 89 => ⟨S50000x96, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S1, .i32⟩
  | 99 => ⟨S_, .i32⟩
  | 100 => ⟨S800000x1, .i32⟩
  | 101 => ⟨S800000x1, .i1⟩
  | 102 => ⟨S1x1, .i32⟩
  | 103 => ⟨S800000x1, .i32⟩
  | 104 => ⟨S800000x1, .i1⟩
  | 105 => ⟨S800000x1, .i1⟩
  | 106 => ⟨S_, .i1⟩
  | 107 => ⟨S800000, .i1⟩
  | 108 => ⟨S800000x96, .f32⟩
  | 109 => ⟨S800000x96, .i1⟩
  | 110 => ⟨S_, .f32⟩
  | 111 => ⟨S800000x96, .f32⟩
  | 112 => ⟨S800000x96, .f32⟩
  | 113 => ⟨S1x96, .f32⟩
  | 114 => ⟨S1x96, .f32⟩
  | 115 => ⟨S800000x96, .f32⟩
  | 116 => ⟨S_, .f32⟩
  | 117 => ⟨S50000x96, .f32⟩
  | 118 => ⟨S800000x1, .i32⟩
  | 119 => ⟨S50000x96, .f32⟩
  | 120 => ⟨S1x96, .f32⟩
  | 121 => ⟨S96, .f32⟩
  | 122 => ⟨S1x96, .f32⟩
  | 123 => ⟨S96, .f32⟩
  | 124 => ⟨S1x96, .f32⟩
  | 125 => ⟨S96, .f32⟩
  | 126 => ⟨S1x96, .f32⟩
  | 127 => ⟨S96, .f32⟩
  | _ => ⟨S50000x128, .f32⟩

abbrev hbmTy0_1 (i : Nat) : BufTy := match i % 128 with
  | 0 => ⟨S50000x1, .f32⟩
  | 1 => ⟨S50000x97, .f32⟩
  | 2 => ⟨S1x96, .f32⟩
  | 3 => ⟨S1x96, .f32⟩
  | 4 => ⟨S1x96, .f32⟩
  | 5 => ⟨S1x96, .f32⟩
  | 6 => ⟨S50000x96, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S1, .i32⟩
  | 16 => ⟨S_, .i32⟩
  | 17 => ⟨S800000x1, .i32⟩
  | 18 => ⟨S800000x1, .i1⟩
  | 19 => ⟨S1x1, .i32⟩
  | 20 => ⟨S800000x1, .i32⟩
  | 21 => ⟨S800000x1, .i1⟩
  | 22 => ⟨S800000x1, .i1⟩
  | 23 => ⟨S_, .i1⟩
  | 24 => ⟨S800000, .i1⟩
  | 25 => ⟨S800000x96, .f32⟩
  | 26 => ⟨S800000x96, .i1⟩
  | 27 => ⟨S_, .f32⟩
  | 28 => ⟨S800000x96, .f32⟩
  | 29 => ⟨S800000x96, .f32⟩
  | 30 => ⟨S1x16x96, .f32⟩
  | 31 => ⟨S16x96, .f32⟩
  | 32 => ⟨S1x96, .f32⟩
  | 33 => ⟨S96, .f32⟩
  | 34 => ⟨S1x96x96, .f32⟩
  | 35 => ⟨S96x96, .f32⟩
  | 36 => ⟨S1x96, .f32⟩
  | 37 => ⟨S96, .f32⟩
  | 38 => ⟨S1x96, .f32⟩
  | 39 => ⟨S1x96, .f32⟩
  | 40 => ⟨S800000x96, .f32⟩
  | 41 => ⟨S_, .f32⟩
  | 42 => ⟨S50000x96, .f32⟩
  | 43 => ⟨S800000x1, .i32⟩
  | 44 => ⟨S50000x96, .f32⟩
  | 45 => ⟨S1, .f32⟩
  | 46 => ⟨S_, .f32⟩
  | 47 => ⟨S1x96x96, .f32⟩
  | 48 => ⟨S96x96, .f32⟩
  | 49 => ⟨S1x96, .f32⟩
  | 50 => ⟨S96, .f32⟩
  | 51 => ⟨S1x96x96, .f32⟩
  | 52 => ⟨S96x96, .f32⟩
  | 53 => ⟨S1x96, .f32⟩
  | 54 => ⟨S96, .f32⟩
  | 55 => ⟨S1x96, .f32⟩
  | 56 => ⟨S96, .f32⟩
  | 57 => ⟨S1x96, .f32⟩
  | 58 => ⟨S96, .f32⟩
  | 59 => ⟨S1x96, .f32⟩
  | 60 => ⟨S96, .f32⟩
  | 61 => ⟨S1x96, .f32⟩
  | 62 => ⟨S96, .f32⟩
  | 63 => ⟨S1x1, .f32⟩
  | 64 => ⟨S1x96, .f32⟩
  | 65 => ⟨S1x96, .f32⟩
  | 66 => ⟨S1x96, .f32⟩
  | 67 => ⟨S1x96, .f32⟩
  | 68 => ⟨S1x96, .f32⟩
  | 69 => ⟨S1x96, .f32⟩
  | 70 => ⟨S50000x96, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S1, .i32⟩
  | 80 => ⟨S_, .i32⟩
  | 81 => ⟨S800000x1, .i32⟩
  | 82 => ⟨S800000x1, .i1⟩
  | 83 => ⟨S1x1, .i32⟩
  | 84 => ⟨S800000x1, .i32⟩
  | 85 => ⟨S800000x1, .i1⟩
  | 86 => ⟨S800000x1, .i1⟩
  | 87 => ⟨S_, .i1⟩
  | 88 => ⟨S800000, .i1⟩
  | 89 => ⟨S800000x96, .f32⟩
  | 90 => ⟨S800000x96, .i1⟩
  | 91 => ⟨S_, .f32⟩
  | 92 => ⟨S800000x96, .f32⟩
  | 93 => ⟨S800000x96, .f32⟩
  | 94 => ⟨S1x16x96, .f32⟩
  | 95 => ⟨S16x96, .f32⟩
  | 96 => ⟨S1x96, .f32⟩
  | 97 => ⟨S96, .f32⟩
  | 98 => ⟨S1x96x96, .f32⟩
  | 99 => ⟨S96x96, .f32⟩
  | 100 => ⟨S1x96, .f32⟩
  | 101 => ⟨S96, .f32⟩
  | 102 => ⟨S1x96, .f32⟩
  | 103 => ⟨S1x96, .f32⟩
  | 104 => ⟨S800000x96, .f32⟩
  | 105 => ⟨S_, .f32⟩
  | 106 => ⟨S50000x96, .f32⟩
  | 107 => ⟨S800000x1, .i32⟩
  | 108 => ⟨S50000x96, .f32⟩
  | 109 => ⟨S1, .f32⟩
  | 110 => ⟨S_, .f32⟩
  | 111 => ⟨S1x96x96, .f32⟩
  | 112 => ⟨S96x96, .f32⟩
  | 113 => ⟨S1x96, .f32⟩
  | 114 => ⟨S96, .f32⟩
  | 115 => ⟨S1x96x96, .f32⟩
  | 116 => ⟨S96x96, .f32⟩
  | 117 => ⟨S1x96, .f32⟩
  | 118 => ⟨S96, .f32⟩
  | 119 => ⟨S1x96, .f32⟩
  | 120 => ⟨S96, .f32⟩
  | 121 => ⟨S1x96, .f32⟩
  | 122 => ⟨S96, .f32⟩
  | 123 => ⟨S1x96, .f32⟩
  | 124 => ⟨S96, .f32⟩
  | 125 => ⟨S1x96, .f32⟩
  | 126 => ⟨S96, .f32⟩
  | 127 => ⟨S1x1, .f32⟩
  | _ => ⟨S50000x128, .f32⟩

abbrev hbmTy0_2 (i : Nat) : BufTy := match i % 128 with
  | 0 => ⟨S1x96, .f32⟩
  | 1 => ⟨S1x96, .f32⟩
  | 2 => ⟨S1x96, .f32⟩
  | 3 => ⟨S1x96, .f32⟩
  | 4 => ⟨S1x96, .f32⟩
  | 5 => ⟨S1x96, .f32⟩
  | 6 => ⟨S50000x96, .f32⟩
  | 7 => ⟨S96x96, .f32⟩
  | 8 => ⟨S96x96, .f32⟩
  | 9 => ⟨S96x96, .f32⟩
  | 10 => ⟨S1x96, .f32⟩
  | 11 => ⟨S1x64, .f32⟩
  | 12 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x96, .f32⟩
  | .local _ .vmem, ⟨3, _⟩ => ⟨S1x96, .f32⟩
  | .local _ .vmem, ⟨4, _⟩ => ⟨S5000x96, .f32⟩
  | .local _ .vmem, ⟨5, _⟩ => ⟨S5000x96, .f32⟩
  | .local _ .vmem, ⟨6, _⟩ => ⟨S5000x17, .f32⟩
  | .local _ .vmem, ⟨7, _⟩ => ⟨S5000x17, .f32⟩
  | .local _ .vmem, ⟨8, _⟩ => ⟨S5000x96, .f32⟩
  | .local _ .vmem, ⟨9, _⟩ => ⟨S5000x96, .f32⟩
  | .local _ .vmem, ⟨10, _⟩ => ⟨S16x96, .f32⟩
  | .local _ .vmem, ⟨11, _⟩ => ⟨S1x96, .f32⟩
  | .local _ .vmem, ⟨12, _⟩ => ⟨S96x96, .f32⟩
  | .local _ .vmem, ⟨13, _⟩ => ⟨S1x96, .f32⟩
  | .local _ .vmem, ⟨14, _⟩ => ⟨S5000x96, .f32⟩
  | .local _ .vmem, ⟨15, _⟩ => ⟨S5000x96, .f32⟩
  | .local _ .vmem, ⟨16, _⟩ => ⟨S5000x97, .f32⟩
  | .local _ .vmem, ⟨17, _⟩ => ⟨S5000x97, .f32⟩
  | .local _ .vmem, ⟨18, _⟩ => ⟨S5000x96, .f32⟩
  | .local _ .vmem, ⟨19, _⟩ => ⟨S5000x96, .f32⟩
  | .local _ .vmem, ⟨20, _⟩ => ⟨S1x96, .f32⟩
  | .local _ .vmem, ⟨21, _⟩ => ⟨S1x96, .f32⟩
  | .local _ .vmem, ⟨22, _⟩ => ⟨S1x96, .f32⟩
  | .local _ .vmem, ⟨23, _⟩ => ⟨S1x96, .f32⟩
  | .local _ .vmem, ⟨24, _⟩ => ⟨S1x96, .f32⟩
  | .local _ .vmem, ⟨25, _⟩ => ⟨S5000x96, .f32⟩
  | .local _ .vmem, ⟨26, _⟩ => ⟨S5000x96, .f32⟩
  | .local _ .vmem, ⟨27, _⟩ => ⟨S5000x16, .f32⟩
  | .local _ .vmem, ⟨28, _⟩ => ⟨S5000x16, .f32⟩
  | .local _ .vmem, ⟨29, _⟩ => ⟨S5000x96, .f32⟩
  | .local _ .vmem, ⟨30, _⟩ => ⟨S5000x96, .f32⟩
  | .local _ .vmem, ⟨31, _⟩ => ⟨S16x96, .f32⟩
  | .local _ .vmem, ⟨32, _⟩ => ⟨S1x96, .f32⟩
  | .local _ .vmem, ⟨33, _⟩ => ⟨S96x96, .f32⟩
  | .local _ .vmem, ⟨34, _⟩ => ⟨S1x96, .f32⟩
  | .local _ .vmem, ⟨35, _⟩ => ⟨S5000x96, .f32⟩
  | .local _ .vmem, ⟨36, _⟩ => ⟨S5000x96, .f32⟩
  | .local _ .vmem, ⟨37, _⟩ => ⟨S5000x96, .f32⟩
  | .local _ .vmem, ⟨38, _⟩ => ⟨S5000x96, .f32⟩
  | .local _ .vmem, ⟨39, _⟩ => ⟨S5000x96, .f32⟩
  | .local _ .vmem, ⟨40, _⟩ => ⟨S5000x96, .f32⟩
  | .local _ .vmem, ⟨41, _⟩ => ⟨S1x1, .f32⟩
  | .local _ .vmem, ⟨42, _⟩ => ⟨S96x96, .f32⟩
  | .local _ .vmem, ⟨43, _⟩ => ⟨S1x96, .f32⟩
  | .local _ .vmem, ⟨44, _⟩ => ⟨S96x96, .f32⟩
  | .local _ .vmem, ⟨45, _⟩ => ⟨S1x96, .f32⟩
  | .local _ .vmem, ⟨46, _⟩ => ⟨S1x96, .f32⟩
  | .local _ .vmem, ⟨47, _⟩ => ⟨S1x96, .f32⟩
  | .local _ .vmem, ⟨48, _⟩ => ⟨S1x96, .f32⟩
  | .local _ .vmem, ⟨49, _⟩ => ⟨S1x96, .f32⟩
  | .local _ .vmem, ⟨50, _⟩ => ⟨S5000x96, .f32⟩
  | .local _ .vmem, ⟨51, _⟩ => ⟨S5000x96, .f32⟩
  | .local _ .vmem, ⟨52, _⟩ => ⟨S5000x16, .f32⟩
  | .local _ .vmem, ⟨53, _⟩ => ⟨S5000x16, .f32⟩
  | .local _ .vmem, ⟨54, _⟩ => ⟨S5000x96, .f32⟩
  | .local _ .vmem, ⟨55, _⟩ => ⟨S5000x96, .f32⟩
  | .local _ .vmem, ⟨56, _⟩ => ⟨S16x96, .f32⟩
  | .local _ .vmem, ⟨57, _⟩ => ⟨S1x96, .f32⟩
  | .local _ .vmem, ⟨58, _⟩ => ⟨S96x96, .f32⟩
  | .local _ .vmem, ⟨59, _⟩ => ⟨S1x96, .f32⟩
  | .local _ .vmem, ⟨60, _⟩ => ⟨S5000x96, .f32⟩
  | .local _ .vmem, ⟨61, _⟩ => ⟨S5000x96, .f32⟩
  | .local _ .vmem, ⟨62, _⟩ => ⟨S5000x96, .f32⟩
  | .local _ .vmem, ⟨63, _⟩ => ⟨S5000x96, .f32⟩
  | .local _ .vmem, ⟨64, _⟩ => ⟨S5000x96, .f32⟩
  | .local _ .vmem, ⟨65, _⟩ => ⟨S5000x96, .f32⟩
  | .local _ .vmem, ⟨66, _⟩ => ⟨S1x1, .f32⟩
  | .local _ .vmem, ⟨67, _⟩ => ⟨S96x96, .f32⟩
  | .local _ .vmem, ⟨68, _⟩ => ⟨S1x96, .f32⟩
  | .local _ .vmem, ⟨69, _⟩ => ⟨S96x96, .f32⟩
  | .local _ .vmem, ⟨70, _⟩ => ⟨S1x96, .f32⟩
  | .local _ .vmem, ⟨71, _⟩ => ⟨S1x96, .f32⟩
  | .local _ .vmem, ⟨72, _⟩ => ⟨S1x96, .f32⟩
  | .local _ .vmem, ⟨73, _⟩ => ⟨S1x96, .f32⟩
  | .local _ .vmem, ⟨74, _⟩ => ⟨S1x96, .f32⟩
  | .local _ .vmem, ⟨75, _⟩ => ⟨S5000x96, .f32⟩
  | .local _ .vmem, ⟨76, _⟩ => ⟨S5000x96, .f32⟩
  | .local _ .vmem, ⟨77, _⟩ => ⟨S5000x96, .f32⟩
  | .local _ .vmem, ⟨78, _⟩ => ⟨S5000x96, .f32⟩
  | .local _ .vmem, ⟨79, _⟩ => ⟨S5000x96, .f32⟩
  | .local _ .vmem, ⟨80, _⟩ => ⟨S5000x96, .f32⟩
  | .local _ .vmem, ⟨81, _⟩ => ⟨S5000x96, .f32⟩
  | .local _ .vmem, ⟨82, _⟩ => ⟨S5000x96, .f32⟩
  | .local _ .vmem, ⟨83, _⟩ => ⟨S96x96, .f32⟩
  | .local _ .vmem, ⟨84, _⟩ => ⟨S96x96, .f32⟩
  | .local _ .vmem, ⟨85, _⟩ => ⟨S96x96, .f32⟩
  | .local _ .vmem, ⟨86, _⟩ => ⟨S1x96, .f32⟩
  | .local _ .vmem, ⟨87, _⟩ => ⟨S96x64, .f32⟩
  | .local _ .vmem, ⟨88, _⟩ => ⟨S1x64, .f32⟩
  | .local _ .vmem, ⟨89, _⟩ => ⟨S5000x64, .f32⟩
  | .local _ .vmem, ⟨90, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | _, _ => false

abbrev semScoped : Fin 0 → Bool
  | ⟨_, h⟩ => absurd h (Nat.not_lt_zero _)

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  ofTc nBuf bufTy 0 91 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_v4 : Ref sig .tc := ⟨.hbm, 32, rfl⟩
abbrev main_cst_0 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_1 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_call0_c : Ref sig .tc := ⟨.hbm, 41, rfl⟩
abbrev main_call0_v0 : Ref sig .tc := ⟨.hbm, 42, rfl⟩
abbrev main_call0_v1 : Ref sig .tc := ⟨.hbm, 43, rfl⟩
abbrev main_call0_c_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_c_1 : Ref sig .tc := ⟨.hbm, 49, rfl⟩
abbrev main_call0_c_2 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_3 : Ref sig .tc := ⟨.hbm, 57, rfl⟩
abbrev main_call0_v12 : Ref sig .tc := ⟨.hbm, 58, rfl⟩
abbrev main_call0_v13 : Ref sig .tc := ⟨.hbm, 59, rfl⟩
abbrev main_call0_cst : Ref sig .tc := ⟨.hbm, 60, rfl⟩
abbrev main_call0_v14 : Ref sig .tc := ⟨.hbm, 61, rfl⟩
abbrev main_v11 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_cst : Ref sig .tc := ⟨.hbm, 82, rfl⟩
abbrev main_call1_v14 : Ref sig .tc := ⟨.hbm, 83, rfl⟩
abbrev main_v12 : Ref sig .tc := ⟨.hbm, 84, rfl⟩
abbrev main_v13 : Ref sig .tc := ⟨.hbm, 85, rfl⟩
abbrev main_v14 : Ref sig .tc := ⟨.hbm, 86, rfl⟩
abbrev main_v15 : Ref sig .tc := ⟨.hbm, 87, rfl⟩
abbrev main_v16 : Ref sig .tc := ⟨.hbm, 88, rfl⟩
abbrev main_v17 : Ref sig .tc := ⟨.hbm, 89, rfl⟩
abbrev main_call2_c : Ref sig .tc := ⟨.hbm, 90, rfl⟩
abbrev main_call2_v0 : Ref sig .tc := ⟨.hbm, 91, rfl⟩
abbrev main_call2_v1 : Ref sig .tc := ⟨.hbm, 92, rfl⟩
abbrev main_call2_c_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_c_1 : Ref sig .tc := ⟨.hbm, 98, rfl⟩
abbrev main_call2_c_2 : Ref sig .tc := ⟨.hbm, 99, rfl⟩
abbrev main_call2_v6 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_c_3 : Ref sig .tc := ⟨.hbm, 106, rfl⟩
abbrev main_call2_v12 : Ref sig .tc := ⟨.hbm, 107, rfl⟩
abbrev main_call2_v13 : Ref sig .tc := ⟨.hbm, 108, rfl⟩
abbrev main_call2_v14 : Ref sig .tc := ⟨.hbm, 109, rfl⟩
abbrev main_call2_cst : Ref sig .tc := ⟨.hbm, 110, rfl⟩
abbrev main_call2_v15 : Ref sig .tc := ⟨.hbm, 111, rfl⟩
abbrev main_v18 : Ref sig .tc := ⟨.hbm, 112, rfl⟩
abbrev main_v19 : Ref sig .tc := ⟨.hbm, 113, rfl⟩
abbrev main_v20 : Ref sig .tc := ⟨.hbm, 114, rfl⟩
abbrev main_v21 : Ref sig .tc := ⟨.hbm, 115, rfl⟩
abbrev main_cst_2 : Ref sig .tc := ⟨.hbm, 116, rfl⟩
abbrev main_v22 : Ref sig .tc := ⟨.hbm, 117, rfl⟩
abbrev main_v23 : Ref sig .tc := ⟨.hbm, 118, rfl⟩
abbrev main_v24 : Ref sig .tc := ⟨.hbm, 119, rfl⟩
abbrev main_v25 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_v30 : Ref sig .tc := ⟨.hbm, 125, rfl⟩
abbrev main_v31 : Ref sig .tc := ⟨.hbm, 126, rfl⟩
abbrev main_v32 : Ref sig .tc := ⟨.hbm, 127, rfl⟩
abbrev main_v33 : Ref sig .tc := ⟨.hbm, 128, rfl⟩
abbrev main_v34 : Ref sig .tc := ⟨.hbm, 129, rfl⟩
abbrev main_v35 : Ref sig .tc := ⟨.hbm, 130, rfl⟩
abbrev main_v36 : Ref sig .tc := ⟨.hbm, 131, rfl⟩
abbrev main_v37 : Ref sig .tc := ⟨.hbm, 132, rfl⟩
abbrev main_v38 : Ref sig .tc := ⟨.hbm, 133, rfl⟩
abbrev main_v39 : Ref sig .tc := ⟨.hbm, 134, rfl⟩
abbrev main_call3_c : Ref sig .tc := ⟨.hbm, 135, rfl⟩
abbrev main_call3_v0 : Ref sig .tc := ⟨.hbm, 136, rfl⟩
abbrev main_call3_v1 : Ref sig .tc := ⟨.hbm, 137, rfl⟩
abbrev main_call3_c_0 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_v5 : Ref sig .tc := ⟨.hbm, 142, rfl⟩
abbrev main_call3_c_1 : Ref sig .tc := ⟨.hbm, 143, rfl⟩
abbrev main_call3_c_2 : Ref sig .tc := ⟨.hbm, 144, rfl⟩
abbrev main_call3_v6 : Ref sig .tc := ⟨.hbm, 145, rfl⟩
abbrev main_call3_v7 : Ref sig .tc := ⟨.hbm, 146, rfl⟩
abbrev main_call3_v8 : Ref sig .tc := ⟨.hbm, 147, rfl⟩
abbrev main_call3_v9 : Ref sig .tc := ⟨.hbm, 148, rfl⟩
abbrev main_call3_v10 : Ref sig .tc := ⟨.hbm, 149, rfl⟩
abbrev main_call3_v11 : Ref sig .tc := ⟨.hbm, 150, rfl⟩
abbrev main_call3_c_3 : Ref sig .tc := ⟨.hbm, 151, rfl⟩
abbrev main_call3_v12 : Ref sig .tc := ⟨.hbm, 152, rfl⟩
abbrev main_call3_v13 : Ref sig .tc := ⟨.hbm, 153, rfl⟩
abbrev main_call3_v14 : Ref sig .tc := ⟨.hbm, 154, rfl⟩
abbrev main_call3_cst : Ref sig .tc := ⟨.hbm, 155, rfl⟩
abbrev main_call3_v15 : Ref sig .tc := ⟨.hbm, 156, rfl⟩
abbrev main_v40 : Ref sig .tc := ⟨.hbm, 157, rfl⟩
abbrev main_v41 : Ref sig .tc := ⟨.hbm, 158, rfl⟩
abbrev main_v42 : Ref sig .tc := ⟨.hbm, 159, rfl⟩
abbrev main_v43 : Ref sig .tc := ⟨.hbm, 160, rfl⟩
abbrev main_v44 : Ref sig .tc := ⟨.hbm, 161, rfl⟩
abbrev main_v45 : Ref sig .tc := ⟨.hbm, 162, rfl⟩
abbrev main_v46 : Ref sig .tc := ⟨.hbm, 163, rfl⟩
abbrev main_v47 : Ref sig .tc := ⟨.hbm, 164, rfl⟩
abbrev main_v48 : Ref sig .tc := ⟨.hbm, 165, rfl⟩
abbrev main_v49 : Ref sig .tc := ⟨.hbm, 166, rfl⟩
abbrev main_v50 : Ref sig .tc := ⟨.hbm, 167, rfl⟩
abbrev main_v51 : Ref sig .tc := ⟨.hbm, 168, rfl⟩
abbrev main_cst_3 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_v57 : Ref sig .tc := ⟨.hbm, 175, rfl⟩
abbrev main_v58 : Ref sig .tc := ⟨.hbm, 176, rfl⟩
abbrev main_v59 : Ref sig .tc := ⟨.hbm, 177, rfl⟩
abbrev main_v60 : Ref sig .tc := ⟨.hbm, 178, rfl⟩
abbrev main_v61 : Ref sig .tc := ⟨.hbm, 179, rfl⟩
abbrev main_v62 : Ref sig .tc := ⟨.hbm, 180, rfl⟩
abbrev main_v63 : Ref sig .tc := ⟨.hbm, 181, rfl⟩
abbrev main_v64 : Ref sig .tc := ⟨.hbm, 182, rfl⟩
abbrev main_v65 : Ref sig .tc := ⟨.hbm, 183, rfl⟩
abbrev main_v66 : Ref sig .tc := ⟨.hbm, 184, rfl⟩
abbrev main_v67 : Ref sig .tc := ⟨.hbm, 185, rfl⟩
abbrev main_v68 : Ref sig .tc := ⟨.hbm, 186, rfl⟩
abbrev main_v69 : Ref sig .tc := ⟨.hbm, 187, rfl⟩
abbrev main_v70 : Ref sig .tc := ⟨.hbm, 188, rfl⟩
abbrev main_v71 : Ref sig .tc := ⟨.hbm, 189, rfl⟩
abbrev main_v72 : Ref sig .tc := ⟨.hbm, 190, rfl⟩
abbrev main_v73 : Ref sig .tc := ⟨.hbm, 191, rfl⟩
abbrev main_v74 : Ref sig .tc := ⟨.hbm, 192, rfl⟩
abbrev main_v75 : Ref sig .tc := ⟨.hbm, 193, rfl⟩
abbrev main_v76 : Ref sig .tc := ⟨.hbm, 194, rfl⟩
abbrev main_v77 : Ref sig .tc := ⟨.hbm, 195, rfl⟩
abbrev main_v78 : Ref sig .tc := ⟨.hbm, 196, rfl⟩
abbrev main_v79 : Ref sig .tc := ⟨.hbm, 197, rfl⟩
abbrev main_v80 : Ref sig .tc := ⟨.hbm, 198, rfl⟩
abbrev main_call4_c : Ref sig .tc := ⟨.hbm, 199, rfl⟩
abbrev main_call4_v0 : Ref sig .tc := ⟨.hbm, 200, rfl⟩
abbrev main_call4_v1 : Ref sig .tc := ⟨.hbm, 201, rfl⟩
abbrev main_call4_c_0 : Ref sig .tc := ⟨.hbm, 202, rfl⟩
abbrev main_call4_v2 : Ref sig .tc := ⟨.hbm, 203, rfl⟩
abbrev main_call4_v3 : Ref sig .tc := ⟨.hbm, 204, rfl⟩
abbrev main_call4_v4 : Ref sig .tc := ⟨.hbm, 205, rfl⟩
abbrev main_call4_v5 : Ref sig .tc := ⟨.hbm, 206, rfl⟩
abbrev main_call4_c_1 : Ref sig .tc := ⟨.hbm, 207, rfl⟩
abbrev main_call4_c_2 : Ref sig .tc := ⟨.hbm, 208, rfl⟩
abbrev main_call4_v6 : Ref sig .tc := ⟨.hbm, 209, rfl⟩
abbrev main_call4_v7 : Ref sig .tc := ⟨.hbm, 210, rfl⟩
abbrev main_call4_v8 : Ref sig .tc := ⟨.hbm, 211, rfl⟩
abbrev main_call4_v9 : Ref sig .tc := ⟨.hbm, 212, rfl⟩
abbrev main_call4_v10 : Ref sig .tc := ⟨.hbm, 213, rfl⟩
abbrev main_call4_v11 : Ref sig .tc := ⟨.hbm, 214, rfl⟩
abbrev main_call4_c_3 : Ref sig .tc := ⟨.hbm, 215, rfl⟩
abbrev main_call4_v12 : Ref sig .tc := ⟨.hbm, 216, rfl⟩
abbrev main_call4_v13 : Ref sig .tc := ⟨.hbm, 217, rfl⟩
abbrev main_call4_v14 : Ref sig .tc := ⟨.hbm, 218, rfl⟩
abbrev main_call4_cst : Ref sig .tc := ⟨.hbm, 219, rfl⟩
abbrev main_call4_v15 : Ref sig .tc := ⟨.hbm, 220, rfl⟩
abbrev main_v81 : Ref sig .tc := ⟨.hbm, 221, rfl⟩
abbrev main_v82 : Ref sig .tc := ⟨.hbm, 222, rfl⟩
abbrev main_v83 : Ref sig .tc := ⟨.hbm, 223, rfl⟩
abbrev main_v84 : Ref sig .tc := ⟨.hbm, 224, rfl⟩
abbrev main_v85 : Ref sig .tc := ⟨.hbm, 225, rfl⟩
abbrev main_v86 : Ref sig .tc := ⟨.hbm, 226, rfl⟩
abbrev main_v87 : Ref sig .tc := ⟨.hbm, 227, rfl⟩
abbrev main_v88 : Ref sig .tc := ⟨.hbm, 228, rfl⟩
abbrev main_v89 : Ref sig .tc := ⟨.hbm, 229, rfl⟩
abbrev main_v90 : Ref sig .tc := ⟨.hbm, 230, rfl⟩
abbrev main_v91 : Ref sig .tc := ⟨.hbm, 231, rfl⟩
abbrev main_v92 : Ref sig .tc := ⟨.hbm, 232, rfl⟩
abbrev main_cst_4 : Ref sig .tc := ⟨.hbm, 233, rfl⟩
abbrev main_v93 : Ref sig .tc := ⟨.hbm, 234, rfl⟩
abbrev main_v94 : Ref sig .tc := ⟨.hbm, 235, rfl⟩
abbrev main_v95 : Ref sig .tc := ⟨.hbm, 236, rfl⟩
abbrev main_v96 : Ref sig .tc := ⟨.hbm, 237, rfl⟩
abbrev main_v97 : Ref sig .tc := ⟨.hbm, 238, rfl⟩
abbrev main_v98 : Ref sig .tc := ⟨.hbm, 239, rfl⟩
abbrev main_v99 : Ref sig .tc := ⟨.hbm, 240, rfl⟩
abbrev main_v100 : Ref sig .tc := ⟨.hbm, 241, rfl⟩
abbrev main_v101 : Ref sig .tc := ⟨.hbm, 242, rfl⟩
abbrev main_v102 : Ref sig .tc := ⟨.hbm, 243, rfl⟩
abbrev main_v103 : Ref sig .tc := ⟨.hbm, 244, rfl⟩
abbrev main_v104 : Ref sig .tc := ⟨.hbm, 245, rfl⟩
abbrev main_v105 : Ref sig .tc := ⟨.hbm, 246, rfl⟩
abbrev main_v106 : Ref sig .tc := ⟨.hbm, 247, rfl⟩
abbrev main_v107 : Ref sig .tc := ⟨.hbm, 248, rfl⟩
abbrev main_v108 : Ref sig .tc := ⟨.hbm, 249, rfl⟩
abbrev main_v109 : Ref sig .tc := ⟨.hbm, 250, rfl⟩
abbrev main_v110 : Ref sig .tc := ⟨.hbm, 251, rfl⟩
abbrev main_v111 : Ref sig .tc := ⟨.hbm, 252, rfl⟩
abbrev main_v112 : Ref sig .tc := ⟨.hbm, 253, rfl⟩
abbrev main_v113 : Ref sig .tc := ⟨.hbm, 254, rfl⟩
abbrev main_v114 : Ref sig .tc := ⟨.hbm, 255, rfl⟩
abbrev main_v115 : Ref sig .tc := ⟨.hbm, 256, rfl⟩
abbrev main_v116 : Ref sig .tc := ⟨.hbm, 257, rfl⟩
abbrev main_v117 : Ref sig .tc := ⟨.hbm, 258, rfl⟩
abbrev main_v118 : Ref sig .tc := ⟨.hbm, 259, rfl⟩
abbrev main_v119 : Ref sig .tc := ⟨.hbm, 260, rfl⟩
abbrev main_v120 : Ref sig .tc := ⟨.hbm, 261, rfl⟩
abbrev main_v121 : Ref sig .tc := ⟨.hbm, 262, rfl⟩
abbrev main_v122 : Ref sig .tc := ⟨.hbm, 263, rfl⟩
abbrev main_v123 : Ref sig .tc := ⟨.hbm, 264, rfl⟩
abbrev main_v124 : Ref sig .tc := ⟨.hbm, 265, rfl⟩
abbrev main_v125 : Ref sig .tc := ⟨.hbm, 266, rfl⟩
abbrev main_v126 : Ref sig .tc := ⟨.hbm, 267, rfl⟩
abbrev main_v127 : Ref sig .tc := ⟨.hbm, 268, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg7_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg6_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg6_0 : Ref sig .tc := ⟨.vmem, 45, rfl⟩
abbrev cc4_stg7_0 : Ref sig .tc := ⟨.vmem, 46, rfl⟩
abbrev cc4_stg8_0 : Ref sig .tc := ⟨.vmem, 47, rfl⟩
abbrev cc4_stg9_0 : Ref sig .tc := ⟨.vmem, 48, rfl⟩
abbrev cc4_stg10_0 : Ref sig .tc := ⟨.vmem, 49, rfl⟩
abbrev cc4_stg11_0 : Ref sig .tc := ⟨.vmem, 50, rfl⟩
abbrev cc4_stg11_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg6_0 : Ref sig .tc := ⟨.vmem, 60, rfl⟩
abbrev cc5_stg6_1 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg1_1 : Ref sig .tc := ⟨.vmem, 65, rfl⟩
abbrev cc6_stg2_0 : Ref sig .tc := ⟨.vmem, 66, rfl⟩
abbrev cc6_stg3_0 : Ref sig .tc := ⟨.vmem, 67, rfl⟩
abbrev cc6_stg4_0 : Ref sig .tc := ⟨.vmem, 68, rfl⟩
abbrev cc6_stg5_0 : Ref sig .tc := ⟨.vmem, 69, rfl⟩
abbrev cc6_stg6_0 : Ref sig .tc := ⟨.vmem, 70, rfl⟩
abbrev cc6_stg7_0 : Ref sig .tc := ⟨.vmem, 71, rfl⟩
abbrev cc6_stg8_0 : Ref sig .tc := ⟨.vmem, 72, rfl⟩
abbrev cc6_stg9_0 : Ref sig .tc := ⟨.vmem, 73, rfl⟩
abbrev cc6_stg10_0 : Ref sig .tc := ⟨.vmem, 74, rfl⟩
abbrev cc6_stg11_0 : Ref sig .tc := ⟨.vmem, 75, rfl⟩
abbrev cc6_stg11_1 : Ref sig .tc := ⟨.vmem, 76, rfl⟩
abbrev cc7_stg0_0 : Ref sig .tc := ⟨.vmem, 77, rfl⟩
abbrev cc7_stg0_1 : Ref sig .tc := ⟨.vmem, 78, rfl⟩
abbrev cc7_stg1_0 : Ref sig .tc := ⟨.vmem, 79, rfl⟩
abbrev cc7_stg1_1 : Ref sig .tc := ⟨.vmem, 80, rfl⟩
abbrev cc7_stg2_0 : Ref sig .tc := ⟨.vmem, 81, rfl⟩
abbrev cc7_stg2_1 : Ref sig .tc := ⟨.vmem, 82, rfl⟩
abbrev cc7_stg3_0 : Ref sig .tc := ⟨.vmem, 83, rfl⟩
abbrev cc7_stg4_0 : Ref sig .tc := ⟨.vmem, 84, rfl⟩
abbrev cc7_stg5_0 : Ref sig .tc := ⟨.vmem, 85, rfl⟩
abbrev cc7_stg6_0 : Ref sig .tc := ⟨.vmem, 86, rfl⟩
abbrev cc7_stg7_0 : Ref sig .tc := ⟨.vmem, 87, rfl⟩
abbrev cc7_stg8_0 : Ref sig .tc := ⟨.vmem, 88, rfl⟩
abbrev cc7_stg9_0 : Ref sig .tc := ⟨.vmem, 89, rfl⟩
abbrev cc7_stg9_1 : Ref sig .tc := ⟨.vmem, 90, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem7_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem6_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem3_0 : DmaSem sig := 42
abbrev cc4_sem4_0 : DmaSem sig := 43
abbrev cc4_sem5_0 : DmaSem sig := 44
abbrev cc4_sem6_0 : DmaSem sig := 45
abbrev cc4_sem7_0 : DmaSem sig := 46
abbrev cc4_sem8_0 : DmaSem sig := 47
abbrev cc4_sem9_0 : DmaSem sig := 48
abbrev cc4_sem10_0 : DmaSem sig := 49
abbrev cc4_sem11_0 : DmaSem sig := 50
abbrev cc4_sem11_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem3_0 : DmaSem sig := 57
abbrev cc5_sem4_0 : DmaSem sig := 58
abbrev cc5_sem5_0 : DmaSem sig := 59
abbrev cc5_sem6_0 : DmaSem sig := 60
abbrev cc5_sem6_1 : DmaSem sig := 61
abbrev cc6_sem0_0 : DmaSem sig := 62
abbrev cc6_sem0_1 : DmaSem sig := 63
abbrev cc6_sem1_0 : DmaSem sig := 64
abbrev cc6_sem1_1 : DmaSem sig := 65
abbrev cc6_sem2_0 : DmaSem sig := 66
abbrev cc6_sem3_0 : DmaSem sig := 67
abbrev cc6_sem4_0 : DmaSem sig := 68
abbrev cc6_sem5_0 : DmaSem sig := 69
abbrev cc6_sem6_0 : DmaSem sig := 70
abbrev cc6_sem7_0 : DmaSem sig := 71
abbrev cc6_sem8_0 : DmaSem sig := 72
abbrev cc6_sem9_0 : DmaSem sig := 73
abbrev cc6_sem10_0 : DmaSem sig := 74
abbrev cc6_sem11_0 : DmaSem sig := 75
abbrev cc6_sem11_1 : DmaSem sig := 76
abbrev cc7_sem0_0 : DmaSem sig := 77
abbrev cc7_sem0_1 : DmaSem sig := 78
abbrev cc7_sem1_0 : DmaSem sig := 79
abbrev cc7_sem1_1 : DmaSem sig := 80
abbrev cc7_sem2_0 : DmaSem sig := 81
abbrev cc7_sem2_1 : DmaSem sig := 82
abbrev cc7_sem3_0 : DmaSem sig := 83
abbrev cc7_sem4_0 : DmaSem sig := 84
abbrev cc7_sem5_0 : DmaSem sig := 85
abbrev cc7_sem6_0 : DmaSem sig := 86
abbrev cc7_sem7_0 : DmaSem sig := 87
abbrev cc7_sem8_0 : DmaSem sig := 88
abbrev cc7_sem9_0 : DmaSem sig := 89
abbrev cc7_sem9_1 : DmaSem sig := 90

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x17 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x96 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x97 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x96 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x96 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x96 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![160], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S16x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S96x96 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x96 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x96 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x96 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S96x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x96 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S96x96 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x96 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x96 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x96 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x96 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x96 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S5000x96 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev grid5 : Pipeline.Grid := ⟨1, ![160], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x96 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S16x96 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x96 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S96x96 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x96 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x96 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x96 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x96 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S96x96 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x96 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S96x96 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x96 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x96 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x96 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x96 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x96 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 2 → Memref sig .tc .vmem S5000x96 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x96 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x96 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x96 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S96x96 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S96x96 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S96x96 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x96 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S96x64 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x64 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S5000x64 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  shapeCasts_S800000_S800000x1 : S800000.ShapeCasts S800000x1
  concatenates_S800000x16_S800000x1_S800000x17_d1 : Shape.Concatenates [S800000x16, S800000x1] S800000x17 1
  shapeCasts_S96_S1x96 : S96.ShapeCasts S1x96
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S5000x96_S5000x96_0_0 : ∀ a, (![0, 0] : Fin 2 → Nat) a + S5000x96.size a ≤ S5000x96.size a
  h_S5000x96 : 0 < S5000x96.numel
  bcast_S800000_S800000x96_0 : S800000.BroadcastsInDim S800000x96 (![0] : Fin 1 → Fin S800000x96.rank)
  bcast_S_S800000x96 : S_.BroadcastsInDim S800000x96 (![] : Fin 0 → Fin S800000x96.rank)
  inb_S5000x17_S5000x17_0_0 : ∀ a, (![0, 0] : Fin 2 → Nat) a + S5000x17.size a ≤ S5000x17.size a
  h_S5000x17 : 0 < S5000x17.numel
  shapeCasts_S5000x17_S5000x17 : S5000x17.ShapeCasts S5000x17
  slices_S5000x17_o0_0_S5000x16 : S5000x17.Slices ![0, 0] S5000x16
  slices_S5000x17_o0_16_S5000x1 : S5000x17.Slices ![0, 16] S5000x1
  inb_S16x96_S16x96_0_0 : ∀ a, (![0, 0] : Fin 2 → Nat) a + S16x96.size a ≤ S16x96.size a
  h_S16x96 : 0 < S16x96.numel
  inb_S96x96_S96x96_0_0 : ∀ a, (![0, 0] : Fin 2 → Nat) a + S96x96.size a ≤ S96x96.size a
  h_S96x96 : 0 < S96x96.numel
  shapeCasts_S5000x96_S5000x96 : S5000x96.ShapeCasts S5000x96
  broadcasts_S5000x1_S5000x96 : S5000x1.Broadcasts S5000x96
  bcast_S_S50000x96 : S_.BroadcastsInDim S50000x96 (![] : Fin 0 → Fin S50000x96.rank)
  slices_S3x96_S1x96_0_0 : S3x96.Slices ![0, 0] S1x96
  shapeCasts_S1x96_S96 : S1x96.ShapeCasts S96
  shapeCasts_S50000_S50000x1 : S50000.ShapeCasts S50000x1
  concatenates_S50000x96_S50000x1_S50000x97_d1 : Shape.Concatenates [S50000x96, S50000x1] S50000x97 1
  inb_S5000x97_S5000x97_0_0 : ∀ a, (![0, 0] : Fin 2 → Nat) a + S5000x97.size a ≤ S5000x97.size a
  h_S5000x97 : 0 < S5000x97.numel
  shapeCasts_S5000x97_S5000x97 : S5000x97.ShapeCasts S5000x97
  slices_S5000x97_o0_0_S5000x96 : S5000x97.Slices ![0, 0] S5000x96
  slices_S5000x97_o0_96_S5000x1 : S5000x97.Slices ![0, 96] S5000x1
  slices_S2x16x96_S1x16x96_0_0_0 : S2x16x96.Slices ![0, 0, 0] S1x16x96
  shapeCasts_S1x16x96_S16x96 : S1x16x96.ShapeCasts S16x96
  slices_S2x96_S1x96_0_0 : S2x96.Slices ![0, 0] S1x96
  slices_S2x96x96_S1x96x96_0_0_0 : S2x96x96.Slices ![0, 0, 0] S1x96x96
  shapeCasts_S1x96x96_S96x96 : S1x96x96.ShapeCasts S96x96
  inb_S5000x16_S5000x16_0_0 : ∀ a, (![0, 0] : Fin 2 → Nat) a + S5000x16.size a ≤ S5000x16.size a
  h_S5000x16 : 0 < S5000x16.numel
  shapeCasts_S16x96_S16x96 : S16x96.ShapeCasts S16x96
  shapeCasts_S96x96_S96x96 : S96x96.ShapeCasts S96x96
  slices_S2_S1_0 : S2.Slices ![0] S1
  shapeCasts_S1_S_ : S1.ShapeCasts S_
  slices_S3x96_S1x96_1_0 : S3x96.Slices ![1, 0] S1x96
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x96 : S1x1.Broadcasts S5000x96
  slices_S2x16x96_S1x16x96_1_0_0 : S2x16x96.Slices ![1, 0, 0] S1x16x96
  slices_S2x96_S1x96_1_0 : S2x96.Slices ![1, 0] S1x96
  slices_S2x96x96_S1x96x96_1_0_0 : S2x96x96.Slices ![1, 0, 0] S1x96x96
  slices_S2_S1_1 : S2.Slices ![1] S1
  slices_S3x96_S1x96_2_0 : S3x96.Slices ![2, 0] S1x96
  slices_S288x96_S96x96_0_0 : S288x96.Slices ![0, 0] S96x96
  slices_S288x96_S96x96_96_0 : S288x96.Slices ![96, 0] S96x96
  slices_S288x96_S96x96_192_0 : S288x96.Slices ![192, 0] S96x96
  shapeCasts_S64_S1x64 : S64.ShapeCasts S1x64
  inb_S96x64_S96x64_0_0 : ∀ a, (![0, 0] : Fin 2 → Nat) a + S96x64.size a ≤ S96x64.size a
  h_S96x64 : 0 < S96x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x96_S5000x96_1_0_0_1_n_n_wf : DotDims.WF S5000x128 S128x96 S5000x96 [1] [0] [0] [1] [] []
  gather_S50000x96_S800000x1_S800000x96_1_0_n_n_0_1_196_wf : GatherDims.WF S50000x96 S800000x1 S800000x96 [1] [0] [] [0] [] 1 ![1, 96]
  dot_S5000x16_S16x96_S5000x96_1_0_0_1_n_n_wf : DotDims.WF S5000x16 S16x96 S5000x96 [1] [0] [0] [1] [] []
  dot_S5000x96_S96x96_S5000x96_1_0_0_1_n_n_wf : DotDims.WF S5000x96 S96x96 S5000x96 [1] [0] [0] [1] [] []
  scatter_S50000x96_S800000x1_S800000x96_1_0_0_1_wf : ScatterDims.WF S50000x96 S800000x1 S800000x96 [1] [0] [0] 1
  dot_S5000x96_S96x64_S5000x64_1_0_0_1_n_n_wf : DotDims.WF S5000x96 S96x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x17.size a ≤ S800000x17.size a
  hwx1_0 : ∀ i : grid1.Coords, EltTy.bits .f32 = 32 ∨ (Rect.block (s := S800000x17) S5000x17.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S800000x96.size a
  hwx1_1 : ∀ i : grid1.Coords, EltTy.bits .f32 = 32 ∨ (Rect.block (s := S800000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x96.size a ≤ S16x96.size a
  hwx1_2 : ∀ i : grid1.Coords, EltTy.bits .f32 = 32 ∨ (Rect.block (s := S16x96) S16x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x96.size a ≤ S96x96.size a
  hwx1_4 : ∀ i : grid1.Coords, EltTy.bits .f32 = 32 ∨ (Rect.block (s := S96x96) S96x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x96.size a ≤ S1x96.size a
  hwx1_5 : ∀ i : grid1.Coords, EltTy.bits .f32 = 32 ∨ (Rect.block (s := S1x96) S1x96.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x96.size a ≤ S800000x96.size a
  hwx1_6 : ∀ i : grid1.Coords, EltTy.bits .f32 = 32 ∨ (Rect.block (s := S800000x96) S5000x96.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x97.size a ≤ S50000x97.size a
  hwx2_0 : ∀ i : grid2.Coords, EltTy.bits .f32 = 32 ∨ (Rect.block (s := S50000x97) S5000x97.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x96.size a ≤ S50000x96.size a
  hwx2_1 : ∀ i : grid2.Coords, EltTy.bits .f32 = 32 ∨ (Rect.block (s := S50000x96) S5000x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x96.size a ≤ S1x96.size a
  hwx2_4 : ∀ i : grid2.Coords, EltTy.bits .f32 = 32 ∨ (Rect.block (s := S1x96) S1x96.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x96.size a ≤ S1x96.size a
  hwx2_5 : ∀ i : grid2.Coords, EltTy.bits .f32 = 32 ∨ (Rect.block (s := S1x96) S1x96.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x96.size a ≤ S1x96.size a
  hwx2_6 : ∀ i : grid2.Coords, EltTy.bits .f32 = 32 ∨ (Rect.block (s := S1x96) S1x96.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x96.size a ≤ S50000x96.size a
  hwx2_7 : ∀ i : grid2.Coords, EltTy.bits .f32 = 32 ∨ (Rect.block (s := S50000x96) S5000x96.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S800000x16.size a
  hwx3_0 : ∀ i : grid3.Coords, EltTy.bits .f32 = 32 ∨ (Rect.block (s := S800000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x96.size a ≤ S800000x96.size a
  hwx3_1 : ∀ i : grid3.Coords, EltTy.bits .f32 = 32 ∨ (Rect.block (s := S800000x96) S5000x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x96.size a ≤ S16x96.size a
  hwx3_2 : ∀ i : grid3.Coords, EltTy.bits .f32 = 32 ∨ (Rect.block (s := S16x96) S16x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S96x96.size a ≤ S96x96.size a
  hwx3_4 : ∀ i : grid3.Coords, EltTy.bits .f32 = 32 ∨ (Rect.block (s := S96x96) S96x96.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x96.size a ≤ S1x96.size a
  hwx3_5 : ∀ i : grid3.Coords, EltTy.bits .f32 = 32 ∨ (Rect.block (s := S1x96) S1x96.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x96.size a ≤ S800000x96.size a
  hwx3_6 : ∀ i : grid3.Coords, EltTy.bits .f32 = 32 ∨ (Rect.block (s := S800000x96) S5000x96.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x96.size a ≤ S50000x96.size a
  hwx4_1 : ∀ i : grid4.Coords, EltTy.bits .f32 = 32 ∨ (Rect.block (s := S50000x96) S5000x96.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S96x96.size a ≤ S96x96.size a
  hwx4_3 : ∀ i : grid4.Coords, EltTy.bits .f32 = 32 ∨ (Rect.block (s := S96x96) S96x96.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x96.size a ≤ S1x96.size a
  hwx4_4 : ∀ i : grid4.Coords, EltTy.bits .f32 = 32 ∨ (Rect.block (s := S1x96) S1x96.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S96x96.size a ≤ S96x96.size a
  hwx4_5 : ∀ i : grid4.Coords, EltTy.bits .f32 = 32 ∨ (Rect.block (s := S96x96) S96x96.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x96.size a ≤ S1x96.size a
  hwx4_6 : ∀ i : grid4.Coords, EltTy.bits .f32 = 32 ∨ (Rect.block (s := S1x96) S1x96.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x96.size a ≤ S1x96.size a
  hwx4_7 : ∀ i : grid4.Coords, EltTy.bits .f32 = 32 ∨ (Rect.block (s := S1x96) S1x96.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x96.size a ≤ S1x96.size a
  hwx4_8 : ∀ i : grid4.Coords, EltTy.bits .f32 = 32 ∨ (Rect.block (s := S1x96) S1x96.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x96.size a ≤ S1x96.size a
  hwx4_9 : ∀ i : grid4.Coords, EltTy.bits .f32 = 32 ∨ (Rect.block (s := S1x96) S1x96.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x96.size a ≤ S1x96.size a
  hwx4_10 : ∀ i : grid4.Coords, EltTy.bits .f32 = 32 ∨ (Rect.block (s := S1x96) S1x96.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S5000x96.size a ≤ S50000x96.size a
  hwx4_11 : ∀ i : grid4.Coords, EltTy.bits .f32 = 32 ∨ (Rect.block (s := S50000x96) S5000x96.size (cc4_transform_11 i) (hinb4_11 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S800000x16.size a
  hwx5_0 : ∀ i : grid5.Coords, EltTy.bits .f32 = 32 ∨ (Rect.block (s := S800000x16) S5000x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x96.size a ≤ S800000x96.size a
  hwx5_1 : ∀ i : grid5.Coords, EltTy.bits .f32 = 32 ∨ (Rect.block (s := S800000x96) S5000x96.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S16x96.size a ≤ S16x96.size a
  hwx5_2 : ∀ i : grid5.Coords, EltTy.bits .f32 = 32 ∨ (Rect.block (s := S16x96) S16x96.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x96.size a ≤ S1x96.size a
  hwx5_3 : ∀ i : grid5.Coords, EltTy.bits .f32 = 32 ∨ (Rect.block (s := S1x96) S1x96.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S96x96.size a ≤ S96x96.size a
  hwx5_4 : ∀ i : grid5.Coords, EltTy.bits .f32 = 32 ∨ (Rect.block (s := S96x96) S96x96.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x96.size a ≤ S1x96.size a
  hwx5_5 : ∀ i : grid5.Coords, EltTy.bits .f32 = 32 ∨ (Rect.block (s := S1x96) S1x96.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x96.size a ≤ S800000x96.size a
  hwx5_6 : ∀ i : grid5.Coords, EltTy.bits .f32 = 32 ∨ (Rect.block (s := S800000x96) S5000x96.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x96.size a ≤ S50000x96.size a
  hwx6_0 : ∀ i : grid6.Coords, EltTy.bits .f32 = 32 ∨ (Rect.block (s := S50000x96) S5000x96.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x96.size a ≤ S50000x96.size a
  hwx6_1 : ∀ i : grid6.Coords, EltTy.bits .f32 = 32 ∨ (Rect.block (s := S50000x96) S5000x96.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S96x96.size a ≤ S96x96.size a
  hwx6_3 : ∀ i : grid6.Coords, EltTy.bits .f32 = 32 ∨ (Rect.block (s := S96x96) S96x96.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x96.size a ≤ S1x96.size a
  hwx6_4 : ∀ i : grid6.Coords, EltTy.bits .f32 = 32 ∨ (Rect.block (s := S1x96) S1x96.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S96x96.size a ≤ S96x96.size a
  hwx6_5 : ∀ i : grid6.Coords, EltTy.bits .f32 = 32 ∨ (Rect.block (s := S96x96) S96x96.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x96.size a ≤ S1x96.size a
  hwx6_6 : ∀ i : grid6.Coords, EltTy.bits .f32 = 32 ∨ (Rect.block (s := S1x96) S1x96.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x96.size a ≤ S1x96.size a
  hwx6_7 : ∀ i : grid6.Coords, EltTy.bits .f32 = 32 ∨ (Rect.block (s := S1x96) S1x96.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x96.size a ≤ S1x96.size a
  hwx6_8 : ∀ i : grid6.Coords, EltTy.bits .f32 = 32 ∨ (Rect.block (s := S1x96) S1x96.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x96.size a ≤ S1x96.size a
  hwx6_9 : ∀ i : grid6.Coords, EltTy.bits .f32 = 32 ∨ (Rect.block (s := S1x96) S1x96.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x96.size a ≤ S1x96.size a
  hwx6_10 : ∀ i : grid6.Coords, EltTy.bits .f32 = 32 ∨ (Rect.block (s := S1x96) S1x96.size (cc6_transform_10 i) (hinb6_10 i)).WholeWords (EltTy.packing .f32)
  hstage6_11 : ∀ j, (stage6_11 j).IsWhole
  nbuf6_11 : grid6.bufCount reads6_11 false = 2
  hreads6_11 : ∀ i i' : grid6.Coords, (∀ a, reads6_11 a = true → i a = i' a) → cc6_transform_11 i = cc6_transform_11 i'
  hinb6_11 : ∀ (i : grid6.Coords) a, (cc6_transform_11 i a + 1) * S5000x96.size a ≤ S50000x96.size a
  hwx6_11 : ∀ i : grid6.Coords, EltTy.bits .f32 = 32 ∨ (Rect.block (s := S50000x96) S5000x96.size (cc6_transform_11 i) (hinb6_11 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x96.size a ≤ S50000x96.size a
  hwx7_0 : ∀ i : grid7.Coords, EltTy.bits .f32 = 32 ∨ (Rect.block (s := S50000x96) S5000x96.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x96.size a ≤ S50000x96.size a
  hwx7_1 : ∀ i : grid7.Coords, EltTy.bits .f32 = 32 ∨ (Rect.block (s := S50000x96) S5000x96.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x96.size a ≤ S50000x96.size a
  hwx7_2 : ∀ i : grid7.Coords, EltTy.bits .f32 = 32 ∨ (Rect.block (s := S50000x96) S5000x96.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S96x96.size a ≤ S96x96.size a
  hwx7_3 : ∀ i : grid7.Coords, EltTy.bits .f32 = 32 ∨ (Rect.block (s := S96x96) S96x96.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S96x96.size a ≤ S96x96.size a
  hwx7_4 : ∀ i : grid7.Coords, EltTy.bits .f32 = 32 ∨ (Rect.block (s := S96x96) S96x96.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S96x96.size a ≤ S96x96.size a
  hwx7_5 : ∀ i : grid7.Coords, EltTy.bits .f32 = 32 ∨ (Rect.block (s := S96x96) S96x96.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x96.size a ≤ S1x96.size a
  hwx7_6 : ∀ i : grid7.Coords, EltTy.bits .f32 = 32 ∨ (Rect.block (s := S1x96) S1x96.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S96x64.size a ≤ S96x64.size a
  hwx7_7 : ∀ i : grid7.Coords, EltTy.bits .f32 = 32 ∨ (Rect.block (s := S96x64) S96x64.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x64.size a ≤ S1x64.size a
  hwx7_8 : ∀ i : grid7.Coords, EltTy.bits .f32 = 32 ∨ (Rect.block (s := S1x64) S1x64.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S5000x64.size a ≤ S50000x64.size a
  hwx7_9 : ∀ i : grid7.Coords, EltTy.bits .f32 = 32 ∨ (Rect.block (s := S50000x64) S5000x64.size (cc7_transform_9 i) (hinb7_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S5000x16_S16x96_S5000x96_1_0_0_1_n_n : DotDims S5000x16 S16x96 S5000x96 where
  lhsContracting := [1]
  rhsContracting := [0]
  lhsNonContracting := [0]
  rhsNonContracting := [1]
  lhsBatch := []
  rhsBatch := []
  wf := dot_S5000x16_S16x96_S5000x96_1_0_0_1_n_n_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S5000x17.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S96x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S5000x96.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v34) S5000x97.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S1x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S1x96.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38) S1x96.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v39) S5000x96.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg2) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S5000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S16x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S96x96.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S1x96.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v51) S5000x96.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v39) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S5000x96.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v73) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S96x96.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v74) S1x96.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v62) S96x96.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v75) S1x96.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v76) S1x96.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v77) S1x96.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v78) S1x96.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v79) S1x96.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v80) S5000x96.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

abbrev win5_0 : Pipeline.Window sig grid5 :=
  Pipeline.Window.ofSpec (Memref.whole main_arg2) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S5000x96.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v83) S16x96.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v90) S1x96.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v87) S96x96.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v91) S1x96.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v92) S5000x96.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v80) S5000x96.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v95) S5000x96.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v114) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v99) S96x96.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v115) S1x96.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v103) S96x96.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v116) S1x96.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v117) S1x96.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v118) S1x96.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v119) S1x96.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v120) S1x96.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v121) S5000x96.size cc6_transform_11 reads6_11 true false 2 stage6_11 sem6_11
    hrank6 hreads6_11 hinb6_11 nbuf6_11 (Memref.isWhole_whole _) hwx6_11 hstage6_11

abbrev win6 : Fin 12 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | ⟨_ + 12, h⟩ => absurd h (Nat.not_lt.2 (Nat.le_add_left _ _))
abbrev spec6 : Fin 12 → Pipeline.WinSpec sig grid6.rank := fun w => (win6 w).toWinSpec

abbrev win7_0 : Pipeline.Window sig grid7 :=
  Pipeline.Window.ofSpec (Memref.whole main_v39) S5000x96.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v80) S5000x96.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v121) S5000x96.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v122) S96x96.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v123) S96x96.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v124) S96x96.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v125) S1x96.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_arg25) S96x64.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v126) S1x64.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v127) S5000x64.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S128x96 : Shape := ⟨2, ![128, 96]⟩
abbrev S96 : Shape := ⟨1, ![96]⟩
abbrev S1x96 : Shape := ⟨2, ![1, 96]⟩
abbrev S16x96 : Shape := ⟨2, ![16, 96]⟩
abbrev S96x96 : Shape := ⟨2, ![96, 96]⟩
abbrev S2x16x96 : Shape := ⟨3, ![2, 16, 96]⟩
abbrev S2x96 : Shape := ⟨2, ![2, 96]⟩
abbrev S2x96x96 : Shape := ⟨3, ![2, 96, 96]⟩
abbrev S2 : Shape := ⟨1, ![2]⟩
abbrev S3x96 : Shape := ⟨2, ![3, 96]⟩
abbrev S288x96 : Shape := ⟨2, ![288, 96]⟩
abbrev S96x64 : Shape := ⟨2, ![96, 64]⟩
abbrev S64 : Shape := ⟨1, ![64]⟩
abbrev S1x800000 : Shape := ⟨2, ![1, 800000]⟩
abbrev S800000 : Shape := ⟨1, ![800000]⟩
abbrev S50000x96 : Shape := ⟨2, ![50000, 96]⟩
abbrev S800000x96 : Shape := ⟨2, ![800000, 96]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x16x96 : Shape := ⟨3, ![1, 16, 96]⟩
abbrev S1x96x96 : Shape := ⟨3, ![1, 96, 96]⟩
abbrev S1 : Shape := ⟨1, ![1]⟩
abbrev S50000x288 : Shape := ⟨2, ![50000, 288]⟩
abbrev S50000x64 : Shape := ⟨2, ![50000, 64]⟩
abbrev S1x64 : Shape := ⟨2, ![1, 64]⟩

abbrev nBuf : Space → Nat
  | .hbm => 321
  | .vmem => 0
  | .smem => 0
  | _ => 0

abbrev hbmTy0_0 (i : Nat) : BufTy := match i % 128 with
  | 0 => ⟨S50000x128, .f32⟩
  | 1 => ⟨S2x800000, .i32⟩
  | 2 => ⟨S800000x16, .f32⟩
  | 3 => ⟨S128x96, .f32⟩
  | 4 => ⟨S96, .f32⟩
  | 5 => ⟨S1x96, .f32⟩
  | 6 => ⟨S16x96, .f32⟩
  | 7 => ⟨S96, .f32⟩
  | 8 => ⟨S96x96, .f32⟩
  | 9 => ⟨S96, .f32⟩
  | 10 => ⟨S2x16x96, .f32⟩
  | 11 => ⟨S2x96, .f32⟩
  | 12 => ⟨S2x96x96, .f32⟩
  | 13 => ⟨S2x96, .f32⟩
  | 14 => ⟨S2x96x96, .f32⟩
  | 15 => ⟨S2x96, .f32⟩
  | 16 => ⟨S2x96x96, .f32⟩
  | 17 => ⟨S2x96, .f32⟩
  | 18 => ⟨S2, .f32⟩
  | 19 => ⟨S3x96, .f32⟩
  | 20 => ⟨S3x96, .f32⟩
  | 21 => ⟨S3x96, .f32⟩
  | 22 => ⟨S3x96, .f32⟩
  | 23 => ⟨S288x96, .f32⟩
  | 24 => ⟨S96, .f32⟩
  | 25 => ⟨S96x64, .f32⟩
  | 26 => ⟨S64, .f32⟩
  | 27 => ⟨S1x800000, .i32⟩
  | 28 => ⟨S800000, .i32⟩
  | 29 => ⟨S1x800000, .i32⟩
  | 30 => ⟨S800000, .i32⟩
  | 31 => ⟨S50000x96, .f32⟩
  | 32 => ⟨S1x96, .f32⟩
  | 33 => ⟨S50000x96, .f32⟩
  | 34 => ⟨S50000x96, .f32⟩
  | 35 => ⟨S800000x96, .f32⟩
  | 36 => ⟨S1x96, .f32⟩
  | 37 => ⟨S800000x96, .f32⟩
  | 38 => ⟨S800000x96, .f32⟩
  | 39 => ⟨S_, .f32⟩
  | 40 => ⟨S800000x96, .f32⟩
  | 41 => ⟨S800000x96, .f32⟩
  | 42 => ⟨S800000x96, .f32⟩
  | 43 => ⟨S1x96, .f32⟩
  | 44 => ⟨S800000x96, .f32⟩
  | 45 => ⟨S800000x96, .f32⟩
  | 46 => ⟨S_, .f32⟩
  | 47 => ⟨S800000, .f32⟩
  | 48 => ⟨S_, .f32⟩
  | 49 => ⟨S50000, .f32⟩
  | 50 => ⟨S800000x1, .i32⟩
  | 51 => ⟨S50000, .f32⟩
  | 52 => ⟨S_, .f32⟩
  | 53 => ⟨S50000, .f32⟩
  | 54 => ⟨S50000, .f32⟩
  | 55 => ⟨S50000, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000, .f32⟩
  | 74 => ⟨S800000, .f32⟩
  | 75 => ⟨S800000x1, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x96, .f32⟩
  | 85 => ⟨S800000x96, .f32⟩
  | 86 => ⟨S_, .f32⟩
  | 87 => ⟨S800000x96, .f32⟩
  | 88 => ⟨S800000x96, .f32⟩
  | 89 => ⟨S800000x96, .f32⟩
  | 90 => ⟨S800000x96, .f32⟩
  | 91 => ⟨S_, .f32⟩
  | 92 => ⟨S50000x96, .f32⟩
  | 93 => ⟨S800000x1, .i32⟩
  | 94 => ⟨S50000x96, .f32⟩
  | 95 => ⟨S50000x96, .f32⟩
  | 96 => ⟨S50000x96, .f32⟩
  | 97 => ⟨S_, .f32⟩
  | 98 => ⟨S50000x96, .f32⟩
  | 99 => ⟨S50000x96, .f32⟩
  | 100 => ⟨S50000x1, .f32⟩
  | 101 => ⟨S50000x96, .f32⟩
  | 102 => ⟨S50000x96, .f32⟩
  | 103 => ⟨S50000x96, .f32⟩
  | 104 => ⟨S_, .f32⟩
  | 105 => ⟨S50000x96, .f32⟩
  | 106 => ⟨S50000x96, .f32⟩
  | 107 => ⟨S1x96, .f32⟩
  | 108 => ⟨S96, .f32⟩
  | 109 => ⟨S1x96, .f32⟩
  | 110 => ⟨S96, .f32⟩
  | 111 => ⟨S1x96, .f32⟩
  | 112 => ⟨S96, .f32⟩
  | 113 => ⟨S1x96, .f32⟩
  | 114 => ⟨S96, .f32⟩
  | 115 => ⟨S1x96, .f32⟩
  | 116 => ⟨S50000x96, .f32⟩
  | 117 => ⟨S50000x96, .f32⟩
  | 118 => ⟨S_, .f32⟩
  | 119 => ⟨S96, .f32⟩
  | 120 => ⟨S96, .f32⟩
  | 121 => ⟨S96, .f32⟩
  | 122 => ⟨S1x96, .f32⟩
  | 123 => ⟨S50000x96, .f32⟩
  | 124 => ⟨S50000x96, .f32⟩
  | 125 => ⟨S1x96, .f32⟩
  | 126 => ⟨S50000x96, .f32⟩
  | 127 => ⟨S50000x96, .f32⟩
  | _ => ⟨S50000x128, .f32⟩

abbrev hbmTy0_1 (i : Nat) : BufTy := match i % 128 with
  | 0 => ⟨S1x96, .f32⟩
  | 1 => ⟨S50000x96, .f32⟩
  | 2 => ⟨S50000x96, .f32⟩
  | 3 => ⟨S1x16x96, .f32⟩
  | 4 => ⟨S16x96, .f32⟩
  | 5 => ⟨S800000x96, .f32⟩
  | 6 => ⟨S1x96, .f32⟩
  | 7 => ⟨S96, .f32⟩
  | 8 => ⟨S1x96, .f32⟩
  | 9 => ⟨S800000x96, .f32⟩
  | 10 => ⟨S800000x96, .f32⟩
  | 11 => ⟨S_, .f32⟩
  | 12 => ⟨S800000x96, .f32⟩
  | 13 => ⟨S800000x96, .f32⟩
  | 14 => ⟨S1x96x96, .f32⟩
  | 15 => ⟨S96x96, .f32⟩
  | 16 => ⟨S800000x96, .f32⟩
  | 17 => ⟨S1x96, .f32⟩
  | 18 => ⟨S96, .f32⟩
  | 19 => ⟨S1x96, .f32⟩
  | 20 => ⟨S800000x96, .f32⟩
  | 21 => ⟨S800000x96, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x96, .f32⟩
  | 31 => ⟨S800000x96, .f32⟩
  | 32 => ⟨S_, .f32⟩
  | 33 => ⟨S800000x96, .f32⟩
  | 34 => ⟨S800000x96, .f32⟩
  | 35 => ⟨S_, .f32⟩
  | 36 => ⟨S50000x96, .f32⟩
  | 37 => ⟨S800000x1, .i32⟩
  | 38 => ⟨S50000x96, .f32⟩
  | 39 => ⟨S1, .f32⟩
  | 40 => ⟨S_, .f32⟩
  | 41 => ⟨S_, .f32⟩
  | 42 => ⟨S_, .f32⟩
  | 43 => ⟨S50000x96, .f32⟩
  | 44 => ⟨S50000x96, .f32⟩
  | 45 => ⟨S50000x96, .f32⟩
  | 46 => ⟨S1x96x96, .f32⟩
  | 47 => ⟨S96x96, .f32⟩
  | 48 => ⟨S50000x96, .f32⟩
  | 49 => ⟨S1x96, .f32⟩
  | 50 => ⟨S96, .f32⟩
  | 51 => ⟨S1x96, .f32⟩
  | 52 => ⟨S50000x96, .f32⟩
  | 53 => ⟨S50000x96, .f32⟩
  | 54 => ⟨S_, .f32⟩
  | 55 => ⟨S50000x96, .f32⟩
  | 56 => ⟨S50000x96, .f32⟩
  | 57 => ⟨S1x96x96, .f32⟩
  | 58 => ⟨S96x96, .f32⟩
  | 59 => ⟨S50000x96, .f32⟩
  | 60 => ⟨S1x96, .f32⟩
  | 61 => ⟨S96, .f32⟩
  | 62 => ⟨S1x96, .f32⟩
  | 63 => ⟨S50000x96, .f32⟩
  | 64 => ⟨S50000x96, .f32⟩
  | 65 => ⟨S_, .f32⟩
  | 66 => ⟨S50000x96, .f32⟩
  | 67 => ⟨S50000x96, .f32⟩
  | 68 => ⟨S1x96, .f32⟩
  | 69 => ⟨S96, .f32⟩
  | 70 => ⟨S1x96, .f32⟩
  | 71 => ⟨S96, .f32⟩
  | 72 => ⟨S1x96, .f32⟩
  | 73 => ⟨S96, .f32⟩
  | 74 => ⟨S1x96, .f32⟩
  | 75 => ⟨S96, .f32⟩
  | 76 => ⟨S1x96, .f32⟩
  | 77 => ⟨S50000x96, .f32⟩
  | 78 => ⟨S50000x96, .f32⟩
  | 79 => ⟨S_, .f32⟩
  | 80 => ⟨S96, .f32⟩
  | 81 => ⟨S96, .f32⟩
  | 82 => ⟨S96, .f32⟩
  | 83 => ⟨S1x96, .f32⟩
  | 84 => ⟨S50000x96, .f32⟩
  | 85 => ⟨S50000x96, .f32⟩
  | 86 => ⟨S1x96, .f32⟩
  | 87 => ⟨S50000x96, .f32⟩
  | 88 => ⟨S50000x96, .f32⟩
  | 89 => ⟨S1x96, .f32⟩
  | 90 => ⟨S50000x96, .f32⟩
  | 91 => ⟨S50000x96, .f32⟩
  | 92 => ⟨S1x16x96, .f32⟩
  | 93 => ⟨S16x96, .f32⟩
  | 94 => ⟨S800000x96, .f32⟩
  | 95 => ⟨S1x96, .f32⟩
  | 96 => ⟨S96, .f32⟩
  | 97 => ⟨S1x96, .f32⟩
  | 98 => ⟨S800000x96, .f32⟩
  | 99 => ⟨S800000x96, .f32⟩
  | 100 => ⟨S_, .f32⟩
  | 101 => ⟨S800000x96, .f32⟩
  | 102 => ⟨S800000x96, .f32⟩
  | 103 => ⟨S1x96x96, .f32⟩
  | 104 => ⟨S96x96, .f32⟩
  | 105 => ⟨S800000x96, .f32⟩
  | 106 => ⟨S1x96, .f32⟩
  | 107 => ⟨S96, .f32⟩
  | 108 => ⟨S1x96, .f32⟩
  | 109 => ⟨S800000x96, .f32⟩
  | 110 => ⟨S800000x96, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x96, .f32⟩
  | 120 => ⟨S800000x96, .f32⟩
  | 121 => ⟨S_, .f32⟩
  | 122 => ⟨S800000x96, .f32⟩
  | 123 => ⟨S800000x96, .f32⟩
  | 124 => ⟨S_, .f32⟩
  | 125 => ⟨S50000x96, .f32⟩
  | 126 => ⟨S800000x1, .i32⟩
  | 127 => ⟨S50000x96, .f32⟩
  | _ => ⟨S50000x128, .f32⟩

abbrev hbmTy0_2 (i : Nat) : BufTy := match i % 128 with
  | 0 => ⟨S1, .f32⟩
  | 1 => ⟨S_, .f32⟩
  | 2 => ⟨S_, .f32⟩
  | 3 => ⟨S_, .f32⟩
  | 4 => ⟨S50000x96, .f32⟩
  | 5 => ⟨S50000x96, .f32⟩
  | 6 => ⟨S50000x96, .f32⟩
  | 7 => ⟨S1x96x96, .f32⟩
  | 8 => ⟨S96x96, .f32⟩
  | 9 => ⟨S50000x96, .f32⟩
  | 10 => ⟨S1x96, .f32⟩
  | 11 => ⟨S96, .f32⟩
  | 12 => ⟨S1x96, .f32⟩
  | 13 => ⟨S50000x96, .f32⟩
  | 14 => ⟨S50000x96, .f32⟩
  | 15 => ⟨S_, .f32⟩
  | 16 => ⟨S50000x96, .f32⟩
  | 17 => ⟨S50000x96, .f32⟩
  | 18 => ⟨S1x96x96, .f32⟩
  | 19 => ⟨S96x96, .f32⟩
  | 20 => ⟨S50000x96, .f32⟩
  | 21 => ⟨S1x96, .f32⟩
  | 22 => ⟨S96, .f32⟩
  | 23 => ⟨S1x96, .f32⟩
  | 24 => ⟨S50000x96, .f32⟩
  | 25 => ⟨S50000x96, .f32⟩
  | 26 => ⟨S_, .f32⟩
  | 27 => ⟨S50000x96, .f32⟩
  | 28 => ⟨S50000x96, .f32⟩
  | 29 => ⟨S1x96, .f32⟩
  | 30 => ⟨S96, .f32⟩
  | 31 => ⟨S1x96, .f32⟩
  | 32 => ⟨S96, .f32⟩
  | 33 => ⟨S1x96, .f32⟩
  | 34 => ⟨S96, .f32⟩
  | 35 => ⟨S1x96, .f32⟩
  | 36 => ⟨S96, .f32⟩
  | 37 => ⟨S1x96, .f32⟩
  | 38 => ⟨S50000x96, .f32⟩
  | 39 => ⟨S50000x96, .f32⟩
  | 40 => ⟨S_, .f32⟩
  | 41 => ⟨S96, .f32⟩
  | 42 => ⟨S96, .f32⟩
  | 43 => ⟨S96, .f32⟩
  | 44 => ⟨S1x96, .f32⟩
  | 45 => ⟨S50000x96, .f32⟩
  | 46 => ⟨S50000x96, .f32⟩
  | 47 => ⟨S1x96, .f32⟩
  | 48 => ⟨S50000x96, .f32⟩
  | 49 => ⟨S50000x96, .f32⟩
  | 50 => ⟨S1x96, .f32⟩
  | 51 => ⟨S50000x96, .f32⟩
  | 52 => ⟨S50000x96, .f32⟩
  | 53 => ⟨S50000x288, .f32⟩
  | 54 => ⟨S50000x96, .f32⟩
  | 55 => ⟨S1x96, .f32⟩
  | 56 => ⟨S50000x96, .f32⟩
  | 57 => ⟨S50000x96, .f32⟩
  | 58 => ⟨S_, .f32⟩
  | 59 => ⟨S50000x96, .f32⟩
  | 60 => ⟨S50000x96, .f32⟩
  | 61 => ⟨S50000x64, .f32⟩
  | 62 => ⟨S1x64, .f32⟩
  | 63 => ⟨S50000x64, .f32⟩
  | 64 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_call0_cst : Ref sig .tc := ⟨.hbm, 39, rfl⟩
abbrev main_call0_v0 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst : Ref sig .tc := ⟨.hbm, 46, rfl⟩
abbrev main_v17 : Ref sig .tc := ⟨.hbm, 47, rfl⟩
abbrev main_cst_0 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_1 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c : Ref sig .tc := ⟨.hbm, 56, rfl⟩
abbrev main_v24 : Ref sig .tc := ⟨.hbm, 57, rfl⟩
abbrev main_v25 : Ref sig .tc := ⟨.hbm, 58, rfl⟩
abbrev main_c_2 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_c_3 : Ref sig .tc := ⟨.hbm, 65, rfl⟩
abbrev main_v31 : Ref sig .tc := ⟨.hbm, 66, rfl⟩
abbrev main_v32 : Ref sig .tc := ⟨.hbm, 67, rfl⟩
abbrev main_c_4 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c_5 : Ref sig .tc := ⟨.hbm, 76, rfl⟩
abbrev main_v40 : Ref sig .tc := ⟨.hbm, 77, rfl⟩
abbrev main_v41 : Ref sig .tc := ⟨.hbm, 78, rfl⟩
abbrev main_c_6 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_call1_cst : Ref sig .tc := ⟨.hbm, 86, rfl⟩
abbrev main_call1_v0 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_7 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_call2_cst : Ref sig .tc := ⟨.hbm, 97, rfl⟩
abbrev main_call2_v0 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_call3_cst : Ref sig .tc := ⟨.hbm, 104, rfl⟩
abbrev main_call3_v0 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_8 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_call4_cst : Ref sig .tc := ⟨.hbm, 139, rfl⟩
abbrev main_call4_v0 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_c_9 : Ref sig .tc := ⟨.hbm, 150, rfl⟩
abbrev main_v102 : Ref sig .tc := ⟨.hbm, 151, rfl⟩
abbrev main_v103 : Ref sig .tc := ⟨.hbm, 152, rfl⟩
abbrev main_c_10 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_call5_cst : Ref sig .tc := ⟨.hbm, 160, rfl⟩
abbrev main_call5_v0 : Ref sig .tc := ⟨.hbm, 161, rfl⟩
abbrev main_v110 : Ref sig .tc := ⟨.hbm, 162, rfl⟩
abbrev main_cst_11 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_12 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_call6_cst : Ref sig .tc := ⟨.hbm, 182, rfl⟩
abbrev main_call6_v0 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_call7_cst : Ref sig .tc := ⟨.hbm, 193, rfl⟩
abbrev main_call7_v0 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_cst_13 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_call8_cst : Ref sig .tc := ⟨.hbm, 228, rfl⟩
abbrev main_call8_v0 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_c_14 : Ref sig .tc := ⟨.hbm, 239, rfl⟩
abbrev main_v178 : Ref sig .tc := ⟨.hbm, 240, rfl⟩
abbrev main_v179 : Ref sig .tc := ⟨.hbm, 241, rfl⟩
abbrev main_c_15 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_call9_cst : Ref sig .tc := ⟨.hbm, 249, rfl⟩
abbrev main_call9_v0 : Ref sig .tc := ⟨.hbm, 250, rfl⟩
abbrev main_v186 : Ref sig .tc := ⟨.hbm, 251, rfl⟩
abbrev main_cst_16 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_cst_17 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_call10_cst : Ref sig .tc := ⟨.hbm, 271, rfl⟩
abbrev main_call10_v0 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_call11_cst : Ref sig .tc := ⟨.hbm, 282, rfl⟩
abbrev main_call11_v0 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_cst_18 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_call12_cst : Ref sig .tc := ⟨.hbm, 314, rfl⟩
abbrev main_call12_v0 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_v246 : Ref sig .tc := ⟨.hbm, 320, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S1x96_S800000x96_0_1 : S1x96.BroadcastsInDim S800000x96 (![0, 1] : Fin 2 → Fin S800000x96.rank)
  bcast_S_S800000x96 : S_.BroadcastsInDim S800000x96 (![] : Fin 0 → Fin S800000x96.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  slices_S3x96_S1x96_0_0 : S3x96.Slices ![0, 0] S1x96
  shapeCasts_S1x96_S96 : S1x96.ShapeCasts S96
  bcast_S_S96 : S_.BroadcastsInDim S96 (![] : Fin 0 → Fin S96.rank)
  slices_S2x16x96_S1x16x96_0_0_0 : S2x16x96.Slices ![0, 0, 0] S1x16x96
  shapeCasts_S1x16x96_S16x96 : S1x16x96.ShapeCasts S16x96
  slices_S2x96_S1x96_0_0 : S2x96.Slices ![0, 0] S1x96
  slices_S2x96x96_S1x96x96_0_0_0 : S2x96x96.Slices ![0, 0, 0] S1x96x96
  shapeCasts_S1x96x96_S96x96 : S1x96x96.ShapeCasts S96x96
  slices_S2_S1_0 : S2.Slices ![0] S1
  shapeCasts_S1_S_ : S1.ShapeCasts S_
  slices_S3x96_S1x96_1_0 : S3x96.Slices ![1, 0] S1x96
  slices_S2x16x96_S1x16x96_1_0_0 : S2x16x96.Slices ![1, 0, 0] S1x16x96
  slices_S2x96_S1x96_1_0 : S2x96.Slices ![1, 0] S1x96
  slices_S2x96x96_S1x96x96_1_0_0 : S2x96x96.Slices ![1, 0, 0] S1x96x96
  slices_S2_S1_1 : S2.Slices ![1] S1
  slices_S3x96_S1x96_2_0 : S3x96.Slices ![2, 0] S1x96
  concatenates_S50000x96_S50000x96_S50000x96_S50000x288_d1 : Shape.Concatenates [S50000x96, S50000x96, S50000x96] S50000x288 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x96_S50000x96_1_0_0_1_n_n_wf : DotDims.WF S50000x128 S128x96 S50000x96 [1] [0] [0] [1] [] []
  dot_S800000x16_S16x96_S800000x96_1_0_0_1_n_n_wf : DotDims.WF S800000x16 S16x96 S800000x96 [1] [0] [0] [1] [] []
  dot_S800000x96_S96x96_S800000x96_1_0_0_1_n_n_wf : DotDims.WF S800000x96 S96x96 S800000x96 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S50000x288_S288x96_S50000x96_1_0_0_1_n_n_wf : DotDims.WF S50000x288 S288x96 S50000x96 [1] [0] [0] [1] [] []
  dot_S50000x96_S96x64_S50000x64_1_0_0_1_n_n_wf : DotDims.WF S50000x96 S96x64 S50000x64 [1] [0] [0] [1] [] []

variable [Facts₀]

def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def dot_S800000x16_S16x96_S800000x96_1_0_0_1_n_n : DotDims S800000x16 S16x96 S800000x96 where
  lhsContracting := [1]
  rhsContracting := [0]
  lhsNonContracting := [0]
  rhsNonContracting := [1]
  lhsBatch := []
  rhsBatch := []
  wf := dot_S800000x16_S16x96_S800000x96_1_0_0_1_n_n_wf
def dot_S800000x96_S96x96_S800000x96_1_0_0_1_n_n : DotDims S800000x96 S96x96 S800000x96 where
  lhsContracting := [1]
  rhsContracting := [0]
  lhsNonContracting := [0]
  rhsNonContracting := [1]
  lhsBatch := []
  rhsBatch := []
  wf := dot_S800000x96_S96x96_S800000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x288_S288x96_S50000x96_1_0_0_1_n_n : DotDims S50000x288 S288x96 S50000x96 where
  lhsContracting := [1]
  rhsContracting := [0]
  lhsNonContracting := [0]
  rhsNonContracting := [1]
  lhsBatch := []
  rhsBatch := []
  wf := dot_S50000x288_S288x96_S50000x96_1_0_0_1_n_n_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf

class Facts : Prop extends Facts₀ where

variable [Facts]
-- ==== Proof.RefRunOps.lean ====
/- The reference's @main as a line of 294 operations in six consecutive pieces. -/
import proofs.«400244_j19808389169615_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg3 main_v4 ((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F)),
    unary main_arg4 main_v5 (broadcastInDim S1x96 ![1] bcast_S96_S1x96_1 : (⟨S96, .f32⟩ : BufTy).Contents (Elt F) → (⟨S1x96, .f32⟩ : BufTy).Contents (Elt F)),
    unary main_v5 main_v6 (broadcastInDim S50000x96 ![0, 1] bcast_S1x96_S50000x96_0_1 : (⟨S1x96, .f32⟩ : BufTy).Contents (Elt F) → (⟨S50000x96, .f32⟩ : BufTy).Contents (Elt F)),
    binary main_v4 main_v6 main_v7 (addf : (⟨S50000x96, .f32⟩ : BufTy).Contents (Elt F) → (⟨S50000x96, .f32⟩ : BufTy).Contents (Elt F) → (⟨S50000x96, .f32⟩ : BufTy).Contents (Elt F)),
    binary main_arg2 main_arg6 main_v8 ((fun l r => Host.dotGeneral dot_S800000x16_S16x96_S800000x96_1_0_0_1_n_n none l r) : (⟨S800000x16, .f32⟩ : BufTy).Contents (Elt F) → (⟨S16x96, .f32⟩ : BufTy).Contents (Elt F) → (⟨S800000x96, .f32⟩ : BufTy).Contents (Elt F)),
    unary main_arg7 main_v9 (broadcastInDim S1x96 ![1] bcast_S96_S1x96_1 : (⟨S96, .f32⟩ : BufTy).Contents (Elt F) → (⟨S1x96, .f32⟩ : BufTy).Contents (Elt F)),
    unary main_v9 main_v10 (broadcastInDim S800000x96 ![0, 1] bcast_S1x96_S800000x96_0_1 : (⟨S1x96, .f32⟩ : BufTy).Contents (Elt F) → (⟨S800000x96, .f32⟩ : BufTy).Contents (Elt F)),
    binary main_v8 main_v10 main_v11 (addf : (⟨S800000x96, .f32⟩ : BufTy).Contents (Elt F) → (⟨S800000x96, .f32⟩ : BufTy).Contents (Elt F) → (⟨S800000x96, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x96, .f32⟩) main_call0_v0) (broadcastInDim S800000x96 ![] bcast_S_S800000x96),
    TRef.binary (TRef.of (T := ⟨S800000x96, .f32⟩) main_v11) (TRef.of (T := ⟨S800000x96, .f32⟩) main_call0_v0) (TRef.of (T := ⟨S800000x96, .f32⟩) main_v12) maximumf,
    binary main_v12 main_arg8 main_v13 ((fun l r => Host.dotGeneral dot_S800000x96_S96x96_S800000x96_1_0_0_1_n_n none l r) : (⟨S800000x96, .f32⟩ : BufTy).Contents (Elt F) → (⟨S96x96, .f32⟩ : BufTy).Contents (Elt F) → (⟨S800000x96, .f32⟩ : BufTy).Contents (Elt F)),
    unary main_arg9 main_v14 (broadcastInDim S1x96 ![1] bcast_S96_S1x96_1 : (⟨S96, .f32⟩ : BufTy).Contents (Elt F) → (⟨S1x96, .f32⟩ : BufTy).Contents (Elt F)),
    unary main_v14 main_v15 (broadcastInDim S800000x96 ![0, 1] bcast_S1x96_S800000x96_0_1 : (⟨S1x96, .f32⟩ : BufTy).Contents (Elt F) → (⟨S800000x96, .f32⟩ : BufTy).Contents (Elt F)),
    binary main_v13 main_v15 main_v16 (addf : (⟨S800000x96, .f32⟩ : BufTy).Contents (Elt F) → (⟨S800000x96, .f32⟩ : BufTy).Contents (Elt F) → (⟨S800000x96, .f32⟩ : BufTy).Contents (Elt F)),
    nullary main_cst (constant S_ .f32 0x3F800000#32),
    unary main_cst main_v17 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v18 (broadcastInDim S50000 ![] bcast_S_S50000 : (⟨S_, .f32⟩ : BufTy).Contents (Elt F) → (⟨S50000, .f32⟩ : BufTy).Contents (Elt F)),
    unary main_v1 main_v19 (broadcastInDim S800000x1 ![0] bcast_S800000_S800000x1_0 : (⟨S800000, .i32⟩ : BufTy).Contents (Elt F) → (⟨S800000x1, .i32⟩ : BufTy).Contents (Elt F)),
    ternary main_v18 main_v19 main_v17 main_v20 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v21 (broadcastInDim S50000 ![] bcast_S_S50000 : (⟨S_, .f32⟩ : BufTy).Contents (Elt F) → (⟨S50000, .f32⟩ : BufTy).Contents (Elt F)),
    binary main_v20 main_v21 main_v22 (addf : (⟨S50000, .f32⟩ : BufTy).Contents (Elt F) → (⟨S50000, .f32⟩ : BufTy).Contents (Elt F) → (⟨S50000, .f32⟩ : BufTy).Contents (Elt F)),
    unary main_v22 main_v23 (Host.rsqrt : (⟨S50000, .f32⟩ : BufTy).Contents (Elt F) → (⟨S50000, .f32⟩ : BufTy).Contents (Elt F)),
    nullary main_c (constantI S_ 32 0#32),
    unary main_c main_v24 (broadcastInDim S800000 ![] bcast_S_S800000 : (⟨S_, .i32⟩ : BufTy).Contents (Elt F) → (⟨S800000, .i32⟩ : BufTy).Contents (Elt F)),
    binary main_v1 main_v24 main_v25 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v26 (broadcastInDim S800000 ![] bcast_S_S800000 : (⟨S_, .i32⟩ : BufTy).Contents (Elt F) → (⟨S800000, .i32⟩ : BufTy).Contents (Elt F)),
    binary main_v1 main_v26 main_v27 (addi : (⟨S800000, .i32⟩ : BufTy).Contents (Elt F) → (⟨S800000, .i32⟩ : BufTy).Contents (Elt F) → (⟨S800000, .i32⟩ : BufTy).Contents (Elt F)),
    ternary main_v25 main_v27 main_v1 main_v28 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v28 main_v29 (broadcastInDim S800000x1 ![0] bcast_S800000_S800000x1_0 : (⟨S800000, .i32⟩ : BufTy).Contents (Elt F) → (⟨S800000x1, .i32⟩ : BufTy).Contents (Elt F)),
    binary main_v23 main_v29 main_v30 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v31 (broadcastInDim S800000 ![] bcast_S_S800000 : (⟨S_, .i32⟩ : BufTy).Contents (Elt F) → (⟨S800000, .i32⟩ : BufTy).Contents (Elt F)),
    binary main_v3 main_v31 main_v32 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v33 (broadcastInDim S800000 ![] bcast_S_S800000 : (⟨S_, .i32⟩ : BufTy).Contents (Elt F) → (⟨S800000, .i32⟩ : BufTy).Contents (Elt F)),
    binary main_v3 main_v33 main_v34 (addi : (⟨S800000, .i32⟩ : BufTy).Contents (Elt F) → (⟨S800000, .i32⟩ : BufTy).Contents (Elt F) → (⟨S800000, .i32⟩ : BufTy).Contents (Elt F)),
    ternary main_v32 main_v34 main_v3 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v35 main_v36 (broadcastInDim S800000x1 ![0] bcast_S800000_S800000x1_0 : (⟨S800000, .i32⟩ : BufTy).Contents (Elt F) → (⟨S800000x1, .i32⟩ : BufTy).Contents (Elt F)),
    binary main_v23 main_v36 main_v37 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v30 main_v37 main_v38 (mulf : (⟨S800000, .f32⟩ : BufTy).Contents (Elt F) → (⟨S800000, .f32⟩ : BufTy).Contents (Elt F) → (⟨S800000, .f32⟩ : BufTy).Contents (Elt F)),
    unary main_v38 main_v39 (broadcastInDim S800000x1 ![0] bcast_S800000_S800000x1_0 : (⟨S800000, .f32⟩ : BufTy).Contents (Elt F) → (⟨S800000x1, .f32⟩ : BufTy).Contents (Elt F)),
    nullary main_c_5 (constantI S_ 32 0#32),
    unary main_c_5 main_v40 (broadcastInDim S800000 ![] bcast_S_S800000 : (⟨S_, .i32⟩ : BufTy).Contents (Elt F) → (⟨S800000, .i32⟩ : BufTy).Contents (Elt F)),
    binary main_v1 main_v40 main_v41 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v42 (broadcastInDim S800000 ![] bcast_S_S800000 : (⟨S_, .i32⟩ : BufTy).Contents (Elt F) → (⟨S800000, .i32⟩ : BufTy).Contents (Elt F)),
    binary main_v1 main_v42 main_v43 (addi : (⟨S800000, .i32⟩ : BufTy).Contents (Elt F) → (⟨S800000, .i32⟩ : BufTy).Contents (Elt F) → (⟨S800000, .i32⟩ : BufTy).Contents (Elt F)),
    ternary main_v41 main_v43 main_v1 main_v44 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v44 main_v45 (broadcastInDim S800000x1 ![0] bcast_S800000_S800000x1_0 : (⟨S800000, .i32⟩ : BufTy).Contents (Elt F) → (⟨S800000x1, .i32⟩ : BufTy).Contents (Elt F)),
    binary main_v7 main_v45 main_v46 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    binary main_v46 main_v16 main_v47 (addf : (⟨S800000x96, .f32⟩ : BufTy).Contents (Elt F) → (⟨S800000x96, .f32⟩ : BufTy).Contents (Elt F) → (⟨S800000x96, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800000x96, .f32⟩) main_call1_v0) (broadcastInDim S800000x96 ![] bcast_S_S800000x96),
    TRef.binary (TRef.of (T := ⟨S800000x96, .f32⟩) main_v47) (TRef.of (T := ⟨S800000x96, .f32⟩) main_call1_v0) (TRef.of (T := ⟨S800000x96, .f32⟩) main_v48) maximumf,
    unary main_v39 main_v49 (broadcastInDim S800000x96 ![0, 1] bcast_S800000x1_S800000x96_0_1 : (⟨S800000x1, .f32⟩ : BufTy).Contents (Elt F) → (⟨S800000x96, .f32⟩ : BufTy).Contents (Elt F)),
    binary main_v49 main_v48 main_v50 (mulf : (⟨S800000x96, .f32⟩ : BufTy).Contents (Elt F) → (⟨S800000x96, .f32⟩ : BufTy).Contents (Elt F) → (⟨S800000x96, .f32⟩ : BufTy).Contents (Elt F)) ]

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., unary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., unary_bufs_sub .., binary_bufs_sub ..⟩

theorem ops0_fresh : ∀ op ∈ (ops0 : List (HloOp τ sig (Elt F))), op.fresh = ∅ := by
  intro _ h; (repeat (cases h with | head => rfl | tail _ h => ?_)); exact nomatch h

abbrev ops1 : List (HloOp τ sig (Elt F)) :=
  [ nullary main_cst_7 (constant S_ .f32 0x00000000#32),
    unary main_cst_7 main_v51 (broadcastInDim S50000x96 ![] bcast_S_S50000x96 : (⟨S_, .f32⟩ : BufTy).Contents (Elt F) → (⟨S50000x96, .f32⟩ : BufTy).Contents (Elt F)),
    unary main_v3 main_v52 (broadcastInDim S800000x1 ![0] bcast_S800000_S800000x1_0 : (⟨S800000, .i32⟩ : BufTy).Contents (Elt F) → (⟨S800000x1, .i32⟩ : BufTy).Contents (Elt F)),
    ternary main_v51 main_v52 main_v50 main_v53 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    unary main_arg5 main_v54 (broadcastInDim S50000x96 ![0, 1] bcast_S1x96_S50000x96_0_1 : (⟨S1x96, .f32⟩ : BufTy).Contents (Elt F) → (⟨S50000x96, .f32⟩ : BufTy).Contents (Elt F)),
    binary main_v7 main_v54 main_v55 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x96, .f32⟩) main_call2_v0) (broadcastInDim S50000x96 ![] bcast_S_S50000x96),
    TRef.binary (TRef.of (T := ⟨S50000x96, .f32⟩) main_v55) (TRef.of (T := ⟨S50000x96, .f32⟩) main_call2_v0) (TRef.of (T := ⟨S50000x96, .f32⟩) main_v56) maximumf,
    unary main_v22 main_v57 (broadcastInDim S50000x1 ![0] bcast_S50000_S50000x1_0 : (⟨S50000, .f32⟩ : BufTy).Contents (Elt F) → (⟨S50000x1, .f32⟩ : BufTy).Contents (Elt F)),
    unary main_v57 main_v58 (broadcastInDim S50000x96 ![0, 1] bcast_S50000x1_S50000x96_0_1 : (⟨S50000x1, .f32⟩ : BufTy).Contents (Elt F) → (⟨S50000x96, .f32⟩ : BufTy).Contents (Elt F)),
    binary main_v56 main_v58 main_v59 (Host.divf : (⟨S50000x96, .f32⟩ : BufTy).Contents (Elt F) → (⟨S50000x96, .f32⟩ : BufTy).Contents (Elt F) → (⟨S50000x96, .f32⟩ : BufTy).Contents (Elt F)),
    binary main_v53 main_v59 main_v60 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x96, .f32⟩) main_call3_v0) (broadcastInDim S50000x96 ![] bcast_S_S50000x96),
    TRef.binary (TRef.of (T := ⟨S50000x96, .f32⟩) main_v60) (TRef.of (T := ⟨S50000x96, .f32⟩) main_call3_v0) (TRef.of (T := ⟨S50000x96, .f32⟩) main_v61) maximumf,
    unary main_arg19 main_v62 ((extractStridedSlice S1x96 ![0, 0] · slices_S3x96_S1x96_0_0) : (⟨S3x96, .f32⟩ : BufTy).Contents (Elt F) → (⟨S1x96, .f32⟩ : BufTy).Contents (Elt F)),
    reshape main_v62 main_v63 rfl shapeCasts_S1x96_S96,
    unary main_arg20 main_v64 ((extractStridedSlice S1x96 ![0, 0] · slices_S3x96_S1x96_0_0) : (⟨S3x96, .f32⟩ : BufTy).Contents (Elt F) → (⟨S1x96, .f32⟩ : BufTy).Contents (Elt F)),
    reshape main_v64 main_v65 rfl shapeCasts_S1x96_S96,
    unary main_arg21 main_v66 ((extractStridedSlice S1x96 ![0, 0] · slices_S3x96_S1x96_0_0) : (⟨S3x96, .f32⟩ : BufTy).Contents (Elt F) → (⟨S1x96, .f32⟩ : BufTy).Contents (Elt F)),
    reshape main_v66 main_v67 rfl shapeCasts_S1x96_S96,
    unary main_arg22 main_v68 ((extractStridedSlice S1x96 ![0, 0] · slices_S3x96_S1x96_0_0) : (⟨S3x96, .f32⟩ : BufTy).Contents (Elt F) → (⟨S1x96, .f32⟩ : BufTy).Contents (Elt F)),
    reshape main_v68 main_v69 rfl shapeCasts_S1x96_S96,
    unary main_v67 main_v70 (broadcastInDim S1x96 ![1] bcast_S96_S1x96_1 : (⟨S96, .f32⟩ : BufTy).Contents (Elt F) → (⟨S1x96, .f32⟩ : BufTy).Contents (Elt F)),
    unary main_v70 main_v71 (broadcastInDim S50000x96 ![0, 1] bcast_S1x96_S50000x96_0_1 : (⟨S1x96, .f32⟩ : BufTy).Contents (Elt F) → (⟨S50000x96, .f32⟩ : BufTy).Contents (Elt F)),
    binary main_v61 main_v71 main_v72 (subf : (⟨S50000x96, .f32⟩ : BufTy).Contents (Elt F) → (⟨S50000x96, .f32⟩ : BufTy).Contents (Elt F) → (⟨S50000x96, .f32⟩ : BufTy).Contents (Elt F)),
    nullary main_cst_8 (constant S_ .f32 0x3727C5AC#32),
    unary main_cst_8 main_v73 (broadcastInDim S96 ![] bcast_S_S96 : (⟨S_, .f32⟩ : BufTy).Contents (Elt F) → (⟨S96, .f32⟩ : BufTy).Contents (Elt F)),
    binary main_v69 main_v73 main_v74 (addf : (⟨S96, .f32⟩ : BufTy).Contents (Elt F) → (⟨S96, .f32⟩ : BufTy).Contents (Elt F) → (⟨S96, .f32⟩ : BufTy).Contents (Elt F)),
    unary main_v74 main_v75 (Host.rsqrt : (⟨S96, .f32⟩ : BufTy).Contents (Elt F) → (⟨S96, .f32⟩ : BufTy).Contents (Elt F)),
    unary main_v75 main_v76 (broadcastInDim S1x96 ![1] bcast_S96_S1x96_1 : (⟨S96, .f32⟩ : BufTy).Contents (Elt F) → (⟨S1x96, .f32⟩ : BufTy).Contents (Elt F)),
    unary main_v76 main_v77 (broadcastInDim S50000x96 ![0, 1] bcast_S1x96_S50000x96_0_1 : (⟨S1x96, .f32⟩ : BufTy).Contents (Elt F) → (⟨S50000x96, .f32⟩ : BufTy).Contents (Elt F)),
    binary main_v72 main_v77 main_v78 (mulf : (⟨S50000x96, .f32⟩ : BufTy).Contents (Elt F) → (⟨S50000x96, .f32⟩ : BufTy).Contents (Elt F) → (⟨S50000x96, .f32⟩ : BufTy).Contents (Elt F)),
    unary main_v63 main_v79 (broadcastInDim S1x96 ![1] bcast_S96_S1x96_1 : (⟨S96, .f32⟩ : BufTy).Contents (Elt F) → (⟨S1x96, .f32⟩ : BufTy).Contents (Elt F)),
    unary main_v79 main_v80 (broadcastInDim S50000x96 ![0, 1] bcast_S1x96_S50000x96_0_1 : (⟨S1x96, .f32⟩ : BufTy).Contents (Elt F) → (⟨S50000x96, .f32⟩ : BufTy).Contents (Elt F)),
    binary main_v78 main_v80 main_v81 (mulf : (⟨S50000x96, .f32⟩ : BufTy).Contents (Elt F) → (⟨S50000x96, .f32⟩ : BufTy).Contents (Elt F) → (⟨S50000x96, .f32⟩ : BufTy).Contents (Elt F)),
    unary main_v65 main_v82 (broadcastInDim S1x96 ![1] bcast_S96_S1x96_1 : (⟨S96, .f32⟩ : BufTy).Contents (Elt F) → (⟨S1x96, .f32⟩ : BufTy).Contents (Elt F)),
    unary main_v82 main_v83 (broadcastInDim S50000x96 ![0, 1] bcast_S1x96_S50000x96_0_1 : (⟨S1x96, .f32⟩ : BufTy).Contents (Elt F) → (⟨S50000x96, .f32⟩ : BufTy).Contents (Elt F)),
    binary main_v81 main_v83 main_v84 (addf : (⟨S50000x96, .f32⟩ : BufTy).Contents (Elt F) → (⟨S50000x96, .f32⟩ : BufTy).Contents (Elt F) → (⟨S50000x96, .f32⟩ : BufTy).Contents (Elt F)),
    unary main_arg10 main_v85 ((extractStridedSlice S1x16x96 ![0, 0, 0] · slices_S2x16x96_S1x16x96_0_0_0) : (⟨S2x16x96, .f32⟩ : BufTy).Contents (Elt F) → (⟨S1x16x96, .f32⟩ : BufTy).Contents (Elt F)),
    reshape main_v85 main_v86 rfl shapeCasts_S1x16x96_S16x96,
    binary main_arg2 main_v86 main_v87 ((fun l r => Host.dotGeneral dot_S800000x16_S16x96_S800000x96_1_0_0_1_n_n none l r) : (⟨S800000x16, .f32⟩ : BufTy).Contents (Elt F) → (⟨S16x96, .f32⟩ : BufTy).Contents (Elt F) → (⟨S800000x96, .f32⟩ : BufTy).Contents (Elt F)),
    unary main_arg11 main_v88 ((extractStridedSlice S1x96 ![0, 0] · slices_S2x96_S1x96_0_0) : (⟨S2x96, .f32⟩ : BufTy).Contents (Elt F) → (⟨S1x96, .f32⟩ : BufTy).Contents (Elt F)),
    reshape main_v88 main_v89 rfl shapeCasts_S1x96_S96,
    unary main_v89 main_v90 (broadcastInDim S1x96 ![1] bcast_S96_S1x96_1 : (⟨S96, .f32⟩ : BufTy).Contents (Elt F) → (⟨S1x96, .f32⟩ : BufTy).Contents (Elt F)),
    unary main_v90 main_v91 (broadcastInDim S800000x96 ![0, 1] bcast_S1x96_S800000x96_0_1 : (⟨S1x96, .f32⟩ : BufTy).Contents (Elt F) → (⟨S800000x96, .f32⟩ : BufTy).Contents (Elt F)),
    binary main_v87 main_v91 main_v92 (addf : (⟨S800000x96, .f32⟩ : BufTy).Contents (Elt F) → (⟨S800000x96, .f32⟩ : BufTy).Contents (Elt F) → (⟨S800000x96, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S800000x96, .f32⟩) main_call4_v0) (broadcastInDim S800000x96 ![] bcast_S_S800000x96),
    TRef.binary (TRef.of (T := ⟨S800000x96, .f32⟩) main_v92) (TRef.of (T := ⟨S800000x96, .f32⟩) main_call4_v0) (TRef.of (T := ⟨S800000x96, .f32⟩) main_v93) maximumf,
    unary main_arg12 main_v94 ((extractStridedSlice S1x96x96 ![0, 0, 0] · slices_S2x96x96_S1x96x96_0_0_0) : (⟨S2x96x96, .f32⟩ : BufTy).Contents (Elt F) → (⟨S1x96x96, .f32⟩ : BufTy).Contents (Elt F)),
    reshape main_v94 main_v95 rfl shapeCasts_S1x96x96_S96x96,
    binary main_v93 main_v95 main_v96 ((fun l r => Host.dotGeneral dot_S800000x96_S96x96_S800000x96_1_0_0_1_n_n none l r) : (⟨S800000x96, .f32⟩ : BufTy).Contents (Elt F) → (⟨S96x96, .f32⟩ : BufTy).Contents (Elt F) → (⟨S800000x96, .f32⟩ : BufTy).Contents (Elt F)),
    unary main_arg13 main_v97 ((extractStridedSlice S1x96 ![0, 0] · slices_S2x96_S1x96_0_0) : (⟨S2x96, .f32⟩ : BufTy).Contents (Elt F) → (⟨S1x96, .f32⟩ : BufTy).Contents (Elt F)),
    reshape main_v97 main_v98 rfl shapeCasts_S1x96_S96,
    unary main_v98 main_v99 (broadcastInDim S1x96 ![1] bcast_S96_S1x96_1 : (⟨S96, .f32⟩ : BufTy).Contents (Elt F) → (⟨S1x96, .f32⟩ : BufTy).Contents (Elt F)),
    unary main_v99 main_v100 (broadcastInDim S800000x96 ![0, 1] bcast_S1x96_S800000x96_0_1 : (⟨S1x96, .f32⟩ : BufTy).Contents (Elt F) → (⟨S800000x96, .f32⟩ : BufTy).Contents (Elt F)),
    binary main_v96 main_v100 main_v101 (addf : (⟨S800000x96, .f32⟩ : BufTy).Contents (Elt F) → (⟨S800000x96, .f32⟩ : BufTy).Contents (Elt F) → (⟨S800000x96, .f32⟩ : BufTy).Contents (Elt F)),
    nullary main_c_9 (constantI S_ 32 0#32),
    unary main_c_9 main_v102 (broadcastInDim S800000 ![] bcast_S_S800000 : (⟨S_, .i32⟩ : BufTy).Contents (Elt F) → (⟨S800000, .i32⟩ : BufTy).Contents (Elt F)),
    binary main_v1 main_v102 main_v103 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v104 (broadcastInDim S800000 ![] bcast_S_S800000 : (⟨S_, .i32⟩ : BufTy).Contents (Elt F) → (⟨S800000, .i32⟩ : BufTy).Contents (Elt F)),
    binary main_v1 main_v104 main_v105 (addi : (⟨S800000, .i32⟩ : BufTy).Contents (Elt F) → (⟨S800000, .i32⟩ : BufTy).Contents (Elt F) → (⟨S800000, .i32⟩ : BufTy).Contents (Elt F)),
    ternary main_v103 main_v105 main_v1 main_v106 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ]

theorem ops1_sub : (ops1 : List (HloOp τ sig (Elt F))).Forall fun op => op.bufs ⊆ tcRefs τ sig :=
  ⟨nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    binary_bufs_sub .., nullary_bufs_sub .., unary_bufs_sub .., binary_bufs_sub .., unary_bufs_sub .., reshape_bufs_sub ..,
    unary_bufs_sub .., reshape_bufs_sub .., unary_bufs_sub .., reshape_bufs_sub .., unary_bufs_sub .., reshape_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., unary_bufs_sub .., reshape_bufs_sub ..,
    binary_bufs_sub .., unary_bufs_sub .., reshape_bufs_sub .., unary_bufs_sub .., unary_bufs_sub .., binary_bufs_sub ..,
    nullary_bufs_sub .., unary_bufs_sub .., binary_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..⟩

theorem ops1_fresh : ∀ op ∈ (ops1 : List (HloOp τ sig (Elt F))), op.fresh = ∅ := by
  intro _ h; (repeat (cases h with | head => rfl | tail _ h => ?_)); exact nomatch h

abbrev ops2 : List (HloOp τ sig (Elt F)) :=
  [ unary main_v106 main_v107 (broadcastInDim S800000x1 ![0] bcast_S800000_S800000x1_0 : (⟨S800000, .i32⟩ : BufTy).Contents (Elt F) → (⟨S800000x1, .i32⟩ : BufTy).Contents (Elt F)),
    binary main_v84 main_v107 main_v108 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    binary main_v108 main_v101 main_v109 (addf : (⟨S800000x96, .f32⟩ : BufTy).Contents (Elt F) → (⟨S800000x96, .f32⟩ : BufTy).Contents (Elt F) → (⟨S800000x96, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S800000x96, .f32⟩) main_call5_v0) (broadcastInDim S800000x96 ![] bcast_S_S800000x96),
    TRef.binary (TRef.of (T := ⟨S800000x96, .f32⟩) main_v109) (TRef.of (T := ⟨S800000x96, .f32⟩) main_call5_v0) (TRef.of (T := ⟨S800000x96, .f32⟩) main_v110) maximumf,
    nullary main_cst_11 (constant S_ .f32 0x00000000#32),
    unary main_cst_11 main_v111 (broadcastInDim S50000x96 ![] bcast_S_S50000x96 : (⟨S_, .f32⟩ : BufTy).Contents (Elt F) → (⟨S50000x96, .f32⟩ : BufTy).Contents (Elt F)),
    unary main_v3 main_v112 (broadcastInDim S800000x1 ![0] bcast_S800000_S800000x1_0 : (⟨S800000, .i32⟩ : BufTy).Contents (Elt F) → (⟨S800000x1, .i32⟩ : BufTy).Contents (Elt F)),
    ternary main_v111 main_v112 main_v110 main_v113 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    unary main_arg18 main_v114 ((extractStridedSlice S1 ![0] · slices_S2_S1_0) : (⟨S2, .f32⟩ : BufTy).Contents (Elt F) → (⟨S1, .f32⟩ : BufTy).Contents (Elt F)),
    reshape main_v114 main_v115 rfl shapeCasts_S1_S_,
    nullary main_cst_12 (constant S_ .f32 0x3F800000#32),
    binary main_cst_12 main_v115 main_v116 (addf : (⟨S_, .f32⟩ : BufTy).Contents (Elt F) → (⟨S_, .f32⟩ : BufTy).Contents (Elt F) → (⟨S_, .f32⟩ : BufTy).Contents (Elt F)),
    unary main_v116 main_v117 (broadcastInDim S50000x96 ![] bcast_S_S50000x96 : (⟨S_, .f32⟩ : BufTy).Contents (Elt F) → (⟨S50000x96, .f32⟩ : BufTy).Contents (Elt F)),
    binary main_v117 main_v84 main_v118 (mulf : (⟨S50000x96, .f32⟩ : BufTy).Contents (Elt F) → (⟨S50000x96, .f32⟩ : BufTy).Contents (Elt F) → (⟨S50000x96, .f32⟩ : BufTy).Contents (Elt F)),
    binary main_v118 main_v113 main_v119 (addf : (⟨S50000x96, .f32⟩ : BufTy).Contents (Elt F) → (⟨S50000x96, .f32⟩ : BufTy).Contents (Elt F) → (⟨S50000x96, .f32⟩ : BufTy).Contents (Elt F)),
    unary main_arg14 main_v120 ((extractStridedSlice S1x96x96 ![0, 0, 0] · slices_S2x96x96_S1x96x96_0_0_0) : (⟨S2x96x96, .f32⟩ : BufTy).Contents (Elt F) → (⟨S1x96x96, .f32⟩ : BufTy).Contents (Elt F)),
    reshape main_v120 main_v121 rfl shapeCasts_S1x96x96_S96x96,
    binary main_v119 main_v121 main_v122 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    unary main_arg15 main_v123 ((extractStridedSlice S1x96 ![0, 0] · slices_S2x96_S1x96_0_0) : (⟨S2x96, .f32⟩ : BufTy).Contents (Elt F) → (⟨S1x96, .f32⟩ : BufTy).Contents (Elt F)),
    reshape main_v123 main_v124 rfl shapeCasts_S1x96_S96,
    unary main_v124 main_v125 (broadcastInDim S1x96 ![1] bcast_S96_S1x96_1 : (⟨S96, .f32⟩ : BufTy).Contents (Elt F) → (⟨S1x96, .f32⟩ : BufTy).Contents (Elt F)),
    unary main_v125 main_v126 (broadcastInDim S50000x96 ![0, 1] bcast_S1x96_S50000x96_0_1 : (⟨S1x96, .f32⟩ : BufTy).Contents (Elt F) → (⟨S50000x96, .f32⟩ : BufTy).Contents (Elt F)),
    binary main_v122 main_v126 main_v127 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x96, .f32⟩) main_call6_v0) (broadcastInDim S50000x96 ![] bcast_S_S50000x96),
    TRef.binary (TRef.of (T := ⟨S50000x96, .f32⟩) main_v127) (TRef.of (T := ⟨S50000x96, .f32⟩) main_call6_v0) (TRef.of (T := ⟨S50000x96, .f32⟩) main_v128) maximumf,
    unary main_arg16 main_v129 ((extractStridedSlice S1x96x96 ![0, 0, 0] · slices_S2x96x96_S1x96x96_0_0_0) : (⟨S2x96x96, .f32⟩ : BufTy).Contents (Elt F) → (⟨S1x96x96, .f32⟩ : BufTy).Contents (Elt F)),
    reshape main_v129 main_v130 rfl shapeCasts_S1x96x96_S96x96,
    binary main_v128 main_v130 main_v131 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    unary main_arg17 main_v132 ((extractStridedSlice S1x96 ![0, 0] · slices_S2x96_S1x96_0_0) : (⟨S2x96, .f32⟩ : BufTy).Contents (Elt F) → (⟨S1x96, .f32⟩ : BufTy).Contents (Elt F)),
    reshape main_v132 main_v133 rfl shapeCasts_S1x96_S96,
    unary main_v133 main_v134 (broadcastInDim S1x96 ![1] bcast_S96_S1x96_1 : (⟨S96, .f32⟩ : BufTy).Contents (Elt F) → (⟨S1x96, .f32⟩ : BufTy).Contents (Elt F)),
    unary main_v134 main_v135 (broadcastInDim S50000x96 ![0, 1] bcast_S1x96_S50000x96_0_1 : (⟨S1x96, .f32⟩ : BufTy).Contents (Elt F) → (⟨S50000x96, .f32⟩ : BufTy).Contents (Elt F)),
    binary main_v131 main_v135 main_v136 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x96, .f32⟩) main_call7_v0) (broadcastInDim S50000x96 ![] bcast_S_S50000x96),
    TRef.binary (TRef.of (T := ⟨S50000x96, .f32⟩) main_v136) (TRef.of (T := ⟨S50000x96, .f32⟩) main_call7_v0) (TRef.of (T := ⟨S50000x96, .f32⟩) main_v137) maximumf,
    unary main_arg19 main_v138 ((extractStridedSlice S1x96 ![1, 0] · slices_S3x96_S1x96_1_0) : (⟨S3x96, .f32⟩ : BufTy).Contents (Elt F) → (⟨S1x96, .f32⟩ : BufTy).Contents (Elt F)),
    reshape main_v138 main_v139 rfl shapeCasts_S1x96_S96,
    unary main_arg20 main_v140 ((extractStridedSlice S1x96 ![1, 0] · slices_S3x96_S1x96_1_0) : (⟨S3x96, .f32⟩ : BufTy).Contents (Elt F) → (⟨S1x96, .f32⟩ : BufTy).Contents (Elt F)),
    reshape main_v140 main_v141 rfl shapeCasts_S1x96_S96,
    unary main_arg21 main_v142 ((extractStridedSlice S1x96 ![1, 0] · slices_S3x96_S1x96_1_0) : (⟨S3x96, .f32⟩ : BufTy).Contents (Elt F) → (⟨S1x96, .f32⟩ : BufTy).Contents (Elt F)),
    reshape main_v142 main_v143 rfl shapeCasts_S1x96_S96,
    unary main_arg22 main_v144 ((extractStridedSlice S1x96 ![1, 0] · slices_S3x96_S1x96_1_0) : (⟨S3x96, .f32⟩ : BufTy).Contents (Elt F) → (⟨S1x96, .f32⟩ : BufTy).Contents (Elt F)),
    reshape main_v144 main_v145 rfl shapeCasts_S1x96_S96,
    unary main_v143 main_v146 (broadcastInDim S1x96 ![1] bcast_S96_S1x96_1 : (⟨S96, .f32⟩ : BufTy).Contents (Elt F) → (⟨S1x96, .f32⟩ : BufTy).Contents (Elt F)),
    unary main_v146 main_v147 (broadcastInDim S50000x96 ![0, 1] bcast_S1x96_S50000x96_0_1 : (⟨S1x96, .f32⟩ : BufTy).Contents (Elt F) → (⟨S50000x96, .f32⟩ : BufTy).Contents (Elt F)),
    binary main_v137 main_v147 main_v148 (subf : (⟨S50000x96, .f32⟩ : BufTy).Contents (Elt F) → (⟨S50000x96, .f32⟩ : BufTy).Contents (Elt F) → (⟨S50000x96, .f32⟩ : BufTy).Contents (Elt F)),
    nullary main_cst_13 (constant S_ .f32 0x3727C5AC#32),
    unary main_cst_13 main_v149 (broadcastInDim S96 ![] bcast_S_S96 : (⟨S_, .f32⟩ : BufTy).Contents (Elt F) → (⟨S96, .f32⟩ : BufTy).Contents (Elt F)),
    binary main_v145 main_v149 main_v150 (addf : (⟨S96, .f32⟩ : BufTy).Contents (Elt F) → (⟨S96, .f32⟩ : BufTy).Contents (Elt F) → (⟨S96, .f32⟩ : BufTy).Contents (Elt F)),
    unary main_v150 main_v151 (Host.rsqrt : (⟨S96, .f32⟩ : BufTy).Contents (Elt F) → (⟨S96, .f32⟩ : BufTy).Contents (Elt F)),
    unary main_v151 main_v152 (broadcastInDim S1x96 ![1] bcast_S96_S1x96_1 : (⟨S96, .f32⟩ : BufTy).Contents (Elt F) → (⟨S1x96, .f32⟩ : BufTy).Contents (Elt F)),
    unary main_v152 main_v153 (broadcastInDim S50000x96 ![0, 1] bcast_S1x96_S50000x96_0_1 : (⟨S1x96, .f32⟩ : BufTy).Contents (Elt F) → (⟨S50000x96, .f32⟩ : BufTy).Contents (Elt F)),
    binary main_v148 main_v153 main_v154 (mulf : (⟨S50000x96, .f32⟩ : BufTy).Contents (Elt F) → (⟨S50000x96, .f32⟩ : BufTy).Contents (Elt F) → (⟨S50000x96, .f32⟩ : BufTy).Contents (Elt F)),
    unary main_v139 main_v155 (broadcastInDim S1x96 ![1] bcast_S96_S1x96_1 : (⟨S96, .f32⟩ : BufTy).Contents (Elt F) → (⟨S1x96, .f32⟩ : BufTy).Contents (Elt F)),
    unary main_v155 main_v156 (broadcastInDim S50000x96 ![0, 1] bcast_S1x96_S50000x96_0_1 : (⟨S1x96, .f32⟩ : BufTy).Contents (Elt F) → (⟨S50000x96, .f32⟩ : BufTy).Contents (Elt F)),
    binary main_v154 main_v156 main_v157 (mulf : (⟨S50000x96, .f32⟩ : BufTy).Contents (Elt F) → (⟨S50000x96, .f32⟩ : BufTy).Contents (Elt F) → (⟨S50000x96, .f32⟩ : BufTy).Contents (Elt F)),
    unary main_v141 main_v158 (broadcastInDim S1x96 ![1] bcast_S96_S1x96_1 : (⟨S96, .f32⟩ : BufTy).Contents (Elt F) → (⟨S1x96, .f32⟩ : BufTy).Contents (Elt F)),
    unary main_v158 main_v159 (broadcastInDim S50000x96 ![0, 1] bcast_S1x96_S50000x96_0_1 : (⟨S1x96, .f32⟩ : BufTy).Contents (Elt F) → (⟨S50000x96, .f32⟩ : BufTy).Contents (Elt F)),
    binary main_v157 main_v159 main_v160 (addf : (⟨S50000x96, .f32⟩ : BufTy).Contents (Elt F) → (⟨S50000x96, .f32⟩ : BufTy).Contents (Elt F) → (⟨S50000x96, .f32⟩ : BufTy).Contents (Elt F)),
    unary main_arg10 main_v161 ((extractStridedSlice S1x16x96 ![1, 0, 0] · slices_S2x16x96_S1x16x96_1_0_0) : (⟨S2x16x96, .f32⟩ : BufTy).Contents (Elt F) → (⟨S1x16x96, .f32⟩ : BufTy).Contents (Elt F)),
    reshape main_v161 main_v162 rfl shapeCasts_S1x16x96_S16x96,
    binary main_arg2 main_v162 main_v163 ((fun l r => Host.dotGeneral dot_S800000x16_S16x96_S800000x96_1_0_0_1_n_n none l r) : (⟨S800000x16, .f32⟩ : BufTy).Contents (Elt F) → (⟨S16x96, .f32⟩ : BufTy).Contents (Elt F) → (⟨S800000x96, .f32⟩ : BufTy).Contents (Elt F)) ]

theorem ops2_sub : (ops2 : List (HloOp τ sig (Elt F))).Forall fun op => op.bufs ⊆ tcRefs τ sig :=
  ⟨unary_bufs_sub .., binary_bufs_sub .., binary_bufs_sub .., nullary_bufs_sub .., unary_bufs_sub .., binary_bufs_sub ..,
    nullary_bufs_sub .., unary_bufs_sub .., unary_bufs_sub .., ternary_bufs_sub .., unary_bufs_sub .., reshape_bufs_sub ..,
    nullary_bufs_sub .., binary_bufs_sub .., unary_bufs_sub .., binary_bufs_sub .., binary_bufs_sub .., unary_bufs_sub ..,
    reshape_bufs_sub .., binary_bufs_sub .., unary_bufs_sub .., reshape_bufs_sub .., unary_bufs_sub .., unary_bufs_sub ..,
    binary_bufs_sub .., nullary_bufs_sub .., unary_bufs_sub .., binary_bufs_sub .., unary_bufs_sub .., reshape_bufs_sub ..,
    binary_bufs_sub .., unary_bufs_sub .., reshape_bufs_sub .., unary_bufs_sub .., unary_bufs_sub .., binary_bufs_sub ..,
    nullary_bufs_sub .., unary_bufs_sub .., binary_bufs_sub .., unary_bufs_sub .., reshape_bufs_sub .., unary_bufs_sub ..,
    reshape_bufs_sub .., unary_bufs_sub .., reshape_bufs_sub .., unary_bufs_sub .., reshape_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., reshape_bufs_sub .., binary_bufs_sub ..⟩

theorem ops2_fresh : ∀ op ∈ (ops2 : List (HloOp τ sig (Elt F))), op.fresh = ∅ := by
  intro _ h; (repeat (cases h with | head => rfl | tail _ h => ?_)); exact nomatch h

abbrev ops3 : List (HloOp τ sig (Elt F)) :=
  [ unary main_arg11 main_v164 ((extractStridedSlice S1x96 ![1, 0] · slices_S2x96_S1x96_1_0) : (⟨S2x96, .f32⟩ : BufTy).Contents (Elt F) → (⟨S1x96, .f32⟩ : BufTy).Contents (Elt F)),
    reshape main_v164 main_v165 rfl shapeCasts_S1x96_S96,
    unary main_v165 main_v166 (broadcastInDim S1x96 ![1] bcast_S96_S1x96_1 : (⟨S96, .f32⟩ : BufTy).Contents (Elt F) → (⟨S1x96, .f32⟩ : BufTy).Contents (Elt F)),
    unary main_v166 main_v167 (broadcastInDim S800000x96 ![0, 1] bcast_S1x96_S800000x96_0_1 : (⟨S1x96, .f32⟩ : BufTy).Contents (Elt F) → (⟨S800000x96, .f32⟩ : BufTy).Contents (Elt F)),
    binary main_v163 main_v167 main_v168 (addf : (⟨S800000x96, .f32⟩ : BufTy).Contents (Elt F) → (⟨S800000x96, .f32⟩ : BufTy).Contents (Elt F) → (⟨S800000x96, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S800000x96, .f32⟩) main_call8_v0) (broadcastInDim S800000x96 ![] bcast_S_S800000x96),
    TRef.binary (TRef.of (T := ⟨S800000x96, .f32⟩) main_v168) (TRef.of (T := ⟨S800000x96, .f32⟩) main_call8_v0) (TRef.of (T := ⟨S800000x96, .f32⟩) main_v169) maximumf,
    unary main_arg12 main_v170 ((extractStridedSlice S1x96x96 ![1, 0, 0] · slices_S2x96x96_S1x96x96_1_0_0) : (⟨S2x96x96, .f32⟩ : BufTy).Contents (Elt F) → (⟨S1x96x96, .f32⟩ : BufTy).Contents (Elt F)),
    reshape main_v170 main_v171 rfl shapeCasts_S1x96x96_S96x96,
    binary main_v169 main_v171 main_v172 ((fun l r => Host.dotGeneral dot_S800000x96_S96x96_S800000x96_1_0_0_1_n_n none l r) : (⟨S800000x96, .f32⟩ : BufTy).Contents (Elt F) → (⟨S96x96, .f32⟩ : BufTy).Contents (Elt F) → (⟨S800000x96, .f32⟩ : BufTy).Contents (Elt F)),
    unary main_arg13 main_v173 ((extractStridedSlice S1x96 ![1, 0] · slices_S2x96_S1x96_1_0) : (⟨S2x96, .f32⟩ : BufTy).Contents (Elt F) → (⟨S1x96, .f32⟩ : BufTy).Contents (Elt F)),
    reshape main_v173 main_v174 rfl shapeCasts_S1x96_S96,
    unary main_v174 main_v175 (broadcastInDim S1x96 ![1] bcast_S96_S1x96_1 : (⟨S96, .f32⟩ : BufTy).Contents (Elt F) → (⟨S1x96, .f32⟩ : BufTy).Contents (Elt F)),
    unary main_v175 main_v176 (broadcastInDim S800000x96 ![0, 1] bcast_S1x96_S800000x96_0_1 : (⟨S1x96, .f32⟩ : BufTy).Contents (Elt F) → (⟨S800000x96, .f32⟩ : BufTy).Contents (Elt F)),
    binary main_v172 main_v176 main_v177 (addf : (⟨S800000x96, .f32⟩ : BufTy).Contents (Elt F) → (⟨S800000x96, .f32⟩ : BufTy).Contents (Elt F) → (⟨S800000x96, .f32⟩ : BufTy).Contents (Elt F)),
    nullary main_c_14 (constantI S_ 32 0#32),
    unary main_c_14 main_v178 (broadcastInDim S800000 ![] bcast_S_S800000 : (⟨S_, .i32⟩ : BufTy).Contents (Elt F) → (⟨S800000, .i32⟩ : BufTy).Contents (Elt F)),
    binary main_v1 main_v178 main_v179 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v180 (broadcastInDim S800000 ![] bcast_S_S800000 : (⟨S_, .i32⟩ : BufTy).Contents (Elt F) → (⟨S800000, .i32⟩ : BufTy).Contents (Elt F)),
    binary main_v1 main_v180 main_v181 (addi : (⟨S800000, .i32⟩ : BufTy).Contents (Elt F) → (⟨S800000, .i32⟩ : BufTy).Contents (Elt F) → (⟨S800000, .i32⟩ : BufTy).Contents (Elt F)),
    ternary main_v179 main_v181 main_v1 main_v182 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v182 main_v183 (broadcastInDim S800000x1 ![0] bcast_S800000_S800000x1_0 : (⟨S800000, .i32⟩ : BufTy).Contents (Elt F) → (⟨S800000x1, .i32⟩ : BufTy).Contents (Elt F)),
    binary main_v160 main_v183 main_v184 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    binary main_v184 main_v177 main_v185 (addf : (⟨S800000x96, .f32⟩ : BufTy).Contents (Elt F) → (⟨S800000x96, .f32⟩ : BufTy).Contents (Elt F) → (⟨S800000x96, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S800000x96, .f32⟩) main_call9_v0) (broadcastInDim S800000x96 ![] bcast_S_S800000x96),
    TRef.binary (TRef.of (T := ⟨S800000x96, .f32⟩) main_v185) (TRef.of (T := ⟨S800000x96, .f32⟩) main_call9_v0) (TRef.of (T := ⟨S800000x96, .f32⟩) main_v186) maximumf,
    nullary main_cst_16 (constant S_ .f32 0x00000000#32),
    unary main_cst_16 main_v187 (broadcastInDim S50000x96 ![] bcast_S_S50000x96 : (⟨S_, .f32⟩ : BufTy).Contents (Elt F) → (⟨S50000x96, .f32⟩ : BufTy).Contents (Elt F)),
    unary main_v3 main_v188 (broadcastInDim S800000x1 ![0] bcast_S800000_S800000x1_0 : (⟨S800000, .i32⟩ : BufTy).Contents (Elt F) → (⟨S800000x1, .i32⟩ : BufTy).Contents (Elt F)),
    ternary main_v187 main_v188 main_v186 main_v189 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    unary main_arg18 main_v190 ((extractStridedSlice S1 ![1] · slices_S2_S1_1) : (⟨S2, .f32⟩ : BufTy).Contents (Elt F) → (⟨S1, .f32⟩ : BufTy).Contents (Elt F)),
    reshape main_v190 main_v191 rfl shapeCasts_S1_S_,
    nullary main_cst_17 (constant S_ .f32 0x3F800000#32),
    binary main_cst_17 main_v191 main_v192 (addf : (⟨S_, .f32⟩ : BufTy).Contents (Elt F) → (⟨S_, .f32⟩ : BufTy).Contents (Elt F) → (⟨S_, .f32⟩ : BufTy).Contents (Elt F)),
    unary main_v192 main_v193 (broadcastInDim S50000x96 ![] bcast_S_S50000x96 : (⟨S_, .f32⟩ : BufTy).Contents (Elt F) → (⟨S50000x96, .f32⟩ : BufTy).Contents (Elt F)),
    binary main_v193 main_v160 main_v194 (mulf : (⟨S50000x96, .f32⟩ : BufTy).Contents (Elt F) → (⟨S50000x96, .f32⟩ : BufTy).Contents (Elt F) → (⟨S50000x96, .f32⟩ : BufTy).Contents (Elt F)),
    binary main_v194 main_v189 main_v195 (addf : (⟨S50000x96, .f32⟩ : BufTy).Contents (Elt F) → (⟨S50000x96, .f32⟩ : BufTy).Contents (Elt F) → (⟨S50000x96, .f32⟩ : BufTy).Contents (Elt F)),
    unary main_arg14 main_v196 ((extractStridedSlice S1x96x96 ![1, 0, 0] · slices_S2x96x96_S1x96x96_1_0_0) : (⟨S2x96x96, .f32⟩ : BufTy).Contents (Elt F) → (⟨S1x96x96, .f32⟩ : BufTy).Contents (Elt F)),
    reshape main_v196 main_v197 rfl shapeCasts_S1x96x96_S96x96,
    binary main_v195 main_v197 main_v198 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    unary main_arg15 main_v199 ((extractStridedSlice S1x96 ![1, 0] · slices_S2x96_S1x96_1_0) : (⟨S2x96, .f32⟩ : BufTy).Contents (Elt F) → (⟨S1x96, .f32⟩ : BufTy).Contents (Elt F)),
    reshape main_v199 main_v200 rfl shapeCasts_S1x96_S96,
    unary main_v200 main_v201 (broadcastInDim S1x96 ![1] bcast_S96_S1x96_1 : (⟨S96, .f32⟩ : BufTy).Contents (Elt F) → (⟨S1x96, .f32⟩ : BufTy).Contents (Elt F)),
    unary main_v201 main_v202 (broadcastInDim S50000x96 ![0, 1] bcast_S1x96_S50000x96_0_1 : (⟨S1x96, .f32⟩ : BufTy).Contents (Elt F) → (⟨S50000x96, .f32⟩ : BufTy).Contents (Elt F)),
    binary main_v198 main_v202 main_v203 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S50000x96, .f32⟩) main_call10_v0) (broadcastInDim S50000x96 ![] bcast_S_S50000x96),
    TRef.binary (TRef.of (T := ⟨S50000x96, .f32⟩) main_v203) (TRef.of (T := ⟨S50000x96, .f32⟩) main_call10_v0) (TRef.of (T := ⟨S50000x96, .f32⟩) main_v204) maximumf,
    unary main_arg16 main_v205 ((extractStridedSlice S1x96x96 ![1, 0, 0] · slices_S2x96x96_S1x96x96_1_0_0) : (⟨S2x96x96, .f32⟩ : BufTy).Contents (Elt F) → (⟨S1x96x96, .f32⟩ : BufTy).Contents (Elt F)),
    reshape main_v205 main_v206 rfl shapeCasts_S1x96x96_S96x96,
    binary main_v204 main_v206 main_v207 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    unary main_arg17 main_v208 ((extractStridedSlice S1x96 ![1, 0] · slices_S2x96_S1x96_1_0) : (⟨S2x96, .f32⟩ : BufTy).Contents (Elt F) → (⟨S1x96, .f32⟩ : BufTy).Contents (Elt F)),
    reshape main_v208 main_v209 rfl shapeCasts_S1x96_S96,
    unary main_v209 main_v210 (broadcastInDim S1x96 ![1] bcast_S96_S1x96_1 : (⟨S96, .f32⟩ : BufTy).Contents (Elt F) → (⟨S1x96, .f32⟩ : BufTy).Contents (Elt F)),
    unary main_v210 main_v211 (broadcastInDim S50000x96 ![0, 1] bcast_S1x96_S50000x96_0_1 : (⟨S1x96, .f32⟩ : BufTy).Contents (Elt F) → (⟨S50000x96, .f32⟩ : BufTy).Contents (Elt F)),
    binary main_v207 main_v211 main_v212 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S50000x96, .f32⟩) main_call11_v0) (broadcastInDim S50000x96 ![] bcast_S_S50000x96),
    TRef.binary (TRef.of (T := ⟨S50000x96, .f32⟩) main_v212) (TRef.of (T := ⟨S50000x96, .f32⟩) main_call11_v0) (TRef.of (T := ⟨S50000x96, .f32⟩) main_v213) maximumf,
    unary main_arg19 main_v214 ((extractStridedSlice S1x96 ![2, 0] · slices_S3x96_S1x96_2_0) : (⟨S3x96, .f32⟩ : BufTy).Contents (Elt F) → (⟨S1x96, .f32⟩ : BufTy).Contents (Elt F)),
    reshape main_v214 main_v215 rfl shapeCasts_S1x96_S96,
    unary main_arg20 main_v216 ((extractStridedSlice S1x96 ![2, 0] · slices_S3x96_S1x96_2_0) : (⟨S3x96, .f32⟩ : BufTy).Contents (Elt F) → (⟨S1x96, .f32⟩ : BufTy).Contents (Elt F)),
    reshape main_v216 main_v217 rfl shapeCasts_S1x96_S96,
    unary main_arg21 main_v218 ((extractStridedSlice S1x96 ![2, 0] · slices_S3x96_S1x96_2_0) : (⟨S3x96, .f32⟩ : BufTy).Contents (Elt F) → (⟨S1x96, .f32⟩ : BufTy).Contents (Elt F)),
    reshape main_v218 main_v219 rfl shapeCasts_S1x96_S96 ]

theorem ops3_sub : (ops3 : List (HloOp τ sig (Elt F))).Forall fun op => op.bufs ⊆ tcRefs τ sig :=
  ⟨unary_bufs_sub .., reshape_bufs_sub .., unary_bufs_sub .., unary_bufs_sub .., binary_bufs_sub .., nullary_bufs_sub ..,
    unary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., unary_bufs_sub .., ternary_bufs_sub .., unary_bufs_sub .., reshape_bufs_sub .., nullary_bufs_sub ..,
    binary_bufs_sub .., unary_bufs_sub .., binary_bufs_sub .., binary_bufs_sub .., unary_bufs_sub .., reshape_bufs_sub ..,
    binary_bufs_sub .., unary_bufs_sub .., reshape_bufs_sub .., unary_bufs_sub .., unary_bufs_sub .., binary_bufs_sub ..,
    nullary_bufs_sub .., unary_bufs_sub .., binary_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub .., unary_bufs_sub .., reshape_bufs_sub .., unary_bufs_sub .., reshape_bufs_sub ..,
    unary_bufs_sub .., reshape_bufs_sub ..⟩

theorem ops3_fresh : ∀ op ∈ (ops3 : List (HloOp τ sig (Elt F))), op.fresh = ∅ := by
  intro _ h; (repeat (cases h with | head => rfl | tail _ h => ?_)); exact nomatch h

abbrev ops4 : List (HloOp τ sig (Elt F)) :=
  [ unary main_arg22 main_v220 ((extractStridedSlice S1x96 ![2, 0] · slices_S3x96_S1x96_2_0) : (⟨S3x96, .f32⟩ : BufTy).Contents (Elt F) → (⟨S1x96, .f32⟩ : BufTy).Contents (Elt F)),
    reshape main_v220 main_v221 rfl shapeCasts_S1x96_S96,
    unary main_v219 main_v222 (broadcastInDim S1x96 ![1] bcast_S96_S1x96_1 : (⟨S96, .f32⟩ : BufTy).Contents (Elt F) → (⟨S1x96, .f32⟩ : BufTy).Contents (Elt F)),
    unary main_v222 main_v223 (broadcastInDim S50000x96 ![0, 1] bcast_S1x96_S50000x96_0_1 : (⟨S1x96, .f32⟩ : BufTy).Contents (Elt F) → (⟨S50000x96, .f32⟩ : BufTy).Contents (Elt F)),
    binary main_v213 main_v223 main_v224 (subf : (⟨S50000x96, .f32⟩ : BufTy).Contents (Elt F) → (⟨S50000x96, .f32⟩ : BufTy).Contents (Elt F) → (⟨S50000x96, .f32⟩ : BufTy).Contents (Elt F)),
    nullary main_cst_18 (constant S_ .f32 0x3727C5AC#32),
    unary main_cst_18 main_v225 (broadcastInDim S96 ![] bcast_S_S96 : (⟨S_, .f32⟩ : BufTy).Contents (Elt F) → (⟨S96, .f32⟩ : BufTy).Contents (Elt F)),
    binary main_v221 main_v225 main_v226 (addf : (⟨S96, .f32⟩ : BufTy).Contents (Elt F) → (⟨S96, .f32⟩ : BufTy).Contents (Elt F) → (⟨S96, .f32⟩ : BufTy).Contents (Elt F)),
    unary main_v226 main_v227 (Host.rsqrt : (⟨S96, .f32⟩ : BufTy).Contents (Elt F) → (⟨S96, .f32⟩ : BufTy).Contents (Elt F)),
    unary main_v227 main_v228 (broadcastInDim S1x96 ![1] bcast_S96_S1x96_1 : (⟨S96, .f32⟩ : BufTy).Contents (Elt F) → (⟨S1x96, .f32⟩ : BufTy).Contents (Elt F)),
    unary main_v228 main_v229 (broadcastInDim S50000x96 ![0, 1] bcast_S1x96_S50000x96_0_1 : (⟨S1x96, .f32⟩ : BufTy).Contents (Elt F) → (⟨S50000x96, .f32⟩ : BufTy).Contents (Elt F)),
    binary main_v224 main_v229 main_v230 (mulf : (⟨S50000x96, .f32⟩ : BufTy).Contents (Elt F) → (⟨S50000x96, .f32⟩ : BufTy).Contents (Elt F) → (⟨S50000x96, .f32⟩ : BufTy).Contents (Elt F)),
    unary main_v215 main_v231 (broadcastInDim S1x96 ![1] bcast_S96_S1x96_1 : (⟨S96, .f32⟩ : BufTy).Contents (Elt F) → (⟨S1x96, .f32⟩ : BufTy).Contents (Elt F)),
    unary main_v231 main_v232 (broadcastInDim S50000x96 ![0, 1] bcast_S1x96_S50000x96_0_1 : (⟨S1x96, .f32⟩ : BufTy).Contents (Elt F) → (⟨S50000x96, .f32⟩ : BufTy).Contents (Elt F)),
    binary main_v230 main_v232 main_v233 (mulf : (⟨S50000x96, .f32⟩ : BufTy).Contents (Elt F) → (⟨S50000x96, .f32⟩ : BufTy).Contents (Elt F) → (⟨S50000x96, .f32⟩ : BufTy).Contents (Elt F)),
    unary main_v217 main_v234 (broadcastInDim S1x96 ![1] bcast_S96_S1x96_1 : (⟨S96, .f32⟩ : BufTy).Contents (Elt F) → (⟨S1x96, .f32⟩ : BufTy).Contents (Elt F)),
    unary main_v234 main_v235 (broadcastInDim S50000x96 ![0, 1] bcast_S1x96_S50000x96_0_1 : (⟨S1x96, .f32⟩ : BufTy).Contents (Elt F) → (⟨S50000x96, .f32⟩ : BufTy).Contents (Elt F)),
    binary main_v233 main_v235 main_v236 (addf : (⟨S50000x96, .f32⟩ : BufTy).Contents (Elt F) → (⟨S50000x96, .f32⟩ : BufTy).Contents (Elt F) → (⟨S50000x96, .f32⟩ : BufTy).Contents (Elt F)) ]

theorem ops4_sub : (ops4 : List (HloOp τ sig (Elt F))).Forall fun op => op.bufs ⊆ tcRefs τ sig :=
  ⟨unary_bufs_sub .., reshape_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..⟩

theorem ops4_fresh : ∀ op ∈ (ops4 : List (HloOp τ sig (Elt F))), op.fresh = ∅ := by
  intro _ h; (repeat (cases h with | head => rfl | tail _ h => ?_)); exact nomatch h

abbrev ops5 : List (HloOp τ sig (Elt F)) :=
  [ nary ![main_v84, main_v160, main_v236] main_v237 (fun u => concatenate S50000x288 1 [⟨S50000x96, u 0⟩, ⟨S50000x96, u 1⟩, ⟨S50000x96, u 2⟩] concatenates_S50000x96_S50000x96_S50000x96_S50000x288_d1),
    binary main_v237 main_arg23 main_v238 ((fun l r => Host.dotGeneral dot_S50000x288_S288x96_S50000x96_1_0_0_1_n_n none l r) : (⟨S50000x288, .f32⟩ : BufTy).Contents (Elt F) → (⟨S288x96, .f32⟩ : BufTy).Contents (Elt F) → (⟨S50000x96, .f32⟩ : BufTy).Contents (Elt F)),
    unary main_arg24 main_v239 (broadcastInDim S1x96 ![1] bcast_S96_S1x96_1 : (⟨S96, .f32⟩ : BufTy).Contents (Elt F) → (⟨S1x96, .f32⟩ : BufTy).Contents (Elt F)),
    unary main_v239 main_v240 (broadcastInDim S50000x96 ![0, 1] bcast_S1x96_S50000x96_0_1 : (⟨S1x96, .f32⟩ : BufTy).Contents (Elt F) → (⟨S50000x96, .f32⟩ : BufTy).Contents (Elt F)),
    binary main_v238 main_v240 main_v241 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S50000x96, .f32⟩) main_call12_v0) (broadcastInDim S50000x96 ![] bcast_S_S50000x96),
    TRef.binary (TRef.of (T := ⟨S50000x96, .f32⟩) main_v241) (TRef.of (T := ⟨S50000x96, .f32⟩) main_call12_v0) (TRef.of (T := ⟨S50000x96, .f32⟩) main_v242) maximumf,
    binary main_v242 main_arg25 main_v243 ((fun l r => Host.dotGeneral dot_S50000x96_S96x64_S50000x64_1_0_0_1_n_n none l r) : (⟨S50000x96, .f32⟩ : BufTy).Contents (Elt F) → (⟨S96x64, .f32⟩ : BufTy).Contents (Elt F) → (⟨S50000x64, .f32⟩ : BufTy).Contents (Elt F)),
    unary main_arg26 main_v244 (broadcastInDim S1x64 ![1] bcast_S64_S1x64_1 : (⟨S64, .f32⟩ : BufTy).Contents (Elt F) → (⟨S1x64, .f32⟩ : BufTy).Contents (Elt F)),
    unary main_v244 main_v245 (broadcastInDim S50000x64 ![0, 1] bcast_S1x64_S50000x64_0_1 : (⟨S1x64, .f32⟩ : BufTy).Contents (Elt F) → (⟨S50000x64, .f32⟩ : BufTy).Contents (Elt F)),
    binary main_v243 main_v245 main_v246 (addf : (⟨S50000x64, .f32⟩ : BufTy).Contents (Elt F) → (⟨S50000x64, .f32⟩ : BufTy).Contents (Elt F) → (⟨S50000x64, .f32⟩ : BufTy).Contents (Elt F)) ]

theorem ops5_sub : (ops5 : List (HloOp τ sig (Elt F))).Forall fun op => op.bufs ⊆ tcRefs τ sig :=
  ⟨nary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..⟩

theorem ops5_fresh : ∀ op ∈ (ops5 : List (HloOp τ sig (Elt F))), op.fresh = ∅ := by
  intro _ h; (repeat (cases h with | head => rfl | tail _ h => ?_)); exact nomatch h

theorem main_part0_eq (c : Dev nD) : main_part0 (F := F) c = seq ops0 := rfl
theorem main_part1_eq (c : Dev nD) : main_part1 (F := F) c = seq ops1 := rfl
theorem main_part2_eq (c : Dev nD) : main_part2 (F := F) c = seq ops2 := rfl
theorem main_part3_eq (c : Dev nD) : main_part3 (F := F) c = seq ops3 := rfl
theorem main_part4_eq (c : Dev nD) : main_part4 (F := F) c = seq (ops4 ++ ops5) := rfl

abbrev ops : List (HloOp τ sig (Elt F)) := ops0 ++ (ops1 ++ (ops2 ++ (ops3 ++ (ops4 ++ ops5))))

theorem main_eq (c : Dev nD) : main (F := F) c = seq ops := by
  unfold ops
  rw [seq_append, seq_append, seq_append, seq_append, ← main_part0_eq c, ← main_part1_eq c, ← main_part2_eq c, ← main_part3_eq c,
    ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  unfold ops
  rw [List.forall_append, List.forall_append, List.forall_append, List.forall_append, List.forall_append]
  exact ⟨ops0_sub, ops1_sub, ops2_sub, ops3_sub, ops4_sub, ops5_sub⟩

theorem ops_fresh : ∀ op ∈ (ops : List (HloOp τ sig (Elt F))), op.fresh = ∅ := by
  intro op h
  unfold ops at h
  rw [List.mem_append, List.mem_append, List.mem_append, List.mem_append, List.mem_append] at h
  rcases h with h | h | h | h | h | h
  · exact ops0_fresh op h
  · exact ops1_fresh op h
  · exact ops2_fresh op h
  · exact ops3_fresh op h
  · exact ops4_fresh op h
  · exact ops5_fresh op h

end Cert.ReferenceIdeal.RefRun

end
-- ==== Proof.RefRunVals.lean ====
/- What each of the six pieces of the reference's operations leaves, from contents that hold the arguments and the values it reads. -/
import proofs.«400244_j19808389169615_3_alg».proof.Proof.RefRunOps
import proofs.«400244_j19808389169615_3_alg».proof.Proof.RefRead
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

structure Ins (F : FTy → Type) where
  x0 : (⟨S50000x128, .f32⟩ : BufTy).Contents (Elt F)
  x1 : (⟨S2x800000, .i32⟩ : BufTy).Contents (Elt F)
  x2 : (⟨S800000x16, .f32⟩ : BufTy).Contents (Elt F)
  x3 : (⟨S128x96, .f32⟩ : BufTy).Contents (Elt F)
  x4 : (⟨S96, .f32⟩ : BufTy).Contents (Elt F)
  x5 : (⟨S1x96, .f32⟩ : BufTy).Contents (Elt F)
  x6 : (⟨S16x96, .f32⟩ : BufTy).Contents (Elt F)
  x7 : (⟨S96, .f32⟩ : BufTy).Contents (Elt F)
  x8 : (⟨S96x96, .f32⟩ : BufTy).Contents (Elt F)
  x9 : (⟨S96, .f32⟩ : BufTy).Contents (Elt F)
  x10 : (⟨S2x16x96, .f32⟩ : BufTy).Contents (Elt F)
  x11 : (⟨S2x96, .f32⟩ : BufTy).Contents (Elt F)
  x12 : (⟨S2x96x96, .f32⟩ : BufTy).Contents (Elt F)
  x13 : (⟨S2x96, .f32⟩ : BufTy).Contents (Elt F)
  x14 : (⟨S2x96x96, .f32⟩ : BufTy).Contents (Elt F)
  x15 : (⟨S2x96, .f32⟩ : BufTy).Contents (Elt F)
  x16 : (⟨S2x96x96, .f32⟩ : BufTy).Contents (Elt F)
  x17 : (⟨S2x96, .f32⟩ : BufTy).Contents (Elt F)
  x18 : (⟨S2, .f32⟩ : BufTy).Contents (Elt F)
  x19 : (⟨S3x96, .f32⟩ : BufTy).Contents (Elt F)
  x20 : (⟨S3x96, .f32⟩ : BufTy).Contents (Elt F)
  x21 : (⟨S3x96, .f32⟩ : BufTy).Contents (Elt F)
  x22 : (⟨S3x96, .f32⟩ : BufTy).Contents (Elt F)
  x23 : (⟨S288x96, .f32⟩ : BufTy).Contents (Elt F)
  x24 : (⟨S96, .f32⟩ : BufTy).Contents (Elt F)
  x25 : (⟨S96x64, .f32⟩ : BufTy).Contents (Elt F)
  x26 : (⟨S64, .f32⟩ : BufTy).Contents (Elt F)

abbrev s1 (X : Ins F) := Read.val_main_v1 (F := F) X.x1
abbrev s3 (X : Ins F) := Read.val_main_v3 (F := F) X.x1
abbrev s7 (X : Ins F) := Read.val_main_v7 (F := F) X.x0 X.x3 X.x4
abbrev s22 (X : Ins F) := Read.val_main_v22 (F := F) X.x1
abbrev s50 (X : Ins F) := Read.val_main_v50 (F := F) X.x0 X.x1 X.x2 X.x3 X.x4 X.x6 X.x7 X.x8 X.x9
abbrev s84 (X : Ins F) := Read.val_main_v84 (F := F) X.x0 X.x1 X.x2 X.x3 X.x4 X.x5 X.x6 X.x7 X.x8 X.x9 X.x19 X.x20 X.x21 X.x22
abbrev s101 (X : Ins F) := Read.val_main_v101 (F := F) X.x2 X.x10 X.x11 X.x12 X.x13
abbrev s106 (X : Ins F) := Read.val_main_v106 (F := F) X.x1
abbrev s160 (X : Ins F) := Read.val_main_v160 (F := F) X.x0 X.x1 X.x2 X.x3 X.x4 X.x5 X.x6 X.x7 X.x8 X.x9 X.x10 X.x11 X.x12 X.x13 X.x14 X.x15 X.x16 X.x17 X.x18 X.x19 X.x20 X.x21 X.x22
abbrev s163 (X : Ins F) := Read.val_main_v163 (F := F) X.x2 X.x10
abbrev s213 (X : Ins F) := Read.val_main_v213 (F := F) X.x0 X.x1 X.x2 X.x3 X.x4 X.x5 X.x6 X.x7 X.x8 X.x9 X.x10 X.x11 X.x12 X.x13 X.x14 X.x15 X.x16 X.x17 X.x18 X.x19 X.x20 X.x21 X.x22
abbrev s215 (X : Ins F) := Read.val_main_v215 (F := F) X.x19
abbrev s217 (X : Ins F) := Read.val_main_v217 (F := F) X.x20
abbrev s219 (X : Ins F) := Read.val_main_v219 (F := F) X.x21
abbrev s236 (X : Ins F) := Read.val_main_v236 (F := F) X.x0 X.x1 X.x2 X.x3 X.x4 X.x5 X.x6 X.x7 X.x8 X.x9 X.x10 X.x11 X.x12 X.x13 X.x14 X.x15 X.x16 X.x17 X.x18 X.x19 X.x20 X.x21 X.x22
abbrev s246 (X : Ins F) := Read.val_main_v246 (F := F) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26

structure ArgsAt (X : Ins F) (W : Valuation τ sig (Elt F)) : Prop where
  a0 : W (Proc.devRef .tc main_arg0) = X.x0
  a1 : W (Proc.devRef .tc main_arg1) = X.x1
  a2 : W (Proc.devRef .tc main_arg2) = X.x2
  a3 : W (Proc.devRef .tc main_arg3) = X.x3
  a4 : W (Proc.devRef .tc main_arg4) = X.x4
  a5 : W (Proc.devRef .tc main_arg5) = X.x5
  a6 : W (Proc.devRef .tc main_arg6) = X.x6
  a7 : W (Proc.devRef .tc main_arg7) = X.x7
  a8 : W (Proc.devRef .tc main_arg8) = X.x8
  a9 : W (Proc.devRef .tc main_arg9) = X.x9
  a10 : W (Proc.devRef .tc main_arg10) = X.x10
  a11 : W (Proc.devRef .tc main_arg11) = X.x11
  a12 : W (Proc.devRef .tc main_arg12) = X.x12
  a13 : W (Proc.devRef .tc main_arg13) = X.x13
  a14 : W (Proc.devRef .tc main_arg14) = X.x14
  a15 : W (Proc.devRef .tc main_arg15) = X.x15
  a16 : W (Proc.devRef .tc main_arg16) = X.x16
  a17 : W (Proc.devRef .tc main_arg17) = X.x17
  a18 : W (Proc.devRef .tc main_arg18) = X.x18
  a19 : W (Proc.devRef .tc main_arg19) = X.x19
  a20 : W (Proc.devRef .tc main_arg20) = X.x20
  a21 : W (Proc.devRef .tc main_arg21) = X.x21
  a22 : W (Proc.devRef .tc main_arg22) = X.x22
  a23 : W (Proc.devRef .tc main_arg23) = X.x23
  a24 : W (Proc.devRef .tc main_arg24) = X.x24
  a25 : W (Proc.devRef .tc main_arg25) = X.x25
  a26 : W (Proc.devRef .tc main_arg26) = X.x26

abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]

theorem ArgsAt.of_keep {X : Ins F} {W W' : Valuation τ sig (Elt F)} (h : ArgsAt X W)
    (k : ∀ r ∈ argRefs, W' (Proc.devRef .tc r) = W (Proc.devRef .tc r)) : ArgsAt X W' where
  a0 := (k main_arg0 (by decide)).trans h.a0
  a1 := (k main_arg1 (by decide)).trans h.a1
  a2 := (k main_arg2 (by decide)).trans h.a2
  a3 := (k main_arg3 (by decide)).trans h.a3
  a4 := (k main_arg4 (by decide)).trans h.a4
  a5 := (k main_arg5 (by decide)).trans h.a5
  a6 := (k main_arg6 (by decide)).trans h.a6
  a7 := (k main_arg7 (by decide)).trans h.a7
  a8 := (k main_arg8 (by decide)).trans h.a8
  a9 := (k main_arg9 (by decide)).trans h.a9
  a10 := (k main_arg10 (by decide)).trans h.a10
  a11 := (k main_arg11 (by decide)).trans h.a11
  a12 := (k main_arg12 (by decide)).trans h.a12
  a13 := (k main_arg13 (by decide)).trans h.a13
  a14 := (k main_arg14 (by decide)).trans h.a14
  a15 := (k main_arg15 (by decide)).trans h.a15
  a16 := (k main_arg16 (by decide)).trans h.a16
  a17 := (k main_arg17 (by decide)).trans h.a17
  a18 := (k main_arg18 (by decide)).trans h.a18
  a19 := (k main_arg19 (by decide)).trans h.a19
  a20 := (k main_arg20 (by decide)).trans h.a20
  a21 := (k main_arg21 (by decide)).trans h.a21
  a22 := (k main_arg22 (by decide)).trans h.a22
  a23 := (k main_arg23 (by decide)).trans h.a23
  a24 := (k main_arg24 (by decide)).trans h.a24
  a25 := (k main_arg25 (by decide)).trans h.a25
  a26 := (k main_arg26 (by decide)).trans h.a26

structure At1 (X : Ins F) (W : Valuation τ sig (Elt F)) : Prop where
  args : ArgsAt X W
  v1 : W (Proc.devRef .tc main_v1) = s1 X
  v3 : W (Proc.devRef .tc main_v3) = s3 X
  v7 : W (Proc.devRef .tc main_v7) = s7 X
  v22 : W (Proc.devRef .tc main_v22) = s22 X
  v50 : W (Proc.devRef .tc main_v50) = s50 X

structure At2 (X : Ins F) (W : Valuation τ sig (Elt F)) : Prop where
  args : ArgsAt X W
  v1 : W (Proc.devRef .tc main_v1) = s1 X
  v3 : W (Proc.devRef .tc main_v3) = s3 X
  v84 : W (Proc.devRef .tc main_v84) = s84 X
  v101 : W (Proc.devRef .tc main_v101) = s101 X
  v106 : W (Proc.devRef .tc main_v106) = s106 X

structure At3 (X : Ins F) (W : Valuation τ sig (Elt F)) : Prop where
  args : ArgsAt X W
  v1 : W (Proc.devRef .tc main_v1) = s1 X
  v3 : W (Proc.devRef .tc main_v3) = s3 X
  v84 : W (Proc.devRef .tc main_v84) = s84 X
  v160 : W (Proc.devRef .tc main_v160) = s160 X
  v163 : W (Proc.devRef .tc main_v163) = s163 X

structure At4 (X : Ins F) (W : Valuation τ sig (Elt F)) : Prop where
  args : ArgsAt X W
  v84 : W (Proc.devRef .tc main_v84) = s84 X
  v160 : W (Proc.devRef .tc main_v160) = s160 X
  v213 : W (Proc.devRef .tc main_v213) = s213 X
  v215 : W (Proc.devRef .tc main_v215) = s215 X
  v217 : W (Proc.devRef .tc main_v217) = s217 X
  v219 : W (Proc.devRef .tc main_v219) = s219 X

structure At5 (X : Ins F) (W : Valuation τ sig (Elt F)) : Prop where
  args : ArgsAt X W
  v84 : W (Proc.devRef .tc main_v84) = s84 X
  v160 : W (Proc.devRef .tc main_v160) = s160 X
  v236 : W (Proc.devRef .tc main_v236) = s236 X

theorem wsub {L : List (Ref sig .tc)} {y : Ref sig .tc} (h : y ∈ L) :
    ({Proc.devRef .tc y} : Finset (DevRef τ sig)) ⊆ (L.map (Proc.devRef (τ := τ) .tc)).toFinset :=
  Finset.singleton_subset_iff.2 (List.mem_toFinset.2 (List.mem_map_of_mem h))

abbrev wr0 : List (Ref sig .tc) :=
  [main_v0, main_v1, main_v2, main_v3, main_v4, main_v5, main_v6, main_v7,
    main_v8, main_v9, main_v10, main_v11, main_call0_cst, main_call0_v0, main_v12, main_v13,
    main_v14, main_v15, main_v16, main_cst, main_v17, main_cst_0, main_v18, main_v19,
    main_v20, main_cst_1, main_v21, main_v22, main_v23, main_c, main_v24, main_v25,
    main_c_2, main_v26, main_v27, main_v28, main_v29, main_v30, main_c_3, main_v31,
    main_v32, main_c_4, main_v33, main_v34, main_v35, main_v36, main_v37, main_v38,
    main_v39, main_c_5, main_v40, main_v41, main_c_6, main_v42, main_v43, main_v44,
    main_v45, main_v46, main_v47, main_call1_cst, main_call1_v0, main_v48, main_v49, main_v50]

theorem ops0_writes : (ops0 : List (HloOp τ sig (Elt F))).Forall fun op =>
    op.writes ⊆ (wr0.map (Proc.devRef (τ := τ) .tc)).toFinset := by
  repeat' constructor
  all_goals exact wsub (by decide)

theorem ops0_keep (W : Valuation τ sig (Elt F)) {r : Ref sig .tc} (hr : r ∉ wr0) :
    after ops0 W (Proc.devRef .tc r) = W (Proc.devRef .tc r) :=
  after_of_writes_sub ops0 W ops0_writes hr

theorem ops0_args (X : Ins F) (W : Valuation τ sig (Elt F)) (h : ArgsAt X W) : ArgsAt X (after ops0 W) :=
  h.of_keep fun r hr => ops0_keep W ((by decide : ∀ r ∈ argRefs, r ∉ wr0) r hr)

theorem ops0_v1 (X : Ins F) (W : Valuation τ sig (Elt F)) (h : ArgsAt X W) :
    after ops0 W (Proc.devRef .tc main_v1) = s1 X := by
  after_results_simp
  rw [h.a1]
  rfl

theorem ops0_v3 (X : Ins F) (W : Valuation τ sig (Elt F)) (h : ArgsAt X W) :
    after ops0 W (Proc.devRef .tc main_v3) = s3 X := by
  after_results_simp
  rw [h.a1]
  rfl

theorem ops0_v7 (X : Ins F) (W : Valuation τ sig (Elt F)) (h : ArgsAt X W) :
    after ops0 W (Proc.devRef .tc main_v7) = s7 X := by
  after_results_simp
  rw [h.a4, h.a3, h.a0]
  rfl

theorem ops0_v22 (X : Ins F) (W : Valuation τ sig (Elt F)) (h : ArgsAt X W) :
    after ops0 W (Proc.devRef .tc main_v22) = s22 X := by
  after_results_simp
  rw [h.a1]
  rfl

theorem ops0_v50 (X : Ins F) (W : Valuation τ sig (Elt F)) (h : ArgsAt X W) :
    after ops0 W (Proc.devRef .tc main_v50) = s50 X := by
  after_results_simp
  rw [h.a9, h.a8, h.a7, h.a6, h.a2, h.a1, h.a4, h.a3, h.a0]
  rfl

theorem step0 (X : Ins F) (W : Valuation τ sig (Elt F)) (h : ArgsAt X W) : At1 X (after ops0 W) where
  args := ops0_args X W h
  v1 := ops0_v1 X W h
  v3 := ops0_v3 X W h
  v7 := ops0_v7 X W h
  v22 := ops0_v22 X W h
  v50 := ops0_v50 X W h

abbrev wr1 : List (Ref sig .tc) :=
  [main_cst_7, main_v51, main_v52, main_v53, main_v54, main_v55, main_call2_cst, main_call2_v0,
    main_v56, main_v57, main_v58, main_v59, main_v60, main_call3_cst, main_call3_v0, main_v61,
    main_v62, main_v63, main_v64, main_v65, main_v66, main_v67, main_v68, main_v69,
    main_v70, main_v71, main_v72, main_cst_8, main_v73, main_v74, main_v75, main_v76,
    main_v77, main_v78, main_v79, main_v80, main_v81, main_v82, main_v83, main_v84,
    main_v85, main_v86, main_v87, main_v88, main_v89, main_v90, main_v91, main_v92,
    main_call4_cst, main_call4_v0, main_v93, main_v94, main_v95, main_v96, main_v97, main_v98,
    main_v99, main_v100, main_v101, main_c_9, main_v102, main_v103, main_c_10, main_v104,
    main_v105, main_v106]

theorem ops1_writes : (ops1 : List (HloOp τ sig (Elt F))).Forall fun op =>
    op.writes ⊆ (wr1.map (Proc.devRef (τ := τ) .tc)).toFinset := by
  repeat' constructor
  all_goals exact wsub (by decide)

theorem ops1_keep (W : Valuation τ sig (Elt F)) {r : Ref sig .tc} (hr : r ∉ wr1) :
    after ops1 W (Proc.devRef .tc r) = W (Proc.devRef .tc r) :=
  after_of_writes_sub ops1 W ops1_writes hr

theorem ops1_args (X : Ins F) (W : Valuation τ sig (Elt F)) (h : ArgsAt X W) : ArgsAt X (after ops1 W) :=
  h.of_keep fun r hr => ops1_keep W ((by decide : ∀ r ∈ argRefs, r ∉ wr1) r hr)

theorem ops1_v84 (X : Ins F) (W : Valuation τ sig (Elt F)) (h : At1 X W) :
    after ops1 W (Proc.devRef .tc main_v84) = s84 X := by
  after_results_simp
  rw [h.args.a20, h.args.a19, h.args.a22, h.args.a21, h.v22, h.args.a5, h.v7, h.v50, h.v3]
  rfl

theorem ops1_v101 (X : Ins F) (W : Valuation τ sig (Elt F)) (h : At1 X W) :
    after ops1 W (Proc.devRef .tc main_v101) = s101 X := by
  after_results_simp
  rw [h.args.a13, h.args.a12, h.args.a11, h.args.a10, h.args.a2]
  rfl

theorem ops1_v106 (X : Ins F) (W : Valuation τ sig (Elt F)) (h : At1 X W) :
    after ops1 W (Proc.devRef .tc main_v106) = s106 X := by
  after_results_simp
  rw [h.v1]
  rfl

theorem step1 (X : Ins F) (W : Valuation τ sig (Elt F)) (h : At1 X W) : At2 X (after ops1 W) where
  args := ops1_args X W h.args
  v1 := (ops1_keep W (by decide)).trans h.v1
  v3 := (ops1_keep W (by decide)).trans h.v3
  v84 := ops1_v84 X W h
  v101 := ops1_v101 X W h
  v106 := ops1_v106 X W h

abbrev wr2 : List (Ref sig .tc) :=
  [main_v107, main_v108, main_v109, main_call5_cst, main_call5_v0, main_v110, main_cst_11, main_v111,
    main_v112, main_v113, main_v114, main_v115, main_cst_12, main_v116, main_v117, main_v118,
    main_v119, main_v120, main_v121, main_v122, main_v123, main_v124, main_v125, main_v126,
    main_v127, main_call6_cst, main_call6_v0, main_v128, main_v129, main_v130, main_v131, main_v132,
    main_v133, main_v134, main_v135, main_v136, main_call7_cst, main_call7_v0, main_v137, main_v138,
    main_v139, main_v140, main_v141, main_v142, main_v143, main_v144, main_v145, main_v146,
    main_v147, main_v148, main_cst_13, main_v149, main_v150, main_v151, main_v152, main_v153,
    main_v154, main_v155, main_v156, main_v157, main_v158, main_v159, main_v160, main_v161,
    main_v162, main_v163]

theorem ops2_writes : (ops2 : List (HloOp τ sig (Elt F))).Forall fun op =>
    op.writes ⊆ (wr2.map (Proc.devRef (τ := τ) .tc)).toFinset := by
  repeat' constructor
  all_goals exact wsub (by decide)

theorem ops2_keep (W : Valuation τ sig (Elt F)) {r : Ref sig .tc} (hr : r ∉ wr2) :
    after ops2 W (Proc.devRef .tc r) = W (Proc.devRef .tc r) :=
  after_of_writes_sub ops2 W ops2_writes hr

theorem ops2_args (X : Ins F) (W : Valuation τ sig (Elt F)) (h : ArgsAt X W) : ArgsAt X (after ops2 W) :=
  h.of_keep fun r hr => ops2_keep W ((by decide : ∀ r ∈ argRefs, r ∉ wr2) r hr)

theorem ops2_v160 (X : Ins F) (W : Valuation τ sig (Elt F)) (h : At2 X W) :
    after ops2 W (Proc.devRef .tc main_v160) = s160 X := by
  after_results_simp
  rw [h.args.a20, h.args.a19, h.args.a22, h.args.a21, h.args.a17, h.args.a16, h.args.a15, h.args.a14, h.v101, h.v106, h.v84, h.v3, h.args.a18]
  rfl

theorem ops2_v163 (X : Ins F) (W : Valuation τ sig (Elt F)) (h : At2 X W) :
    after ops2 W (Proc.devRef .tc main_v163) = s163 X := by
  after_results_simp
  rw [h.args.a10, h.args.a2]
  rfl

theorem step2 (X : Ins F) (W : Valuation τ sig (Elt F)) (h : At2 X W) : At3 X (after ops2 W) where
  args := ops2_args X W h.args
  v1 := (ops2_keep W (by decide)).trans h.v1
  v3 := (ops2_keep W (by decide)).trans h.v3
  v84 := (ops2_keep W (by decide)).trans h.v84
  v160 := ops2_v160 X W h
  v163 := ops2_v163 X W h

abbrev wr3 : List (Ref sig .tc) :=
  [main_v164, main_v165, main_v166, main_v167, main_v168, main_call8_cst, main_call8_v0, main_v169,
    main_v170, main_v171, main_v172, main_v173, main_v174, main_v175, main_v176, main_v177,
    main_c_14, main_v178, main_v179, main_c_15, main_v180, main_v181, main_v182, main_v183,
    main_v184, main_v185, main_call9_cst, main_call9_v0, main_v186, main_cst_16, main_v187, main_v188,
    main_v189, main_v190, main_v191, main_cst_17, main_v192, main_v193, main_v194, main_v195,
    main_v196, main_v197, main_v198, main_v199, main_v200, main_v201, main_v202, main_v203,
    main_call10_cst, main_call10_v0, main_v204, main_v205, main_v206, main_v207, main_v208, main_v209,
    main_v210, main_v211, main_v212, main_call11_cst, main_call11_v0, main_v213, main_v214, main_v215,
    main_v216, main_v217, main_v218, main_v219]

theorem ops3_writes : (ops3 : List (HloOp τ sig (Elt F))).Forall fun op =>
    op.writes ⊆ (wr3.map (Proc.devRef (τ := τ) .tc)).toFinset := by
  repeat' constructor
  all_goals exact wsub (by decide)

theorem ops3_keep (W : Valuation τ sig (Elt F)) {r : Ref sig .tc} (hr : r ∉ wr3) :
    after ops3 W (Proc.devRef .tc r) = W (Proc.devRef .tc r) :=
  after_of_writes_sub ops3 W ops3_writes hr

theorem ops3_args (X : Ins F) (W : Valuation τ sig (Elt F)) (h : ArgsAt X W) : ArgsAt X (after ops3 W) :=
  h.of_keep fun r hr => ops3_keep W ((by decide : ∀ r ∈ argRefs, r ∉ wr3) r hr)

theorem ops3_v213 (X : Ins F) (W : Valuation τ sig (Elt F)) (h : At3 X W) :
    after ops3 W (Proc.devRef .tc main_v213) = s213 X := by
  after_results_simp
  rw [h.args.a17, h.args.a16, h.args.a15, h.args.a14, h.args.a13, h.args.a12, h.args.a11, h.v163, h.v1, h.v160, h.v3, h.args.a18]
  rfl

theorem ops3_v215 (X : Ins F) (W : Valuation τ sig (Elt F)) (h : At3 X W) :
    after ops3 W (Proc.devRef .tc main_v215) = s215 X := by
  after_results_simp
  rw [h.args.a19]
  rfl

theorem ops3_v217 (X : Ins F) (W : Valuation τ sig (Elt F)) (h : At3 X W) :
    after ops3 W (Proc.devRef .tc main_v217) = s217 X := by
  after_results_simp
  rw [h.args.a20]
  rfl

theorem ops3_v219 (X : Ins F) (W : Valuation τ sig (Elt F)) (h : At3 X W) :
    after ops3 W (Proc.devRef .tc main_v219) = s219 X := by
  after_results_simp
  rw [h.args.a21]
  rfl

theorem step3 (X : Ins F) (W : Valuation τ sig (Elt F)) (h : At3 X W) : At4 X (after ops3 W) where
  args := ops3_args X W h.args
  v84 := (ops3_keep W (by decide)).trans h.v84
  v160 := (ops3_keep W (by decide)).trans h.v160
  v213 := ops3_v213 X W h
  v215 := ops3_v215 X W h
  v217 := ops3_v217 X W h
  v219 := ops3_v219 X W h

abbrev wr4 : List (Ref sig .tc) :=
  [main_v220, main_v221, main_v222, main_v223, main_v224, main_cst_18, main_v225, main_v226,
    main_v227, main_v228, main_v229, main_v230, main_v231, main_v232, main_v233, main_v234,
    main_v235, main_v236]

theorem ops4_writes : (ops4 : List (HloOp τ sig (Elt F))).Forall fun op =>
    op.writes ⊆ (wr4.map (Proc.devRef (τ := τ) .tc)).toFinset := by
  repeat' constructor
  all_goals exact wsub (by decide)

theorem ops4_keep (W : Valuation τ sig (Elt F)) {r : Ref sig .tc} (hr : r ∉ wr4) :
    after ops4 W (Proc.devRef .tc r) = W (Proc.devRef .tc r) :=
  after_of_writes_sub ops4 W ops4_writes hr

theorem ops4_args (X : Ins F) (W : Valuation τ sig (Elt F)) (h : ArgsAt X W) : ArgsAt X (after ops4 W) :=
  h.of_keep fun r hr => ops4_keep W ((by decide : ∀ r ∈ argRefs, r ∉ wr4) r hr)

theorem ops4_v236 (X : Ins F) (W : Valuation τ sig (Elt F)) (h : At4 X W) :
    after ops4 W (Proc.devRef .tc main_v236) = s236 X := by
  after_results_simp
  rw [h.v217, h.v215, h.args.a22, h.v219, h.v213]
  rfl

theorem step4 (X : Ins F) (W : Valuation τ sig (Elt F)) (h : At4 X W) : At5 X (after ops4 W) where
  args := ops4_args X W h.args
  v84 := (ops4_keep W (by decide)).trans h.v84
  v160 := (ops4_keep W (by decide)).trans h.v160
  v236 := ops4_v236 X W h

abbrev wr5 : List (Ref sig .tc) :=
  [main_v237, main_v238, main_v239, main_v240, main_v241, main_call12_cst, main_call12_v0, main_v242,
    main_v243, main_v244, main_v245, main_v246]

theorem ops5_writes : (ops5 : List (HloOp τ sig (Elt F))).Forall fun op =>
    op.writes ⊆ (wr5.map (Proc.devRef (τ := τ) .tc)).toFinset := by
  repeat' constructor
  all_goals exact wsub (by decide)

theorem ops5_keep (W : Valuation τ sig (Elt F)) {r : Ref sig .tc} (hr : r ∉ wr5) :
    after ops5 W (Proc.devRef .tc r) = W (Proc.devRef .tc r) :=
  after_of_writes_sub ops5 W ops5_writes hr

theorem ops5_args (X : Ins F) (W : Valuation τ sig (Elt F)) (h : ArgsAt X W) : ArgsAt X (after ops5 W) :=
  h.of_keep fun r hr => ops5_keep W ((by decide : ∀ r ∈ argRefs, r ∉ wr5) r hr)

theorem ops5_v246 (X : Ins F) (W : Valuation τ sig (Elt F)) (h : At5 X W) :
    after ops5 W (Proc.devRef .tc main_v246) = s246 X := by
  after_results_simp
  have e84 : W (Proc.devRef .tc (![main_v84, main_v160, main_v236] 0)) = s84 X := h.v84
  have e160 : W (Proc.devRef .tc (![main_v84, main_v160, main_v236] 1)) = s160 X := h.v160
  have e236 : W (Proc.devRef .tc (![main_v84, main_v160, main_v236] 2)) = s236 X := h.v236
  rw [e84, e160, e236, h.args.a23, h.args.a24, h.args.a25, h.args.a26]
  rfl

theorem after_ops (V : Valuation τ sig (Elt F)) :
    after ops V = after ops5 (after ops4 (after ops3 (after ops2 (after ops1 (after ops0 V))))) := by
  unfold ops
  rw [after_append, after_append, after_append, after_append, after_append]

theorem after_ops_result (X : Ins F) (V : Valuation τ sig (Elt F)) (h : ArgsAt X V) :
    after ops V (Proc.devRef .tc main_v246) = s246 X ∧ ArgsAt X (after ops V) := by
  rw [after_ops]
  have h5 := step4 X _ (step3 X _ (step2 X _ (step1 X _ (step0 X V h))))
  exact ⟨ops5_v246 X _ h5, ops5_args X _ h5.args⟩

end Cert.ReferenceIdeal.RefRun

end
-- ==== Proof.RefRun.lean ====
/- The reference's run ends with the result at the last stage's value and every argument array unchanged. -/
import proofs.«400244_j19808389169615_3_alg».proof.Proof.RefRead
import proofs.«400244_j19808389169615_3_alg».proof.Proof.RefRunVals

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v246) = Cert.ReferenceIdeal.Read.val_main_v246 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) := by
  refine (θ_run defs _ _).mono (fun r h c => ?_)
    (run_seq scopedRefs_eq scopedSems_eq defs main (fun _ => ops) main_eq (fun _ => ops_sub) m ρ (fun _ => ops_fresh))
  obtain ⟨hv, ha⟩ := after_ops_result (F := F)
    ⟨(m ((c.tc : Thread nD τ).loc main_arg0)),
      (m ((c.tc : Thread nD τ).loc main_arg1)),
      (m ((c.tc : Thread nD τ).loc main_arg2)),
      (m ((c.tc : Thread nD τ).loc main_arg3)),
      (m ((c.tc : Thread nD τ).loc main_arg4)),
      (m ((c.tc : Thread nD τ).loc main_arg5)),
      (m ((c.tc : Thread nD τ).loc main_arg6)),
      (m ((c.tc : Thread nD τ).loc main_arg7)),
      (m ((c.tc : Thread nD τ).loc main_arg8)),
      (m ((c.tc : Thread nD τ).loc main_arg9)),
      (m ((c.tc : Thread nD τ).loc main_arg10)),
      (m ((c.tc : Thread nD τ).loc main_arg11)),
      (m ((c.tc : Thread nD τ).loc main_arg12)),
      (m ((c.tc : Thread nD τ).loc main_arg13)),
      (m ((c.tc : Thread nD τ).loc main_arg14)),
      (m ((c.tc : Thread nD τ).loc main_arg15)),
      (m ((c.tc : Thread nD τ).loc main_arg16)),
      (m ((c.tc : Thread nD τ).loc main_arg17)),
      (m ((c.tc : Thread nD τ).loc main_arg18)),
      (m ((c.tc : Thread nD τ).loc main_arg19)),
      (m ((c.tc : Thread nD τ).loc main_arg20)),
      (m ((c.tc : Thread nD τ).loc main_arg21)),
      (m ((c.tc : Thread nD τ).loc main_arg22)),
      (m ((c.tc : Thread nD τ).loc main_arg23)),
      (m ((c.tc : Thread nD τ).loc main_arg24)),
      (m ((c.tc : Thread nD τ).loc main_arg25)),
      (m ((c.tc : Thread nD τ).loc main_arg26))⟩
    (launchContents m c)
    ⟨rfl, rfl, rfl, rfl, rfl, rfl, rfl, rfl, rfl, rfl, rfl, rfl, rfl, rfl, rfl, rfl, rfl, rfl, rfl, rfl, rfl, rfl, rfl, rfl, rfl, rfl, rfl⟩
  exact ⟨(h c main_v246).trans hv,
    (h c main_arg0).trans ha.a0,
    (h c main_arg1).trans ha.a1,
    (h c main_arg2).trans ha.a2,
    (h c main_arg3).trans ha.a3,
    (h c main_arg4).trans ha.a4,
    (h c main_arg5).trans ha.a5,
    (h c main_arg6).trans ha.a6,
    (h c main_arg7).trans ha.a7,
    (h c main_arg8).trans ha.a8,
    (h c main_arg9).trans ha.a9,
    (h c main_arg10).trans ha.a10,
    (h c main_arg11).trans ha.a11,
    (h c main_arg12).trans ha.a12,
    (h c main_arg13).trans ha.a13,
    (h c main_arg14).trans ha.a14,
    (h c main_arg15).trans ha.a15,
    (h c main_arg16).trans ha.a16,
    (h c main_arg17).trans ha.a17,
    (h c main_arg18).trans ha.a18,
    (h c main_arg19).trans ha.a19,
    (h c main_arg20).trans ha.a20,
    (h c main_arg21).trans ha.a21,
    (h c main_arg22).trans ha.a22,
    (h c main_arg23).trans ha.a23,
    (h c main_arg24).trans ha.a24,
    (h c main_arg25).trans ha.a25,
    (h c main_arg26).trans ha.a26⟩

end Cert.ReferenceIdeal.RefRun

end
-- ==== Proof.Stages.lean ====
/- Names for the values each program hands from one stage to the next, and the two index conditions the comparison uses. -/
import proofs.«400244_j19808389169615_3_alg».proof.Proof.Gen.KernelIdeal.Frame
import proofs.«400244_j19808389169615_3_alg».proof.Proof.RefRead
import Idealize.ShloMosaic.Lib.ValueIdx

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)
abbrev a12 := m ((c : Thread nD τ).loc main_arg12)
abbrev a13 := m ((c : Thread nD τ).loc main_arg13)
abbrev a14 := m ((c : Thread nD τ).loc main_arg14)
abbrev a15 := m ((c : Thread nD τ).loc main_arg15)
abbrev a16 := m ((c : Thread nD τ).loc main_arg16)
abbrev a17 := m ((c : Thread nD τ).loc main_arg17)
abbrev a18 := m ((c : Thread nD τ).loc main_arg18)
abbrev a19 := m ((c : Thread nD τ).loc main_arg19)
abbrev a20 := m ((c : Thread nD τ).loc main_arg20)
abbrev a21 := m ((c : Thread nD τ).loc main_arg21)
abbrev a22 := m ((c : Thread nD τ).loc main_arg22)
abbrev a23 := m ((c : Thread nD τ).loc main_arg23)
abbrev a24 := m ((c : Thread nD τ).loc main_arg24)
abbrev a25 := m ((c : Thread nD τ).loc main_arg25)
abbrev a26 := m ((c : Thread nD τ).loc main_arg26)

abbrev kRow : IVec S800000 32 := W1 m ρ c (Proc.devRef .tc main_v1)

abbrev kCol : IVec S800000 32 := W1 m ρ c (Proc.devRef .tc main_v3)

abbrev kDeg : FVec Ideal S50000 .f32 := W1 m ρ c (Proc.devRef .tc main_v9)

abbrev kDinv : FVec Ideal S50000 .f32 := W1 m ρ c (Proc.devRef .tc main_v10)

abbrev kTakeR : FVec Ideal S800000 .f32 := W2 m ρ c (Proc.devRef .tc main_v11)

abbrev kTakeC : FVec Ideal S800000 .f32 := W3 m ρ c (Proc.devRef .tc main_v12)

abbrev kEa17 : FVec Ideal S800000x17 .f32 := W4 m ρ c (Proc.devRef .tc main_v15)

abbrev kH0 : FVec Ideal S50000x96 .f32 := W5 m ρ c (Proc.devRef .tc main_v17)

abbrev kHrow0 : FVec Ideal S800000x96 .f32 := W6 m ρ c (Proc.devRef .tc main_v18)

abbrev kMsg0 : FVec Ideal S800000x96 .f32 := W8 m ρ c (Proc.devRef .tc main_v21)

abbrev kAgg0 : FVec Ideal S50000x96 .f32 := W9 m ρ c (Proc.devRef .tc main_v24)

abbrev kAggDeg : FVec Ideal S50000x97 .f32 := W9 m ρ c (Proc.devRef .tc main_v34)

abbrev kH1 : FVec Ideal S50000x96 .f32 := W10 m ρ c (Proc.devRef .tc main_v39)
abbrev kHrow1 : FVec Ideal S800000x96 .f32 := W11 m ρ c (Proc.devRef .tc main_v40)
abbrev kMsg1 : FVec Ideal S800000x96 .f32 := W13 m ρ c (Proc.devRef .tc main_v51)
abbrev kAgg1 : FVec Ideal S50000x96 .f32 := W14 m ρ c (Proc.devRef .tc main_v54)

abbrev kH2 : FVec Ideal S50000x96 .f32 := W15 m ρ c (Proc.devRef .tc main_v80)
abbrev kHrow2 : FVec Ideal S800000x96 .f32 := W16 m ρ c (Proc.devRef .tc main_v81)
abbrev kMsg2 : FVec Ideal S800000x96 .f32 := W18 m ρ c (Proc.devRef .tc main_v92)
abbrev kAgg2 : FVec Ideal S50000x96 .f32 := W19 m ρ c (Proc.devRef .tc main_v95)

abbrev kH3 : FVec Ideal S50000x96 .f32 := W20 m ρ c (Proc.devRef .tc main_v121)

abbrev kOut : FVec Ideal S50000x64 .f32 := W22 m ρ c (Proc.devRef .tc main_v127)

def rRow := Cert.ReferenceIdeal.Read.val_main_v1 (F := Ideal) (a1 m c)
def rCol := Cert.ReferenceIdeal.Read.val_main_v3 (F := Ideal) (a1 m c)
def rH0 := Cert.ReferenceIdeal.Read.val_main_v7 (F := Ideal) (a0 m c) (a3 m c) (a4 m c)
def rDeg := Cert.ReferenceIdeal.Read.val_main_v22 (F := Ideal) (a1 m c)
def rDinv := Cert.ReferenceIdeal.Read.val_main_v23 (F := Ideal) (a1 m c)
def rNorm := Cert.ReferenceIdeal.Read.val_main_v38 (F := Ideal) (a1 m c)
def rHrow0 := Cert.ReferenceIdeal.Read.val_main_v46 (F := Ideal) (a0 m c) (a1 m c) (a3 m c) (a4 m c)
def rMsg0 := Cert.ReferenceIdeal.Read.val_main_v50 (F := Ideal) (a0 m c) (a1 m c) (a2 m c) (a3 m c) (a4 m c) (a6 m c) (a7 m c) (a8 m c) (a9 m c)
def rAgg0 := Cert.ReferenceIdeal.Read.val_main_v53 (F := Ideal) (a0 m c) (a1 m c) (a2 m c) (a3 m c) (a4 m c) (a6 m c) (a7 m c) (a8 m c) (a9 m c)
def rH1 := Cert.ReferenceIdeal.Read.val_main_v84 (F := Ideal) (a0 m c) (a1 m c) (a2 m c) (a3 m c) (a4 m c) (a5 m c) (a6 m c) (a7 m c) (a8 m c) (a9 m c) (a19 m c) (a20 m c) (a21 m c) (a22 m c)
def rHrow1 := Cert.ReferenceIdeal.Read.val_main_v108 (F := Ideal) (a0 m c) (a1 m c) (a2 m c) (a3 m c) (a4 m c) (a5 m c) (a6 m c) (a7 m c) (a8 m c) (a9 m c) (a19 m c) (a20 m c) (a21 m c) (a22 m c)
def rMsg1 := Cert.ReferenceIdeal.Read.val_main_v110 (F := Ideal) (a0 m c) (a1 m c) (a2 m c) (a3 m c) (a4 m c) (a5 m c) (a6 m c) (a7 m c) (a8 m c) (a9 m c) (a10 m c) (a11 m c) (a12 m c) (a13 m c) (a19 m c) (a20 m c) (a21 m c) (a22 m c)
def rAgg1 := Cert.ReferenceIdeal.Read.val_main_v113 (F := Ideal) (a0 m c) (a1 m c) (a2 m c) (a3 m c) (a4 m c) (a5 m c) (a6 m c) (a7 m c) (a8 m c) (a9 m c) (a10 m c) (a11 m c) (a12 m c) (a13 m c) (a19 m c) (a20 m c) (a21 m c) (a22 m c)
def rH2 := Cert.ReferenceIdeal.Read.val_main_v160 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c)
def rHrow2 := Cert.ReferenceIdeal.Read.val_main_v184 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c)
def rMsg2 := Cert.ReferenceIdeal.Read.val_main_v186 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c)
def rAgg2 := Cert.ReferenceIdeal.Read.val_main_v189 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c)
def rH3 := Cert.ReferenceIdeal.Read.val_main_v236 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c)
def rOut := Cert.ReferenceIdeal.Read.val_main_v246 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c)

def RowOk : Prop := ∀ e : Fin 800000, -50000 ≤ (kRow m ρ c (ix1 e)).toInt ∧ (kRow m ρ c (ix1 e)).toInt < 50000

def ColIn (e : Fin 800000) : Prop := 0 ≤ (kCol m ρ c (ix1 e)).toInt ∧ (kCol m ρ c (ix1 e)).toInt < 50000

end Cert.Bridge

end
-- ==== Proof.Walk.lean ====
/- A buffer read across operations that do not write it. -/
import proofs.«400244_j19808389169615_3_alg».proof.Proof.Gen.KernelIdeal.Frame

namespace Cert.Bridge

open Idealize.ShloMosaic

macro "skip_host " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

end Cert.Bridge
-- ==== Proof.StepIdxWord.lean ====
/- An index in [-50000, 50000), with 50000 added when negative, lies in [0, 49999], so its range test is 1. -/
import Idealize.ShloMosaic.Lib.ReduceAll
import Idealize.ShloMosaic.Lib.ValueIdx

namespace Cert.Bridge.Idx.Word

open Idealize.ShloMosaic

def wrap (w : BitVec 32) : BitVec 32 := Scalar.select (IntOp.cmpi .slt w 0#32) (IntOp.addi w 50000#32) w

theorem toInt_zero32 : (0#32 : BitVec 32).toInt = 0 := by decide
theorem toInt_50000 : (50000#32 : BitVec 32).toInt = 50000 := by decide
theorem toInt_49999 : (49999#32 : BitVec 32).toInt = 49999 := by decide

theorem wrap_of_neg (w : BitVec 32) (hn : w.toInt < 0) : wrap w = w + 50000#32 := by
  have hs : w.slt 0#32 = true := by rw [BitVec.slt, toInt_zero32]; exact decide_eq_true hn
  show (if BitVec.ofBool (w.slt 0#32) = 1 then w + 50000#32 else w) = _
  rw [hs]; rfl

theorem wrap_of_nonneg (w : BitVec 32) (hn : 0 ≤ w.toInt) : wrap w = w := by
  have hs : w.slt 0#32 = false := by rw [BitVec.slt, toInt_zero32]; exact decide_eq_false (by omega)
  show (if BitVec.ofBool (w.slt 0#32) = 1 then w + 50000#32 else w) = _
  rw [hs]; rfl

theorem wrap_range (w : BitVec 32) (h : -50000 ≤ w.toInt ∧ w.toInt < 50000) :
    0 ≤ (wrap w).toInt ∧ (wrap w).toInt ≤ 49999 := by
  by_cases hn : w.toInt < 0
  · rw [wrap_of_neg w hn, BitVec.toInt_add, toInt_50000, Int.bmod_eq_of_le_mul_two (by omega) (by omega)]
    omega
  · rw [wrap_of_nonneg w (by omega)]; omega

theorem mask_wrap (w : BitVec 32) (h : -50000 ≤ w.toInt ∧ w.toInt < 50000) :
    IntOp.andi (IntOp.cmpi .sge (wrap w) 0#32) (IntOp.cmpi .sle (wrap w) 49999#32) = 1#1 := by
  obtain ⟨a, b⟩ := wrap_range w h
  have e1 : IntOp.cmpi .sge (wrap w) 0#32 = 1#1 := by
    show BitVec.ofBool ((0#32 : BitVec 32).sle (wrap w)) = 1#1
    have : (0#32 : BitVec 32).sle (wrap w) = true := by rw [BitVec.sle, toInt_zero32]; exact decide_eq_true a
    rw [this]; rfl
  have e2 : IntOp.cmpi .sle (wrap w) 49999#32 = 1#1 := by
    show BitVec.ofBool ((wrap w).sle 49999#32) = 1#1
    have : (wrap w).sle 49999#32 = true := by rw [BitVec.sle, toInt_49999]; exact decide_eq_true b
    rw [this]; rfl
  rw [e1, e2]; rfl

theorem clamp_wrap (w : BitVec 32) (h : -50000 ≤ w.toInt ∧ w.toInt < 50000) :
    min (wrap w).toInt.toNat (50000 - 1) = (wrap w).toInt.toNat := by
  obtain ⟨a, b⟩ := wrap_range w h
  omega

theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  refine foldl_andi_ones x _ fun i hi => hx i ?_
  have := (List.mem_filter.1 hi).2
  simpa using this

end Cert.Bridge.Idx.Word
-- ==== Proof.StepIdxTake.lean ====
/- Kernel side: for an index in [-50000, 50000) a take with fill is the plain gather at the wrapped index. -/
import proofs.«400244_j19808389169615_3_alg».proof.Proof.Gen.KernelIdeal.Frame
import proofs.«400244_j19808389169615_3_alg».proof.Proof.Walk
import proofs.«400244_j19808389169615_3_alg».proof.Proof.StepIdxWord
import Idealize.ShloMosaic.Lib.StableHlo.Run
import Idealize.ShloMosaic.Lib.ValueIdx
import Idealize.ShloMosaic.Lib.Pipeline.Value

noncomputable section

namespace Cert.Bridge.Idx

open Idealize.ShloMosaic Idealize.ShloMosaic.TcCoe Idealize.SL.Sem Idealize.ShloMosaic.ValueIdx
open Cert.KernelIdeal Cert.KernelIdeal.Gen

def wrapCol (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

def okBit (v : IVec S800000x1 32) : IVec S800000 1 :=
  Host.reduce IntOp.andi
    (andi (cmpi .sge v (broadcastInDim S800000x1 ![] bcast_S_S800000x1 (constantI S_ 32 0#32)))
      (cmpi .sle v (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

def takeVec (x : FVec Ideal S50000 .f32) (idx : IVec S800000 32) : FVec Ideal S800000 .f32 :=
  select (okBit (wrapCol idx)) (Host.gather gather_S50000_S800000x1_S800000_n_0_n_n_0_1_1 x (wrapCol idx))
    (broadcastInDim S800000 ![] bcast_S_S800000 (constant (F := Ideal) S_ .f32 0x7FC00000#32))

def takeRows (x : FVec Ideal S50000x96 .f32) (idx : IVec S800000 32) : FVec Ideal S800000x96 .f32 :=
  select (broadcastInDim S800000x96 ![0] bcast_S800000_S800000x96_0 (okBit (wrapCol idx)))
    (Host.gather gather_S50000x96_S800000x1_S800000x96_1_0_n_n_0_1_196 x (wrapCol idx))
    (broadcastInDim S800000x96 ![] bcast_S_S800000x96 (constant (F := Ideal) S_ .f32 0x7FC00000#32))

theorem wrapCol_apply (idx : IVec S800000 32) (i : S800000x1.Idx) :
    wrapCol idx i = Word.wrap (idx (ix1 (i 0))) := by
  unfold wrapCol
  rw [broadcastInDim_apply _ bcast_S800000_S800000x1_0 _ i (ix1 (i 0)) (fun a => match a with
    | ⟨0, _⟩ => by show (i 0).val = if (800000 : Nat) = 1 then 0 else (i 0).val; rw [if_neg (by decide)])]
  rfl

theorem okBit_wrapCol (idx : IVec S800000 32) (e : Fin 800000)
    (h : -50000 ≤ (idx (ix1 e)).toInt ∧ (idx (ix1 e)).toInt < 50000) : okBit (wrapCol idx) (ix1 e) = 1#1 := by
  unfold okBit
  refine Word.reduce_andi_ones _ _ _ _ _ rfl fun i hi => ?_
  have h0 : i 0 = e := by
    apply Fin.ext
    have hv := Shape.ReducesTo.drop_apply_val_of_eq reducesTo_S800000x1_S800000_d1 i 0 0
    rw [hi] at hv
    exact hv.symm
  show IntOp.andi (IntOp.cmpi .sge (wrapCol idx i) 0#32) (IntOp.cmpi .sle (wrapCol idx i) 49999#32) = 1#1
  rw [wrapCol_apply, h0]
  exact Word.mask_wrap _ h

theorem takeVec_apply (x : FVec Ideal S50000 .f32) (idx : IVec S800000 32) (e : Fin 800000)
    (h : -50000 ≤ (idx (ix1 e)).toInt ∧ (idx (ix1 e)).toInt < 50000) :
    takeVec x idx (ix1 e) = Host.gather gather_S50000_S800000x1_S800000_n_0_n_n_0_1_1 x (wrapCol idx) (ix1 e) := by
  unfold takeVec
  rw [select_apply, okBit_wrapCol idx e h, select_one]

theorem takeRows_eq (x : FVec Ideal S50000x96 .f32) (idx : IVec S800000 32)
    (h : ∀ e : Fin 800000, -50000 ≤ (idx (ix1 e)).toInt ∧ (idx (ix1 e)).toInt < 50000) :
    takeRows x idx = Host.gather gather_S50000x96_S800000x1_S800000x96_1_0_n_n_0_1_196 x (wrapCol idx) := by
  funext i
  unfold takeRows
  rw [select_apply, broadcastInDim_apply _ bcast_S800000_S800000x96_0 _ i (ix1 (i 0)) (fun a => match a with
    | ⟨0, _⟩ => by show (i 0).val = if (800000 : Nat) = 1 then 0 else (i 0).val; rw [if_neg (by decide)]),
    okBit_wrapCol idx (i 0) (h (i 0)), select_one]

def cat17 (x2 : FVec Ideal S800000x16 .f32) (w : FVec Ideal S800000 .f32) : FVec Ideal S800000x17 .f32 :=
  concatenate S800000x17 1 [⟨S800000x16, x2⟩, ⟨S800000x1, shapeCast S800000x1 w shapeCasts_S800000_S800000x1⟩]
    concatenates_S800000x16_S800000x1_S800000x17_d1

theorem cat17_left (x2 : FVec Ideal S800000x16 .f32) (w : FVec Ideal S800000 .f32) (e : Fin 800000) (l : Fin 16) :
    cat17 x2 w (ix2 e (Fin.castLE (by decide : 16 ≤ 17) l)) = x2 (ix2 e l) := by
  unfold cat17
  exact concatenate_pair_apply_left 1 x2 _ concatenates_S800000x16_S800000x1_S800000x17_d1 _ rfl (ix2 e l)
    (fun b => match b with | ⟨0, _⟩ => rfl | ⟨1, _⟩ => rfl)

theorem cat17_right (x2 : FVec Ideal S800000x16 .f32) (w : FVec Ideal S800000 .f32) (e : Fin 800000) :
    cat17 x2 w (ix2 e (16 : Fin 17)) = w (ix1 e) := by
  unfold cat17
  rw [concatenate_pair_apply_right 1 x2 _ concatenates_S800000x16_S800000x1_S800000x17_d1 (ix2 e (16 : Fin 17)) rfl rfl
    (ix2 e (0 : Fin 1)) (fun b => match b with | ⟨0, _⟩ => fun _ => rfl | ⟨1, _⟩ => fun hb => absurd rfl hb) rfl]
  exact shapeCast_apply w shapeCasts_S800000_S800000x1 (ix2 e (0 : Fin 1)) (ix1 e)
    (by rewrite [Shape.rowMajor_val_two, Shape.rowMajor_val_one]; show e.val = e.val * 1 + 0; omega)

variable (m : (ℓ : Loc nD τ sig) → Buf (Elt Ideal) ℓ) (ρ : Dev nD → PrngReg) (c : Dev nD)

theorem row_val : W1 m ρ c (Proc.devRef .tc main_v1)
    = shapeCast S800000 (extractStridedSlice S1x800000 ![0, 0] (m ((c : Thread nD τ).loc main_arg1)) slices_S2x800000_S1x800000_0_0)
        shapeCasts_S1x800000_S800000 := by
  show StableHlo.after hostOps0 (W0 m ρ c) (Proc.devRef .tc main_v1) = _
  after_results
  rfl

theorem col_val : W1 m ρ c (Proc.devRef .tc main_v3)
    = shapeCast S800000 (extractStridedSlice S1x800000 ![1, 0] (m ((c : Thread nD τ).loc main_arg1)) slices_S2x800000_S1x800000_1_0)
        shapeCasts_S1x800000_S800000 := by
  show StableHlo.after hostOps0 (W0 m ρ c) (Proc.devRef .tc main_v3) = _
  after_results
  rfl

theorem row_W5 : W5 m ρ c (Proc.devRef .tc main_v1) = W1 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := by skip_host hostOps0_3
    _ = W2 m ρ c (Proc.devRef .tc main_v1) := by skip_host hostOps0_2
    _ = W1 m ρ c (Proc.devRef .tc main_v1) := by skip_host hostOps0_1

theorem row_W10 : W10 m ρ c (Proc.devRef .tc main_v1) = W1 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := by skip_host hostOps2
    _ = W7 m ρ c (Proc.devRef .tc main_v1) := W8_of_ne m ρ c main_v1 (by decide)
    _ = W6 m ρ c (Proc.devRef .tc main_v1) := by skip_host hostOps1_1
    _ = W5 m ρ c (Proc.devRef .tc main_v1) := by skip_host hostOps1
    _ = W1 m ρ c (Proc.devRef .tc main_v1) := row_W5 m ρ c

theorem row_W15 : W15 m ρ c (Proc.devRef .tc main_v1) = W1 m ρ c (Proc.devRef .tc main_v1) :=
  calc W15 m ρ c (Proc.devRef .tc main_v1)
    _ = W14 m ρ c (Proc.devRef .tc main_v1) := W15_of_ne m ρ c main_v1 (by decide)
    _ = W13 m ρ c (Proc.devRef .tc main_v1) := by skip_host hostOps4
    _ = W12 m ρ c (Proc.devRef .tc main_v1) := W13_of_ne m ρ c main_v1 (by decide)
    _ = W11 m ρ c (Proc.devRef .tc main_v1) := by skip_host hostOps3_1
    _ = W10 m ρ c (Proc.devRef .tc main_v1) := by skip_host hostOps3
    _ = W1 m ρ c (Proc.devRef .tc main_v1) := row_W10 m ρ c

theorem ofBuf_toBuf {T : BufTy} (x : StableHlo.TRef sig T) (v : T.Contents (Elt Ideal)) :
    x.ofBuf (x.toBuf v) = v := by
  obtain ⟨r, h, _, _⟩ := x
  subst h
  rfl

section Reads
variable (V : Valuation τ sig (Elt Ideal))

theorem rd1 (p q r') : (StableHlo.TRef.of main_v1 p q r' : StableHlo.TRef sig ⟨S800000, .i32⟩).ofBuf (V (Proc.devRef .tc main_v1)) = V (Proc.devRef .tc main_v1) := rfl
theorem rd3 (p q r') : (StableHlo.TRef.of main_v3 p q r' : StableHlo.TRef sig ⟨S800000, .i32⟩).ofBuf (V (Proc.devRef .tc main_v3)) = V (Proc.devRef .tc main_v3) := rfl
theorem rd10 (p q r') : (StableHlo.TRef.of main_v10 p q r' : StableHlo.TRef sig ⟨S50000, .f32⟩).ofBuf (V (Proc.devRef .tc main_v10)) = V (Proc.devRef .tc main_v10) := rfl
theorem rd17 (p q r') : (StableHlo.TRef.of main_v17 p q r' : StableHlo.TRef sig ⟨S50000x96, .f32⟩).ofBuf (V (Proc.devRef .tc main_v17)) = V (Proc.devRef .tc main_v17) := rfl
theorem rd39 (p q r') : (StableHlo.TRef.of main_v39 p q r' : StableHlo.TRef sig ⟨S50000x96, .f32⟩).ofBuf (V (Proc.devRef .tc main_v39)) = V (Proc.devRef .tc main_v39) := rfl
theorem rd80 (p q r') : (StableHlo.TRef.of main_v80 p q r' : StableHlo.TRef sig ⟨S50000x96, .f32⟩).ofBuf (V (Proc.devRef .tc main_v80)) = V (Proc.devRef .tc main_v80) := rfl

theorem wr11 (p q r') (X : FVec Ideal S800000 .f32) : (StableHlo.TRef.of main_v11 p q r' : StableHlo.TRef sig ⟨S800000, .f32⟩).toBuf (Val := Elt Ideal) X = X := rfl
theorem wr12 (p q r') (X : FVec Ideal S800000 .f32) : (StableHlo.TRef.of main_v12 p q r' : StableHlo.TRef sig ⟨S800000, .f32⟩).toBuf (Val := Elt Ideal) X = X := rfl
theorem wr18 (p q r') (X : FVec Ideal S800000x96 .f32) : (StableHlo.TRef.of main_v18 p q r' : StableHlo.TRef sig ⟨S800000x96, .f32⟩).toBuf (Val := Elt Ideal) X = X := rfl
theorem wr40 (p q r') (X : FVec Ideal S800000x96 .f32) : (StableHlo.TRef.of main_v40 p q r' : StableHlo.TRef sig ⟨S800000x96, .f32⟩).toBuf (Val := Elt Ideal) X = X := rfl
theorem wr81 (p q r') (X : FVec Ideal S800000x96 .f32) : (StableHlo.TRef.of main_v81 p q r' : StableHlo.TRef sig ⟨S800000x96, .f32⟩).toBuf (Val := Elt Ideal) X = X := rfl

theorem after_take0 : StableHlo.after hostOps1 V (Proc.devRef .tc main_v18)
    = takeRows (V (Proc.devRef .tc main_v17)) (V (Proc.devRef .tc main_v1)) := by
  after_results_simp
  simp only [ofBuf_toBuf, rd1, rd17]
  refine (wr18 _ _ _ _).trans ?_
  unfold takeRows okBit wrapCol
  rfl

theorem after_take1 : StableHlo.after hostOps3 V (Proc.devRef .tc main_v40)
    = takeRows (V (Proc.devRef .tc main_v39)) (V (Proc.devRef .tc main_v1)) := by
  after_results_simp
  simp only [ofBuf_toBuf, rd1, rd39]
  refine (wr40 _ _ _ _).trans ?_
  unfold takeRows okBit wrapCol
  rfl

theorem after_take2 : StableHlo.after hostOps5 V (Proc.devRef .tc main_v81)
    = takeRows (V (Proc.devRef .tc main_v80)) (V (Proc.devRef .tc main_v1)) := by
  after_results_simp
  simp only [ofBuf_toBuf, rd1, rd80]
  refine (wr81 _ _ _ _).trans ?_
  unfold takeRows okBit wrapCol
  rfl

theorem after_takeR : StableHlo.after hostOps0_1 V (Proc.devRef .tc main_v11)
    = takeVec (V (Proc.devRef .tc main_v10)) (V (Proc.devRef .tc main_v1)) := by
  after_results_simp
  simp only [ofBuf_toBuf, rd1, rd10]
  refine (wr11 _ _ _ _).trans ?_
  unfold takeVec okBit wrapCol
  rfl

theorem after_takeC : StableHlo.after hostOps0_2 V (Proc.devRef .tc main_v12)
    = takeVec (V (Proc.devRef .tc main_v10)) (V (Proc.devRef .tc main_v3)) := by
  after_results_simp
  simp only [ofBuf_toBuf, rd3, rd10]
  refine (wr12 _ _ _ _).trans ?_
  unfold takeVec okBit wrapCol
  rfl

theorem after_cat17 : StableHlo.after hostOps0_3 V (Proc.devRef .tc main_v15)
    = cat17 (V (Proc.devRef .tc main_arg2)) (mulf (V (Proc.devRef .tc main_v11)) (V (Proc.devRef .tc main_v12))) := by
  after_results
  rfl

end Reads

theorem hrow0_take : W6 m ρ c (Proc.devRef .tc main_v18)
    = takeRows (W5 m ρ c (Proc.devRef .tc main_v17)) (W1 m ρ c (Proc.devRef .tc main_v1)) :=
  (after_take0 (W5 m ρ c)).trans (congrArg _ (row_W5 m ρ c))

theorem hrow1_take : W11 m ρ c (Proc.devRef .tc main_v40)
    = takeRows (W10 m ρ c (Proc.devRef .tc main_v39)) (W1 m ρ c (Proc.devRef .tc main_v1)) :=
  (after_take1 (W10 m ρ c)).trans (congrArg _ (row_W10 m ρ c))

theorem hrow2_take : W16 m ρ c (Proc.devRef .tc main_v81)
    = takeRows (W15 m ρ c (Proc.devRef .tc main_v80)) (W1 m ρ c (Proc.devRef .tc main_v1)) :=
  (after_take2 (W15 m ρ c)).trans (congrArg _ (row_W15 m ρ c))

theorem takeR_val : W2 m ρ c (Proc.devRef .tc main_v11)
    = takeVec (W1 m ρ c (Proc.devRef .tc main_v10)) (W1 m ρ c (Proc.devRef .tc main_v1)) :=
  after_takeR (W1 m ρ c)

theorem takeC_val : W3 m ρ c (Proc.devRef .tc main_v12)
    = takeVec (W1 m ρ c (Proc.devRef .tc main_v10)) (W1 m ρ c (Proc.devRef .tc main_v3)) := by
  have e10 : W2 m ρ c (Proc.devRef .tc main_v10) = W1 m ρ c (Proc.devRef .tc main_v10) := by skip_host hostOps0_1
  have e3 : W2 m ρ c (Proc.devRef .tc main_v3) = W1 m ρ c (Proc.devRef .tc main_v3) := by skip_host hostOps0_1
  rw [← e10, ← e3]
  exact after_takeC (W2 m ρ c)

theorem ea17_val : W4 m ρ c (Proc.devRef .tc main_v15)
    = cat17 (m ((c : Thread nD τ).loc main_arg2))
        (mulf (W2 m ρ c (Proc.devRef .tc main_v11)) (W3 m ρ c (Proc.devRef .tc main_v12))) := by
  have e11 : W3 m ρ c (Proc.devRef .tc main_v11) = W2 m ρ c (Proc.devRef .tc main_v11) := by skip_host hostOps0_2
  have e2 : W3 m ρ c (Proc.devRef .tc main_arg2) = m ((c : Thread nD τ).loc main_arg2) :=
    calc W3 m ρ c (Proc.devRef .tc main_arg2)
      _ = W2 m ρ c (Proc.devRef .tc main_arg2) := by skip_host hostOps0_2
      _ = W1 m ρ c (Proc.devRef .tc main_arg2) := by skip_host hostOps0_1
      _ = W0 m ρ c (Proc.devRef .tc main_arg2) := by skip_host hostOps0
      _ = m ((c : Thread nD τ).loc main_arg2) := rfl
  rw [← e11, ← e2]
  exact after_cat17 (W3 m ρ c)

end Cert.Bridge.Idx

end
-- ==== Proof.StepIdx.lean ====
/- Under the precondition every source index is in range, so a take with fill is the plain gather; the two programs' index vectors agree. -/
import proofs.«400244_j19808389169615_3_alg».proof.Proof.Stages
import proofs.«400244_j19808389169615_3_alg».proof.Defs
import proofs.«400244_j19808389169615_3_alg».proof.Proof.Gen.Pre_finite_inputs
import proofs.«400244_j19808389169615_3_alg».proof.Proof.StepIdxTake
import Idealize.ShloMosaic.Lib.ReduceAll

noncomputable section

namespace Cert.Bridge

open Idealize.ShloMosaic Idealize.ShloMosaic.TcCoe Idealize.SL.Sem Idealize.ShloMosaic.ValueIdx
open Cert.KernelIdeal Cert.KernelIdeal.Gen
open Cert.Bridge.Idx

variable (m : (ℓ : Loc nD τ sig) → Buf (Elt Ideal) ℓ) (ρ : Dev nD → PrngReg) (c : Dev nD)

theorem Idx.toInt_neg50000 : (4294917296#32 : BitVec 32).toInt = -50000 := by decide

theorem Idx.ofBool_eq_one (b : Bool) : BitVec.ofBool b = 1#1 ↔ b = true := by cases b <;> decide

theorem Idx.le_of_sge (w n : BitVec 32) (h : IntOp.cmpi .sge w n = 1#1) : n.toInt ≤ w.toInt := by
  have h1 : BitVec.ofBool (n.sle w) = 1#1 := h
  exact of_decide_eq_true ((Idx.ofBool_eq_one _).1 h1)

theorem Idx.lt_of_slt (w n : BitVec 32) (h : IntOp.cmpi .slt w n = 1#1) : w.toInt < n.toInt := by
  have h1 : BitVec.ofBool (w.slt n) = 1#1 := h
  exact of_decide_eq_true ((Idx.ofBool_eq_one _).1 h1)

theorem rowOk_of_pre (hpre : Cert.Pre_KernelIdeal m) : RowOk m ρ c := by
  intro e

  haveI : Subsingleton Cert.Pre_finite_inputs.S_.Idx := ⟨fun a b => funext fun d => d.elim0⟩
  have h := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, Cert.Pre_finite_inputs.fn_part8] at h
  have h2 : IntOp.andi _ _ = 1#1 := h
  have h3 := Host.reduce_andi_all _ _ _ _ _ (IntOp.andi_eq_one.1 h2).2 (ix1 e)
  have h4 : IntOp.andi (IntOp.cmpi .sge (W1 m ρ c (Proc.devRef .tc main_v1) (ix1 e)) 4294917296#32)
      (IntOp.cmpi .slt (W1 m ρ c (Proc.devRef .tc main_v1) (ix1 e)) 50000#32) = 1#1 := by
    rw [row_val m ρ c]; exact h3
  obtain ⟨ha, hb⟩ := IntOp.andi_eq_one.1 h4
  have ha' := le_of_sge _ _ ha
  have hb' := lt_of_slt _ _ hb
  rw [toInt_neg50000] at ha'
  rw [Word.toInt_50000] at hb'
  exact ⟨ha', hb'⟩

theorem kRow_eq : kRow m ρ c = rRow m c := (row_val m ρ c).trans rfl

theorem kCol_eq : kCol m ρ c = rCol m c := (col_val m ρ c).trans rfl

theorem Idx.wrapCol_rRow0 : wrapCol (rRow m c) = Cert.ReferenceIdeal.Read.val_main_v45 (F := Ideal) (a1 m c) := rfl
theorem Idx.wrapCol_rRow1 : wrapCol (rRow m c) = Cert.ReferenceIdeal.Read.val_main_v107 (F := Ideal) (a1 m c) := rfl
theorem Idx.wrapCol_rRow2 : wrapCol (rRow m c) = Cert.ReferenceIdeal.Read.val_main_v183 (F := Ideal) (a1 m c) := rfl

theorem Idx.wrapCol_rRowD : wrapCol (rRow m c) = Cert.ReferenceIdeal.Read.val_main_v29 (F := Ideal) (a1 m c) := rfl
theorem Idx.wrapCol_rColD : wrapCol (rCol m c) = Cert.ReferenceIdeal.Read.val_main_v36 (F := Ideal) (a1 m c) := rfl

theorem Idx.gatherRows_rec : gather_S50000x96_S800000x1_S800000x96_1_0_n_n_0_1_196
    = Cert.ReferenceIdeal.gather_S50000x96_S800000x1_S800000x96_1_0_n_n_0_1_196 := rfl
theorem Idx.gatherVec_rec : gather_S50000_S800000x1_S800000_n_0_n_n_0_1_1
    = Cert.ReferenceIdeal.gather_S50000_S800000x1_S800000_n_0_n_n_0_1_1 := rfl

theorem hrow0_eq (hr : RowOk m ρ c) (h : kH0 m ρ c = rH0 m c) : kHrow0 m ρ c = rHrow0 m c := by
  show W6 m ρ c (Proc.devRef .tc main_v18) = _
  rw [hrow0_take m ρ c, takeRows_eq _ _ hr, show W5 m ρ c (Proc.devRef .tc main_v17) = rH0 m c from h,
    kRow_eq m ρ c, wrapCol_rRow0, gatherRows_rec]
  unfold rHrow0 rH0 Cert.ReferenceIdeal.Read.val_main_v46
  rfl

theorem hrow1_eq (hr : RowOk m ρ c) (h : kH1 m ρ c = rH1 m c) : kHrow1 m ρ c = rHrow1 m c := by
  show W11 m ρ c (Proc.devRef .tc main_v40) = _
  rw [hrow1_take m ρ c, takeRows_eq _ _ hr, show W10 m ρ c (Proc.devRef .tc main_v39) = rH1 m c from h,
    kRow_eq m ρ c, wrapCol_rRow1, gatherRows_rec]
  unfold rHrow1 rH1 Cert.ReferenceIdeal.Read.val_main_v108
  rfl

theorem hrow2_eq (hr : RowOk m ρ c) (h : kH2 m ρ c = rH2 m c) : kHrow2 m ρ c = rHrow2 m c := by
  show W16 m ρ c (Proc.devRef .tc main_v81) = _
  rw [hrow2_take m ρ c, takeRows_eq _ _ hr, show W15 m ρ c (Proc.devRef .tc main_v80) = rH2 m c from h,
    kRow_eq m ρ c, wrapCol_rRow2, gatherRows_rec]
  unfold rHrow2 rH2 Cert.ReferenceIdeal.Read.val_main_v184
  rfl

theorem ea17_attr (e : Fin 800000) (l : Fin 16) :
    kEa17 m ρ c (ix2 e (Fin.castLE (by decide : 16 ≤ 17) l)) = a2 m c (ix2 e l) := by
  show W4 m ρ c (Proc.devRef .tc main_v15) _ = _
  rw [ea17_val m ρ c]
  exact cat17_left _ _ e l

theorem ea17_norm (hr : RowOk m ρ c) (hd : kDinv m ρ c = rDinv m c) (e : Fin 800000) (hc : ColIn m ρ c e) :
    kEa17 m ρ c (ix2 e (16 : Fin 17)) = rNorm m c (ix1 e) := by
  have hc' : -50000 ≤ (kCol m ρ c (ix1 e)).toInt ∧ (kCol m ρ c (ix1 e)).toInt < 50000 :=
    ⟨by have := hc.1; omega, hc.2⟩
  show W4 m ρ c (Proc.devRef .tc main_v15) _ = _
  rw [ea17_val m ρ c, cat17_right, mulf_apply, takeR_val m ρ c, takeC_val m ρ c, takeVec_apply _ _ e (hr e),
    takeVec_apply _ _ e hc', show W1 m ρ c (Proc.devRef .tc main_v10) = rDinv m c from hd,
    kRow_eq m ρ c, kCol_eq m ρ c, wrapCol_rRowD, wrapCol_rColD, gatherVec_rec]
  unfold rNorm rDinv
  rw [Cert.ReferenceIdeal.Read.val_main_v38_apply]
  unfold Cert.ReferenceIdeal.Read.val_main_v30 Cert.ReferenceIdeal.Read.val_main_v37
  rfl

end Cert.Bridge

end
-- ==== Proof.LibGatherScatter.lean ====
/- A gather of rows, and an accumulating scatter over the first axis, read at one element. -/
import Idealize.ShloMosaic.PureOps.Ideal
import Idealize.ShloMosaic.Lib.ValueIdx

namespace Cert.LibGatherScatter

open Idealize.ShloMosaic Idealize.ShloMosaic.ValueIdx

theorem getElem_congr' {α : Type} {l l' : List α} (hl : l = l') {k k' : Nat} (hk : k = k') (h : k < l.length) :
    l[k]'h = l'[k']'(by subst hl; subst hk; exact h) := by subst hl; subst hk; rfl

theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (p : Fin n) (q : Fin D) (hN : 0 < N) :
    Host.gather d x idx (ix2 p q) = x (ix2 ⟨min (idx (ix2 p (0 : Fin 1))).toInt.toNat (N - 1), by omega⟩ q) := by
  unfold Host.gather
  congr 1
  have hsk : d.sKept = [1] := by
    show Shape.kept _ (d.collapsedSliceDims ++ d.operandBatchingDims) = [1]
    rw [hcoll, hob]; rfl
  have hbd : d.batchDims = [0] := by
    show Shape.kept _ d.offsetDims = [0]
    rw [hoff]; rfl
  have hsik : d.siKept = [0] := by
    show (List.finRange _).filter (·.val ≠ d.indexVectorDim) = [0]
    rw [hivd]; rfl
  have h0 : (d.operandIdx (ix2 p q) idx (0 : Fin 2)).val = min (idx (ix2 p (0 : Fin 1))).toInt.toNat (N - 1) := by
    have hb : (0 : Fin 2) ∉ d.operandBatchingDims := by rw [hob]; exact List.not_mem_nil
    have hk : (0 : Fin 2) ∉ d.sKept := by rw [hsk]; simp
    have hm : (0 : Fin 2) ∈ d.startIndexMap := by rw [hsim]; exact List.mem_singleton.mpr rfl
    have hsl : d.sliceSizes 0 = 1 := by rw [hss]; rfl
    simp only [GatherDims.operandIdx, GatherDims.batchCoord_eq_zero _ _ _ hb, GatherDims.offCoord_eq_zero _ _ _ hk,
      Nat.add_zero, GatherDims.start, dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 2, X = 0 → ((ix2 p q : (⟨2, ![n, D]⟩ : Shape).Idx) X).val = p.val := fun X hX => by
        subst hX; rfl
      apply e
      rw [getElem_congr' hbd (show List.idxOf _ d.siKept = 0 by rw [hsik]; rfl)]
      rfl
    | ⟨1, _⟩ =>
      unfold GatherDims.siIdx
      rw [dif_pos (by rw [hivd])]
      apply Fin.ext
      show List.idxOf (0 : Fin 2) d.startIndexMap = 0
      rw [hsim]; simp
  have h1 : (d.operandIdx (ix2 p q) idx (1 : Fin 2)).val = q.val := by
    have hb : (1 : Fin 2) ∉ d.operandBatchingDims := by rw [hob]; exact List.not_mem_nil
    have hk : (1 : Fin 2) ∈ d.sKept := by rw [hsk]; simp
    have hm : (1 : Fin 2) ∉ d.startIndexMap := by rw [hsim]; simp
    simp only [GatherDims.operandIdx, GatherDims.batchCoord_eq_zero _ _ _ hb,
      Nat.add_zero, GatherDims.start, dif_neg hm, GatherDims.offCoord, dif_pos hk, Nat.zero_add]
    have e : ∀ X : Fin 2, X = 1 → ((ix2 p q : (⟨2, ![n, D]⟩ : Shape).Idx) X).val = q.val := fun X hX => by
      subst hX; rfl
    apply e
    rw [getElem_congr' hoff (show List.idxOf _ d.sKept = 0 by rw [hsk]; rfl)]
    rfl
  funext a
  apply Fin.ext
  match a with
  | ⟨0, _⟩ => exact h0
  | ⟨1, _⟩ => exact h1

theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro heq a
      have hf := congrFun (Option.some.inj heq) a
      have hv := congrArg Fin.val hf
      simp only at hv
      have := (h a).1
      omega
    · intro hall
      congr 1
      funext a
      apply Fin.ext
      show (d.start j idx a + (d.window j a : ℤ)).toNat = (i a).val
      rw [hall a]; exact Int.toNat_natCast _
  · rename_i h
    constructor
    · intro heq; cases heq
    · intro hall
      exfalso; apply h
      intro a
      rw [hall a]
      exact ⟨Int.natCast_nonneg _, by exact_mod_cast (i a).isLt⟩

theorem resultIdx?_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (idx : IVec ⟨2, ![n, 1]⟩ w) (e : Fin n) (c : Fin N) :
    d.resultIdx? (ix1 e) idx = some (ix1 c) ↔ (idx (ix2 e (0 : Fin 1))).toInt = (c.val : ℤ) := by
  rw [resultIdx?_eq_some_iff]
  have hsk : d.sKept = [] := by show Shape.kept _ d.insertedWindowDims = []; rw [hins]; rfl
  have hm : (0 : Fin 1) ∈ d.scatterDimsToOperandDims := by rw [hsd]; exact List.mem_singleton.mpr rfl
  have hk : (0 : Fin 1) ∉ d.sKept := by rw [hsk]; exact List.not_mem_nil
  have hst : d.start (ix1 e) idx (0 : Fin 1) = (idx (ix2 e (0 : Fin 1))).toInt := by
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 1, ((ix1 e : (⟨1, ![n]⟩ : Shape).Idx) X).val = e.val := fun X => by
        have hX : X = 0 := Subsingleton.elim _ _
        subst hX; rfl
      exact ee _
    | ⟨1, _⟩ =>
      unfold ScatterDims.siIdx
      rw [dif_pos (by rw [hivd])]
      apply Fin.ext
      show List.idxOf (0 : Fin 1) d.scatterDimsToOperandDims = 0
      rw [hsd]; simp
  have hw : d.window (ix1 e) (0 : Fin 1) = 0 := by
    unfold ScatterDims.window; rw [dif_neg hk]
  constructor
  · intro h
    have h0 : d.start (ix1 e) idx 0 + (d.window (ix1 e) 0 : ℤ) = (c.val : ℤ) := h 0
    rw [hst, hw] at h0
    simpa using h0
  · intro h a
    have ha : a = 0 := Subsingleton.elim _ _
    subst ha
    show d.start (ix1 e) idx 0 + (d.window (ix1 e) 0 : ℤ) = (c.val : ℤ)
    rw [hst, hw, h]
    simp

theorem scatterAdd_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (x : FVec Ideal ⟨1, ![N]⟩ .f32) (idx : IVec ⟨2, ![n, 1]⟩ w) (u : FVec Ideal ⟨1, ![n]⟩ .f32) (c : Fin N) :
    Host.scatterAdd d x idx u (ix1 c)
      = x (ix1 c) + ∑ e ∈ Finset.univ.filter (fun e : Fin n => (idx (ix2 e (0 : Fin 1))).toInt = (c.val : ℤ)), u (ix1 e) := by
  show Ideal.hostScatterAdd d x idx u (ix1 c) = _
  unfold Ideal.hostScatterAdd
  congr 1
  refine Finset.sum_bij' (fun jj _ => (jj 0 : Fin n)) (fun e _ => ix1 e) ?_ ?_ ?_ ?_ ?_
  · intro jj hjj
    have h2 := (Finset.mem_filter.1 hjj).2
    rw [eq_ix1 jj] at h2
    exact Finset.mem_filter.2 ⟨Finset.mem_univ _, (resultIdx?_vec d huw hins hsd hivd idx _ c).1 h2⟩
  · intro e he
    exact Finset.mem_filter.2 ⟨Finset.mem_univ _, (resultIdx?_vec d huw hins hsd hivd idx e c).2 (Finset.mem_filter.1 he).2⟩
  · intro jj _; exact (eq_ix1 jj).symm
  · intro e _; rfl
  · intro jj _; exact congrArg u (eq_ix1 jj)

theorem resultIdx?_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (idx : IVec ⟨2, ![n, 1]⟩ w) (e : Fin n) (j' : Fin D) (c : Fin N) (j : Fin D) :
    d.resultIdx? (ix2 e j') idx = some (ix2 c j) ↔ (idx (ix2 e (0 : Fin 1))).toInt = (c.val : ℤ) ∧ j' = j := by
  rw [resultIdx?_eq_some_iff]
  have hsk : d.sKept = [1] := by show Shape.kept _ d.insertedWindowDims = [1]; rw [hins]; rfl
  have hus : d.uScatter = [0] := by show Shape.kept _ d.updateWindowDims = [0]; rw [huw]; rfl
  have hsik : d.siKept = [0] := by show (List.finRange _).filter (·.val ≠ d.indexVectorDim) = [0]; rw [hivd]; rfl
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [hsk]; simp
  have hk1 : (1 : Fin 2) ∈ d.sKept := by rw [hsk]; simp
  have hst0 : d.start (ix2 e j') idx (0 : Fin 2) = (idx (ix2 e (0 : Fin 1))).toInt := by
    unfold ScatterDims.start
    rw [dif_pos hm0]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 2, X = 0 → ((ix2 e j' : (⟨2, ![n, D]⟩ : Shape).Idx) X).val = e.val := fun X hX => by
        subst hX; rfl
      apply ee
      rw [getElem_congr' hus (show List.idxOf _ d.siKept = 0 by rw [hsik]; rfl)]
      rfl
    | ⟨1, _⟩ =>
      unfold ScatterDims.siIdx
      rw [dif_pos (by rw [hivd])]
      apply Fin.ext
      show List.idxOf (0 : Fin 2) d.scatterDimsToOperandDims = 0
      rw [hsd]; simp
  have hst1 : d.start (ix2 e j') idx (1 : Fin 2) = 0 := by
    unfold ScatterDims.start; rw [dif_neg hm1]
  have hw0 : d.window (ix2 e j') (0 : Fin 2) = 0 := by
    unfold ScatterDims.window; rw [dif_neg hk0]
  have hw1 : d.window (ix2 e j') (1 : Fin 2) = j'.val := by
    unfold ScatterDims.window; rw [dif_pos hk1]
    have ee : ∀ X : Fin 2, X = 1 → ((ix2 e j' : (⟨2, ![n, D]⟩ : Shape).Idx) X).val = j'.val := fun X hX => by
      subst hX; rfl
    apply ee
    rw [getElem_congr' huw (show List.idxOf _ d.sKept = 0 by rw [hsk]; rfl)]
    rfl
  constructor
  · intro h
    have h0 : d.start (ix2 e j') idx 0 + (d.window (ix2 e j') 0 : ℤ) = (c.val : ℤ) := h 0
    have h1 : d.start (ix2 e j') idx 1 + (d.window (ix2 e j') 1 : ℤ) = (j.val : ℤ) := h 1
    rw [hst0, hw0] at h0
    rw [hst1, hw1] at h1
    exact ⟨by simpa using h0, Fin.ext (by omega)⟩
  · rintro ⟨h, rfl⟩ a
    match a with
    | ⟨0, _⟩ =>
      show d.start (ix2 e j') idx 0 + (d.window (ix2 e j') 0 : ℤ) = (c.val : ℤ)
      rw [hst0, hw0, h]; simp
    | ⟨1, _⟩ =>
      show d.start (ix2 e j') idx 1 + (d.window (ix2 e j') 1 : ℤ) = (j'.val : ℤ)
      rw [hst1, hw1]; simp

theorem scatterAdd_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (x : FVec Ideal ⟨2, ![N, D]⟩ .f32) (idx : IVec ⟨2, ![n, 1]⟩ w) (u : FVec Ideal ⟨2, ![n, D]⟩ .f32) (c : Fin N) (j : Fin D) :
    Host.scatterAdd d x idx u (ix2 c j)
      = x (ix2 c j) + ∑ e ∈ Finset.univ.filter (fun e : Fin n => (idx (ix2 e (0 : Fin 1))).toInt = (c.val : ℤ)), u (ix2 e j) := by
  show Ideal.hostScatterAdd d x idx u (ix2 c j) = _
  unfold Ideal.hostScatterAdd
  congr 1
  have key : ∀ jj : (⟨2, ![n, D]⟩ : Shape).Idx, d.resultIdx? jj idx = some (ix2 c j) →
      (idx (ix2 (jj 0 : Fin n) (0 : Fin 1))).toInt = (c.val : ℤ) ∧ (jj 1 : Fin D) = j := fun jj h => by
    rw [eq_ix2 jj] at h
    exact (resultIdx?_rows d huw hins hsd hivd idx _ _ c j).1 h
  refine Finset.sum_bij' (fun jj _ => (jj 0 : Fin n)) (fun e _ => ix2 e j) ?_ ?_ ?_ ?_ ?_
  · intro jj hjj
    exact Finset.mem_filter.2 ⟨Finset.mem_univ _, (key jj (Finset.mem_filter.1 hjj).2).1⟩
  · intro e he
    exact Finset.mem_filter.2 ⟨Finset.mem_univ _,
      (resultIdx?_rows d huw hins hsd hivd idx e j c j).2 ⟨(Finset.mem_filter.1 he).2, rfl⟩⟩
  · intro jj hjj
    have h2 := (key jj (Finset.mem_filter.1 hjj).2).2
    rw [eq_ix2 jj]
    exact congrArg (fun t => ix2 (jj 0 : Fin n) t) h2.symm
  · intro e _; rfl
  · intro jj hjj
    have h2 := (key jj (Finset.mem_filter.1 hjj).2).2
    show u jj = u (ix2 (jj 0 : Fin n) j)
    rw [← h2]
    exact congrArg u (eq_ix2 jj)

end Cert.LibGatherScatter
-- ==== Proof.StepScatter.lean ====
/- The degree, its inverse root and each layer's messages summed at the target node agree; an edge whose target is no node adds to neither sum. -/
import proofs.«400244_j19808389169615_3_alg».proof.Proof.Stages
import proofs.«400244_j19808389169615_3_alg».proof.Proof.StepIdx
import proofs.«400244_j19808389169615_3_alg».proof.Proof.Walk
import proofs.«400244_j19808389169615_3_alg».proof.Proof.LibGatherScatter
import Idealize.ShloMosaic.Lib.StableHlo.Run
import Idealize.ShloMosaic.Lib.Pipeline.Value

noncomputable section

namespace Cert.Bridge

open Idealize.ShloMosaic Idealize.ShloMosaic.TcCoe Idealize.SL.Sem Idealize.ShloMosaic.ValueIdx
open Cert.KernelIdeal Cert.KernelIdeal.Gen

namespace Scatter

theorem scatterAdd_rows_congr {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (x : FVec Ideal ⟨2, ![N, D]⟩ .f32) (idx : IVec ⟨2, ![n, 1]⟩ w) (u u' : FVec Ideal ⟨2, ![n, D]⟩ .f32)
    (h : ∀ (e : Fin n) (r : Fin N), (idx (ix2 e (0 : Fin 1))).toInt = (r.val : ℤ) → ∀ q : Fin D, u (ix2 e q) = u' (ix2 e q)) :
    Host.scatterAdd d x idx u = Host.scatterAdd d x idx u' := by
  funext i
  obtain ⟨r, j, rfl⟩ : ∃ r j, i = ix2 r j := ⟨_, _, eq_ix2 i⟩
  rw [Cert.LibGatherScatter.scatterAdd_rows d huw hins hsd hivd, Cert.LibGatherScatter.scatterAdd_rows d huw hins hsd hivd]
  congr 1
  exact Finset.sum_congr rfl fun e he => h e r (Finset.mem_filter.1 he).2 j

theorem startColumn_apply (v : IVec S800000 32) (e : Fin 800000) :
    broadcastInDim S800000x1 ![0] bcast_S800000_S800000x1_0 v (ix2 e (0 : Fin 1)) = v (ix1 e) :=
  broadcastInDim_apply _ bcast_S800000_S800000x1_0 v (ix2 e (0 : Fin 1)) (ix1 e) (fun a => match a with
    | ⟨0, _⟩ => by show e.val = if (800000 : Nat) = 1 then 0 else e.val; rw [if_neg (by decide)])

theorem scat1_eq : scatter_S50000_S800000x1_S800000_n_0_0_1 = Cert.ReferenceIdeal.scatter_S50000_S800000x1_S800000_n_0_0_1 := rfl

theorem scat2_eq : scatter_S50000x96_S800000x1_S800000x96_1_0_0_1 = Cert.ReferenceIdeal.scatter_S50000x96_S800000x1_S800000x96_1_0_0_1 := rfl

variable (m : (ℓ : Loc nD τ sig) → Buf (Elt Ideal) ℓ) (ρ : Dev nD → PrngReg) (c : Dev nD)

theorem kDeg_term : kDeg m ρ c =
    addf (Host.scatterAdd scatter_S50000_S800000x1_S800000_n_0_0_1
        (broadcastInDim S50000 ![] bcast_S_S50000 (constant (F := Ideal) S_ .f32 0x00000000#32))
        (broadcastInDim S800000x1 ![0] bcast_S800000_S800000x1_0 (kRow m ρ c))
        (broadcastInDim S800000 ![] bcast_S_S800000 (constant (F := Ideal) S_ .f32 0x3F800000#32)))
      (broadcastInDim S50000 ![] bcast_S_S50000 (constant (F := Ideal) S_ .f32 0x3F800000#32)) := by
  unfold kDeg kRow W1
  after_results

theorem kDinv_term : kDinv m ρ c = Host.rsqrt (kDeg m ρ c) := by
  unfold kDinv kDeg W1
  after_results

theorem col_W8 : (W8 m ρ c (Proc.devRef .tc main_v3) : IVec S800000 32) = kCol m ρ c :=
  calc W8 m ρ c (Proc.devRef .tc main_v3)
    _ = W7 m ρ c (Proc.devRef .tc main_v3) := W8_of_ne m ρ c main_v3 (by decide)
    _ = W6 m ρ c (Proc.devRef .tc main_v3) := by skip_host hostOps1_1
    _ = W5 m ρ c (Proc.devRef .tc main_v3) := by skip_host hostOps1
    _ = W4 m ρ c (Proc.devRef .tc main_v3) := W5_of_ne m ρ c main_v3 (by decide)
    _ = W3 m ρ c (Proc.devRef .tc main_v3) := by skip_host hostOps0_3
    _ = W2 m ρ c (Proc.devRef .tc main_v3) := by skip_host hostOps0_2
    _ = W1 m ρ c (Proc.devRef .tc main_v3) := by skip_host hostOps0_1

theorem col_W13 : (W13 m ρ c (Proc.devRef .tc main_v3) : IVec S800000 32) = kCol m ρ c :=
  calc W13 m ρ c (Proc.devRef .tc main_v3)
    _ = W12 m ρ c (Proc.devRef .tc main_v3) := W13_of_ne m ρ c main_v3 (by decide)
    _ = W11 m ρ c (Proc.devRef .tc main_v3) := by skip_host hostOps3_1
    _ = W10 m ρ c (Proc.devRef .tc main_v3) := by skip_host hostOps3
    _ = W9 m ρ c (Proc.devRef .tc main_v3) := W10_of_ne m ρ c main_v3 (by decide)
    _ = W8 m ρ c (Proc.devRef .tc main_v3) := by skip_host hostOps2
    _ = kCol m ρ c := col_W8 m ρ c

theorem col_W18 : (W18 m ρ c (Proc.devRef .tc main_v3) : IVec S800000 32) = kCol m ρ c :=
  calc W18 m ρ c (Proc.devRef .tc main_v3)
    _ = W17 m ρ c (Proc.devRef .tc main_v3) := W18_of_ne m ρ c main_v3 (by decide)
    _ = W16 m ρ c (Proc.devRef .tc main_v3) := by skip_host hostOps5_1
    _ = W15 m ρ c (Proc.devRef .tc main_v3) := by skip_host hostOps5
    _ = W14 m ρ c (Proc.devRef .tc main_v3) := W15_of_ne m ρ c main_v3 (by decide)
    _ = W13 m ρ c (Proc.devRef .tc main_v3) := by skip_host hostOps4
    _ = kCol m ρ c := col_W13 m ρ c

theorem kAgg0_term : kAgg0 m ρ c =
    Host.scatterAdd scatter_S50000x96_S800000x1_S800000x96_1_0_0_1
      (broadcastInDim S50000x96 ![] bcast_S_S50000x96 (constant (F := Ideal) S_ .f32 0x00000000#32))
      (broadcastInDim S800000x1 ![0] bcast_S800000_S800000x1_0 (kCol m ρ c))
      (kMsg0 m ρ c) := by
  rw [← col_W8 m ρ c]
  unfold kAgg0 W9
  after_results

theorem kAgg1_term : kAgg1 m ρ c =
    Host.scatterAdd scatter_S50000x96_S800000x1_S800000x96_1_0_0_1
      (broadcastInDim S50000x96 ![] bcast_S_S50000x96 (constant (F := Ideal) S_ .f32 0x00000000#32))
      (broadcastInDim S800000x1 ![0] bcast_S800000_S800000x1_0 (kCol m ρ c))
      (kMsg1 m ρ c) := by
  rw [← col_W13 m ρ c]
  unfold kAgg1 W14
  after_results

theorem kAgg2_term : kAgg2 m ρ c =
    Host.scatterAdd scatter_S50000x96_S800000x1_S800000x96_1_0_0_1
      (broadcastInDim S50000x96 ![] bcast_S_S50000x96 (constant (F := Ideal) S_ .f32 0x00000000#32))
      (broadcastInDim S800000x1 ![0] bcast_S800000_S800000x1_0 (kCol m ρ c))
      (kMsg2 m ρ c) := by
  rw [← col_W18 m ρ c]
  unfold kAgg2 W19
  after_results

theorem rDeg_term : rDeg m c =
    addf (Host.scatterAdd Cert.ReferenceIdeal.scatter_S50000_S800000x1_S800000_n_0_0_1
        (broadcastInDim Cert.ReferenceIdeal.S50000 ![] Cert.ReferenceIdeal.Gen.bcast_S_S50000 (constant (F := Ideal) Cert.ReferenceIdeal.S_ .f32 0x00000000#32))
        (broadcastInDim Cert.ReferenceIdeal.S800000x1 ![0] Cert.ReferenceIdeal.Gen.bcast_S800000_S800000x1_0 (rRow m c))
        (broadcastInDim Cert.ReferenceIdeal.S800000 ![] Cert.ReferenceIdeal.Gen.bcast_S_S800000 (constant (F := Ideal) Cert.ReferenceIdeal.S_ .f32 0x3F800000#32)))
      (broadcastInDim Cert.ReferenceIdeal.S50000 ![] Cert.ReferenceIdeal.Gen.bcast_S_S50000 (constant (F := Ideal) Cert.ReferenceIdeal.S_ .f32 0x3F800000#32)) := by
  unfold rDeg rRow Cert.ReferenceIdeal.Read.val_main_v22 Cert.ReferenceIdeal.Read.val_main_v20 Cert.ReferenceIdeal.Read.val_main_v21
    Cert.ReferenceIdeal.Read.val_main_v19 Cert.ReferenceIdeal.Read.val_main_v18 Cert.ReferenceIdeal.Read.val_main_v17
    Cert.ReferenceIdeal.Read.val_main_cst Cert.ReferenceIdeal.Read.val_main_cst_0 Cert.ReferenceIdeal.Read.val_main_cst_1
  rfl

theorem rDinv_term : rDinv m c = Host.rsqrt (F := Ideal) (s := Cert.ReferenceIdeal.S50000) (φ := .f32) (rDeg m c) := by
  unfold rDinv rDeg Cert.ReferenceIdeal.Read.val_main_v23
  rfl

theorem rAgg0_term : rAgg0 m c =
    Host.scatterAdd Cert.ReferenceIdeal.scatter_S50000x96_S800000x1_S800000x96_1_0_0_1
      (broadcastInDim Cert.ReferenceIdeal.S50000x96 ![] Cert.ReferenceIdeal.Gen.bcast_S_S50000x96 (constant (F := Ideal) Cert.ReferenceIdeal.S_ .f32 0x00000000#32))
      (broadcastInDim Cert.ReferenceIdeal.S800000x1 ![0] Cert.ReferenceIdeal.Gen.bcast_S800000_S800000x1_0 (rCol m c))
      (rMsg0 m c) := by
  unfold rAgg0 rCol rMsg0 Cert.ReferenceIdeal.Read.val_main_v53 Cert.ReferenceIdeal.Read.val_main_v52 Cert.ReferenceIdeal.Read.val_main_v51
    Cert.ReferenceIdeal.Read.val_main_cst_7
  rfl

theorem rAgg1_term : rAgg1 m c =
    Host.scatterAdd Cert.ReferenceIdeal.scatter_S50000x96_S800000x1_S800000x96_1_0_0_1
      (broadcastInDim Cert.ReferenceIdeal.S50000x96 ![] Cert.ReferenceIdeal.Gen.bcast_S_S50000x96 (constant (F := Ideal) Cert.ReferenceIdeal.S_ .f32 0x00000000#32))
      (broadcastInDim Cert.ReferenceIdeal.S800000x1 ![0] Cert.ReferenceIdeal.Gen.bcast_S800000_S800000x1_0 (rCol m c))
      (rMsg1 m c) := by
  unfold rAgg1 rCol rMsg1 Cert.ReferenceIdeal.Read.val_main_v113 Cert.ReferenceIdeal.Read.val_main_v112 Cert.ReferenceIdeal.Read.val_main_v111
    Cert.ReferenceIdeal.Read.val_main_cst_11
  rfl

theorem rAgg2_term : rAgg2 m c =
    Host.scatterAdd Cert.ReferenceIdeal.scatter_S50000x96_S800000x1_S800000x96_1_0_0_1
      (broadcastInDim Cert.ReferenceIdeal.S50000x96 ![] Cert.ReferenceIdeal.Gen.bcast_S_S50000x96 (constant (F := Ideal) Cert.ReferenceIdeal.S_ .f32 0x00000000#32))
      (broadcastInDim Cert.ReferenceIdeal.S800000x1 ![0] Cert.ReferenceIdeal.Gen.bcast_S800000_S800000x1_0 (rCol m c))
      (rMsg2 m c) := by
  unfold rAgg2 rCol rMsg2 Cert.ReferenceIdeal.Read.val_main_v189 Cert.ReferenceIdeal.Read.val_main_v188 Cert.ReferenceIdeal.Read.val_main_v187
    Cert.ReferenceIdeal.Read.val_main_cst_16
  rfl

end Scatter

open Scatter

variable (m : (ℓ : Loc nD τ sig) → Buf (Elt Ideal) ℓ) (ρ : Dev nD → PrngReg) (c : Dev nD)

theorem deg_eq : kDeg m ρ c = rDeg m c := by
  rw [kDeg_term, rDeg_term, kRow_eq, scat1_eq]

theorem dinv_eq : kDinv m ρ c = rDinv m c := by
  rw [kDinv_term, rDinv_term, deg_eq]

theorem agg0_eq (h : ∀ e : Fin 800000, ColIn m ρ c e → ∀ q : Fin 96, kMsg0 m ρ c (ix2 e q) = rMsg0 m c (ix2 e q)) :
    kAgg0 m ρ c = rAgg0 m c := by
  rw [kAgg0_term, rAgg0_term, ← kCol_eq m ρ c, ← scat2_eq]
  refine scatterAdd_rows_congr (N := 50000) (D := 96) (n := 800000) _ rfl rfl rfl rfl _ _ _ _ fun e r he q => ?_
  rw [startColumn_apply] at he
  have hlt := r.isLt
  have hc : ColIn m ρ c e := by
    unfold ColIn
    exact ⟨by omega, by omega⟩
  exact h e hc q

theorem agg1_eq (h : kMsg1 m ρ c = rMsg1 m c) : kAgg1 m ρ c = rAgg1 m c := by
  rw [kAgg1_term, rAgg1_term, h, kCol_eq, scat2_eq]

theorem agg2_eq (h : kMsg2 m ρ c = rMsg2 m c) : kAgg2 m ρ c = rAgg2 m c := by
  rw [kAgg2_term, rAgg2_term, h, kCol_eq, scat2_eq]

end Cert.Bridge

end
-- ==== Proof.LinK.lean ====
/- Kernel side of layer 0's projection: the body at an index, and the array after the call. -/
import proofs.«400244_j19808389169615_3_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.Bridge

open Idealize.ShloMosaic Idealize.ShloMosaic.TcCoe Idealize.SL.Sem Idealize.ShloMosaic.ValueIdx
open Cert.KernelIdeal Cert.KernelIdeal.Gen

theorem lin_lhs_0 (i : S5000x96.Idx) (q : dot_S5000x128_S128x96_S5000x96_1_0_0_1_n_n.contr.Idx) :
    (dot_S5000x128_S128x96_S5000x96_1_0_0_1_n_n.lhsIdx i q 0).val = (i 0).val := by
  unfold DotDims.lhsIdx
  rw [dif_neg (show ¬(0 : Fin S5000x128.rank) ∈ dot_S5000x128_S128x96_S5000x96_1_0_0_1_n_n.lhsBatch by decide), dif_pos (show (0 : Fin S5000x128.rank) ∈ dot_S5000x128_S128x96_S5000x96_1_0_0_1_n_n.lhsNonContracting by decide)]
  rfl
theorem lin_lhs_1 (i : S5000x96.Idx) (q : dot_S5000x128_S128x96_S5000x96_1_0_0_1_n_n.contr.Idx) :
    (dot_S5000x128_S128x96_S5000x96_1_0_0_1_n_n.lhsIdx i q 1).val = (q ⟨0, by decide⟩).val :=
  dot_S5000x128_S128x96_S5000x96_1_0_0_1_n_n.lhsIdx_val_of_single rfl i q
theorem lin_rhs_0 (i : S5000x96.Idx) (q : dot_S5000x128_S128x96_S5000x96_1_0_0_1_n_n.contr.Idx) :
    (dot_S5000x128_S128x96_S5000x96_1_0_0_1_n_n.rhsIdx i q 0).val = (q ⟨0, by decide⟩).val :=
  dot_S5000x128_S128x96_S5000x96_1_0_0_1_n_n.rhsIdx_val_of_single rfl i q
theorem lin_rhs_1 (i : S5000x96.Idx) (q : dot_S5000x128_S128x96_S5000x96_1_0_0_1_n_n.contr.Idx) :
    (dot_S5000x128_S128x96_S5000x96_1_0_0_1_n_n.rhsIdx i q 1).val = (i 1).val := by
  unfold DotDims.rhsIdx
  rw [dif_neg (show ¬(1 : Fin S128x96.rank) ∈ dot_S5000x128_S128x96_S5000x96_1_0_0_1_n_n.rhsBatch by decide), dif_pos (show (1 : Fin S128x96.rank) ∈ dot_S5000x128_S128x96_S5000x96_1_0_0_1_n_n.rhsNonContracting by decide)]
  rfl

theorem lin_matmul_apply {φ₁ φ₂ : FTy} (l : FVec Ideal S5000x128 φ₁) (r : FVec Ideal S128x96 φ₂) (p : Fin 5000) (q : Fin 96) :
    FloatOps.matmul dot_S5000x128_S128x96_S5000x96_1_0_0_1_n_n none l r (constant (F := Ideal) S5000x96 .f32 0x00000000#32) (ix2 p q)
      = ∑ k : Fin 128, l (ix2 p k) * r (ix2 k q) := by
  rw [Ideal.matmul_constant_zero_apply, ← Equiv.sum_comp (contrEquiv1 dot_S5000x128_S128x96_S5000x96_1_0_0_1_n_n 128 rfl rfl).symm]
  refine Finset.sum_congr rfl fun k _ => ?_
  have hk := contrEquiv1_symm_val dot_S5000x128_S128x96_S5000x96_1_0_0_1_n_n 128 rfl rfl k
  have el : dot_S5000x128_S128x96_S5000x96_1_0_0_1_n_n.lhsIdx (ix2 p q) ((contrEquiv1 dot_S5000x128_S128x96_S5000x96_1_0_0_1_n_n 128 rfl rfl).symm k) = ix2 p k := funext fun a => Fin.ext (by
    match a with
    | ⟨0, _⟩ => exact lin_lhs_0 _ _
    | ⟨1, _⟩ => exact (lin_lhs_1 _ _).trans hk)
  have er : dot_S5000x128_S128x96_S5000x96_1_0_0_1_n_n.rhsIdx (ix2 p q) ((contrEquiv1 dot_S5000x128_S128x96_S5000x96_1_0_0_1_n_n 128 rfl rfl).symm k) = ix2 k q := funext fun a => Fin.ext (by
    match a with
    | ⟨0, _⟩ => exact (lin_rhs_0 _ _).trans hk
    | ⟨1, _⟩ => exact lin_rhs_1 _ _)
  rw [el, er]

theorem lin_bias_apply (b : FVec Ideal S1x96 .f32) (p : Fin 5000) (q : Fin 96) :
    broadcastTo S5000x96 b broadcasts_S1x96_S5000x96 (ix2 p q) = b (ix2 (0 : Fin 1) q) :=
  broadcastTo_1b_ab_apply b broadcasts_S1x96_S5000x96 p q

theorem lin_pay_apply (x0 : Vec Ideal S5000x128 .f32) (x1 : Vec Ideal S128x96 .f32) (x2 : Vec Ideal S1x96 .f32) (p : Fin 5000) (q : Fin 96) :
    (k0_pay1 (F := Ideal) x0 x1 x2) (ix2 p q) = (∑ k : Fin 128, x0 (ix2 p k) * x1 (ix2 k q)) + x2 (ix2 (0 : Fin 1) q) := by
  unfold k0_pay1
  simp only [shapeCast_self]
  rw [addf_apply, lin_bias_apply]
  refine congrArg (· + x2 (ix2 (0 : Fin 1) q)) ?_
  exact lin_matmul_apply _ _ p q

def linG (X : FVec Ideal S50000x128 .f32) (W : FVec Ideal S128x96 .f32) (B : FVec Ideal S1x96 .f32) : FVec Ideal S50000x96 .f32 :=
  fun i => (∑ k : Fin 128, X (ix2 (⟨(i 0).val, idx2_lt0 i⟩ : Fin 50000) k) * W (ix2 k (⟨(i 1).val, idx2_lt1 i⟩ : Fin 96)))
    + B (ix2 (0 : Fin 1) (⟨(i 1).val, idx2_lt1 i⟩ : Fin 96))

theorem lin_point (X : FVec Ideal S50000x128 .f32) (W : FVec Ideal S128x96 .f32) (B : FVec Ideal S1x96 .f32)
    (x0 : Vec Ideal S5000x128 .f32) (x1 : Vec Ideal S128x96 .f32) (x2 : Vec Ideal S1x96 .f32)
    (p : Fin 5000) (q : Fin 96) (i : S50000x96.Idx)
    (h0 : ∀ k : Fin 128, x0 (ix2 p k) = X (ix2 (⟨(i 0).val, idx2_lt0 i⟩ : Fin 50000) k))
    (h1 : ∀ k : Fin 128, x1 (ix2 k q) = W (ix2 k (⟨(i 1).val, idx2_lt1 i⟩ : Fin 96)))
    (h2 : x2 (ix2 (0 : Fin 1) q) = B (ix2 (0 : Fin 1) (⟨(i 1).val, idx2_lt1 i⟩ : Fin 96))) :
    (k0_pay1 (F := Ideal) x0 x1 x2) (ix2 p q) = linG X W B i := by
  rw [lin_pay_apply, h2]
  unfold linG
  exact congrArg (· + B (ix2 (0 : Fin 1) (⟨(i 1).val, idx2_lt1 i⟩ : Fin 96))) (Finset.sum_congr rfl fun k _ => by rw [h0 k, h1 k])

theorem lin_hz : (![0, 0] : Fin 2 → Nat) = fun _ => 0 := funext fun a => by fin_cases a <;> rfl

theorem lin_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

theorem lin_flushed_eq (c : Dev nD) (t : Fin cfg0.N) :
    (dat0 (F := Ideal) V c).flushed 3 t
      = ((cfg0.win 3).blk t).view.read (Elt Ideal) (linG (V c main_arg0) (V c main_arg3) (V c main_v16)) := by
  show (cfg0.win 3).cut (grid0.coords t) ((dat0 V c).after 3 t) = _
  rw [after0_3]
  unfold out0_3
  rw [View.canon_unit_zero lin_hz]
  simp only [View.ld_unit_zero (S := S5000x128) lin_hz, View.ld_unit_zero (S := S128x96) lin_hz, View.ld_unit_zero (S := S1x96) lin_hz]
  obtain ⟨e00, e01, e10, e11, e20, e21, e30, e31⟩ := lin_idx_facts t
  funext j
  obtain ⟨p, q, rfl⟩ : ∃ (p : Fin 5000) (q : Fin 96), j = ix2 p q := ⟨j 0, j 1, eq_ix2 j⟩
  refine lin_point (V c main_arg0) (V c main_arg3) (V c main_v16) (iblk0 V c 0 t) (iblk0 V c 1 t) (iblk0 V c 2 t) p q
    (((cfg0.win 3).blk t).view.emb (ix2 p q)) ?_ ?_ ?_
  · intro k
    show V c main_arg0 (((cfg0.win 0).blk t).view.emb (ix2 p k)) = V c main_arg0 _
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  · intro k
    show V c main_arg3 (((cfg0.win 1).blk t).view.emb (ix2 k q)) = V c main_arg3 _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 96 + 1 * q.val = win0_3.index t (1 : Fin 2) * 96 + 1 * q.val; omega
  · show V c main_v16 (((cfg0.win 2).blk t).view.emb (ix2 (0 : Fin 1) q)) = V c main_v16 _
    refine congrArg (V c main_v16) (funext fun a => Fin.ext ?_)
    match a with
    | ⟨0, _⟩ => show win0_2.index t (0 : Fin 2) * 1 + 1 * 0 = 0; omega
    | ⟨1, _⟩ => show win0_2.index t (1 : Fin 2) * 96 + 1 * q.val = win0_3.index t (1 : Fin 2) * 96 + 1 * q.val; omega

theorem lin_mem_blk (t : Fin cfg0.N) (i : S50000x96.Idx) :
    i ∈ ((cfg0.win 3).blk t).view.set ↔ ∀ a : Fin 2, win0_3.index t a * S5000x96.size a ≤ (i a).val ∧ (i a).val < win0_3.index t a * S5000x96.size a + S5000x96.size a := by
  show i ∈ ((View.whole main_v17).slice (win0_3.rect t)).set ↔ _
  rw [View.set_slice_whole, Rect.mem_set_unit]
  exact Iff.rfl

theorem lin_cover (i : S50000x96.Idx) : ∃ t : Fin cfg0.N, (cfg0.win 3).flush t = true ∧ i ∈ ((cfg0.win 3).blk t).view.set := by
  have hi0 : (i 0).val < 50000 := idx2_lt0 i
  have hi1 : (i 1).val < 96 := idx2_lt1 i
  have hN : grid0.N = 10 := N_0
  have ht : (i 0).val / 5000 < grid0.N := by omega
  obtain ⟨_, _, _, _, _, _, e30, e31⟩ := lin_idx_facts ⟨(i 0).val / 5000, ht⟩
  refine ⟨⟨(i 0).val / 5000, ht⟩, flush0_3 _, ?_⟩
  rw [lin_mem_blk]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 96 ≤ (i 1).val ∧ (i 1).val < win0_3.index ⟨(i 0).val / 5000, ht⟩ (1 : Fin 2) * 96 + 96
    rw [e31]; omega

theorem lin_arr (c : Dev nD) :
    (dat0 (F := Ideal) V c).arrAt 3 cfg0.N = linG (V c main_arg0) (V c main_arg3) (V c main_v16) :=
  (dat0 V c).arrAt_eq_of_cover 3 _ (fun t _ => lin_flushed_eq V c t) lin_cover

end

end Cert.Bridge

end
-- ==== Proof.LinEntry.lean ====
/- Kernel side of layer 0's projection: the arrays on entry are x, W and the bias as one row. -/
import proofs.«400244_j19808389169615_3_alg».proof.Proof.Gen.KernelIdeal.Frame
import proofs.«400244_j19808389169615_3_alg».proof.Proof.Walk
import Idealize.ShloMosaic.Lib.StableHlo.Run
import Idealize.ShloMosaic.Lib.ValueIdx

noncomputable section

namespace Cert.Bridge

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

theorem lin_entry_x : V4 m ρ c main_arg0 = m ((c : Thread nD τ).loc main_arg0) :=
  calc W4 m ρ c (Proc.devRef .tc main_arg0)
    _ = W3 m ρ c (Proc.devRef .tc main_arg0) := by skip_host hostOps0_3
    _ = W2 m ρ c (Proc.devRef .tc main_arg0) := by skip_host hostOps0_2
    _ = W1 m ρ c (Proc.devRef .tc main_arg0) := by skip_host hostOps0_1
    _ = W0 m ρ c (Proc.devRef .tc main_arg0) := by skip_host hostOps0
    _ = m ((c : Thread nD τ).loc main_arg0) := rfl

theorem lin_entry_w : V4 m ρ c main_arg3 = m ((c : Thread nD τ).loc main_arg3) :=
  calc W4 m ρ c (Proc.devRef .tc main_arg3)
    _ = W3 m ρ c (Proc.devRef .tc main_arg3) := by skip_host hostOps0_3
    _ = W2 m ρ c (Proc.devRef .tc main_arg3) := by skip_host hostOps0_2
    _ = W1 m ρ c (Proc.devRef .tc main_arg3) := by skip_host hostOps0_1
    _ = W0 m ρ c (Proc.devRef .tc main_arg3) := by skip_host hostOps0
    _ = m ((c : Thread nD τ).loc main_arg3) := rfl

theorem lin_bias_before : W3 m ρ c (Proc.devRef .tc main_arg4) = m ((c : Thread nD τ).loc main_arg4) :=
  calc W3 m ρ c (Proc.devRef .tc main_arg4)
    _ = W2 m ρ c (Proc.devRef .tc main_arg4) := by skip_host hostOps0_2
    _ = W1 m ρ c (Proc.devRef .tc main_arg4) := by skip_host hostOps0_1
    _ = W0 m ρ c (Proc.devRef .tc main_arg4) := by skip_host hostOps0
    _ = m ((c : Thread nD τ).loc main_arg4) := rfl

theorem lin_bias_row (V3 : Valuation τ sig (Elt Ideal)) :
    StableHlo.after hostOps0_3 V3 (Proc.devRef .tc main_v16)
      = shapeCast S1x96 (V3 (Proc.devRef .tc main_arg4)) shapeCasts_S96_S1x96 := by
  after_results
  rfl

theorem lin_entry_b :
    V4 m ρ c main_v16 = shapeCast S1x96 (m ((c : Thread nD τ).loc main_arg4)) shapeCasts_S96_S1x96 :=
  (lin_bias_row (W3 m ρ c)).trans (congrArg (fun b => shapeCast S1x96 b shapeCasts_S96_S1x96) (lin_bias_before m ρ c))

end Cert.Bridge

end
-- ==== Proof.StepLin.lean ====
/- Layer 0's projection x·W + b is the same array in both programs. -/
import proofs.«400244_j19808389169615_3_alg».proof.Proof.Stages
import proofs.«400244_j19808389169615_3_alg».proof.Proof.LinK
import proofs.«400244_j19808389169615_3_alg».proof.Proof.LinEntry

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

theorem lin_row_apply (b : FVec Ideal S96 .f32) (q : Fin 96) :
    shapeCast S1x96 b shapeCasts_S96_S1x96 (ix2 (0 : Fin 1) q) = b (ix1 q) :=
  shapeCast_apply b shapeCasts_S96_S1x96 (ix2 (0 : Fin 1) q) (ix1 q)
    (by rewrite [Shape.rowMajor_val_one, Shape.rowMajor_val_two]; show q.val = 0 * 96 + q.val; omega)

theorem kH0_eq_linG :
    kH0 m ρ c = linG (a0 m c) (a3 m c) (shapeCast S1x96 (a4 m c) shapeCasts_S96_S1x96) := by
  refine ((W5_arr m ρ c 3).trans (lin_arr (V4 m ρ) c)).trans ?_
  rw [lin_entry_x, lin_entry_w, lin_entry_b]

theorem h0_eq : kH0 m ρ c = rH0 m c := by
  rw [kH0_eq_linG]
  funext i
  have el : ∀ k : Fin 128, Cert.ReferenceIdeal.Read.lidx_main_v4 i k = ix2 (⟨(i 0).val, idx2_lt0 i⟩ : Fin 50000) k :=
    fun k => funext fun a => Fin.ext (by match a with | ⟨0, _⟩ => rfl | ⟨1, _⟩ => rfl)
  have er : ∀ k : Fin 128, Cert.ReferenceIdeal.Read.ridx_main_v4 i k = ix2 k (⟨(i 1).val, idx2_lt1 i⟩ : Fin 96) :=
    fun k => funext fun a => Fin.ext (by match a with | ⟨0, _⟩ => rfl | ⟨1, _⟩ => rfl)
  have eb : Cert.ReferenceIdeal.Read.idx_main_v5 (Cert.ReferenceIdeal.Read.idx_main_v6 i) = ix1 (⟨(i 1).val, idx2_lt1 i⟩ : Fin 96) :=
    funext fun a => Fin.ext (by match a with | ⟨0, _⟩ => rfl)
  unfold rH0 linG
  rw [Cert.ReferenceIdeal.Read.val_main_v7_apply, Cert.ReferenceIdeal.Read.val_main_v4_apply,
    Cert.ReferenceIdeal.Read.val_main_v6_apply, Cert.ReferenceIdeal.Read.val_main_v5_apply, lin_row_apply]
  simp only [el, er, eb, Ideal.addf_def]

end Cert.Bridge

end
-- ==== Proof.GcnK.lean ====
/- Kernel side of layer 0's node update: the body at an index, and the array after the call as one function of the arrays before it. -/
import proofs.«400244_j19808389169615_3_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.Bridge

open Idealize.ShloMosaic Idealize.ShloMosaic.TcCoe Idealize.SL.Sem Idealize.ShloMosaic.ValueIdx
open Cert.KernelIdeal Cert.KernelIdeal.Gen

def gcnPt (agg h b deg scale shift mean var : Ideal .f32) : Ideal .f32 :=
  (max (agg + Ideal.div (max (h + b) (Ideal.ofBits .f32 0x00000000#32)) deg) (Ideal.ofBits .f32 0x00000000#32) - mean)
    * Ideal.rsqrt (var + Ideal.ofBits .f32 0x3727C5AC#32) * scale + shift

theorem gcn_slice_agg (x : FVec Ideal S5000x97 .f32) (p : Fin 5000) (q : Fin 96) :
    extractStridedSlice S5000x96 ![0, 0] x slices_S5000x97_o0_0_S5000x96 (ix2 p q)
      = x (ix2 p (⟨q.val, by have := q.isLt; omega⟩ : Fin 97)) :=
  extractStridedSlice_apply ![0, 0] x slices_S5000x97_o0_0_S5000x96 (ix2 p q) (ix2 p (⟨q.val, by have := q.isLt; omega⟩ : Fin 97))
    (fun a => match a with
      | ⟨0, _⟩ => by show p.val = 0 + p.val; omega
      | ⟨1, _⟩ => by show q.val = 0 + q.val; omega)

theorem gcn_slice_deg (x : FVec Ideal S5000x97 .f32) (p : Fin 5000) :
    extractStridedSlice S5000x1 ![0, 96] x slices_S5000x97_o0_96_S5000x1 (ix2 p (0 : Fin 1))
      = x (ix2 p (⟨96, by decide⟩ : Fin 97)) :=
  extractStridedSlice_apply ![0, 96] x slices_S5000x97_o0_96_S5000x1 (ix2 p (0 : Fin 1)) (ix2 p (⟨96, by decide⟩ : Fin 97))
    (fun a => match a with
      | ⟨0, _⟩ => by show p.val = 0 + p.val; omega
      | ⟨1, _⟩ => by show 96 = 96 + 0; rfl)

theorem gcn_col_apply (d : FVec Ideal S5000x1 .f32) (p : Fin 5000) (q : Fin 96) :
    broadcastTo S5000x96 d broadcasts_S5000x1_S5000x96 (ix2 p q) = d (ix2 p (0 : Fin 1)) :=
  broadcastTo_apply d broadcasts_S5000x1_S5000x96 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

theorem gcn_row_apply (b : FVec Ideal S1x96 .f32) (p : Fin 5000) (q : Fin 96) :
    broadcastTo S5000x96 b broadcasts_S1x96_S5000x96 (ix2 p q) = b (ix2 (0 : Fin 1) q) :=
  broadcastTo_1b_ab_apply b broadcasts_S1x96_S5000x96 p q

theorem gcn_rsqrt_apply {s : Shape} {φ : FTy} (a : FVec Ideal s φ) (i : s.Idx) : rsqrt a i = Ideal.rsqrt (a i) := rfl

theorem gcn_pay_apply (x0 : Vec Ideal S5000x97 .f32) (x1 : Vec Ideal S5000x96 .f32)
    (x2 x3 x4 x5 x6 : Vec Ideal S1x96 .f32) (p : Fin 5000) (q : Fin 96) :
    (k2_pay1 (F := Ideal) x0 x1 x2 x3 x4 x5 x6) (ix2 p q)
      = gcnPt (x0 (ix2 p (⟨q.val, by have := q.isLt; omega⟩ : Fin 97))) (x1 (ix2 p q)) (x2 (ix2 (0 : Fin 1) q))
          (x0 (ix2 p (⟨96, by decide⟩ : Fin 97))) (x3 (ix2 (0 : Fin 1) q)) (x4 (ix2 (0 : Fin 1) q))
          (x5 (ix2 (0 : Fin 1) q)) (x6 (ix2 (0 : Fin 1) q)) := by
  unfold k2_pay1
  simp only [shapeCast_self]
  simp only [addf_apply, mulf_apply, subf_apply, divf_apply, maximumf_apply, gcn_rsqrt_apply, broadcast_apply,
    gcn_row_apply, gcn_col_apply, gcn_slice_agg, gcn_slice_deg]
  rfl

def gcnG (A : FVec Ideal S50000x97 .f32) (H : FVec Ideal S50000x96 .f32) (B G Bt Mu Var : FVec Ideal S1x96 .f32) :
    FVec Ideal S50000x96 .f32 :=
  fun i => gcnPt
    (A (ix2 (⟨(i 0).val, idx2_lt0 i⟩ : Fin 50000) (⟨(i 1).val, by have := idx2_lt1 i; omega⟩ : Fin 97)))
    (H (ix2 (⟨(i 0).val, idx2_lt0 i⟩ : Fin 50000) (⟨(i 1).val, idx2_lt1 i⟩ : Fin 96)))
    (B (ix2 (0 : Fin 1) (⟨(i 1).val, idx2_lt1 i⟩ : Fin 96)))
    (A (ix2 (⟨(i 0).val, idx2_lt0 i⟩ : Fin 50000) (⟨96, by decide⟩ : Fin 97)))
    (G (ix2 (0 : Fin 1) (⟨(i 1).val, idx2_lt1 i⟩ : Fin 96)))
    (Bt (ix2 (0 : Fin 1) (⟨(i 1).val, idx2_lt1 i⟩ : Fin 96)))
    (Mu (ix2 (0 : Fin 1) (⟨(i 1).val, idx2_lt1 i⟩ : Fin 96)))
    (Var (ix2 (0 : Fin 1) (⟨(i 1).val, idx2_lt1 i⟩ : Fin 96)))

theorem gcn_point (A : FVec Ideal S50000x97 .f32) (H : FVec Ideal S50000x96 .f32) (B G Bt Mu Var : FVec Ideal S1x96 .f32)
    (x0 : Vec Ideal S5000x97 .f32) (x1 : Vec Ideal S5000x96 .f32) (x2 x3 x4 x5 x6 : Vec Ideal S1x96 .f32)
    (p : Fin 5000) (q : Fin 96) (i : S50000x96.Idx)
    (h0a : x0 (ix2 p (⟨q.val, by have := q.isLt; omega⟩ : Fin 97))
      = A (ix2 (⟨(i 0).val, idx2_lt0 i⟩ : Fin 50000) (⟨(i 1).val, by have := idx2_lt1 i; omega⟩ : Fin 97)))
    (h0d : x0 (ix2 p (⟨96, by decide⟩ : Fin 97)) = A (ix2 (⟨(i 0).val, idx2_lt0 i⟩ : Fin 50000) (⟨96, by decide⟩ : Fin 97)))
    (h1 : x1 (ix2 p q) = H (ix2 (⟨(i 0).val, idx2_lt0 i⟩ : Fin 50000) (⟨(i 1).val, idx2_lt1 i⟩ : Fin 96)))
    (h2 : x2 (ix2 (0 : Fin 1) q) = B (ix2 (0 : Fin 1) (⟨(i 1).val, idx2_lt1 i⟩ : Fin 96)))
    (h3 : x3 (ix2 (0 : Fin 1) q) = G (ix2 (0 : Fin 1) (⟨(i 1).val, idx2_lt1 i⟩ : Fin 96)))
    (h4 : x4 (ix2 (0 : Fin 1) q) = Bt (ix2 (0 : Fin 1) (⟨(i 1).val, idx2_lt1 i⟩ : Fin 96)))
    (h5 : x5 (ix2 (0 : Fin 1) q) = Mu (ix2 (0 : Fin 1) (⟨(i 1).val, idx2_lt1 i⟩ : Fin 96)))
    (h6 : x6 (ix2 (0 : Fin 1) q) = Var (ix2 (0 : Fin 1) (⟨(i 1).val, idx2_lt1 i⟩ : Fin 96))) :
    (k2_pay1 (F := Ideal) x0 x1 x2 x3 x4 x5 x6) (ix2 p q) = gcnG A H B G Bt Mu Var i := by
  rw [gcn_pay_apply, h0a, h0d, h1, h2, h3, h4, h5, h6]
  rfl

theorem gcn_hz : (![0, 0] : Fin 2 → Nat) = fun _ => 0 := funext fun a => by fin_cases a <;> rfl

theorem gcn_idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

section
variable (V : (c : Dev nD) → (b : Ref sig .tc) → Buf (Elt Ideal) ((c : Thread nD τ).loc b))

theorem gcn_flushed_eq (c : Dev nD) (t : Fin cfg2.N) :
    (dat2 (F := Ideal) V c).flushed 7 t
      = ((cfg2.win 7).blk t).view.read (Elt Ideal)
          (gcnG (V c main_v34) (V c main_v17) (V c main_arg5) (V c main_v35) (V c main_v36) (V c main_v37) (V c main_v38)) := by
  show (cfg2.win 7).cut (grid2.coords t) ((dat2 V c).after 7 t) = _
  rw [after2_7]
  unfold out2_7
  rw [View.canon_unit_zero gcn_hz]
  simp only [View.ld_unit_zero (S := S5000x97) gcn_hz, View.ld_unit_zero (S := S5000x96) gcn_hz, View.ld_unit_zero (S := S1x96) gcn_hz]
  obtain ⟨e00, e01, e10, e11, e20, e21, e30, e31, e40, e41, e50, e51, e60, e61, e70, e71⟩ := gcn_idx_facts t
  funext j
  obtain ⟨p, q, rfl⟩ : ∃ (p : Fin 5000) (q : Fin 96), j = ix2 p q := ⟨j 0, j 1, eq_ix2 j⟩
  refine gcn_point (V c main_v34) (V c main_v17) (V c main_arg5) (V c main_v35) (V c main_v36) (V c main_v37) (V c main_v38)
    (iblk2 V c 0 t) (iblk2 V c 1 t) (iblk2 V c 2 t) (iblk2 V c 3 t) (iblk2 V c 4 t) (iblk2 V c 5 t) (iblk2 V c 6 t) p q
    (((cfg2.win 7).blk t).view.emb (ix2 p q)) ?_ ?_ ?_ ?_ ?_ ?_ ?_ ?_
  · show V c main_v34 (((cfg2.win 0).blk t).view.emb (ix2 p (⟨q.val, by have := q.isLt; omega⟩ : Fin 97))) = V c main_v34 _
    refine congrArg (V c main_v34) (funext fun a => Fin.ext ?_)
    match a with
    | ⟨0, _⟩ => show win2_0.index t (0 : Fin 2) * 5000 + 1 * p.val = win2_7.index t (0 : Fin 2) * 5000 + 1 * p.val; omega
    | ⟨1, _⟩ => show win2_0.index t (1 : Fin 2) * 97 + 1 * q.val = win2_7.index t (1 : Fin 2) * 96 + 1 * q.val; omega
  · show V c main_v34 (((cfg2.win 0).blk t).view.emb (ix2 p (⟨96, by decide⟩ : Fin 97))) = V c main_v34 _
    refine congrArg (V c main_v34) (funext fun a => Fin.ext ?_)
    match a with
    | ⟨0, _⟩ => show win2_0.index t (0 : Fin 2) * 5000 + 1 * p.val = win2_7.index t (0 : Fin 2) * 5000 + 1 * p.val; omega
    | ⟨1, _⟩ => show win2_0.index t (1 : Fin 2) * 97 + 1 * 96 = 96; omega
  · show V c main_v17 (((cfg2.win 1).blk t).view.emb (ix2 p q)) = V c main_v17 _
    refine congrArg (V c main_v17) (funext fun a => Fin.ext ?_)
    match a with
    | ⟨0, _⟩ => show win2_1.index t (0 : Fin 2) * 5000 + 1 * p.val = win2_7.index t (0 : Fin 2) * 5000 + 1 * p.val; omega
    | ⟨1, _⟩ => show win2_1.index t (1 : Fin 2) * 96 + 1 * q.val = win2_7.index t (1 : Fin 2) * 96 + 1 * q.val; omega
  · show V c main_arg5 (((cfg2.win 2).blk t).view.emb (ix2 (0 : Fin 1) q)) = V c main_arg5 _
    refine congrArg (V c main_arg5) (funext fun a => Fin.ext ?_)
    match a with
    | ⟨0, _⟩ => show win2_2.index t (0 : Fin 2) * 1 + 1 * 0 = 0; omega
    | ⟨1, _⟩ => show win2_2.index t (1 : Fin 2) * 96 + 1 * q.val = win2_7.index t (1 : Fin 2) * 96 + 1 * q.val; omega
  · show V c main_v35 (((cfg2.win 3).blk t).view.emb (ix2 (0 : Fin 1) q)) = V c main_v35 _
    refine congrArg (V c main_v35) (funext fun a => Fin.ext ?_)
    match a with
    | ⟨0, _⟩ => show win2_3.index t (0 : Fin 2) * 1 + 1 * 0 = 0; omega
    | ⟨1, _⟩ => show win2_3.index t (1 : Fin 2) * 96 + 1 * q.val = win2_7.index t (1 : Fin 2) * 96 + 1 * q.val; omega
  · show V c main_v36 (((cfg2.win 4).blk t).view.emb (ix2 (0 : Fin 1) q)) = V c main_v36 _
    refine congrArg (V c main_v36) (funext fun a => Fin.ext ?_)
    match a with
    | ⟨0, _⟩ => show win2_4.index t (0 : Fin 2) * 1 + 1 * 0 = 0; omega
    | ⟨1, _⟩ => show win2_4.index t (1 : Fin 2) * 96 + 1 * q.val = win2_7.index t (1 : Fin 2) * 96 + 1 * q.val; omega
  · show V c main_v37 (((cfg2.win 5).blk t).view.emb (ix2 (0 : Fin 1) q)) = V c main_v37 _
    refine congrArg (V c main_v37) (funext fun a => Fin.ext ?_)
    match a with
    | ⟨0, _⟩ => show win2_5.index t (0 : Fin 2) * 1 + 1 * 0 = 0; omega
    | ⟨1, _⟩ => show win2_5.index t (1 : Fin 2) * 96 + 1 * q.val = win2_7.index t (1 : Fin 2) * 96 + 1 * q.val; omega
  · show V c main_v38 (((cfg2.win 6).blk t).view.emb (ix2 (0 : Fin 1) q)) = V c main_v38 _
    refine congrArg (V c main_v38) (funext fun a => Fin.ext ?_)
    match a with
    | ⟨0, _⟩ => show win2_6.index t (0 : Fin 2) * 1 + 1 * 0 = 0; omega
    | ⟨1, _⟩ => show win2_6.index t (1 : Fin 2) * 96 + 1 * q.val = win2_7.index t (1 : Fin 2) * 96 + 1 * q.val; omega

theorem gcn_mem_blk (t : Fin cfg2.N) (i : S50000x96.Idx) :
    i ∈ ((cfg2.win 7).blk t).view.set ↔ ∀ a : Fin 2, win2_7.index t a * S5000x96.size a ≤ (i a).val ∧ (i a).val < win2_7.index t a * S5000x96.size a + S5000x96.size a := by
  show i ∈ ((View.whole main_v39).slice (win2_7.rect t)).set ↔ _
  rw [View.set_slice_whole, Rect.mem_set_unit]
  exact Iff.rfl

theorem gcn_cover (i : S50000x96.Idx) : ∃ t : Fin cfg2.N, (cfg2.win 7).flush t = true ∧ i ∈ ((cfg2.win 7).blk t).view.set := by
  have hi0 : (i 0).val < 50000 := idx2_lt0 i
  have hi1 : (i 1).val < 96 := idx2_lt1 i
  have hN : grid2.N = 10 := N_2
  have ht : (i 0).val / 5000 < grid2.N := by omega
  obtain ⟨_, _, _, _, _, _, _, _, _, _, _, _, _, _, e70, e71⟩ := gcn_idx_facts ⟨(i 0).val / 5000, ht⟩
  refine ⟨⟨(i 0).val / 5000, ht⟩, flush2_7 _, ?_⟩
  rw [gcn_mem_blk]
  intro a
  match a with
  | ⟨0, _⟩ =>
    show win2_7.index ⟨(i 0).val / 5000, ht⟩ (0 : Fin 2) * 5000 ≤ (i 0).val ∧ (i 0).val < win2_7.index ⟨(i 0).val / 5000, ht⟩ (0 : Fin 2) * 5000 + 5000
    rw [e70]; show (i 0).val / 5000 * 5000 ≤ (i 0).val ∧ (i 0).val < (i 0).val / 5000 * 5000 + 5000; omega
  | ⟨1, _⟩ =>
    show win2_7.index ⟨(i 0).val / 5000, ht⟩ (1 : Fin 2) * 96 ≤ (i 1).val ∧ (i 1).val < win2_7.index ⟨(i 0).val / 5000, ht⟩ (1 : Fin 2) * 96 + 96
    rw [e71]; omega

theorem gcn_arr (c : Dev nD) :
    (dat2 (F := Ideal) V c).arrAt 7 cfg2.N
      = gcnG (V c main_v34) (V c main_v17) (V c main_arg5) (V c main_v35) (V c main_v36) (V c main_v37) (V c main_v38) :=
  (dat2 V c).arrAt_eq_of_cover 7 _ (fun t _ => gcn_flushed_eq V c t) gcn_cover

end

end Cert.Bridge

end
-- ==== Proof.GcnEntry.lean ====
/- Kernel side of layer 0's node update: the arrays on entry, with the sums in columns 0..95 and the degree in column 96. -/
import proofs.«400244_j19808389169615_3_alg».proof.Proof.Gen.KernelIdeal.Frame
import proofs.«400244_j19808389169615_3_alg».proof.Proof.Walk
import Idealize.ShloMosaic.Lib.StableHlo.Run
import Idealize.ShloMosaic.Lib.ValueIdx
import Idealize.ShloMosaic.Lib.Pipeline.Value

noncomputable section

namespace Cert.Bridge

open Idealize.ShloMosaic Idealize.ShloMosaic.TcCoe Idealize.SL.Sem Idealize.ShloMosaic.ValueIdx
open Cert.KernelIdeal Cert.KernelIdeal.Gen

def gcnAggOf (V8 : Valuation τ sig (Elt Ideal)) : FVec Ideal S50000x96 .f32 :=
  Host.scatterAdd scatter_S50000x96_S800000x1_S800000x96_1_0_0_1
    (broadcastInDim S50000x96 ![] bcast_S_S50000x96 (constant (F := Ideal) S_ .f32 0x00000000#32))
    (broadcastInDim S800000x1 ![0] bcast_S800000_S800000x1_0 (V8 (Proc.devRef .tc main_v3)))
    (V8 (Proc.devRef .tc main_v21))

theorem gcn_host_agg (V8 : Valuation τ sig (Elt Ideal)) :
    StableHlo.after hostOps2 V8 (Proc.devRef .tc main_v24) = gcnAggOf V8 := by
  after_results
  rfl

theorem gcn_host_aggdeg (V8 : Valuation τ sig (Elt Ideal)) :
    StableHlo.after hostOps2 V8 (Proc.devRef .tc main_v34)
      = concatenate S50000x97 1
          [⟨S50000x96, gcnAggOf V8⟩,
           ⟨S50000x1, (shapeCast S50000x1 (V8 (Proc.devRef .tc main_v9)) shapeCasts_S50000_S50000x1 : FVec Ideal S50000x1 .f32)⟩]
          concatenates_S50000x96_S50000x1_S50000x97_d1 := by
  after_results
  rfl

theorem gcn_host_scale (V8 : Valuation τ sig (Elt Ideal)) :
    StableHlo.after hostOps2 V8 (Proc.devRef .tc main_v35)
      = shapeCast S1x96 (shapeCast S96 (extractStridedSlice S1x96 ![0, 0] (V8 (Proc.devRef .tc main_arg19)) slices_S3x96_S1x96_0_0) shapeCasts_S1x96_S96) shapeCasts_S96_S1x96 := by
  after_results
  rfl
theorem gcn_host_shift (V8 : Valuation τ sig (Elt Ideal)) :
    StableHlo.after hostOps2 V8 (Proc.devRef .tc main_v36)
      = shapeCast S1x96 (shapeCast S96 (extractStridedSlice S1x96 ![0, 0] (V8 (Proc.devRef .tc main_arg20)) slices_S3x96_S1x96_0_0) shapeCasts_S1x96_S96) shapeCasts_S96_S1x96 := by
  after_results
  rfl
theorem gcn_host_mean (V8 : Valuation τ sig (Elt Ideal)) :
    StableHlo.after hostOps2 V8 (Proc.devRef .tc main_v37)
      = shapeCast S1x96 (shapeCast S96 (extractStridedSlice S1x96 ![0, 0] (V8 (Proc.devRef .tc main_arg21)) slices_S3x96_S1x96_0_0) shapeCasts_S1x96_S96) shapeCasts_S96_S1x96 := by
  after_results
  rfl
theorem gcn_host_var (V8 : Valuation τ sig (Elt Ideal)) :
    StableHlo.after hostOps2 V8 (Proc.devRef .tc main_v38)
      = shapeCast S1x96 (shapeCast S96 (extractStridedSlice S1x96 ![0, 0] (V8 (Proc.devRef .tc main_arg22)) slices_S3x96_S1x96_0_0) shapeCasts_S1x96_S96) shapeCasts_S96_S1x96 := by
  after_results
  rfl

theorem gcn_join_left (A : FVec Ideal S50000x96 .f32) (D : FVec Ideal S50000x1 .f32) (r : Fin 50000) (q : Fin 96) :
    concatenate S50000x97 1 [⟨S50000x96, A⟩, ⟨S50000x1, D⟩] concatenates_S50000x96_S50000x1_S50000x97_d1
        (ix2 r (⟨q.val, by have := q.isLt; omega⟩ : Fin 97)) = A (ix2 r q) :=
  concatenate_pair_apply_left 1 A D concatenates_S50000x96_S50000x1_S50000x97_d1
    (ix2 r (⟨q.val, by have := q.isLt; omega⟩ : Fin 97)) rfl (ix2 r q)
    (fun b => match b with | ⟨0, _⟩ => rfl | ⟨1, _⟩ => rfl)

theorem gcn_join_right (A : FVec Ideal S50000x96 .f32) (D : FVec Ideal S50000x1 .f32) (r : Fin 50000) :
    concatenate S50000x97 1 [⟨S50000x96, A⟩, ⟨S50000x1, D⟩] concatenates_S50000x96_S50000x1_S50000x97_d1
        (ix2 r (⟨96, by decide⟩ : Fin 97)) = D (ix2 r (0 : Fin 1)) :=
  concatenate_pair_apply_right 1 A D concatenates_S50000x96_S50000x1_S50000x97_d1
    (ix2 r (⟨96, by decide⟩ : Fin 97)) rfl rfl (ix2 r (0 : Fin 1))
    (fun b => match b with | ⟨0, _⟩ => fun _ => rfl | ⟨1, _⟩ => fun h => absurd rfl h)
    rfl

theorem gcn_degcol_apply (d : FVec Ideal S50000 .f32) (r : Fin 50000) :
    shapeCast S50000x1 d shapeCasts_S50000_S50000x1 (ix2 r (0 : Fin 1)) = d (ix1 r) :=
  shapeCast_apply d shapeCasts_S50000_S50000x1 (ix2 r (0 : Fin 1)) (ix1 r)
    (by rewrite [Shape.rowMajor_val_one, Shape.rowMajor_val_two]; show r.val = r.val * 1 + 0; omega)

theorem gcn_row0_apply (x : FVec Ideal S3x96 .f32) (q : Fin 96) :
    shapeCast S1x96 (shapeCast S96 (extractStridedSlice S1x96 ![0, 0] x slices_S3x96_S1x96_0_0) shapeCasts_S1x96_S96) shapeCasts_S96_S1x96
        (ix2 (0 : Fin 1) q) = x (ix2 (0 : Fin 3) q) := by
  rw [shapeCast_shapeCast]
  exact extractStridedSlice_apply ![0, 0] x slices_S3x96_S1x96_0_0 (ix2 (0 : Fin 1) q) (ix2 (0 : Fin 3) q)
    (fun a => match a with
      | ⟨0, _⟩ => by show 0 = 0 + 0; rfl
      | ⟨1, _⟩ => by show q.val = 0 + q.val; omega)

section
variable (m : (ℓ : Loc nD τ sig) → Buf (Elt Ideal) ℓ) (ρ : Dev nD → PrngReg) (c : Dev nD)

theorem gcn_deg_before : W8 m ρ c (Proc.devRef .tc main_v9) = W1 m ρ c (Proc.devRef .tc main_v9) :=
  calc W8 m ρ c (Proc.devRef .tc main_v9)
    _ = W7 m ρ c (Proc.devRef .tc main_v9) := W8_of_ne m ρ c main_v9 (by decide)
    _ = W6 m ρ c (Proc.devRef .tc main_v9) := by skip_host hostOps1_1
    _ = W5 m ρ c (Proc.devRef .tc main_v9) := by skip_host hostOps1
    _ = W4 m ρ c (Proc.devRef .tc main_v9) := W5_of_ne m ρ c main_v9 (by decide)
    _ = W3 m ρ c (Proc.devRef .tc main_v9) := by skip_host hostOps0_3
    _ = W2 m ρ c (Proc.devRef .tc main_v9) := by skip_host hostOps0_2
    _ = W1 m ρ c (Proc.devRef .tc main_v9) := by skip_host hostOps0_1

theorem gcn_arg19_before : W8 m ρ c (Proc.devRef .tc main_arg19) = m ((c : Thread nD τ).loc main_arg19) :=
  calc W8 m ρ c (Proc.devRef .tc main_arg19)
    _ = W7 m ρ c (Proc.devRef .tc main_arg19) := W8_of_ne m ρ c main_arg19 (by decide)
    _ = W6 m ρ c (Proc.devRef .tc main_arg19) := by skip_host hostOps1_1
    _ = W5 m ρ c (Proc.devRef .tc main_arg19) := by skip_host hostOps1
    _ = W4 m ρ c (Proc.devRef .tc main_arg19) := W5_of_ne m ρ c main_arg19 (by decide)
    _ = W3 m ρ c (Proc.devRef .tc main_arg19) := by skip_host hostOps0_3
    _ = W2 m ρ c (Proc.devRef .tc main_arg19) := by skip_host hostOps0_2
    _ = W1 m ρ c (Proc.devRef .tc main_arg19) := by skip_host hostOps0_1
    _ = W0 m ρ c (Proc.devRef .tc main_arg19) := by skip_host hostOps0
    _ = m ((c : Thread nD τ).loc main_arg19) := rfl
theorem gcn_arg20_before : W8 m ρ c (Proc.devRef .tc main_arg20) = m ((c : Thread nD τ).loc main_arg20) :=
  calc W8 m ρ c (Proc.devRef .tc main_arg20)
    _ = W7 m ρ c (Proc.devRef .tc main_arg20) := W8_of_ne m ρ c main_arg20 (by decide)
    _ = W6 m ρ c (Proc.devRef .tc main_arg20) := by skip_host hostOps1_1
    _ = W5 m ρ c (Proc.devRef .tc main_arg20) := by skip_host hostOps1
    _ = W4 m ρ c (Proc.devRef .tc main_arg20) := W5_of_ne m ρ c main_arg20 (by decide)
    _ = W3 m ρ c (Proc.devRef .tc main_arg20) := by skip_host hostOps0_3
    _ = W2 m ρ c (Proc.devRef .tc main_arg20) := by skip_host hostOps0_2
    _ = W1 m ρ c (Proc.devRef .tc main_arg20) := by skip_host hostOps0_1
    _ = W0 m ρ c (Proc.devRef .tc main_arg20) := by skip_host hostOps0
    _ = m ((c : Thread nD τ).loc main_arg20) := rfl
theorem gcn_arg21_before : W8 m ρ c (Proc.devRef .tc main_arg21) = m ((c : Thread nD τ).loc main_arg21) :=
  calc W8 m ρ c (Proc.devRef .tc main_arg21)
    _ = W7 m ρ c (Proc.devRef .tc main_arg21) := W8_of_ne m ρ c main_arg21 (by decide)
    _ = W6 m ρ c (Proc.devRef .tc main_arg21) := by skip_host hostOps1_1
    _ = W5 m ρ c (Proc.devRef .tc main_arg21) := by skip_host hostOps1
    _ = W4 m ρ c (Proc.devRef .tc main_arg21) := W5_of_ne m ρ c main_arg21 (by decide)
    _ = W3 m ρ c (Proc.devRef .tc main_arg21) := by skip_host hostOps0_3
    _ = W2 m ρ c (Proc.devRef .tc main_arg21) := by skip_host hostOps0_2
    _ = W1 m ρ c (Proc.devRef .tc main_arg21) := by skip_host hostOps0_1
    _ = W0 m ρ c (Proc.devRef .tc main_arg21) := by skip_host hostOps0
    _ = m ((c : Thread nD τ).loc main_arg21) := rfl
theorem gcn_arg22_before : W8 m ρ c (Proc.devRef .tc main_arg22) = m ((c : Thread nD τ).loc main_arg22) :=
  calc W8 m ρ c (Proc.devRef .tc main_arg22)
    _ = W7 m ρ c (Proc.devRef .tc main_arg22) := W8_of_ne m ρ c main_arg22 (by decide)
    _ = W6 m ρ c (Proc.devRef .tc main_arg22) := by skip_host hostOps1_1
    _ = W5 m ρ c (Proc.devRef .tc main_arg22) := by skip_host hostOps1
    _ = W4 m ρ c (Proc.devRef .tc main_arg22) := W5_of_ne m ρ c main_arg22 (by decide)
    _ = W3 m ρ c (Proc.devRef .tc main_arg22) := by skip_host hostOps0_3
    _ = W2 m ρ c (Proc.devRef .tc main_arg22) := by skip_host hostOps0_2
    _ = W1 m ρ c (Proc.devRef .tc main_arg22) := by skip_host hostOps0_1
    _ = W0 m ρ c (Proc.devRef .tc main_arg22) := by skip_host hostOps0
    _ = m ((c : Thread nD τ).loc main_arg22) := rfl

theorem gcn_entry_agg (r : Fin 50000) (q : Fin 96) :
    V9 m ρ c main_v34 (ix2 r (⟨q.val, by have := q.isLt; omega⟩ : Fin 97)) = W9 m ρ c (Proc.devRef .tc main_v24) (ix2 r q) :=
  (congrFun (gcn_host_aggdeg (W8 m ρ c)) (ix2 r (⟨q.val, by have := q.isLt; omega⟩ : Fin 97))).trans
    ((gcn_join_left _ _ r q).trans (congrFun (gcn_host_agg (W8 m ρ c)) (ix2 r q)).symm)

theorem gcn_entry_deg (r : Fin 50000) :
    V9 m ρ c main_v34 (ix2 r (⟨96, by decide⟩ : Fin 97)) = W1 m ρ c (Proc.devRef .tc main_v9) (ix1 r) :=
  (congrFun (gcn_host_aggdeg (W8 m ρ c)) (ix2 r (⟨96, by decide⟩ : Fin 97))).trans
    ((gcn_join_right _ _ r).trans ((gcn_degcol_apply _ r).trans (congrFun (gcn_deg_before m ρ c) (ix1 r))))

theorem gcn_entry_h : V9 m ρ c main_v17 = W5 m ρ c (Proc.devRef .tc main_v17) :=
  calc W9 m ρ c (Proc.devRef .tc main_v17)
    _ = W8 m ρ c (Proc.devRef .tc main_v17) := by skip_host hostOps2
    _ = W7 m ρ c (Proc.devRef .tc main_v17) := W8_of_ne m ρ c main_v17 (by decide)
    _ = W6 m ρ c (Proc.devRef .tc main_v17) := by skip_host hostOps1_1
    _ = W5 m ρ c (Proc.devRef .tc main_v17) := by skip_host hostOps1

theorem gcn_entry_b : V9 m ρ c main_arg5 = m ((c : Thread nD τ).loc main_arg5) :=
  calc W9 m ρ c (Proc.devRef .tc main_arg5)
    _ = W8 m ρ c (Proc.devRef .tc main_arg5) := by skip_host hostOps2
    _ = W7 m ρ c (Proc.devRef .tc main_arg5) := W8_of_ne m ρ c main_arg5 (by decide)
    _ = W6 m ρ c (Proc.devRef .tc main_arg5) := by skip_host hostOps1_1
    _ = W5 m ρ c (Proc.devRef .tc main_arg5) := by skip_host hostOps1
    _ = W4 m ρ c (Proc.devRef .tc main_arg5) := W5_of_ne m ρ c main_arg5 (by decide)
    _ = W3 m ρ c (Proc.devRef .tc main_arg5) := by skip_host hostOps0_3
    _ = W2 m ρ c (Proc.devRef .tc main_arg5) := by skip_host hostOps0_2
    _ = W1 m ρ c (Proc.devRef .tc main_arg5) := by skip_host hostOps0_1
    _ = W0 m ρ c (Proc.devRef .tc main_arg5) := by skip_host hostOps0
    _ = m ((c : Thread nD τ).loc main_arg5) := rfl

theorem gcn_entry_scale (q : Fin 96) :
    V9 m ρ c main_v35 (ix2 (0 : Fin 1) q) = m ((c : Thread nD τ).loc main_arg19) (ix2 (0 : Fin 3) q) :=
  (congrFun (gcn_host_scale (W8 m ρ c)) (ix2 (0 : Fin 1) q)).trans
    ((gcn_row0_apply _ q).trans (congrFun (gcn_arg19_before m ρ c) (ix2 (0 : Fin 3) q)))
theorem gcn_entry_shift (q : Fin 96) :
    V9 m ρ c main_v36 (ix2 (0 : Fin 1) q) = m ((c : Thread nD τ).loc main_arg20) (ix2 (0 : Fin 3) q) :=
  (congrFun (gcn_host_shift (W8 m ρ c)) (ix2 (0 : Fin 1) q)).trans
    ((gcn_row0_apply _ q).trans (congrFun (gcn_arg20_before m ρ c) (ix2 (0 : Fin 3) q)))
theorem gcn_entry_mean (q : Fin 96) :
    V9 m ρ c main_v37 (ix2 (0 : Fin 1) q) = m ((c : Thread nD τ).loc main_arg21) (ix2 (0 : Fin 3) q) :=
  (congrFun (gcn_host_mean (W8 m ρ c)) (ix2 (0 : Fin 1) q)).trans
    ((gcn_row0_apply _ q).trans (congrFun (gcn_arg21_before m ρ c) (ix2 (0 : Fin 3) q)))
theorem gcn_entry_var (q : Fin 96) :
    V9 m ρ c main_v38 (ix2 (0 : Fin 1) q) = m ((c : Thread nD τ).loc main_arg22) (ix2 (0 : Fin 3) q) :=
  (congrFun (gcn_host_var (W8 m ρ c)) (ix2 (0 : Fin 1) q)).trans
    ((gcn_row0_apply _ q).trans (congrFun (gcn_arg22_before m ρ c) (ix2 (0 : Fin 3) q)))

end

end Cert.Bridge

end
-- ==== Proof.StepGcn.lean ====
/- Layer 0's node update agrees: summed messages plus the root term over the degree, clamped at zero, then normalised. -/
import proofs.«400244_j19808389169615_3_alg».proof.Proof.Stages
import proofs.«400244_j19808389169615_3_alg».proof.Proof.GcnK
import proofs.«400244_j19808389169615_3_alg».proof.Proof.GcnEntry

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

theorem gcn_ref_apply (r : Fin 50000) (q : Fin 96) :
    rH1 m c (ix2 r q) = gcnPt (rAgg0 m c (ix2 r q)) (rH0 m c (ix2 r q)) (a5 m c (ix2 (0 : Fin 1) q)) (rDeg m c (ix1 r))
      (a19 m c (ix2 (0 : Fin 3) q)) (a20 m c (ix2 (0 : Fin 3) q)) (a21 m c (ix2 (0 : Fin 3) q)) (a22 m c (ix2 (0 : Fin 3) q)) := by
  open Cert.ReferenceIdeal.Read in
  have i54 : idx_main_v54 (ix2 r q) = ix2 (0 : Fin 1) q :=
    funext fun a => Fin.ext (by match a with | ⟨0, _⟩ => rfl | ⟨1, _⟩ => rfl)
  open Cert.ReferenceIdeal.Read in
  have i58 : idx_main_v57 (idx_main_v58 (ix2 r q)) = ix1 r :=
    funext fun a => Fin.ext (by match a with | ⟨0, _⟩ => rfl)
  open Cert.ReferenceIdeal.Read in
  have i71 : idx_main_v66 (idx_main_v67 (idx_main_v70 (idx_main_v71 (ix2 r q)))) = ix2 (0 : Fin 3) q :=
    funext fun a => Fin.ext (by match a with | ⟨0, _⟩ => rfl | ⟨1, _⟩ => exact Nat.mod_eq_of_lt q.isLt)
  open Cert.ReferenceIdeal.Read in
  have i77 : idx_main_v68 (idx_main_v69 (idx_main_v76 (idx_main_v77 (ix2 r q)))) = ix2 (0 : Fin 3) q :=
    funext fun a => Fin.ext (by match a with | ⟨0, _⟩ => rfl | ⟨1, _⟩ => exact Nat.mod_eq_of_lt q.isLt)
  open Cert.ReferenceIdeal.Read in
  have i80 : idx_main_v62 (idx_main_v63 (idx_main_v79 (idx_main_v80 (ix2 r q)))) = ix2 (0 : Fin 3) q :=
    funext fun a => Fin.ext (by match a with | ⟨0, _⟩ => rfl | ⟨1, _⟩ => exact Nat.mod_eq_of_lt q.isLt)
  open Cert.ReferenceIdeal.Read in
  have i83 : idx_main_v64 (idx_main_v65 (idx_main_v82 (idx_main_v83 (ix2 r q)))) = ix2 (0 : Fin 3) q :=
    funext fun a => Fin.ext (by match a with | ⟨0, _⟩ => rfl | ⟨1, _⟩ => exact Nat.mod_eq_of_lt q.isLt)
  unfold rH1 rAgg0 rH0 rDeg gcnPt
  open Cert.ReferenceIdeal.Read in
  rw [val_main_v84_apply, val_main_v81_apply, val_main_v78_apply, val_main_v72_apply, val_main_v61_apply,
    val_main_v60_apply, val_main_v59_apply, val_main_v56_apply, val_main_v55_apply, val_main_v54_apply,
    val_main_v58_apply, val_main_v57_apply, val_main_call2_v0_apply, val_main_call2_cst_apply,
    val_main_call3_v0_apply, val_main_call3_cst_apply,
    val_main_v71_apply, val_main_v70_apply, val_main_v67_apply, val_main_v66_apply,
    val_main_v77_apply, val_main_v76_apply, val_main_v75_apply, val_main_v74_apply, val_main_v69_apply,
    val_main_v68_apply, val_main_v73_apply, val_main_cst_8_apply,
    val_main_v80_apply, val_main_v79_apply, val_main_v63_apply, val_main_v62_apply,
    val_main_v83_apply, val_main_v82_apply, val_main_v65_apply, val_main_v64_apply]
  simp only [i54, i58, i71, i77, i80, i83, Ideal.addf_def, Ideal.mulf_def, Ideal.subf_def, Ideal.maximumf_def,
    Ideal.hostDivf_def, Ideal.hostUnary_rsqrt_def, Ideal.ofBits_def]

theorem kH1_apply (r : Fin 50000) (q : Fin 96) :
    kH1 m ρ c (ix2 r q) = gcnPt (kAgg0 m ρ c (ix2 r q)) (kH0 m ρ c (ix2 r q)) (a5 m c (ix2 (0 : Fin 1) q)) (kDeg m ρ c (ix1 r))
      (a19 m c (ix2 (0 : Fin 3) q)) (a20 m c (ix2 (0 : Fin 3) q)) (a21 m c (ix2 (0 : Fin 3) q)) (a22 m c (ix2 (0 : Fin 3) q)) := by
  have hk : kH1 m ρ c (ix2 r q)
      = gcnPt (V9 m ρ c main_v34 (ix2 r (⟨q.val, by have := q.isLt; omega⟩ : Fin 97))) (V9 m ρ c main_v17 (ix2 r q))
          (V9 m ρ c main_arg5 (ix2 (0 : Fin 1) q)) (V9 m ρ c main_v34 (ix2 r (⟨96, by decide⟩ : Fin 97)))
          (V9 m ρ c main_v35 (ix2 (0 : Fin 1) q)) (V9 m ρ c main_v36 (ix2 (0 : Fin 1) q))
          (V9 m ρ c main_v37 (ix2 (0 : Fin 1) q)) (V9 m ρ c main_v38 (ix2 (0 : Fin 1) q)) :=
    congrFun ((W10_arr m ρ c 7).trans (gcn_arr (V9 m ρ) c)) (ix2 r q)
  rw [hk, gcn_entry_agg m ρ c r q, gcn_entry_deg m ρ c r, gcn_entry_h m ρ c, gcn_entry_b m ρ c,
    gcn_entry_scale m ρ c q, gcn_entry_shift m ρ c q, gcn_entry_mean m ρ c q, gcn_entry_var m ρ c q]

theorem h1_eq (hagg : kAgg0 m ρ c = rAgg0 m c) (hdeg : kDeg m ρ c = rDeg m c) (hh0 : kH0 m ρ c = rH0 m c) :
    kH1 m ρ c = rH1 m c := by
  funext i
  obtain ⟨r, q, rfl⟩ : ∃ (r : Fin 50000) (q : Fin 96), i = ix2 r q := ⟨i 0, i 1, eq_ix2 i⟩
  rw [kH1_apply, gcn_ref_apply, hagg, hdeg, hh0]

end Cert.Bridge

end
-- ==== Proof.MsgSpec.lean ====
/- One edge's message: the source row plus a two-layer network on the edge's 16 attributes, clamped at zero. -/
import Idealize.ShloMosaic.PureOps.Ideal
import Idealize.ShloMosaic.Lib.ValueIdx

noncomputable section

namespace Cert.Bridge.Msg

open Idealize.ShloMosaic

abbrev zero : EReal := Ideal.ofBits .f32 0x00000000#32

def edgeNet (ea : Fin 16 → EReal) (w1 : Fin 16 → Fin 96 → EReal) (b1 : Fin 96 → EReal)
    (w2 : Fin 96 → Fin 96 → EReal) (b2 : Fin 96 → EReal) (q : Fin 96) : EReal :=
  (∑ k : Fin 96, max ((∑ j : Fin 16, ea j * w1 j k) + b1 k) zero * w2 k q) + b2 q

def msg (h : Fin 96 → EReal) (ea : Fin 16 → EReal) (w1 : Fin 16 → Fin 96 → EReal) (b1 : Fin 96 → EReal)
    (w2 : Fin 96 → Fin 96 → EReal) (b2 : Fin 96 → EReal) (q : Fin 96) : EReal :=
  max (h q + edgeNet ea w1 b1 w2 b2 q) zero

end Cert.Bridge.Msg

end
-- ==== Proof.LibMatmul.lean ====
/- A block of 5000 rows times a 96-by-96 matrix, into zero: each entry is the plain sum over the contracted axis. -/
import proofs.«400244_j19808389169615_3_alg».proof.Proof.Gen.KernelIdeal
import Idealize.ShloMosaic.Lib.ValueIdx
import Idealize.ShloMosaic.PureOps.Ideal.Laws

noncomputable section

open scoped BigOperators

namespace Cert.Bridge

open Idealize.ShloMosaic Idealize.ShloMosaic.TcCoe Idealize.SL.Sem Idealize.ShloMosaic.ValueIdx
open Cert.KernelIdeal Cert.KernelIdeal.Gen

theorem mm96_lhs_0 (i : S5000x96.Idx) (q : dot_S5000x96_S96x96_S5000x96_1_0_0_1_n_n.contr.Idx) :
    (dot_S5000x96_S96x96_S5000x96_1_0_0_1_n_n.lhsIdx i q 0).val = (i 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
theorem mm96_lhs_1 (i : S5000x96.Idx) (q : dot_S5000x96_S96x96_S5000x96_1_0_0_1_n_n.contr.Idx) :
    (dot_S5000x96_S96x96_S5000x96_1_0_0_1_n_n.lhsIdx i q 1).val = (q ⟨0, by decide⟩).val :=
  dot_S5000x96_S96x96_S5000x96_1_0_0_1_n_n.lhsIdx_val_of_single rfl i q
theorem mm96_rhs_0 (i : S5000x96.Idx) (q : dot_S5000x96_S96x96_S5000x96_1_0_0_1_n_n.contr.Idx) :
    (dot_S5000x96_S96x96_S5000x96_1_0_0_1_n_n.rhsIdx i q 0).val = (q ⟨0, by decide⟩).val :=
  dot_S5000x96_S96x96_S5000x96_1_0_0_1_n_n.rhsIdx_val_of_single rfl i q
theorem mm96_rhs_1 (i : S5000x96.Idx) (q : dot_S5000x96_S96x96_S5000x96_1_0_0_1_n_n.contr.Idx) :
    (dot_S5000x96_S96x96_S5000x96_1_0_0_1_n_n.rhsIdx i q 1).val = (i 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

theorem mm96_apply {φ₁ φ₂ : FTy} (l : FVec Ideal S5000x96 φ₁) (r : FVec Ideal S96x96 φ₂) (p : Fin 5000) (q : Fin 96) :
    matmul dot_S5000x96_S96x96_S5000x96_1_0_0_1_n_n none l r (constant (F := Ideal) S5000x96 .f32 0x00000000#32) (ix2 p q)
      = ∑ k : Fin 96, l (ix2 p k) * r (ix2 k q) := by
  show FloatOps.matmul dot_S5000x96_S96x96_S5000x96_1_0_0_1_n_n none l r (constant (F := Ideal) S5000x96 .f32 0x00000000#32) (ix2 p q) = _
  rw [Ideal.matmul_constant_zero_apply, ← Equiv.sum_comp (contrEquiv1 dot_S5000x96_S96x96_S5000x96_1_0_0_1_n_n 96 rfl rfl).symm]
  refine Finset.sum_congr rfl fun k _ => ?_
  have hk := contrEquiv1_symm_val dot_S5000x96_S96x96_S5000x96_1_0_0_1_n_n 96 rfl rfl k
  have el : dot_S5000x96_S96x96_S5000x96_1_0_0_1_n_n.lhsIdx (ix2 p q) ((contrEquiv1 dot_S5000x96_S96x96_S5000x96_1_0_0_1_n_n 96 rfl rfl).symm k) = ix2 p k := funext fun a => Fin.ext (by
    match a with
    | ⟨0, _⟩ => exact mm96_lhs_0 _ _
    | ⟨1, _⟩ => exact (mm96_lhs_1 _ _).trans hk)
  have er : dot_S5000x96_S96x96_S5000x96_1_0_0_1_n_n.rhsIdx (ix2 p q) ((contrEquiv1 dot_S5000x96_S96x96_S5000x96_1_0_0_1_n_n 96 rfl rfl).symm k) = ix2 k q := funext fun a => Fin.ext (by
    match a with
    | ⟨0, _⟩ => exact (mm96_rhs_0 _ _).trans hk
    | ⟨1, _⟩ => exact mm96_rhs_1 _ _)
  rw [el, er]

end Cert.Bridge

end
-- ==== Proof.MsgPay.lean ====
/- Kernel side: what an edge block's body stores at an entry is that edge's message. -/
import proofs.«400244_j19808389169615_3_alg».proof.Proof.Gen.KernelIdeal.Skeleton
import proofs.«400244_j19808389169615_3_alg».proof.Proof.MsgSpec
import proofs.«400244_j19808389169615_3_alg».proof.Proof.LibMatmul
import Idealize.ShloMosaic.Lib.ValueIdx
import Idealize.ShloMosaic.Lib.Pipeline.Value
import Idealize.ShloMosaic.Lib.ValueLayout
import Idealize.ShloMosaic.PureOps.Ideal.Laws

noncomputable section

namespace Cert.Bridge.Msg

open Idealize.ShloMosaic Idealize.SL.Sem Idealize.ShloMosaic.ValueIdx
open Cert.KernelIdeal Cert.KernelIdeal.Gen

theorem lhs_mmA_0 (i : S5000x96.Idx) (q : dot_S5000x16_S16x96_S5000x96_1_0_0_1_n_n.contr.Idx) :
    (dot_S5000x16_S16x96_S5000x96_1_0_0_1_n_n.lhsIdx i q 0).val = (i 0).val := by
  unfold DotDims.lhsIdx
  rw [dif_neg (show ¬(0 : Fin S5000x16.rank) ∈ dot_S5000x16_S16x96_S5000x96_1_0_0_1_n_n.lhsBatch by decide), dif_pos (show (0 : Fin S5000x16.rank) ∈ dot_S5000x16_S16x96_S5000x96_1_0_0_1_n_n.lhsNonContracting by decide)]
  rfl
theorem lhs_mmA_1 (i : S5000x96.Idx) (q : dot_S5000x16_S16x96_S5000x96_1_0_0_1_n_n.contr.Idx) :
    (dot_S5000x16_S16x96_S5000x96_1_0_0_1_n_n.lhsIdx i q 1).val = (q ⟨0, by decide⟩).val :=
  dot_S5000x16_S16x96_S5000x96_1_0_0_1_n_n.lhsIdx_val_of_single rfl i q
theorem rhs_mmA_0 (i : S5000x96.Idx) (q : dot_S5000x16_S16x96_S5000x96_1_0_0_1_n_n.contr.Idx) :
    (dot_S5000x16_S16x96_S5000x96_1_0_0_1_n_n.rhsIdx i q 0).val = (q ⟨0, by decide⟩).val :=
  dot_S5000x16_S16x96_S5000x96_1_0_0_1_n_n.rhsIdx_val_of_single rfl i q
theorem rhs_mmA_1 (i : S5000x96.Idx) (q : dot_S5000x16_S16x96_S5000x96_1_0_0_1_n_n.contr.Idx) :
    (dot_S5000x16_S16x96_S5000x96_1_0_0_1_n_n.rhsIdx i q 1).val = (i 1).val := by
  unfold DotDims.rhsIdx
  rw [dif_neg (show ¬(1 : Fin S16x96.rank) ∈ dot_S5000x16_S16x96_S5000x96_1_0_0_1_n_n.rhsBatch by decide), dif_pos (show (1 : Fin S16x96.rank) ∈ dot_S5000x16_S16x96_S5000x96_1_0_0_1_n_n.rhsNonContracting by decide)]
  rfl

theorem mmA_apply (l : FVec Ideal S5000x16 .bf16) (r : FVec Ideal S16x96 .bf16) (p : Fin 5000) (q : Fin 96) :
    matmul dot_S5000x16_S16x96_S5000x96_1_0_0_1_n_n none l r (constant S5000x96 .f32 0x00000000#32) (ix2 p q) = ∑ k : Fin 16, l (ix2 p k) * r (ix2 k q) := by
  simp only [matmul]
  rw [Ideal.matmul_constant_zero_apply, ← Equiv.sum_comp (ValueIdx.contrEquiv1 dot_S5000x16_S16x96_S5000x96_1_0_0_1_n_n 16 rfl rfl).symm]
  refine Finset.sum_congr rfl fun k _ => ?_
  have hk := ValueIdx.contrEquiv1_symm_val dot_S5000x16_S16x96_S5000x96_1_0_0_1_n_n 16 rfl rfl k
  have el : dot_S5000x16_S16x96_S5000x96_1_0_0_1_n_n.lhsIdx (ix2 p q) ((ValueIdx.contrEquiv1 dot_S5000x16_S16x96_S5000x96_1_0_0_1_n_n 16 rfl rfl).symm k) = ix2 p k := funext fun a => Fin.ext (by
    match a with
    | ⟨0, _⟩ => exact lhs_mmA_0 _ _
    | ⟨1, _⟩ => exact (lhs_mmA_1 _ _).trans hk)
  have er : dot_S5000x16_S16x96_S5000x96_1_0_0_1_n_n.rhsIdx (ix2 p q) ((ValueIdx.contrEquiv1 dot_S5000x16_S16x96_S5000x96_1_0_0_1_n_n 16 rfl rfl).symm k) = ix2 k q := funext fun a => Fin.ext (by
    match a with
    | ⟨0, _⟩ => exact (rhs_mmA_0 _ _).trans hk
    | ⟨1, _⟩ => exact rhs_mmA_1 _ _)
  rw [el, er]

theorem attrs_apply (x : FVec Ideal S5000x17 .f32) (p : Fin 5000) (j : Fin 16) :
    extractStridedSlice S5000x16 ![0, 0] x slices_S5000x17_o0_0_S5000x16 (ix2 p j) = x (ix2 p (Fin.castLE (by decide : 16 ≤ 17) j)) :=
  slice2_axis1_apply 0 x slices_S5000x17_o0_0_S5000x16 p j (Fin.castLE (by decide : 16 ≤ 17) j) (by show j.val = 0 + j.val; omega)

theorem weight_apply (x : FVec Ideal S5000x17 .f32) (p : Fin 5000) (u : Fin 1) :
    extractStridedSlice S5000x1 ![0, 16] x slices_S5000x17_o0_16_S5000x1 (ix2 p u) = x (ix2 p (16 : Fin 17)) :=
  slice2_axis1_apply 16 x slices_S5000x17_o0_16_S5000x1 p u (16 : Fin 17) (by have := u.isLt; show 16 = 16 + u.val; omega)

theorem spread_apply (v : FVec Ideal S5000x1 .f32) (p : Fin 5000) (q : Fin 96) :
    broadcastTo S5000x96 v broadcasts_S5000x1_S5000x96 (ix2 p q) = v (ix2 p (0 : Fin 1)) := by
  refine broadcastTo_apply v broadcasts_S5000x1_S5000x96 (ix2 p q) (ix2 p (0 : Fin 1)) fun ax => ?_
  match ax with
  | ⟨0, _⟩ =>
    show p.val = if (5000 : Nat) = 1 then 0 else p.val
    rw [if_neg (by decide)]
  | ⟨1, _⟩ =>
    show 0 = if (1 : Nat) = 1 then 0 else q.val
    rw [if_pos rfl]

theorem bias_apply (v : FVec Ideal S1x96 .f32) (p : Fin 5000) (q : Fin 96) :
    broadcastTo S5000x96 v broadcasts_S1x96_S5000x96 (ix2 p q) = v (ix2 (0 : Fin 1) q) :=
  broadcastTo_1b_ab_apply v broadcasts_S1x96_S5000x96 p q

theorem pay1_apply (x0 : Vec Ideal S5000x17 .f32) (x2 : Vec Ideal S16x96 .f32) (x3 : Vec Ideal S1x96 .f32)
    (x4 : Vec Ideal S96x96 .f32) (x5 : Vec Ideal S1x96 .f32) (x1 : Vec Ideal S5000x96 .f32) (p : Fin 5000) (q : Fin 96) :
    k1_pay1 x0 x2 x3 x4 x5 x1 (ix2 p q)
      = msg (fun q' => x1 (ix2 p q')) (fun j => x0 (ix2 p (Fin.castLE (by decide : 16 ≤ 17) j))) (fun j k => x2 (ix2 j k))
          (fun k => x3 (ix2 (0 : Fin 1) k)) (fun k q' => x4 (ix2 k q')) (fun q' => x5 (ix2 (0 : Fin 1) q')) q
        * x0 (ix2 p (16 : Fin 17)) := by
  unfold k1_pay1 msg edgeNet
  simp only [mulf_apply, maximumf_apply, addf_apply, broadcast_apply, shapeCast_self, truncf_apply, mmA_apply, mm96_apply,
    attrs_apply, weight_apply, spread_apply, bias_apply]
  rfl

theorem pay3_apply (x0 : Vec Ideal S5000x16 .f32) (x2 : Vec Ideal S16x96 .f32) (x3 : Vec Ideal S1x96 .f32)
    (x4 : Vec Ideal S96x96 .f32) (x5 : Vec Ideal S1x96 .f32) (x1 : Vec Ideal S5000x96 .f32) (p : Fin 5000) (q : Fin 96) :
    k3_pay1 x0 x2 x3 x4 x5 x1 (ix2 p q)
      = msg (fun q' => x1 (ix2 p q')) (fun j => x0 (ix2 p j)) (fun j k => x2 (ix2 j k))
          (fun k => x3 (ix2 (0 : Fin 1) k)) (fun k q' => x4 (ix2 k q')) (fun q' => x5 (ix2 (0 : Fin 1) q')) q := by
  unfold k3_pay1 msg edgeNet
  simp only [maximumf_apply, addf_apply, broadcast_apply, shapeCast_self, truncf_apply, mmA_apply, mm96_apply, bias_apply]
  rfl

theorem pay5_apply (x0 : Vec Ideal S5000x16 .f32) (x2 : Vec Ideal S16x96 .f32) (x3 : Vec Ideal S1x96 .f32)
    (x4 : Vec Ideal S96x96 .f32) (x5 : Vec Ideal S1x96 .f32) (x1 : Vec Ideal S5000x96 .f32) (p : Fin 5000) (q : Fin 96) :
    k5_pay1 x0 x2 x3 x4 x5 x1 (ix2 p q)
      = msg (fun q' => x1 (ix2 p q')) (fun j => x0 (ix2 p j)) (fun j k => x2 (ix2 j k))
          (fun k => x3 (ix2 (0 : Fin 1) k)) (fun k q' => x4 (ix2 k q')) (fun q' => x5 (ix2 (0 : Fin 1) q')) q := by
  unfold k5_pay1 msg edgeNet
  simp only [maximumf_apply, addf_apply, broadcast_apply, shapeCast_self, truncf_apply, mmA_apply, mm96_apply, bias_apply]
  rfl

def msgArr (H : FVec Ideal S800000x96 .f32) (EA : FVec Ideal S800000x16 .f32) (W1 : FVec Ideal S16x96 .f32)
    (B1 : FVec Ideal S1x96 .f32) (W2 : FVec Ideal S96x96 .f32) (B2 : FVec Ideal S1x96 .f32) : FVec Ideal S800000x96 .f32 :=
  fun i => msg (fun q' => H (ix2 (⟨(i 0).val, idx2_lt0 i⟩ : Fin 800000) q')) (fun j => EA (ix2 (⟨(i 0).val, idx2_lt0 i⟩ : Fin 800000) j))
    (fun j k => W1 (ix2 j k)) (fun k => B1 (ix2 (0 : Fin 1) k)) (fun k q' => W2 (ix2 k q')) (fun q' => B2 (ix2 (0 : Fin 1) q'))
    (⟨(i 1).val, idx2_lt1 i⟩ : Fin 96)

def msgArrW (H : FVec Ideal S800000x96 .f32) (EA : FVec Ideal S800000x17 .f32) (W1 : FVec Ideal S16x96 .f32)
    (B1 : FVec Ideal S1x96 .f32) (W2 : FVec Ideal S96x96 .f32) (B2 : FVec Ideal S1x96 .f32) : FVec Ideal S800000x96 .f32 :=
  fun i => msg (fun q' => H (ix2 (⟨(i 0).val, idx2_lt0 i⟩ : Fin 800000) q'))
    (fun j => EA (ix2 (⟨(i 0).val, idx2_lt0 i⟩ : Fin 800000) (Fin.castLE (by decide : 16 ≤ 17) j)))
    (fun j k => W1 (ix2 j k)) (fun k => B1 (ix2 (0 : Fin 1) k)) (fun k q' => W2 (ix2 k q')) (fun q' => B2 (ix2 (0 : Fin 1) q'))
    (⟨(i 1).val, idx2_lt1 i⟩ : Fin 96)
    * EA (ix2 (⟨(i 0).val, idx2_lt0 i⟩ : Fin 800000) (16 : Fin 17))

theorem pay1_point (H : FVec Ideal S800000x96 .f32) (EA : FVec Ideal S800000x17 .f32) (W1 : FVec Ideal S16x96 .f32)
    (B1 : FVec Ideal S1x96 .f32) (W2 : FVec Ideal S96x96 .f32) (B2 : FVec Ideal S1x96 .f32)
    (x0 : Vec Ideal S5000x17 .f32) (x2 : Vec Ideal S16x96 .f32) (x3 : Vec Ideal S1x96 .f32)
    (x4 : Vec Ideal S96x96 .f32) (x5 : Vec Ideal S1x96 .f32) (x1 : Vec Ideal S5000x96 .f32)
    (p : Fin 5000) (q : Fin 96) (i : S800000x96.Idx)
    (h1 : ∀ q' : Fin 96, x1 (ix2 p q') = H (ix2 (⟨(i 0).val, idx2_lt0 i⟩ : Fin 800000) q'))
    (h0 : ∀ j : Fin 17, x0 (ix2 p j) = EA (ix2 (⟨(i 0).val, idx2_lt0 i⟩ : Fin 800000) j))
    (h2 : ∀ (j : Fin 16) (k : Fin 96), x2 (ix2 j k) = W1 (ix2 j k))
    (h3 : ∀ k : Fin 96, x3 (ix2 (0 : Fin 1) k) = B1 (ix2 (0 : Fin 1) k))
    (h4 : ∀ (k q' : Fin 96), x4 (ix2 k q') = W2 (ix2 k q'))
    (h5 : ∀ q' : Fin 96, x5 (ix2 (0 : Fin 1) q') = B2 (ix2 (0 : Fin 1) q'))
    (hq : q = (⟨(i 1).val, idx2_lt1 i⟩ : Fin 96)) :
    k1_pay1 x0 x2 x3 x4 x5 x1 (ix2 p q) = msgArrW H EA W1 B1 W2 B2 i := by
  rw [pay1_apply]
  unfold msgArrW
  simp only [h0, h1, h2, h3, h4, h5]
  rw [hq]

theorem pay3_point (H : FVec Ideal S800000x96 .f32) (EA : FVec Ideal S800000x16 .f32) (W1 : FVec Ideal S16x96 .f32)
    (B1 : FVec Ideal S1x96 .f32) (W2 : FVec Ideal S96x96 .f32) (B2 : FVec Ideal S1x96 .f32)
    (x0 : Vec Ideal S5000x16 .f32) (x2 : Vec Ideal S16x96 .f32) (x3 : Vec Ideal S1x96 .f32)
    (x4 : Vec Ideal S96x96 .f32) (x5 : Vec Ideal S1x96 .f32) (x1 : Vec Ideal S5000x96 .f32)
    (p : Fin 5000) (q : Fin 96) (i : S800000x96.Idx)
    (h1 : ∀ q' : Fin 96, x1 (ix2 p q') = H (ix2 (⟨(i 0).val, idx2_lt0 i⟩ : Fin 800000) q'))
    (h0 : ∀ j : Fin 16, x0 (ix2 p j) = EA (ix2 (⟨(i 0).val, idx2_lt0 i⟩ : Fin 800000) j))
    (h2 : ∀ (j : Fin 16) (k : Fin 96), x2 (ix2 j k) = W1 (ix2 j k))
    (h3 : ∀ k : Fin 96, x3 (ix2 (0 : Fin 1) k) = B1 (ix2 (0 : Fin 1) k))
    (h4 : ∀ (k q' : Fin 96), x4 (ix2 k q') = W2 (ix2 k q'))
    (h5 : ∀ q' : Fin 96, x5 (ix2 (0 : Fin 1) q') = B2 (ix2 (0 : Fin 1) q'))
    (hq : q = (⟨(i 1).val, idx2_lt1 i⟩ : Fin 96)) :
    k3_pay1 x0 x2 x3 x4 x5 x1 (ix2 p q) = msgArr H EA W1 B1 W2 B2 i := by
  rw [pay3_apply]
  unfold msgArr
  simp only [h0, h1, h2, h3, h4, h5]
  rw [hq]

theorem pay5_point (H : FVec Ideal S800000x96 .f32) (EA : FVec Ideal S800000x16 .f32) (W1 : FVec Ideal S16x96 .f32)
    (B1 : FVec Ideal S1x96 .f32) (W2 : FVec Ideal S96x96 .f32) (B2 : FVec Ideal S1x96 .f32)
    (x0 : Vec Ideal S5000x16 .f32) (x2 : Vec Ideal S16x96 .f32) (x3 : Vec Ideal S1x96 .f32)
    (x4 : Vec Ideal S96x96 .f32) (x5 : Vec Ideal S1x96 .f32) (x1 : Vec Ideal S5000x96 .f32)
    (p : Fin 5000) (q : Fin 96) (i : S800000x96.Idx)
    (h1 : ∀ q' : Fin 96, x1 (ix2 p q') = H (ix2 (⟨(i 0).val, idx2_lt0 i⟩ : Fin 800000) q'))
    (h0 : ∀ j : Fin 16, x0 (ix2 p j) = EA (ix2 (⟨(i 0).val, idx2_lt0 i⟩ : Fin 800000) j))
    (h2 : ∀ (j : Fin 16) (k : Fin 96), x2 (ix2 j k) = W1 (ix2 j k))
    (h3 : ∀ k : Fin 96, x3 (ix2 (0 : Fin 1) k) = B1 (ix2 (0 : Fin 1) k))
    (h4 : ∀ (k q' : Fin 96), x4 (ix2 k q') = W2 (ix2 k q'))
    (h5 : ∀ q' : Fin 96, x5 (ix2 (0 : Fin 1) q') = B2 (ix2 (0 : Fin 1) q'))
    (hq : q = (⟨(i 1).val, idx2_lt1 i⟩ : Fin 96)) :
    k5_pay1 x0 x2 x3 x4 x5 x1 (ix2 p q) = msgArr H EA W1 B1 W2 B2 i := by
  rw [pay5_apply]
  unfold msgArr
  simp only [h0, h1, h2, h3, h4, h5]
  rw [hq]

end Cert.Bridge.Msg

end
-- ==== Proof.MsgArr1.lean ====
/- Kernel side of layer 0's messages: 160 blocks of 5000 edges cover the array after the call. -/
import proofs.«400244_j19808389169615_3_alg».proof.Proof.Gen.KernelIdeal.Frame
import proofs.«400244_j19808389169615_3_alg».proof.Proof.MsgPay

noncomputable section

namespace Cert.Bridge.Msg

open Idealize.ShloMosaic Idealize.ShloMosaic.TcCoe Idealize.SL.Sem Idealize.ShloMosaic.ValueIdx
open Cert.KernelIdeal Cert.KernelIdeal.Gen

theorem hz1 : (![0, 0] : Fin 2 → Nat) = fun _ => 0 := funext fun a => by fin_cases a <;> rfl

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

section
variable (V : (c : Dev nD) → (b : Ref sig .tc) → Buf (Elt Ideal) ((c : Thread nD τ).loc b))

theorem flushed1_eq (c : Dev nD) (t : Fin cfg1.N) :
    (dat1 (F := Ideal) V c).flushed 6 t
      = ((cfg1.win 6).blk t).view.read (Elt Ideal) (msgArrW (V c main_v18) (V c main_v15) (V c main_arg6) (V c main_v19) (V c main_arg8) (V c main_v20)) := by
  show (cfg1.win 6).cut (grid1.coords t) ((dat1 V c).after 6 t) = _
  rw [after1_6]
  unfold out1_6
  rw [View.canon_unit_zero hz1]
  simp only [View.ld_unit_zero (S := S5000x17) hz1, View.ld_unit_zero (S := S5000x96) hz1, View.ld_unit_zero (S := S16x96) hz1,
    View.ld_unit_zero (S := S1x96) hz1, View.ld_unit_zero (S := S96x96) hz1]
  obtain ⟨e00, e01, e10, e11, e20, e21, e30, e31, e40, e41, e50, e51, e60, e61⟩ := idx_facts1 t
  funext j
  obtain ⟨p, q, rfl⟩ : ∃ (p : Fin 5000) (q : Fin 96), j = ix2 p q := ⟨j 0, j 1, eq_ix2 j⟩
  refine pay1_point (V c main_v18) (V c main_v15) (V c main_arg6) (V c main_v19) (V c main_arg8) (V c main_v20)
    (iblk1 V c 0 t) (iblk1 V c 2 t) (iblk1 V c 3 t) (iblk1 V c 4 t) (iblk1 V c 5 t) (iblk1 V c 1 t) p q
    (((cfg1.win 6).blk t).view.emb (ix2 p q)) ?_ ?_ ?_ ?_ ?_ ?_ ?_
  · intro q'
    show V c main_v18 (((cfg1.win 1).blk t).view.emb (ix2 p q')) = V c main_v18 _
    refine congrArg (V c main_v18) (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 96 + 1 * q'.val = q'.val; omega
  · intro j
    show V c main_v15 (((cfg1.win 0).blk t).view.emb (ix2 p j)) = V c main_v15 _
    refine congrArg (V c main_v15) (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 17 + 1 * j.val = j.val; omega
  · intro j k
    show V c main_arg6 (((cfg1.win 2).blk t).view.emb (ix2 j k)) = V c main_arg6 _
    refine congrArg (V c main_arg6) (funext fun a => Fin.ext ?_)
    match a with
    | ⟨0, _⟩ => show win1_2.index t (0 : Fin 2) * 16 + 1 * j.val = j.val; omega
    | ⟨1, _⟩ => show win1_2.index t (1 : Fin 2) * 96 + 1 * k.val = k.val; omega
  · intro k
    show V c main_v19 (((cfg1.win 3).blk t).view.emb (ix2 (0 : Fin 1) k)) = V c main_v19 _
    refine congrArg (V c main_v19) (funext fun a => Fin.ext ?_)
    match a with
    | ⟨0, _⟩ => show win1_3.index t (0 : Fin 2) * 1 + 1 * 0 = 0; omega
    | ⟨1, _⟩ => show win1_3.index t (1 : Fin 2) * 96 + 1 * k.val = k.val; omega
  · intro k q'
    show V c main_arg8 (((cfg1.win 4).blk t).view.emb (ix2 k q')) = V c main_arg8 _
    refine congrArg (V c main_arg8) (funext fun a => Fin.ext ?_)
    match a with
    | ⟨0, _⟩ => show win1_4.index t (0 : Fin 2) * 96 + 1 * k.val = k.val; omega
    | ⟨1, _⟩ => show win1_4.index t (1 : Fin 2) * 96 + 1 * q'.val = q'.val; omega
  · intro q'
    show V c main_v20 (((cfg1.win 5).blk t).view.emb (ix2 (0 : Fin 1) q')) = V c main_v20 _
    refine congrArg (V c main_v20) (funext fun a => Fin.ext ?_)
    match a with
    | ⟨0, _⟩ => show win1_5.index t (0 : Fin 2) * 1 + 1 * 0 = 0; omega
    | ⟨1, _⟩ => show win1_5.index t (1 : Fin 2) * 96 + 1 * q'.val = q'.val; omega
  · refine Fin.ext ?_
    show q.val = win1_6.index t (1 : Fin 2) * 96 + 1 * q.val
    omega

theorem mem_blk1 (t : Fin cfg1.N) (i : S800000x96.Idx) :
    i ∈ ((cfg1.win 6).blk t).view.set ↔ ∀ a : Fin 2, win1_6.index t a * S5000x96.size a ≤ (i a).val ∧ (i a).val < win1_6.index t a * S5000x96.size a + S5000x96.size a := by
  show i ∈ ((View.whole main_v21).slice (win1_6.rect t)).set ↔ _
  rw [View.set_slice_whole, Rect.mem_set_unit]
  exact Iff.rfl

theorem cover1 (i : S800000x96.Idx) : ∃ t : Fin cfg1.N, (cfg1.win 6).flush t = true ∧ i ∈ ((cfg1.win 6).blk t).view.set := by
  have hi0 : (i 0).val < 800000 := idx2_lt0 i
  have hi1 : (i 1).val < 96 := idx2_lt1 i
  have hN : grid1.N = 160 := N_1
  have ht : (i 0).val / 5000 < grid1.N := by omega
  obtain ⟨_, _, _, _, _, _, _, _, _, _, _, _, e60, e61⟩ := idx_facts1 ⟨(i 0).val / 5000, ht⟩
  refine ⟨⟨(i 0).val / 5000, ht⟩, flush1_6 _, ?_⟩
  rw [mem_blk1]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e60]; show (i 0).val / 5000 * 5000 ≤ (i 0).val ∧ (i 0).val < (i 0).val / 5000 * 5000 + 5000; omega
  | ⟨1, _⟩ =>
    show win1_6.index ⟨(i 0).val / 5000, ht⟩ (1 : Fin 2) * 96 ≤ (i 1).val ∧ (i 1).val < win1_6.index ⟨(i 0).val / 5000, ht⟩ (1 : Fin 2) * 96 + 96
    rw [e61]; omega

theorem msg1_arr (c : Dev nD) :
    (dat1 (F := Ideal) V c).arrAt 6 cfg1.N = msgArrW (V c main_v18) (V c main_v15) (V c main_arg6) (V c main_v19) (V c main_arg8) (V c main_v20) :=
  (dat1 V c).arrAt_eq_of_cover 6 _ (fun t _ => flushed1_eq V c t) cover1

end

end Cert.Bridge.Msg

end
-- ==== Proof.MsgRef.lean ====
/- Reference side of the edge networks and messages, read at one edge and one feature. -/
import proofs.«400244_j19808389169615_3_alg».proof.Proof.RefRead
import proofs.«400244_j19808389169615_3_alg».proof.Proof.MsgSpec
import Idealize.ShloMosaic.PureOps.Ideal.Laws

noncomputable section

namespace Cert.Bridge.Msg

open Idealize.ShloMosaic Idealize.ShloMosaic.TcCoe Idealize.SL.Sem Idealize.ShloMosaic.ValueIdx
open Cert.ReferenceIdeal Cert.ReferenceIdeal.Read

theorem ref_net0 (x2 : FVec Ideal S800000x16 .f32) (x6 : FVec Ideal S16x96 .f32) (x7 : FVec Ideal S96 .f32)
    (x8 : FVec Ideal S96x96 .f32) (x9 : FVec Ideal S96 .f32) (e : Fin 800000) (q : Fin 96) :
    val_main_v16 (F := Ideal) x2 x6 x7 x8 x9 (ix2 e q)
      = edgeNet (fun j => x2 (ix2 e j)) (fun j k => x6 (ix2 j k)) (fun k => x7 (ix1 k)) (fun k q' => x8 (ix2 k q')) (fun q' => x9 (ix1 q')) q := by
  rw [val_main_v16_apply, val_main_v13_apply, val_main_v15_apply, val_main_v14_apply]
  unfold edgeNet
  simp only [val_main_v12_apply, val_main_v11_apply, val_main_v8_apply, val_main_v10_apply, val_main_v9_apply,
    val_main_call0_v0_apply, val_main_call0_cst_apply, Ideal.addf_def, Ideal.maximumf_def, Ideal.ofBits_def]
  have i1 : ∀ (k : Fin 96) (j : Fin 16), lidx_main_v8 (lidx_main_v13 (ix2 e q) k) j = ix2 e j := fun k j =>
    funext fun a => Fin.ext (by match a with | ⟨0, _⟩ => rfl | ⟨1, _⟩ => rfl)
  have i2 : ∀ (k : Fin 96) (j : Fin 16), ridx_main_v8 (lidx_main_v13 (ix2 e q) k) j = ix2 j k := fun k j =>
    funext fun a => Fin.ext (by match a with | ⟨0, _⟩ => rfl | ⟨1, _⟩ => rfl)
  have i3 : ∀ k : Fin 96, idx_main_v9 (idx_main_v10 (lidx_main_v13 (ix2 e q) k)) = ix1 k := fun k =>
    funext fun a => Fin.ext (by match a with | ⟨0, _⟩ => rfl)
  have i4 : ∀ k : Fin 96, ridx_main_v13 (ix2 e q) k = ix2 k q := fun k =>
    funext fun a => Fin.ext (by match a with | ⟨0, _⟩ => rfl | ⟨1, _⟩ => rfl)
  have i5 : idx_main_v14 (idx_main_v15 (ix2 e q)) = ix1 q :=
    funext fun a => Fin.ext (by match a with | ⟨0, _⟩ => rfl)
  simp only [i1, i2, i3, i4, i5]

theorem ref_net1 (x2 : FVec Ideal S800000x16 .f32) (x10 : FVec Ideal S2x16x96 .f32) (x11 : FVec Ideal S2x96 .f32)
    (x12 : FVec Ideal S2x96x96 .f32) (x13 : FVec Ideal S2x96 .f32) (e : Fin 800000) (q : Fin 96) :
    val_main_v101 (F := Ideal) x2 x10 x11 x12 x13 (ix2 e q)
      = edgeNet (fun j => x2 (ix2 e j)) (fun j k => x10 (ix3 (0 : Fin 2) j k)) (fun k => x11 (ix2 (0 : Fin 2) k))
          (fun k q' => x12 (ix3 (0 : Fin 2) k q')) (fun q' => x13 (ix2 (0 : Fin 2) q')) q := by
  rw [val_main_v101_apply, val_main_v96_apply, val_main_v100_apply, val_main_v99_apply, val_main_v98_apply, val_main_v97_apply]
  unfold edgeNet
  simp only [val_main_v93_apply, val_main_v92_apply, val_main_v87_apply, val_main_v91_apply, val_main_v90_apply, val_main_v89_apply,
    val_main_v88_apply, val_main_v86_apply, val_main_v85_apply, val_main_v95_apply, val_main_v94_apply,
    val_main_call4_v0_apply, val_main_call4_cst_apply, Ideal.addf_def, Ideal.maximumf_def, Ideal.ofBits_def]
  have hq : q.val < 96 := q.isLt
  have i1 : ∀ (k : Fin 96) (j : Fin 16), lidx_main_v87 (lidx_main_v96 (ix2 e q) k) j = ix2 e j := fun k j =>
    funext fun a => Fin.ext (by match a with | ⟨0, _⟩ => rfl | ⟨1, _⟩ => rfl)
  have i2 : ∀ (k : Fin 96) (j : Fin 16),
      idx_main_v85 (idx_main_v86 (ridx_main_v87 (lidx_main_v96 (ix2 e q) k) j)) = ix3 (0 : Fin 2) j k := fun k j =>
    funext fun a => Fin.ext (by
      have hj : j.val < 16 := j.isLt
      have hk : k.val < 96 := k.isLt
      match a with
      | ⟨0, _⟩ => rfl
      | ⟨1, _⟩ => show (j.val * 96 + k.val) / 96 % 16 = j.val; omega
      | ⟨2, _⟩ => show (j.val * 96 + k.val) % 96 = k.val; omega)
  have i3 : ∀ k : Fin 96,
      idx_main_v88 (idx_main_v89 (idx_main_v90 (idx_main_v91 (lidx_main_v96 (ix2 e q) k)))) = ix2 (0 : Fin 2) k := fun k =>
    funext fun a => Fin.ext (by
      have hk : k.val < 96 := k.isLt
      match a with
      | ⟨0, _⟩ => rfl
      | ⟨1, _⟩ => show k.val % 96 = k.val; omega)
  have i4 : ∀ k : Fin 96, idx_main_v94 (idx_main_v95 (ridx_main_v96 (ix2 e q) k)) = ix3 (0 : Fin 2) k q := fun k =>
    funext fun a => Fin.ext (by
      have hk : k.val < 96 := k.isLt
      match a with
      | ⟨0, _⟩ => rfl
      | ⟨1, _⟩ => show (k.val * 96 + q.val) / 96 % 96 = k.val; omega
      | ⟨2, _⟩ => show (k.val * 96 + q.val) % 96 = q.val; omega)
  have i5 : idx_main_v97 (idx_main_v98 (idx_main_v99 (idx_main_v100 (ix2 e q)))) = ix2 (0 : Fin 2) q :=
    funext fun a => Fin.ext (by
      match a with
      | ⟨0, _⟩ => rfl
      | ⟨1, _⟩ => show q.val % 96 = q.val; omega)
  simp only [i1, i2, i3, i4, i5]

theorem ref_net2 (x2 : FVec Ideal S800000x16 .f32) (x10 : FVec Ideal S2x16x96 .f32) (x11 : FVec Ideal S2x96 .f32)
    (x12 : FVec Ideal S2x96x96 .f32) (x13 : FVec Ideal S2x96 .f32) (e : Fin 800000) (q : Fin 96) :
    val_main_v177 (F := Ideal) x2 x10 x11 x12 x13 (ix2 e q)
      = edgeNet (fun j => x2 (ix2 e j)) (fun j k => x10 (ix3 (1 : Fin 2) j k)) (fun k => x11 (ix2 (1 : Fin 2) k))
          (fun k q' => x12 (ix3 (1 : Fin 2) k q')) (fun q' => x13 (ix2 (1 : Fin 2) q')) q := by
  rw [val_main_v177_apply, val_main_v172_apply, val_main_v176_apply, val_main_v175_apply, val_main_v174_apply, val_main_v173_apply]
  unfold edgeNet
  simp only [val_main_v169_apply, val_main_v168_apply, val_main_v163_apply, val_main_v167_apply, val_main_v166_apply, val_main_v165_apply,
    val_main_v164_apply, val_main_v162_apply, val_main_v161_apply, val_main_v171_apply, val_main_v170_apply,
    val_main_call8_v0_apply, val_main_call8_cst_apply, Ideal.addf_def, Ideal.maximumf_def, Ideal.ofBits_def]
  have hq : q.val < 96 := q.isLt
  have i1 : ∀ (k : Fin 96) (j : Fin 16), lidx_main_v163 (lidx_main_v172 (ix2 e q) k) j = ix2 e j := fun k j =>
    funext fun a => Fin.ext (by match a with | ⟨0, _⟩ => rfl | ⟨1, _⟩ => rfl)
  have i2 : ∀ (k : Fin 96) (j : Fin 16),
      idx_main_v161 (idx_main_v162 (ridx_main_v163 (lidx_main_v172 (ix2 e q) k) j)) = ix3 (1 : Fin 2) j k := fun k j =>
    funext fun a => Fin.ext (by
      have hj : j.val < 16 := j.isLt
      have hk : k.val < 96 := k.isLt
      match a with
      | ⟨0, _⟩ => rfl
      | ⟨1, _⟩ => show (j.val * 96 + k.val) / 96 % 16 = j.val; omega
      | ⟨2, _⟩ => show (j.val * 96 + k.val) % 96 = k.val; omega)
  have i3 : ∀ k : Fin 96,
      idx_main_v164 (idx_main_v165 (idx_main_v166 (idx_main_v167 (lidx_main_v172 (ix2 e q) k)))) = ix2 (1 : Fin 2) k := fun k =>
    funext fun a => Fin.ext (by
      have hk : k.val < 96 := k.isLt
      match a with
      | ⟨0, _⟩ => rfl
      | ⟨1, _⟩ => show k.val % 96 = k.val; omega)
  have i4 : ∀ k : Fin 96, idx_main_v170 (idx_main_v171 (ridx_main_v172 (ix2 e q) k)) = ix3 (1 : Fin 2) k q := fun k =>
    funext fun a => Fin.ext (by
      have hk : k.val < 96 := k.isLt
      match a with
      | ⟨0, _⟩ => rfl
      | ⟨1, _⟩ => show (k.val * 96 + q.val) / 96 % 96 = k.val; omega
      | ⟨2, _⟩ => show (k.val * 96 + q.val) % 96 = q.val; omega)
  have i5 : idx_main_v173 (idx_main_v174 (idx_main_v175 (idx_main_v176 (ix2 e q)))) = ix2 (1 : Fin 2) q :=
    funext fun a => Fin.ext (by
      match a with
      | ⟨0, _⟩ => rfl
      | ⟨1, _⟩ => show q.val % 96 = q.val; omega)
  simp only [i1, i2, i3, i4, i5]

theorem ref_msg0 (x0 : (⟨S50000x128, .f32⟩ : BufTy).Contents (Elt Ideal)) (x1 : (⟨S2x800000, .i32⟩ : BufTy).Contents (Elt Ideal)) (x2 : (⟨S800000x16, .f32⟩ : BufTy).Contents (Elt Ideal)) (x3 : (⟨S128x96, .f32⟩ : BufTy).Contents (Elt Ideal)) (x4 : (⟨S96, .f32⟩ : BufTy).Contents (Elt Ideal)) (x6 : (⟨S16x96, .f32⟩ : BufTy).Contents (Elt Ideal)) (x7 : (⟨S96, .f32⟩ : BufTy).Contents (Elt Ideal)) (x8 : (⟨S96x96, .f32⟩ : BufTy).Contents (Elt Ideal)) (x9 : (⟨S96, .f32⟩ : BufTy).Contents (Elt Ideal)) (e : Fin 800000) (q : Fin 96) :
    val_main_v50 (F := Ideal) x0 x1 x2 x3 x4 x6 x7 x8 x9 (ix2 e q)
      = val_main_v38 (F := Ideal) x1 (ix1 e)
        * msg (fun q' => val_main_v46 (F := Ideal) x0 x1 x3 x4 (ix2 e q')) (fun j => x2 (ix2 e j)) (fun j k => x6 (ix2 j k))
            (fun k => x7 (ix1 k)) (fun k q' => x8 (ix2 k q')) (fun q' => x9 (ix1 q')) q := by
  rw [val_main_v50_apply, val_main_v49_apply, val_main_v39_apply, val_main_v48_apply, val_main_v47_apply,
    val_main_call1_v0_apply, val_main_call1_cst_apply, ref_net0]
  have i1 : idx_main_v39 (idx_main_v49 (ix2 e q)) = ix1 e := funext fun a => Fin.ext (by match a with | ⟨0, _⟩ => rfl)
  rw [i1]
  rfl

theorem ref_msg1 (x0 : (⟨S50000x128, .f32⟩ : BufTy).Contents (Elt Ideal)) (x1 : (⟨S2x800000, .i32⟩ : BufTy).Contents (Elt Ideal)) (x2 : (⟨S800000x16, .f32⟩ : BufTy).Contents (Elt Ideal)) (x3 : (⟨S128x96, .f32⟩ : BufTy).Contents (Elt Ideal)) (x4 : (⟨S96, .f32⟩ : BufTy).Contents (Elt Ideal)) (x5 : (⟨S1x96, .f32⟩ : BufTy).Contents (Elt Ideal)) (x6 : (⟨S16x96, .f32⟩ : BufTy).Contents (Elt Ideal)) (x7 : (⟨S96, .f32⟩ : BufTy).Contents (Elt Ideal)) (x8 : (⟨S96x96, .f32⟩ : BufTy).Contents (Elt Ideal)) (x9 : (⟨S96, .f32⟩ : BufTy).Contents (Elt Ideal)) (x10 : (⟨S2x16x96, .f32⟩ : BufTy).Contents (Elt Ideal)) (x11 : (⟨S2x96, .f32⟩ : BufTy).Contents (Elt Ideal)) (x12 : (⟨S2x96x96, .f32⟩ : BufTy).Contents (Elt Ideal)) (x13 : (⟨S2x96, .f32⟩ : BufTy).Contents (Elt Ideal)) (x19 x20 x21 x22 : (⟨S3x96, .f32⟩ : BufTy).Contents (Elt Ideal)) (e : Fin 800000) (q : Fin 96) :
    val_main_v110 (F := Ideal) x0 x1 x2 x3 x4 x5 x6 x7 x8 x9 x10 x11 x12 x13 x19 x20 x21 x22 (ix2 e q)
      = msg (fun q' => val_main_v108 (F := Ideal) x0 x1 x2 x3 x4 x5 x6 x7 x8 x9 x19 x20 x21 x22 (ix2 e q')) (fun j => x2 (ix2 e j))
          (fun j k => x10 (ix3 (0 : Fin 2) j k)) (fun k => x11 (ix2 (0 : Fin 2) k))
          (fun k q' => x12 (ix3 (0 : Fin 2) k q')) (fun q' => x13 (ix2 (0 : Fin 2) q')) q := by
  rw [val_main_v110_apply, val_main_v109_apply, val_main_call5_v0_apply, val_main_call5_cst_apply, ref_net1]
  rfl

theorem ref_msg2 (x0 : (⟨S50000x128, .f32⟩ : BufTy).Contents (Elt Ideal)) (x1 : (⟨S2x800000, .i32⟩ : BufTy).Contents (Elt Ideal)) (x2 : (⟨S800000x16, .f32⟩ : BufTy).Contents (Elt Ideal)) (x3 : (⟨S128x96, .f32⟩ : BufTy).Contents (Elt Ideal)) (x4 : (⟨S96, .f32⟩ : BufTy).Contents (Elt Ideal)) (x5 : (⟨S1x96, .f32⟩ : BufTy).Contents (Elt Ideal)) (x6 : (⟨S16x96, .f32⟩ : BufTy).Contents (Elt Ideal)) (x7 : (⟨S96, .f32⟩ : BufTy).Contents (Elt Ideal)) (x8 : (⟨S96x96, .f32⟩ : BufTy).Contents (Elt Ideal)) (x9 : (⟨S96, .f32⟩ : BufTy).Contents (Elt Ideal)) (x10 : (⟨S2x16x96, .f32⟩ : BufTy).Contents (Elt Ideal)) (x11 : (⟨S2x96, .f32⟩ : BufTy).Contents (Elt Ideal)) (x12 : (⟨S2x96x96, .f32⟩ : BufTy).Contents (Elt Ideal)) (x13 : (⟨S2x96, .f32⟩ : BufTy).Contents (Elt Ideal)) (x14 : (⟨S2x96x96, .f32⟩ : BufTy).Contents (Elt Ideal)) (x15 : (⟨S2x96, .f32⟩ : BufTy).Contents (Elt Ideal)) (x16 : (⟨S2x96x96, .f32⟩ : BufTy).Contents (Elt Ideal)) (x17 : (⟨S2x96, .f32⟩ : BufTy).Contents (Elt Ideal)) (x18 : (⟨S2, .f32⟩ : BufTy).Contents (Elt Ideal)) (x19 x20 x21 x22 : (⟨S3x96, .f32⟩ : BufTy).Contents (Elt Ideal)) (e : Fin 800000) (q : Fin 96) :
    val_main_v186 (F := Ideal) x0 x1 x2 x3 x4 x5 x6 x7 x8 x9 x10 x11 x12 x13 x14 x15 x16 x17 x18 x19 x20 x21 x22 (ix2 e q)
      = msg (fun q' => val_main_v184 (F := Ideal) x0 x1 x2 x3 x4 x5 x6 x7 x8 x9 x10 x11 x12 x13 x14 x15 x16 x17 x18 x19 x20 x21 x22 (ix2 e q')) (fun j => x2 (ix2 e j))
          (fun j k => x10 (ix3 (1 : Fin 2) j k)) (fun k => x11 (ix2 (1 : Fin 2) k))
          (fun k q' => x12 (ix3 (1 : Fin 2) k q')) (fun q' => x13 (ix2 (1 : Fin 2) q')) q := by
  rw [val_main_v186_apply, val_main_v185_apply, val_main_call9_v0_apply, val_main_call9_cst_apply, ref_net2]
  rfl

end Cert.Bridge.Msg

end
-- ==== Proof.StepMsg0.lean ====
/- Layer 0's messages agree: columns 0..15 of the 17-column operand are the attributes and column 16 is the edge weight. -/
import proofs.«400244_j19808389169615_3_alg».proof.Proof.Stages
import proofs.«400244_j19808389169615_3_alg».proof.Proof.Walk
import proofs.«400244_j19808389169615_3_alg».proof.Proof.MsgArr1
import proofs.«400244_j19808389169615_3_alg».proof.Proof.MsgRef
import Idealize.ShloMosaic.Lib.StableHlo.Run
import Idealize.ShloMosaic.Lib.ValueLayout

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

open Cert.Bridge.Msg

theorem msg0_entry_ea : V7 m ρ c main_v15 = kEa17 m ρ c :=
  calc W7 m ρ c (Proc.devRef .tc main_v15)
    _ = W6 m ρ c (Proc.devRef .tc main_v15) := by skip_host hostOps1_1
    _ = W5 m ρ c (Proc.devRef .tc main_v15) := by skip_host hostOps1
    _ = W4 m ρ c (Proc.devRef .tc main_v15) := W5_of_ne m ρ c main_v15 (by decide)

theorem msg0_entry_h : V7 m ρ c main_v18 = kHrow0 m ρ c :=
  calc W7 m ρ c (Proc.devRef .tc main_v18)
    _ = W6 m ρ c (Proc.devRef .tc main_v18) := by skip_host hostOps1_1

theorem msg0_entry_w1 : V7 m ρ c main_arg6 = a6 m c :=
  calc W7 m ρ c (Proc.devRef .tc main_arg6)
    _ = W6 m ρ c (Proc.devRef .tc main_arg6) := by skip_host hostOps1_1
    _ = W5 m ρ c (Proc.devRef .tc main_arg6) := by skip_host hostOps1
    _ = W4 m ρ c (Proc.devRef .tc main_arg6) := W5_of_ne m ρ c main_arg6 (by decide)
    _ = W3 m ρ c (Proc.devRef .tc main_arg6) := by skip_host hostOps0_3
    _ = W2 m ρ c (Proc.devRef .tc main_arg6) := by skip_host hostOps0_2
    _ = W1 m ρ c (Proc.devRef .tc main_arg6) := by skip_host hostOps0_1
    _ = W0 m ρ c (Proc.devRef .tc main_arg6) := by skip_host hostOps0
    _ = m ((c : Thread nD τ).loc main_arg6) := rfl

theorem msg0_entry_w2 : V7 m ρ c main_arg8 = a8 m c :=
  calc W7 m ρ c (Proc.devRef .tc main_arg8)
    _ = W6 m ρ c (Proc.devRef .tc main_arg8) := by skip_host hostOps1_1
    _ = W5 m ρ c (Proc.devRef .tc main_arg8) := by skip_host hostOps1
    _ = W4 m ρ c (Proc.devRef .tc main_arg8) := W5_of_ne m ρ c main_arg8 (by decide)
    _ = W3 m ρ c (Proc.devRef .tc main_arg8) := by skip_host hostOps0_3
    _ = W2 m ρ c (Proc.devRef .tc main_arg8) := by skip_host hostOps0_2
    _ = W1 m ρ c (Proc.devRef .tc main_arg8) := by skip_host hostOps0_1
    _ = W0 m ρ c (Proc.devRef .tc main_arg8) := by skip_host hostOps0
    _ = m ((c : Thread nD τ).loc main_arg8) := rfl

theorem msg0_b1_before : W6 m ρ c (Proc.devRef .tc main_arg7) = a7 m c :=
  calc W6 m ρ c (Proc.devRef .tc main_arg7)
    _ = W5 m ρ c (Proc.devRef .tc main_arg7) := by skip_host hostOps1
    _ = W4 m ρ c (Proc.devRef .tc main_arg7) := W5_of_ne m ρ c main_arg7 (by decide)
    _ = W3 m ρ c (Proc.devRef .tc main_arg7) := by skip_host hostOps0_3
    _ = W2 m ρ c (Proc.devRef .tc main_arg7) := by skip_host hostOps0_2
    _ = W1 m ρ c (Proc.devRef .tc main_arg7) := by skip_host hostOps0_1
    _ = W0 m ρ c (Proc.devRef .tc main_arg7) := by skip_host hostOps0
    _ = m ((c : Thread nD τ).loc main_arg7) := rfl

theorem msg0_b2_before : W6 m ρ c (Proc.devRef .tc main_arg9) = a9 m c :=
  calc W6 m ρ c (Proc.devRef .tc main_arg9)
    _ = W5 m ρ c (Proc.devRef .tc main_arg9) := by skip_host hostOps1
    _ = W4 m ρ c (Proc.devRef .tc main_arg9) := W5_of_ne m ρ c main_arg9 (by decide)
    _ = W3 m ρ c (Proc.devRef .tc main_arg9) := by skip_host hostOps0_3
    _ = W2 m ρ c (Proc.devRef .tc main_arg9) := by skip_host hostOps0_2
    _ = W1 m ρ c (Proc.devRef .tc main_arg9) := by skip_host hostOps0_1
    _ = W0 m ρ c (Proc.devRef .tc main_arg9) := by skip_host hostOps0
    _ = m ((c : Thread nD τ).loc main_arg9) := rfl

theorem msg0_rows (V6 : Valuation τ sig (Elt Ideal)) :
    StableHlo.after hostOps1_1 V6 (Proc.devRef .tc main_v19) = shapeCast S1x96 (V6 (Proc.devRef .tc main_arg7)) shapeCasts_S96_S1x96
    ∧ StableHlo.after hostOps1_1 V6 (Proc.devRef .tc main_v20) = shapeCast S1x96 (V6 (Proc.devRef .tc main_arg9)) shapeCasts_S96_S1x96 := by
  constructor
  · after_results
    rfl
  · after_results
    rfl

theorem msg0_entry_b1 : V7 m ρ c main_v19 = shapeCast S1x96 (a7 m c) shapeCasts_S96_S1x96 :=
  (msg0_rows (W6 m ρ c)).1.trans (congrArg (fun b => shapeCast S1x96 b shapeCasts_S96_S1x96) (msg0_b1_before m ρ c))

theorem msg0_entry_b2 : V7 m ρ c main_v20 = shapeCast S1x96 (a9 m c) shapeCasts_S96_S1x96 :=
  (msg0_rows (W6 m ρ c)).2.trans (congrArg (fun b => shapeCast S1x96 b shapeCasts_S96_S1x96) (msg0_b2_before m ρ c))

theorem msg0_kernel :
    kMsg0 m ρ c = msgArrW (kHrow0 m ρ c) (kEa17 m ρ c) (a6 m c) (shapeCast S1x96 (a7 m c) shapeCasts_S96_S1x96)
      (a8 m c) (shapeCast S1x96 (a9 m c) shapeCasts_S96_S1x96) := by
  refine ((W8_arr m ρ c 6).trans (msg1_arr (V7 m ρ) c)).trans ?_
  rw [msg0_entry_h, msg0_entry_ea, msg0_entry_w1, msg0_entry_b1, msg0_entry_w2, msg0_entry_b2]

theorem msg0_row (H : FVec Ideal S800000x96 .f32) (EA : FVec Ideal S800000x17 .f32) (W1 : FVec Ideal S16x96 .f32)
    (B1 : FVec Ideal S96 .f32) (W2 : FVec Ideal S96x96 .f32) (B2 : FVec Ideal S96 .f32)
    (R : Fin 96 → EReal) (A : Fin 16 → EReal) (n : EReal) (e : Fin 800000) (q : Fin 96)
    (hh : ∀ q' : Fin 96, H (ix2 e q') = R q')
    (ha : ∀ l : Fin 16, EA (ix2 e (Fin.castLE (by decide : 16 ≤ 17) l)) = A l) (hn : EA (ix2 e (16 : Fin 17)) = n) :
    msgArrW H EA W1 (shapeCast S1x96 B1 shapeCasts_S96_S1x96) W2 (shapeCast S1x96 B2 shapeCasts_S96_S1x96) (ix2 e q)
      = n * msg R A (fun j k => W1 (ix2 j k)) (fun k => B1 (ix1 k)) (fun k q' => W2 (ix2 k q')) (fun q' => B2 (ix1 q')) q := by
  show msg (fun q' => H (ix2 e q')) (fun j => EA (ix2 e (Fin.castLE (by decide : 16 ≤ 17) j))) (fun j k => W1 (ix2 j k))
      (fun k => shapeCast S1x96 B1 shapeCasts_S96_S1x96 (ix2 (0 : Fin 1) k)) (fun k q' => W2 (ix2 k q'))
      (fun q' => shapeCast S1x96 B2 shapeCasts_S96_S1x96 (ix2 (0 : Fin 1) q')) q * EA (ix2 e (16 : Fin 17)) = _
  simp only [shapeCast_a_1a_apply, hh, ha, hn]
  exact mul_comm _ _

theorem msg0_eq (hh : kHrow0 m ρ c = rHrow0 m c) (e : Fin 800000)
    (hn : kEa17 m ρ c (ix2 e (16 : Fin 17)) = rNorm m c (ix1 e))
    (ha : ∀ l : Fin 16, kEa17 m ρ c (ix2 e (Fin.castLE (by decide : 16 ≤ 17) l)) = a2 m c (ix2 e l)) (q : Fin 96) :
    kMsg0 m ρ c (ix2 e q) = rMsg0 m c (ix2 e q) := by
  refine (congrFun (msg0_kernel m ρ c) (ix2 e q)).trans ?_
  refine (msg0_row (kHrow0 m ρ c) (kEa17 m ρ c) (a6 m c) (a7 m c) (a8 m c) (a9 m c) (fun q' => rHrow0 m c (ix2 e q'))
    (fun l => a2 m c (ix2 e l)) (rNorm m c (ix1 e)) e q (fun q' => congrFun hh (ix2 e q')) ha hn).trans ?_
  exact (ref_msg0 (a0 m c) (a1 m c) (a2 m c) (a3 m c) (a4 m c) (a6 m c) (a7 m c) (a8 m c) (a9 m c) e q).symm

end Cert.Bridge

end
-- ==== Proof.MsgWalk.lean ====
/- Nothing between the start and the later edge calls writes the edge attributes or the stacked edge weights. -/
import proofs.«400244_j19808389169615_3_alg».proof.Proof.Gen.KernelIdeal.Frame
import proofs.«400244_j19808389169615_3_alg».proof.Proof.Walk
import Idealize.ShloMosaic.Lib.ValueIdx

noncomputable section

namespace Cert.Bridge.Msg

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

theorem before11_arg2 : W11 m ρ c (Proc.devRef .tc main_arg2) = m ((c : Thread nD τ).loc main_arg2) :=
  calc W11 m ρ c (Proc.devRef .tc main_arg2)
    _ = W10 m ρ c (Proc.devRef .tc main_arg2) := by skip_host hostOps3
    _ = W9 m ρ c (Proc.devRef .tc main_arg2) := W10_of_ne m ρ c main_arg2 (by decide)
    _ = W8 m ρ c (Proc.devRef .tc main_arg2) := by skip_host hostOps2
    _ = W7 m ρ c (Proc.devRef .tc main_arg2) := W8_of_ne m ρ c main_arg2 (by decide)
    _ = W6 m ρ c (Proc.devRef .tc main_arg2) := by skip_host hostOps1_1
    _ = W5 m ρ c (Proc.devRef .tc main_arg2) := by skip_host hostOps1
    _ = W4 m ρ c (Proc.devRef .tc main_arg2) := W5_of_ne m ρ c main_arg2 (by decide)
    _ = W3 m ρ c (Proc.devRef .tc main_arg2) := by skip_host hostOps0_3
    _ = W2 m ρ c (Proc.devRef .tc main_arg2) := by skip_host hostOps0_2
    _ = W1 m ρ c (Proc.devRef .tc main_arg2) := by skip_host hostOps0_1
    _ = W0 m ρ c (Proc.devRef .tc main_arg2) := by skip_host hostOps0
    _ = m ((c : Thread nD τ).loc main_arg2) := rfl

theorem before16_arg2 : W16 m ρ c (Proc.devRef .tc main_arg2) = m ((c : Thread nD τ).loc main_arg2) :=
  calc W16 m ρ c (Proc.devRef .tc main_arg2)
    _ = W15 m ρ c (Proc.devRef .tc main_arg2) := by skip_host hostOps5
    _ = W14 m ρ c (Proc.devRef .tc main_arg2) := W15_of_ne m ρ c main_arg2 (by decide)
    _ = W13 m ρ c (Proc.devRef .tc main_arg2) := by skip_host hostOps4
    _ = W12 m ρ c (Proc.devRef .tc main_arg2) := (W13_arr m ρ c 0).trans (((dat3 (V12 m ρ) c).arrAt_in 0 rfl _).trans (A_eq3 (V12 m ρ) c 0))
    _ = W11 m ρ c (Proc.devRef .tc main_arg2) := by skip_host hostOps3_1
    _ = m ((c : Thread nD τ).loc main_arg2) := before11_arg2 m ρ c

theorem before11_arg10 : W11 m ρ c (Proc.devRef .tc main_arg10) = m ((c : Thread nD τ).loc main_arg10) :=
  calc W11 m ρ c (Proc.devRef .tc main_arg10)
    _ = W10 m ρ c (Proc.devRef .tc main_arg10) := by skip_host hostOps3
    _ = W9 m ρ c (Proc.devRef .tc main_arg10) := W10_of_ne m ρ c main_arg10 (by decide)
    _ = W8 m ρ c (Proc.devRef .tc main_arg10) := by skip_host hostOps2
    _ = W7 m ρ c (Proc.devRef .tc main_arg10) := W8_of_ne m ρ c main_arg10 (by decide)
    _ = W6 m ρ c (Proc.devRef .tc main_arg10) := by skip_host hostOps1_1
    _ = W5 m ρ c (Proc.devRef .tc main_arg10) := by skip_host hostOps1
    _ = W4 m ρ c (Proc.devRef .tc main_arg10) := W5_of_ne m ρ c main_arg10 (by decide)
    _ = W3 m ρ c (Proc.devRef .tc main_arg10) := by skip_host hostOps0_3
    _ = W2 m ρ c (Proc.devRef .tc main_arg10) := by skip_host hostOps0_2
    _ = W1 m ρ c (Proc.devRef .tc main_arg10) := by skip_host hostOps0_1
    _ = W0 m ρ c (Proc.devRef .tc main_arg10) := by skip_host hostOps0
    _ = m ((c : Thread nD τ).loc main_arg10) := rfl

theorem before16_arg10 : W16 m ρ c (Proc.devRef .tc main_arg10) = m ((c : Thread nD τ).loc main_arg10) :=
  calc W16 m ρ c (Proc.devRef .tc main_arg10)
    _ = W15 m ρ c (Proc.devRef .tc main_arg10) := by skip_host hostOps5
    _ = W14 m ρ c (Proc.devRef .tc main_arg10) := W15_of_ne m ρ c main_arg10 (by decide)
    _ = W13 m ρ c (Proc.devRef .tc main_arg10) := by skip_host hostOps4
    _ = W12 m ρ c (Proc.devRef .tc main_arg10) := W13_of_ne m ρ c main_arg10 (by decide)
    _ = W11 m ρ c (Proc.devRef .tc main_arg10) := by skip_host hostOps3_1
    _ = m ((c : Thread nD τ).loc main_arg10) := before11_arg10 m ρ c

theorem before11_arg11 : W11 m ρ c (Proc.devRef .tc main_arg11) = m ((c : Thread nD τ).loc main_arg11) :=
  calc W11 m ρ c (Proc.devRef .tc main_arg11)
    _ = W10 m ρ c (Proc.devRef .tc main_arg11) := by skip_host hostOps3
    _ = W9 m ρ c (Proc.devRef .tc main_arg11) := W10_of_ne m ρ c main_arg11 (by decide)
    _ = W8 m ρ c (Proc.devRef .tc main_arg11) := by skip_host hostOps2
    _ = W7 m ρ c (Proc.devRef .tc main_arg11) := W8_of_ne m ρ c main_arg11 (by decide)
    _ = W6 m ρ c (Proc.devRef .tc main_arg11) := by skip_host hostOps1_1
    _ = W5 m ρ c (Proc.devRef .tc main_arg11) := by skip_host hostOps1
    _ = W4 m ρ c (Proc.devRef .tc main_arg11) := W5_of_ne m ρ c main_arg11 (by decide)
    _ = W3 m ρ c (Proc.devRef .tc main_arg11) := by skip_host hostOps0_3
    _ = W2 m ρ c (Proc.devRef .tc main_arg11) := by skip_host hostOps0_2
    _ = W1 m ρ c (Proc.devRef .tc main_arg11) := by skip_host hostOps0_1
    _ = W0 m ρ c (Proc.devRef .tc main_arg11) := by skip_host hostOps0
    _ = m ((c : Thread nD τ).loc main_arg11) := rfl

theorem before16_arg11 : W16 m ρ c (Proc.devRef .tc main_arg11) = m ((c : Thread nD τ).loc main_arg11) :=
  calc W16 m ρ c (Proc.devRef .tc main_arg11)
    _ = W15 m ρ c (Proc.devRef .tc main_arg11) := by skip_host hostOps5
    _ = W14 m ρ c (Proc.devRef .tc main_arg11) := W15_of_ne m ρ c main_arg11 (by decide)
    _ = W13 m ρ c (Proc.devRef .tc main_arg11) := by skip_host hostOps4
    _ = W12 m ρ c (Proc.devRef .tc main_arg11) := W13_of_ne m ρ c main_arg11 (by decide)
    _ = W11 m ρ c (Proc.devRef .tc main_arg11) := by skip_host hostOps3_1
    _ = m ((c : Thread nD τ).loc main_arg11) := before11_arg11 m ρ c

theorem before11_arg12 : W11 m ρ c (Proc.devRef .tc main_arg12) = m ((c : Thread nD τ).loc main_arg12) :=
  calc W11 m ρ c (Proc.devRef .tc main_arg12)
    _ = W10 m ρ c (Proc.devRef .tc main_arg12) := by skip_host hostOps3
    _ = W9 m ρ c (Proc.devRef .tc main_arg12) := W10_of_ne m ρ c main_arg12 (by decide)
    _ = W8 m ρ c (Proc.devRef .tc main_arg12) := by skip_host hostOps2
    _ = W7 m ρ c (Proc.devRef .tc main_arg12) := W8_of_ne m ρ c main_arg12 (by decide)
    _ = W6 m ρ c (Proc.devRef .tc main_arg12) := by skip_host hostOps1_1
    _ = W5 m ρ c (Proc.devRef .tc main_arg12) := by skip_host hostOps1
    _ = W4 m ρ c (Proc.devRef .tc main_arg12) := W5_of_ne m ρ c main_arg12 (by decide)
    _ = W3 m ρ c (Proc.devRef .tc main_arg12) := by skip_host hostOps0_3
    _ = W2 m ρ c (Proc.devRef .tc main_arg12) := by skip_host hostOps0_2
    _ = W1 m ρ c (Proc.devRef .tc main_arg12) := by skip_host hostOps0_1
    _ = W0 m ρ c (Proc.devRef .tc main_arg12) := by skip_host hostOps0
    _ = m ((c : Thread nD τ).loc main_arg12) := rfl

theorem before16_arg12 : W16 m ρ c (Proc.devRef .tc main_arg12) = m ((c : Thread nD τ).loc main_arg12) :=
  calc W16 m ρ c (Proc.devRef .tc main_arg12)
    _ = W15 m ρ c (Proc.devRef .tc main_arg12) := by skip_host hostOps5
    _ = W14 m ρ c (Proc.devRef .tc main_arg12) := W15_of_ne m ρ c main_arg12 (by decide)
    _ = W13 m ρ c (Proc.devRef .tc main_arg12) := by skip_host hostOps4
    _ = W12 m ρ c (Proc.devRef .tc main_arg12) := W13_of_ne m ρ c main_arg12 (by decide)
    _ = W11 m ρ c (Proc.devRef .tc main_arg12) := by skip_host hostOps3_1
    _ = m ((c : Thread nD τ).loc main_arg12) := before11_arg12 m ρ c

theorem before11_arg13 : W11 m ρ c (Proc.devRef .tc main_arg13) = m ((c : Thread nD τ).loc main_arg13) :=
  calc W11 m ρ c (Proc.devRef .tc main_arg13)
    _ = W10 m ρ c (Proc.devRef .tc main_arg13) := by skip_host hostOps3
    _ = W9 m ρ c (Proc.devRef .tc main_arg13) := W10_of_ne m ρ c main_arg13 (by decide)
    _ = W8 m ρ c (Proc.devRef .tc main_arg13) := by skip_host hostOps2
    _ = W7 m ρ c (Proc.devRef .tc main_arg13) := W8_of_ne m ρ c main_arg13 (by decide)
    _ = W6 m ρ c (Proc.devRef .tc main_arg13) := by skip_host hostOps1_1
    _ = W5 m ρ c (Proc.devRef .tc main_arg13) := by skip_host hostOps1
    _ = W4 m ρ c (Proc.devRef .tc main_arg13) := W5_of_ne m ρ c main_arg13 (by decide)
    _ = W3 m ρ c (Proc.devRef .tc main_arg13) := by skip_host hostOps0_3
    _ = W2 m ρ c (Proc.devRef .tc main_arg13) := by skip_host hostOps0_2
    _ = W1 m ρ c (Proc.devRef .tc main_arg13) := by skip_host hostOps0_1
    _ = W0 m ρ c (Proc.devRef .tc main_arg13) := by skip_host hostOps0
    _ = m ((c : Thread nD τ).loc main_arg13) := rfl

theorem before16_arg13 : W16 m ρ c (Proc.devRef .tc main_arg13) = m ((c : Thread nD τ).loc main_arg13) :=
  calc W16 m ρ c (Proc.devRef .tc main_arg13)
    _ = W15 m ρ c (Proc.devRef .tc main_arg13) := by skip_host hostOps5
    _ = W14 m ρ c (Proc.devRef .tc main_arg13) := W15_of_ne m ρ c main_arg13 (by decide)
    _ = W13 m ρ c (Proc.devRef .tc main_arg13) := by skip_host hostOps4
    _ = W12 m ρ c (Proc.devRef .tc main_arg13) := W13_of_ne m ρ c main_arg13 (by decide)
    _ = W11 m ρ c (Proc.devRef .tc main_arg13) := by skip_host hostOps3_1
    _ = m ((c : Thread nD τ).loc main_arg13) := before11_arg13 m ρ c

end Cert.Bridge.Msg

end
-- ==== Proof.MsgArr3.lean ====
/-
  Layer 1's messages on the kernel side: the array the region leaves is one function of the arrays it finds.
  The 800000 edges are cut into 160 blocks of 5000 rows: the block of grid point t holds rows 5000 t … 5000 t + 4999 of
  the edge operand, of the gathered rows and of the result; each of the four weight arrays is one block at every point.
-/
import proofs.«400244_j19808389169615_3_alg».proof.Proof.Gen.KernelIdeal.Frame
import proofs.«400244_j19808389169615_3_alg».proof.Proof.MsgPay

noncomputable section

namespace Cert.Bridge.Msg

open Idealize.ShloMosaic Idealize.ShloMosaic.TcCoe Idealize.SL.Sem Idealize.ShloMosaic.ValueIdx
open Cert.KernelIdeal Cert.KernelIdeal.Gen

theorem hz3 : (![0, 0] : Fin 2 → Nat) = fun _ => 0 := funext fun a => by fin_cases a <;> rfl

/-- The block indices at grid point t: the edge operand, the gathered rows and the result move with t along the rows;
    the weight arrays stay put. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

section
variable (V : (c : Dev nD) → (b : Ref sig .tc) → Buf (Elt Ideal) ((c : Thread nD τ).loc b))

/-- What grid point t writes back is block t of the messages computed from the arrays as the region finds them. -/
theorem flushed3_eq (c : Dev nD) (t : Fin cfg3.N) :
    (dat3 (F := Ideal) V c).flushed 6 t
      = ((cfg3.win 6).blk t).view.read (Elt Ideal) (msgArr (V c main_v40) (V c main_arg2) (V c main_v42) (V c main_v49) (V c main_v46) (V c main_v50)) := by
  show (cfg3.win 6).cut (grid3.coords t) ((dat3 V c).after 6 t) = _
  rw [after3_6]
  unfold out3_6
  rw [View.canon_unit_zero hz3]
  simp only [View.ld_unit_zero (S := S5000x16) hz3, View.ld_unit_zero (S := S5000x96) hz3, View.ld_unit_zero (S := S16x96) hz3,
    View.ld_unit_zero (S := S1x96) hz3, View.ld_unit_zero (S := S96x96) hz3]
  obtain ⟨e00, e01, e10, e11, e20, e21, e30, e31, e40, e41, e50, e51, e60, e61⟩ := idx_facts3 t
  funext j
  obtain ⟨p, q, rfl⟩ : ∃ (p : Fin 5000) (q : Fin 96), j = ix2 p q := ⟨j 0, j 1, eq_ix2 j⟩
  refine pay3_point (V c main_v40) (V c main_arg2) (V c main_v42) (V c main_v49) (V c main_v46) (V c main_v50)
    (iblk3 V c 0 t) (iblk3 V c 2 t) (iblk3 V c 3 t) (iblk3 V c 4 t) (iblk3 V c 5 t) (iblk3 V c 1 t) p q
    (((cfg3.win 6).blk t).view.emb (ix2 p q)) ?_ ?_ ?_ ?_ ?_ ?_ ?_
  · intro q'
    show V c main_v40 (((cfg3.win 1).blk t).view.emb (ix2 p q')) = V c main_v40 _
    refine congrArg (V c main_v40) (funext fun a => Fin.ext ?_)
    match a with
    | ⟨0, _⟩ => show win3_1.index t (0 : Fin 2) * 5000 + 1 * p.val = win3_6.index t (0 : Fin 2) * 5000 + 1 * p.val; omega
    | ⟨1, _⟩ => show win3_1.index t (1 : Fin 2) * 96 + 1 * q'.val = q'.val; omega
  · intro j
    show V c main_arg2 (((cfg3.win 0).blk t).view.emb (ix2 p j)) = V c main_arg2 _
    refine congrArg (V c main_arg2) (funext fun a => Fin.ext ?_)
    match a with
    | ⟨0, _⟩ => show win3_0.index t (0 : Fin 2) * 5000 + 1 * p.val = win3_6.index t (0 : Fin 2) * 5000 + 1 * p.val; omega
    | ⟨1, _⟩ => show win3_0.index t (1 : Fin 2) * 16 + 1 * j.val = j.val; omega
  · intro j k
    show V c main_v42 (((cfg3.win 2).blk t).view.emb (ix2 j k)) = V c main_v42 _
    refine congrArg (V c main_v42) (funext fun a => Fin.ext ?_)
    match a with
    | ⟨0, _⟩ => show win3_2.index t (0 : Fin 2) * 16 + 1 * j.val = j.val; omega
    | ⟨1, _⟩ => show win3_2.index t (1 : Fin 2) * 96 + 1 * k.val = k.val; omega
  · intro k
    show V c main_v49 (((cfg3.win 3).blk t).view.emb (ix2 (0 : Fin 1) k)) = V c main_v49 _
    refine congrArg (V c main_v49) (funext fun a => Fin.ext ?_)
    match a with
    | ⟨0, _⟩ => show win3_3.index t (0 : Fin 2) * 1 + 1 * 0 = 0; omega
    | ⟨1, _⟩ => show win3_3.index t (1 : Fin 2) * 96 + 1 * k.val = k.val; omega
  · intro k q'
    show V c main_v46 (((cfg3.win 4).blk t).view.emb (ix2 k q')) = V c main_v46 _
    refine congrArg (V c main_v46) (funext fun a => Fin.ext ?_)
    match a with
    | ⟨0, _⟩ => show win3_4.index t (0 : Fin 2) * 96 + 1 * k.val = k.val; omega
    | ⟨1, _⟩ => show win3_4.index t (1 : Fin 2) * 96 + 1 * q'.val = q'.val; omega
  · intro q'
    show V c main_v50 (((cfg3.win 5).blk t).view.emb (ix2 (0 : Fin 1) q')) = V c main_v50 _
    refine congrArg (V c main_v50) (funext fun a => Fin.ext ?_)
    match a with
    | ⟨0, _⟩ => show win3_5.index t (0 : Fin 2) * 1 + 1 * 0 = 0; omega
    | ⟨1, _⟩ => show win3_5.index t (1 : Fin 2) * 96 + 1 * q'.val = q'.val; omega
  · refine Fin.ext ?_
    show q.val = win3_6.index t (1 : Fin 2) * 96 + 1 * q.val
    omega

/-- An index of the result array is in grid point t's block iff each coordinate is in the block's range on its axis. -/
theorem mem_blk3 (t : Fin cfg3.N) (i : S800000x96.Idx) :
    i ∈ ((cfg3.win 6).blk t).view.set ↔ ∀ a : Fin 2, win3_6.index t a * S5000x96.size a ≤ (i a).val ∧ (i a).val < win3_6.index t a * S5000x96.size a + S5000x96.size a := by
  show i ∈ ((View.whole main_v51).slice (win3_6.rect t)).set ↔ _
  rw [View.set_slice_whole, Rect.mem_set_unit]
  exact Iff.rfl

/-- Edge r lies in the block of grid point r / 5000. -/
theorem cover3 (i : S800000x96.Idx) : ∃ t : Fin cfg3.N, (cfg3.win 6).flush t = true ∧ i ∈ ((cfg3.win 6).blk t).view.set := by
  have hi0 : (i 0).val < 800000 := idx2_lt0 i
  have hi1 : (i 1).val < 96 := idx2_lt1 i
  have hN : grid3.N = 160 := N_3
  have ht : (i 0).val / 5000 < grid3.N := by omega
  obtain ⟨_, _, _, _, _, _, _, _, _, _, _, _, e60, e61⟩ := idx_facts3 ⟨(i 0).val / 5000, ht⟩
  refine ⟨⟨(i 0).val / 5000, ht⟩, flush3_6 _, ?_⟩
  rw [mem_blk3]
  intro a
  match a with
  | ⟨0, _⟩ =>
    show win3_6.index ⟨(i 0).val / 5000, ht⟩ (0 : Fin 2) * 5000 ≤ (i 0).val ∧ (i 0).val < win3_6.index ⟨(i 0).val / 5000, ht⟩ (0 : Fin 2) * 5000 + 5000
    rw [e60]; show (i 0).val / 5000 * 5000 ≤ (i 0).val ∧ (i 0).val < (i 0).val / 5000 * 5000 + 5000; omega
  | ⟨1, _⟩ =>
    show win3_6.index ⟨(i 0).val / 5000, ht⟩ (1 : Fin 2) * 96 ≤ (i 1).val ∧ (i 1).val < win3_6.index ⟨(i 0).val / 5000, ht⟩ (1 : Fin 2) * 96 + 96
    rw [e61]; omega

/-- The result array after the region: the messages computed from the arrays as the region finds them. -/
theorem msg3_arr (c : Dev nD) :
    (dat3 (F := Ideal) V c).arrAt 6 cfg3.N = msgArr (V c main_v40) (V c main_arg2) (V c main_v42) (V c main_v49) (V c main_v46) (V c main_v50) :=
  (dat3 V c).arrAt_eq_of_cover 6 _ (fun t _ => flushed3_eq V c t) cover3

end

end Cert.Bridge.Msg

end
-- ==== Proof.StepMsg1.lean ====
/- Layer 1's messages agree entry by entry once the gathered source rows agree. -/
import proofs.«400244_j19808389169615_3_alg».proof.Proof.Stages
import proofs.«400244_j19808389169615_3_alg».proof.Proof.Walk
import proofs.«400244_j19808389169615_3_alg».proof.Proof.MsgWalk
import proofs.«400244_j19808389169615_3_alg».proof.Proof.MsgArr3
import proofs.«400244_j19808389169615_3_alg».proof.Proof.MsgRef
import Idealize.ShloMosaic.Lib.StableHlo.Run
import Idealize.ShloMosaic.Lib.ValueLayout

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

open Cert.Bridge.Msg

theorem msg1_entry_ea : V12 m ρ c main_arg2 = a2 m c :=
  calc W12 m ρ c (Proc.devRef .tc main_arg2)
    _ = W11 m ρ c (Proc.devRef .tc main_arg2) := by skip_host hostOps3_1
    _ = m ((c : Thread nD τ).loc main_arg2) := before11_arg2 m ρ c

theorem msg1_entry_h : V12 m ρ c main_v40 = kHrow1 m ρ c :=
  calc W12 m ρ c (Proc.devRef .tc main_v40)
    _ = W11 m ρ c (Proc.devRef .tc main_v40) := by skip_host hostOps3_1

theorem msg1_weights (V : Valuation τ sig (Elt Ideal)) :
    StableHlo.after hostOps3_1 V (Proc.devRef .tc main_v42)
        = shapeCast S16x96 (extractStridedSlice S1x16x96 ![0, 0, 0] (V (Proc.devRef .tc main_arg10)) slices_S2x16x96_S1x16x96_0_0_0) shapeCasts_S1x16x96_S16x96
    ∧ StableHlo.after hostOps3_1 V (Proc.devRef .tc main_v49)
        = shapeCast S1x96 (shapeCast S96 (extractStridedSlice S1x96 ![0, 0] (V (Proc.devRef .tc main_arg11)) slices_S2x96_S1x96_0_0) shapeCasts_S1x96_S96) shapeCasts_S96_S1x96
    ∧ StableHlo.after hostOps3_1 V (Proc.devRef .tc main_v46)
        = shapeCast S96x96 (extractStridedSlice S1x96x96 ![0, 0, 0] (V (Proc.devRef .tc main_arg12)) slices_S2x96x96_S1x96x96_0_0_0) shapeCasts_S1x96x96_S96x96
    ∧ StableHlo.after hostOps3_1 V (Proc.devRef .tc main_v50)
        = shapeCast S1x96 (shapeCast S96 (extractStridedSlice S1x96 ![0, 0] (V (Proc.devRef .tc main_arg13)) slices_S2x96_S1x96_0_0) shapeCasts_S1x96_S96) shapeCasts_S96_S1x96 := by
  refine ⟨?_, ?_, ?_, ?_⟩
  · after_results
    rfl
  · after_results
    rfl
  · after_results
    rfl
  · after_results
    rfl

theorem msg1_mat_apply {a b : Nat} (X : (⟨3, ![2, a, b]⟩ : Shape).Idx → EReal)
    (hs : (⟨3, ![2, a, b]⟩ : Shape).Slices ![0, 0, 0] ⟨3, ![1, a, b]⟩)
    (hc : (⟨3, ![1, a, b]⟩ : Shape).ShapeCasts ⟨2, ![a, b]⟩) (j : Fin a) (k : Fin b) :
    shapeCast ⟨2, ![a, b]⟩ (extractStridedSlice ⟨3, ![1, a, b]⟩ ![0, 0, 0] X hs) hc (ix2 j k) = X (ix3 (0 : Fin 2) j k) := by
  rw [shapeCast_1ab_ab_apply]
  refine extractStridedSlice_apply _ X hs _ (ix3 (0 : Fin 2) j k) fun ax => ?_
  match ax with
  | ⟨0, _⟩ => rfl
  | ⟨1, _⟩ => exact (Nat.zero_add _).symm
  | ⟨2, _⟩ => exact (Nat.zero_add _).symm

theorem msg1_row_apply {b : Nat} (X : (⟨2, ![2, b]⟩ : Shape).Idx → EReal)
    (hs : (⟨2, ![2, b]⟩ : Shape).Slices ![0, 0] ⟨2, ![1, b]⟩)
    (hc : (⟨2, ![1, b]⟩ : Shape).ShapeCasts ⟨1, ![b]⟩) (hc' : (⟨1, ![b]⟩ : Shape).ShapeCasts ⟨2, ![1, b]⟩) (k : Fin b) :
    shapeCast ⟨2, ![1, b]⟩ (shapeCast ⟨1, ![b]⟩ (extractStridedSlice ⟨2, ![1, b]⟩ ![0, 0] X hs) hc) hc' (ix2 (0 : Fin 1) k)
      = X (ix2 (0 : Fin 2) k) := by
  rw [shapeCast_a_1a_apply, shapeCast_1a_a_apply]
  exact slice2_axis0_apply 0 X hs (0 : Fin 1) k (0 : Fin 2) rfl

theorem msg1_kernel :
    kMsg1 m ρ c = msgArr (kHrow1 m ρ c) (a2 m c)
      (shapeCast S16x96 (extractStridedSlice S1x16x96 ![0, 0, 0] (a10 m c) slices_S2x16x96_S1x16x96_0_0_0) shapeCasts_S1x16x96_S16x96)
      (shapeCast S1x96 (shapeCast S96 (extractStridedSlice S1x96 ![0, 0] (a11 m c) slices_S2x96_S1x96_0_0) shapeCasts_S1x96_S96) shapeCasts_S96_S1x96)
      (shapeCast S96x96 (extractStridedSlice S1x96x96 ![0, 0, 0] (a12 m c) slices_S2x96x96_S1x96x96_0_0_0) shapeCasts_S1x96x96_S96x96)
      (shapeCast S1x96 (shapeCast S96 (extractStridedSlice S1x96 ![0, 0] (a13 m c) slices_S2x96_S1x96_0_0) shapeCasts_S1x96_S96) shapeCasts_S96_S1x96) := by
  refine ((W13_arr m ρ c 6).trans (msg3_arr (V12 m ρ) c)).trans ?_
  obtain ⟨e1, e2, e3, e4⟩ := msg1_weights (W11 m ρ c)
  rw [msg1_entry_h, msg1_entry_ea]
  show msgArr _ _ (StableHlo.after hostOps3_1 (W11 m ρ c) (Proc.devRef .tc main_v42)) (StableHlo.after hostOps3_1 (W11 m ρ c) (Proc.devRef .tc main_v49))
    (StableHlo.after hostOps3_1 (W11 m ρ c) (Proc.devRef .tc main_v46)) (StableHlo.after hostOps3_1 (W11 m ρ c) (Proc.devRef .tc main_v50)) = _
  rw [e1, e2, e3, e4, before11_arg10, before11_arg11, before11_arg12, before11_arg13]

theorem msg1_at (H R : FVec Ideal S800000x96 .f32) (EA : FVec Ideal S800000x16 .f32) (X10 : FVec Ideal S2x16x96 .f32)
    (X11 : FVec Ideal S2x96 .f32) (X12 : FVec Ideal S2x96x96 .f32) (X13 : FVec Ideal S2x96 .f32) (hh : H = R) (e : Fin 800000) (q : Fin 96) :
    msgArr H EA
      (shapeCast S16x96 (extractStridedSlice S1x16x96 ![0, 0, 0] X10 slices_S2x16x96_S1x16x96_0_0_0) shapeCasts_S1x16x96_S16x96)
      (shapeCast S1x96 (shapeCast S96 (extractStridedSlice S1x96 ![0, 0] X11 slices_S2x96_S1x96_0_0) shapeCasts_S1x96_S96) shapeCasts_S96_S1x96)
      (shapeCast S96x96 (extractStridedSlice S1x96x96 ![0, 0, 0] X12 slices_S2x96x96_S1x96x96_0_0_0) shapeCasts_S1x96x96_S96x96)
      (shapeCast S1x96 (shapeCast S96 (extractStridedSlice S1x96 ![0, 0] X13 slices_S2x96_S1x96_0_0) shapeCasts_S1x96_S96) shapeCasts_S96_S1x96) (ix2 e q)
      = msg (fun q' => R (ix2 e q')) (fun j => EA (ix2 e j)) (fun j k => X10 (ix3 (0 : Fin 2) j k)) (fun k => X11 (ix2 (0 : Fin 2) k))
          (fun k q' => X12 (ix3 (0 : Fin 2) k q')) (fun q' => X13 (ix2 (0 : Fin 2) q')) q := by
  subst hh
  show msg (fun q' => H (ix2 e q')) (fun j => EA (ix2 e j))
      (fun j k => shapeCast S16x96 (extractStridedSlice S1x16x96 ![0, 0, 0] X10 slices_S2x16x96_S1x16x96_0_0_0) shapeCasts_S1x16x96_S16x96 (ix2 j k))
      (fun k => shapeCast S1x96 (shapeCast S96 (extractStridedSlice S1x96 ![0, 0] X11 slices_S2x96_S1x96_0_0) shapeCasts_S1x96_S96) shapeCasts_S96_S1x96 (ix2 (0 : Fin 1) k))
      (fun k q' => shapeCast S96x96 (extractStridedSlice S1x96x96 ![0, 0, 0] X12 slices_S2x96x96_S1x96x96_0_0_0) shapeCasts_S1x96x96_S96x96 (ix2 k q'))
      (fun q' => shapeCast S1x96 (shapeCast S96 (extractStridedSlice S1x96 ![0, 0] X13 slices_S2x96_S1x96_0_0) shapeCasts_S1x96_S96) shapeCasts_S96_S1x96 (ix2 (0 : Fin 1) q')) q = _
  simp only [msg1_mat_apply, msg1_row_apply]

theorem msg1_eq (hh : kHrow1 m ρ c = rHrow1 m c) : kMsg1 m ρ c = rMsg1 m c := by
  funext i
  obtain ⟨e, q, rfl⟩ : ∃ (e : Fin 800000) (q : Fin 96), i = ix2 e q := ⟨i 0, i 1, eq_ix2 i⟩
  refine (congrFun (msg1_kernel m ρ c) (ix2 e q)).trans ?_
  refine (msg1_at (kHrow1 m ρ c) (rHrow1 m c) (a2 m c) (a10 m c) (a11 m c) (a12 m c) (a13 m c) hh e q).trans ?_
  refine Eq.symm ?_
  unfold rMsg1
  apply ref_msg1

end Cert.Bridge

end
-- ==== Proof.MsgArr5.lean ====
/-
  Layer 2's messages on the kernel side: the array the region leaves is one function of the arrays it finds.
  The 800000 edges are cut into 160 blocks of 5000 rows: the block of grid point t holds rows 5000 t … 5000 t + 4999 of
  the edge operand, of the gathered rows and of the result; each of the four weight arrays is one block at every point.
-/
import proofs.«400244_j19808389169615_3_alg».proof.Proof.Gen.KernelIdeal.Frame
import proofs.«400244_j19808389169615_3_alg».proof.Proof.MsgPay

noncomputable section

namespace Cert.Bridge.Msg

open Idealize.ShloMosaic Idealize.ShloMosaic.TcCoe Idealize.SL.Sem Idealize.ShloMosaic.ValueIdx
open Cert.KernelIdeal Cert.KernelIdeal.Gen

theorem hz5 : (![0, 0] : Fin 2 → Nat) = fun _ => 0 := funext fun a => by fin_cases a <;> rfl

/-- The block indices at grid point t: the edge operand, the gathered rows and the result move with t along the rows;
    the weight arrays stay put. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

section
variable (V : (c : Dev nD) → (b : Ref sig .tc) → Buf (Elt Ideal) ((c : Thread nD τ).loc b))

/-- What grid point t writes back is block t of the messages computed from the arrays as the region finds them. -/
theorem flushed5_eq (c : Dev nD) (t : Fin cfg5.N) :
    (dat5 (F := Ideal) V c).flushed 6 t
      = ((cfg5.win 6).blk t).view.read (Elt Ideal) (msgArr (V c main_v81) (V c main_arg2) (V c main_v83) (V c main_v90) (V c main_v87) (V c main_v91)) := by
  show (cfg5.win 6).cut (grid5.coords t) ((dat5 V c).after 6 t) = _
  rw [after5_6]
  unfold out5_6
  rw [View.canon_unit_zero hz5]
  simp only [View.ld_unit_zero (S := S5000x16) hz5, View.ld_unit_zero (S := S5000x96) hz5, View.ld_unit_zero (S := S16x96) hz5,
    View.ld_unit_zero (S := S1x96) hz5, View.ld_unit_zero (S := S96x96) hz5]
  obtain ⟨e00, e01, e10, e11, e20, e21, e30, e31, e40, e41, e50, e51, e60, e61⟩ := idx_facts5 t
  funext j
  obtain ⟨p, q, rfl⟩ : ∃ (p : Fin 5000) (q : Fin 96), j = ix2 p q := ⟨j 0, j 1, eq_ix2 j⟩
  refine pay5_point (V c main_v81) (V c main_arg2) (V c main_v83) (V c main_v90) (V c main_v87) (V c main_v91)
    (iblk5 V c 0 t) (iblk5 V c 2 t) (iblk5 V c 3 t) (iblk5 V c 4 t) (iblk5 V c 5 t) (iblk5 V c 1 t) p q
    (((cfg5.win 6).blk t).view.emb (ix2 p q)) ?_ ?_ ?_ ?_ ?_ ?_ ?_
  · intro q'
    show V c main_v81 (((cfg5.win 1).blk t).view.emb (ix2 p q')) = V c main_v81 _
    refine congrArg (V c main_v81) (funext fun a => Fin.ext ?_)
    match a with
    | ⟨0, _⟩ => show win5_1.index t (0 : Fin 2) * 5000 + 1 * p.val = win5_6.index t (0 : Fin 2) * 5000 + 1 * p.val; omega
    | ⟨1, _⟩ => show win5_1.index t (1 : Fin 2) * 96 + 1 * q'.val = q'.val; omega
  · intro j
    show V c main_arg2 (((cfg5.win 0).blk t).view.emb (ix2 p j)) = V c main_arg2 _
    refine congrArg (V c main_arg2) (funext fun a => Fin.ext ?_)
    match a with
    | ⟨0, _⟩ => show win5_0.index t (0 : Fin 2) * 5000 + 1 * p.val = win5_6.index t (0 : Fin 2) * 5000 + 1 * p.val; omega
    | ⟨1, _⟩ => show win5_0.index t (1 : Fin 2) * 16 + 1 * j.val = j.val; omega
  · intro j k
    show V c main_v83 (((cfg5.win 2).blk t).view.emb (ix2 j k)) = V c main_v83 _
    refine congrArg (V c main_v83) (funext fun a => Fin.ext ?_)
    match a with
    | ⟨0, _⟩ => show win5_2.index t (0 : Fin 2) * 16 + 1 * j.val = j.val; omega
    | ⟨1, _⟩ => show win5_2.index t (1 : Fin 2) * 96 + 1 * k.val = k.val; omega
  · intro k
    show V c main_v90 (((cfg5.win 3).blk t).view.emb (ix2 (0 : Fin 1) k)) = V c main_v90 _
    refine congrArg (V c main_v90) (funext fun a => Fin.ext ?_)
    match a with
    | ⟨0, _⟩ => show win5_3.index t (0 : Fin 2) * 1 + 1 * 0 = 0; omega
    | ⟨1, _⟩ => show win5_3.index t (1 : Fin 2) * 96 + 1 * k.val = k.val; omega
  · intro k q'
    show V c main_v87 (((cfg5.win 4).blk t).view.emb (ix2 k q')) = V c main_v87 _
    refine congrArg (V c main_v87) (funext fun a => Fin.ext ?_)
    match a with
    | ⟨0, _⟩ => show win5_4.index t (0 : Fin 2) * 96 + 1 * k.val = k.val; omega
    | ⟨1, _⟩ => show win5_4.index t (1 : Fin 2) * 96 + 1 * q'.val = q'.val; omega
  · intro q'
    show V c main_v91 (((cfg5.win 5).blk t).view.emb (ix2 (0 : Fin 1) q')) = V c main_v91 _
    refine congrArg (V c main_v91) (funext fun a => Fin.ext ?_)
    match a with
    | ⟨0, _⟩ => show win5_5.index t (0 : Fin 2) * 1 + 1 * 0 = 0; omega
    | ⟨1, _⟩ => show win5_5.index t (1 : Fin 2) * 96 + 1 * q'.val = q'.val; omega
  · refine Fin.ext ?_
    show q.val = win5_6.index t (1 : Fin 2) * 96 + 1 * q.val
    omega

/-- An index of the result array is in grid point t's block iff each coordinate is in the block's range on its axis. -/
theorem mem_blk5 (t : Fin cfg5.N) (i : S800000x96.Idx) :
    i ∈ ((cfg5.win 6).blk t).view.set ↔ ∀ a : Fin 2, win5_6.index t a * S5000x96.size a ≤ (i a).val ∧ (i a).val < win5_6.index t a * S5000x96.size a + S5000x96.size a := by
  show i ∈ ((View.whole main_v92).slice (win5_6.rect t)).set ↔ _
  rw [View.set_slice_whole, Rect.mem_set_unit]
  exact Iff.rfl

/-- Edge r lies in the block of grid point r / 5000. -/
theorem cover5 (i : S800000x96.Idx) : ∃ t : Fin cfg5.N, (cfg5.win 6).flush t = true ∧ i ∈ ((cfg5.win 6).blk t).view.set := by
  have hi0 : (i 0).val < 800000 := idx2_lt0 i
  have hi1 : (i 1).val < 96 := idx2_lt1 i
  have hN : grid5.N = 160 := N_5
  have ht : (i 0).val / 5000 < grid5.N := by omega
  obtain ⟨_, _, _, _, _, _, _, _, _, _, _, _, e60, e61⟩ := idx_facts5 ⟨(i 0).val / 5000, ht⟩
  refine ⟨⟨(i 0).val / 5000, ht⟩, flush5_6 _, ?_⟩
  rw [mem_blk5]
  intro a
  match a with
  | ⟨0, _⟩ =>
    show win5_6.index ⟨(i 0).val / 5000, ht⟩ (0 : Fin 2) * 5000 ≤ (i 0).val ∧ (i 0).val < win5_6.index ⟨(i 0).val / 5000, ht⟩ (0 : Fin 2) * 5000 + 5000
    rw [e60]; show (i 0).val / 5000 * 5000 ≤ (i 0).val ∧ (i 0).val < (i 0).val / 5000 * 5000 + 5000; omega
  | ⟨1, _⟩ =>
    show win5_6.index ⟨(i 0).val / 5000, ht⟩ (1 : Fin 2) * 96 ≤ (i 1).val ∧ (i 1).val < win5_6.index ⟨(i 0).val / 5000, ht⟩ (1 : Fin 2) * 96 + 96
    rw [e61]; omega

/-- The result array after the region: the messages computed from the arrays as the region finds them. -/
theorem msg5_arr (c : Dev nD) :
    (dat5 (F := Ideal) V c).arrAt 6 cfg5.N = msgArr (V c main_v81) (V c main_arg2) (V c main_v83) (V c main_v90) (V c main_v87) (V c main_v91) :=
  (dat5 V c).arrAt_eq_of_cover 6 _ (fun t _ => flushed5_eq V c t) cover5

end

end Cert.Bridge.Msg

end
-- ==== Proof.StepMsg2.lean ====
/-
  Layer 2's messages: relu of the source row plus the edge network.
  On the kernel side the region's result is one function of the six arrays it finds on entry: the edge attributes as
  launched, the gathered rows as the gather left them, and slice 1 of each stacked weight array laid out as a
  matrix or as a row. Index by index that function and the reference's stage are the same expression once the
  gathered rows agree.
-/
import proofs.«400244_j19808389169615_3_alg».proof.Proof.Stages
import proofs.«400244_j19808389169615_3_alg».proof.Proof.Walk
import proofs.«400244_j19808389169615_3_alg».proof.Proof.MsgWalk
import proofs.«400244_j19808389169615_3_alg».proof.Proof.MsgArr5
import proofs.«400244_j19808389169615_3_alg».proof.Proof.MsgRef
import Idealize.ShloMosaic.Lib.StableHlo.Run
import Idealize.ShloMosaic.Lib.ValueLayout

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

open Cert.Bridge.Msg

/-! ## What the region finds on entry -/

/-- The edge attributes on entry are as launched. -/
theorem msg2_entry_ea : V17 m ρ c main_arg2 = a2 m c :=
  calc W17 m ρ c (Proc.devRef .tc main_arg2)
    _ = W16 m ρ c (Proc.devRef .tc main_arg2) := by skip_host hostOps5_1
    _ = m ((c : Thread nD τ).loc main_arg2) := before16_arg2 m ρ c

/-- The gathered rows on entry are as the gather left them. -/
theorem msg2_entry_h : V17 m ρ c main_v81 = kHrow2 m ρ c :=
  calc W17 m ρ c (Proc.devRef .tc main_v81)
    _ = W16 m ρ c (Proc.devRef .tc main_v81) := by skip_host hostOps5_1

/-- The last stretch ahead of the region, from any contents: the four weight arrays it leaves are slice 1 of the stacked
    arrays it finds, the matrices with their leading unit axis dropped, the biases laid out as one row. -/
theorem msg2_weights (V : Valuation τ sig (Elt Ideal)) :
    StableHlo.after hostOps5_1 V (Proc.devRef .tc main_v83)
        = shapeCast S16x96 (extractStridedSlice S1x16x96 ![1, 0, 0] (V (Proc.devRef .tc main_arg10)) slices_S2x16x96_S1x16x96_1_0_0) shapeCasts_S1x16x96_S16x96
    ∧ StableHlo.after hostOps5_1 V (Proc.devRef .tc main_v90)
        = shapeCast S1x96 (shapeCast S96 (extractStridedSlice S1x96 ![1, 0] (V (Proc.devRef .tc main_arg11)) slices_S2x96_S1x96_1_0) shapeCasts_S1x96_S96) shapeCasts_S96_S1x96
    ∧ StableHlo.after hostOps5_1 V (Proc.devRef .tc main_v87)
        = shapeCast S96x96 (extractStridedSlice S1x96x96 ![1, 0, 0] (V (Proc.devRef .tc main_arg12)) slices_S2x96x96_S1x96x96_1_0_0) shapeCasts_S1x96x96_S96x96
    ∧ StableHlo.after hostOps5_1 V (Proc.devRef .tc main_v91)
        = shapeCast S1x96 (shapeCast S96 (extractStridedSlice S1x96 ![1, 0] (V (Proc.devRef .tc main_arg13)) slices_S2x96_S1x96_1_0) shapeCasts_S1x96_S96) shapeCasts_S96_S1x96 := by
  refine ⟨?_, ?_, ?_, ?_⟩
  · after_results
    rfl
  · after_results
    rfl
  · after_results
    rfl
  · after_results
    rfl

/-! ## The weight arrays at an index -/

/-- The matrix cut out of a stacked [2,a,b] array as slice 1, its unit axis dropped, reads at (j, k) entry (j, k) of slice 1. -/
theorem msg2_mat_apply {a b : Nat} (X : (⟨3, ![2, a, b]⟩ : Shape).Idx → EReal)
    (hs : (⟨3, ![2, a, b]⟩ : Shape).Slices ![1, 0, 0] ⟨3, ![1, a, b]⟩)
    (hc : (⟨3, ![1, a, b]⟩ : Shape).ShapeCasts ⟨2, ![a, b]⟩) (j : Fin a) (k : Fin b) :
    shapeCast ⟨2, ![a, b]⟩ (extractStridedSlice ⟨3, ![1, a, b]⟩ ![1, 0, 0] X hs) hc (ix2 j k) = X (ix3 (1 : Fin 2) j k) := by
  rw [shapeCast_1ab_ab_apply]
  refine extractStridedSlice_apply _ X hs _ (ix3 (1 : Fin 2) j k) fun ax => ?_
  match ax with
  | ⟨0, _⟩ => rfl
  | ⟨1, _⟩ => exact (Nat.zero_add _).symm
  | ⟨2, _⟩ => exact (Nat.zero_add _).symm

/-- The row cut out of a stacked [2,b] array as slice 1, flattened and laid out as one row, reads at column k entry k of slice 1. -/
theorem msg2_row_apply {b : Nat} (X : (⟨2, ![2, b]⟩ : Shape).Idx → EReal)
    (hs : (⟨2, ![2, b]⟩ : Shape).Slices ![1, 0] ⟨2, ![1, b]⟩)
    (hc : (⟨2, ![1, b]⟩ : Shape).ShapeCasts ⟨1, ![b]⟩) (hc' : (⟨1, ![b]⟩ : Shape).ShapeCasts ⟨2, ![1, b]⟩) (k : Fin b) :
    shapeCast ⟨2, ![1, b]⟩ (shapeCast ⟨1, ![b]⟩ (extractStridedSlice ⟨2, ![1, b]⟩ ![1, 0] X hs) hc) hc' (ix2 (0 : Fin 1) k)
      = X (ix2 (1 : Fin 2) k) := by
  rw [shapeCast_a_1a_apply, shapeCast_1a_a_apply]
  exact slice2_axis0_apply 1 X hs (0 : Fin 1) k (1 : Fin 2) rfl

/-! ## The region's result -/

/-- Layer 2's messages on the kernel side, from the gathered rows and the launched arrays. -/
theorem msg2_kernel :
    kMsg2 m ρ c = msgArr (kHrow2 m ρ c) (a2 m c)
      (shapeCast S16x96 (extractStridedSlice S1x16x96 ![1, 0, 0] (a10 m c) slices_S2x16x96_S1x16x96_1_0_0) shapeCasts_S1x16x96_S16x96)
      (shapeCast S1x96 (shapeCast S96 (extractStridedSlice S1x96 ![1, 0] (a11 m c) slices_S2x96_S1x96_1_0) shapeCasts_S1x96_S96) shapeCasts_S96_S1x96)
      (shapeCast S96x96 (extractStridedSlice S1x96x96 ![1, 0, 0] (a12 m c) slices_S2x96x96_S1x96x96_1_0_0) shapeCasts_S1x96x96_S96x96)
      (shapeCast S1x96 (shapeCast S96 (extractStridedSlice S1x96 ![1, 0] (a13 m c) slices_S2x96_S1x96_1_0) shapeCasts_S1x96_S96) shapeCasts_S96_S1x96) := by
  refine ((W18_arr m ρ c 6).trans (msg5_arr (V17 m ρ) c)).trans ?_
  obtain ⟨e1, e2, e3, e4⟩ := msg2_weights (W16 m ρ c)
  rw [msg2_entry_h, msg2_entry_ea]
  show msgArr _ _ (StableHlo.after hostOps5_1 (W16 m ρ c) (Proc.devRef .tc main_v83)) (StableHlo.after hostOps5_1 (W16 m ρ c) (Proc.devRef .tc main_v90))
    (StableHlo.after hostOps5_1 (W16 m ρ c) (Proc.devRef .tc main_v87)) (StableHlo.after hostOps5_1 (W16 m ρ c) (Proc.devRef .tc main_v91)) = _
  rw [e1, e2, e3, e4, before16_arg10, before16_arg11, before16_arg12, before16_arg13]

/-- The kernel-side function at (e, q), once the gathered rows are `R`: the message over slice 1 of the stacked arrays. -/
theorem msg2_at (H R : FVec Ideal S800000x96 .f32) (EA : FVec Ideal S800000x16 .f32) (X10 : FVec Ideal S2x16x96 .f32)
    (X11 : FVec Ideal S2x96 .f32) (X12 : FVec Ideal S2x96x96 .f32) (X13 : FVec Ideal S2x96 .f32) (hh : H = R) (e : Fin 800000) (q : Fin 96) :
    msgArr H EA
      (shapeCast S16x96 (extractStridedSlice S1x16x96 ![1, 0, 0] X10 slices_S2x16x96_S1x16x96_1_0_0) shapeCasts_S1x16x96_S16x96)
      (shapeCast S1x96 (shapeCast S96 (extractStridedSlice S1x96 ![1, 0] X11 slices_S2x96_S1x96_1_0) shapeCasts_S1x96_S96) shapeCasts_S96_S1x96)
      (shapeCast S96x96 (extractStridedSlice S1x96x96 ![1, 0, 0] X12 slices_S2x96x96_S1x96x96_1_0_0) shapeCasts_S1x96x96_S96x96)
      (shapeCast S1x96 (shapeCast S96 (extractStridedSlice S1x96 ![1, 0] X13 slices_S2x96_S1x96_1_0) shapeCasts_S1x96_S96) shapeCasts_S96_S1x96) (ix2 e q)
      = msg (fun q' => R (ix2 e q')) (fun j => EA (ix2 e j)) (fun j k => X10 (ix3 (1 : Fin 2) j k)) (fun k => X11 (ix2 (1 : Fin 2) k))
          (fun k q' => X12 (ix3 (1 : Fin 2) k q')) (fun q' => X13 (ix2 (1 : Fin 2) q')) q := by
  subst hh
  show msg (fun q' => H (ix2 e q')) (fun j => EA (ix2 e j))
      (fun j k => shapeCast S16x96 (extractStridedSlice S1x16x96 ![1, 0, 0] X10 slices_S2x16x96_S1x16x96_1_0_0) shapeCasts_S1x16x96_S16x96 (ix2 j k))
      (fun k => shapeCast S1x96 (shapeCast S96 (extractStridedSlice S1x96 ![1, 0] X11 slices_S2x96_S1x96_1_0) shapeCasts_S1x96_S96) shapeCasts_S96_S1x96 (ix2 (0 : Fin 1) k))
      (fun k q' => shapeCast S96x96 (extractStridedSlice S1x96x96 ![1, 0, 0] X12 slices_S2x96x96_S1x96x96_1_0_0) shapeCasts_S1x96x96_S96x96 (ix2 k q'))
      (fun q' => shapeCast S1x96 (shapeCast S96 (extractStridedSlice S1x96 ![1, 0] X13 slices_S2x96_S1x96_1_0) shapeCasts_S1x96_S96) shapeCasts_S96_S1x96 (ix2 (0 : Fin 1) q')) q = _
  simp only [msg2_mat_apply, msg2_row_apply]

theorem msg2_eq (hh : kHrow2 m ρ c = rHrow2 m c) : kMsg2 m ρ c = rMsg2 m c := by
  funext i
  obtain ⟨e, q, rfl⟩ : ∃ (e : Fin 800000) (q : Fin 96), i = ix2 e q := ⟨i 0, i 1, eq_ix2 i⟩
  refine (congrFun (msg2_kernel m ρ c) (ix2 e q)).trans ?_
  refine (msg2_at (kHrow2 m ρ c) (rHrow2 m c) (a2 m c) (a10 m c) (a11 m c) (a12 m c) (a13 m c) hh e q).trans ?_
  refine Eq.symm ?_
  unfold rMsg2
  apply ref_msg2

end Cert.Bridge

end
-- ==== Proof.StepGinSpec.lean ====
/- One row of a graph-isomorphism node update, as a function of the node's row, its summed messages and the layer's parameters. -/
import Idealize.ShloMosaic.PureOps.Ideal

noncomputable section

open scoped BigOperators

namespace Cert.Bridge

open Idealize.ShloMosaic

def ginZ (eps : EReal) (h agg : Fin 96 → EReal) (k : Fin 96) : EReal :=
  (Ideal.ofBits .f32 0x3F800000#32 + eps) * h k + agg k

def ginLayer (x : Fin 96 → EReal) (W : Fin 96 → Fin 96 → EReal) (b : Fin 96 → EReal) (j : Fin 96) : EReal :=
  max ((∑ k : Fin 96, x k * W k j) + b j) (Ideal.ofBits .f32 0x00000000#32)

def ginNorm (y gamma beta mean var : Fin 96 → EReal) (q : Fin 96) : EReal :=
  (y q - mean q) * Ideal.rsqrt (var q + Ideal.ofBits .f32 0x3727C5AC#32) * gamma q + beta q

def ginRow (eps : EReal) (h agg : Fin 96 → EReal) (W1 : Fin 96 → Fin 96 → EReal) (b1 : Fin 96 → EReal)
    (W2 : Fin 96 → Fin 96 → EReal) (b2 : Fin 96 → EReal) (gamma beta mean var : Fin 96 → EReal) (q : Fin 96) : EReal :=
  ginNorm (ginLayer (ginLayer (ginZ eps h agg) W1 b1) W2 b2) gamma beta mean var q

end Cert.Bridge

end
-- ==== Proof.StepGinPay.lean ====
/- Kernel side: a node-update block's body at an index is the row function at that row. -/
import proofs.«400244_j19808389169615_3_alg».proof.Proof.Gen.KernelIdeal.Skeleton
import proofs.«400244_j19808389169615_3_alg».proof.Proof.StepGinSpec
import proofs.«400244_j19808389169615_3_alg».proof.Proof.LibMatmul
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Bridge

open Idealize.ShloMosaic Idealize.ShloMosaic.TcCoe Idealize.SL.Sem Idealize.ShloMosaic.ValueIdx
open Cert.KernelIdeal Cert.KernelIdeal.Gen

theorem gin_row_apply (b : FVec Ideal S1x96 .f32) (p : Fin 5000) (q : Fin 96) :
    broadcastTo S5000x96 b broadcasts_S1x96_S5000x96 (ix2 p q) = b (ix2 (0 : Fin 1) q) :=
  broadcastTo_1b_ab_apply b broadcasts_S1x96_S5000x96 p q

theorem gin_eps_apply (e : FVec Ideal S1x1 .f32) (p : Fin 5000) (q : Fin 96) :
    broadcastTo S5000x96 e broadcasts_S1x1_S5000x96 (ix2 p q) = e (ix2 (0 : Fin 1) (0 : Fin 1)) :=
  broadcastTo_apply e broadcasts_S1x1_S5000x96 (ix2 p q) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else q.val; rw [if_pos rfl])

theorem gin_mlp_apply (x0 x1 : Vec Ideal S5000x96 .f32) (x2 : Vec Ideal S1x1 .f32) (x3 : Vec Ideal S96x96 .f32) (x4 : Vec Ideal S1x96 .f32)
    (x5 : Vec Ideal S96x96 .f32) (x6 : Vec Ideal S1x96 .f32) (p : Fin 5000) (j : Fin 96) :
    (k4_pay2 (F := Ideal) x0 x2 x1 x3 x4 x5 x6) (ix2 p j)
      = ginLayer (ginLayer (ginZ (x2 (ix2 (0 : Fin 1) (0 : Fin 1))) (fun k => x0 (ix2 p k)) (fun k => x1 (ix2 p k)))
          (fun k l => x3 (ix2 k l)) (fun l => x4 (ix2 (0 : Fin 1) l))) (fun k l => x5 (ix2 k l)) (fun l => x6 (ix2 (0 : Fin 1) l)) j := by
  unfold k4_pay2
  simp only [shapeCast_self]
  rw [maximumf_apply, addf_apply, mm96_apply, gin_row_apply, broadcast_apply]
  simp only [truncf_apply, maximumf_apply, addf_apply, mulf_apply, broadcast_apply, mm96_apply, gin_row_apply, gin_eps_apply]
  rfl

theorem gin_rsqrt_apply {s : Shape} {φ : FTy} (a : FVec Ideal s φ) (i : s.Idx) : rsqrt a i = Ideal.rsqrt (a i) := rfl

theorem gin_pay_apply (x0 x1 : Vec Ideal S5000x96 .f32) (x2 : Vec Ideal S1x1 .f32) (x3 : Vec Ideal S96x96 .f32) (x4 : Vec Ideal S1x96 .f32)
    (x5 : Vec Ideal S96x96 .f32) (x6 x7 x8 x9 x10 : Vec Ideal S1x96 .f32) (p : Fin 5000) (q : Fin 96) :
    (k4_pay1 (F := Ideal) (k4_pay2 x0 x2 x1 x3 x4 x5 x6) (k4_pay3 x7) x8 x9 x10) (ix2 p q)
      = ginRow (x2 (ix2 (0 : Fin 1) (0 : Fin 1))) (fun k => x0 (ix2 p k)) (fun k => x1 (ix2 p k))
          (fun k l => x3 (ix2 k l)) (fun l => x4 (ix2 (0 : Fin 1) l)) (fun k l => x5 (ix2 k l)) (fun l => x6 (ix2 (0 : Fin 1) l))
          (fun l => x7 (ix2 (0 : Fin 1) l)) (fun l => x8 (ix2 (0 : Fin 1) l)) (fun l => x9 (ix2 (0 : Fin 1) l)) (fun l => x10 (ix2 (0 : Fin 1) l)) q := by
  unfold k4_pay1 k4_pay3
  simp only [shapeCast_self]
  simp only [addf_apply, mulf_apply, subf_apply, gin_rsqrt_apply, gin_row_apply, broadcast_apply, gin_mlp_apply]
  rfl

theorem gin_pay6_apply (x0 x1 : Vec Ideal S5000x96 .f32) (x2 : Vec Ideal S1x1 .f32) (x3 : Vec Ideal S96x96 .f32) (x4 : Vec Ideal S1x96 .f32)
    (x5 : Vec Ideal S96x96 .f32) (x6 x7 x8 x9 x10 : Vec Ideal S1x96 .f32) (p : Fin 5000) (q : Fin 96) :
    (k6_pay1 (F := Ideal) (k6_pay2 x0 x2 x1 x3 x4 x5 x6) (k6_pay3 x7) x8 x9 x10) (ix2 p q)
      = ginRow (x2 (ix2 (0 : Fin 1) (0 : Fin 1))) (fun k => x0 (ix2 p k)) (fun k => x1 (ix2 p k))
          (fun k l => x3 (ix2 k l)) (fun l => x4 (ix2 (0 : Fin 1) l)) (fun k l => x5 (ix2 k l)) (fun l => x6 (ix2 (0 : Fin 1) l))
          (fun l => x7 (ix2 (0 : Fin 1) l)) (fun l => x8 (ix2 (0 : Fin 1) l)) (fun l => x9 (ix2 (0 : Fin 1) l)) (fun l => x10 (ix2 (0 : Fin 1) l)) q :=
  gin_pay_apply x0 x1 x2 x3 x4 x5 x6 x7 x8 x9 x10 p q

def ginG (H A : FVec Ideal S50000x96 .f32) (E : FVec Ideal S1x1 .f32) (W1 : FVec Ideal S96x96 .f32) (B1 : FVec Ideal S1x96 .f32)
    (W2 : FVec Ideal S96x96 .f32) (B2 Ga Be Me Va : FVec Ideal S1x96 .f32) : FVec Ideal S50000x96 .f32 :=
  fun i => ginRow (E (ix2 (0 : Fin 1) (0 : Fin 1)))
    (fun k => H (ix2 (⟨(i 0).val, idx2_lt0 i⟩ : Fin 50000) k)) (fun k => A (ix2 (⟨(i 0).val, idx2_lt0 i⟩ : Fin 50000) k))
    (fun k l => W1 (ix2 k l)) (fun l => B1 (ix2 (0 : Fin 1) l)) (fun k l => W2 (ix2 k l)) (fun l => B2 (ix2 (0 : Fin 1) l))
    (fun l => Ga (ix2 (0 : Fin 1) l)) (fun l => Be (ix2 (0 : Fin 1) l)) (fun l => Me (ix2 (0 : Fin 1) l)) (fun l => Va (ix2 (0 : Fin 1) l))
    (⟨(i 1).val, idx2_lt1 i⟩ : Fin 96)

theorem gin_point (H A : FVec Ideal S50000x96 .f32) (E : FVec Ideal S1x1 .f32) (W1 : FVec Ideal S96x96 .f32) (B1 : FVec Ideal S1x96 .f32)
    (W2 : FVec Ideal S96x96 .f32) (B2 Ga Be Me Va : FVec Ideal S1x96 .f32)
    (x0 x1 : Vec Ideal S5000x96 .f32) (x2 : Vec Ideal S1x1 .f32) (x3 : Vec Ideal S96x96 .f32) (x4 : Vec Ideal S1x96 .f32)
    (x5 : Vec Ideal S96x96 .f32) (x6 x7 x8 x9 x10 : Vec Ideal S1x96 .f32)
    (p : Fin 5000) (q : Fin 96) (i : S50000x96.Idx) (hq : q = (⟨(i 1).val, idx2_lt1 i⟩ : Fin 96))
    (h0 : ∀ k : Fin 96, x0 (ix2 p k) = H (ix2 (⟨(i 0).val, idx2_lt0 i⟩ : Fin 50000) k))
    (h1 : ∀ k : Fin 96, x1 (ix2 p k) = A (ix2 (⟨(i 0).val, idx2_lt0 i⟩ : Fin 50000) k))
    (h2 : x2 (ix2 (0 : Fin 1) (0 : Fin 1)) = E (ix2 (0 : Fin 1) (0 : Fin 1)))
    (h3 : ∀ k l : Fin 96, x3 (ix2 k l) = W1 (ix2 k l)) (h4 : ∀ l : Fin 96, x4 (ix2 (0 : Fin 1) l) = B1 (ix2 (0 : Fin 1) l))
    (h5 : ∀ k l : Fin 96, x5 (ix2 k l) = W2 (ix2 k l)) (h6 : ∀ l : Fin 96, x6 (ix2 (0 : Fin 1) l) = B2 (ix2 (0 : Fin 1) l))
    (h7 : ∀ l : Fin 96, x7 (ix2 (0 : Fin 1) l) = Ga (ix2 (0 : Fin 1) l)) (h8 : ∀ l : Fin 96, x8 (ix2 (0 : Fin 1) l) = Be (ix2 (0 : Fin 1) l))
    (h9 : ∀ l : Fin 96, x9 (ix2 (0 : Fin 1) l) = Me (ix2 (0 : Fin 1) l)) (h10 : ∀ l : Fin 96, x10 (ix2 (0 : Fin 1) l) = Va (ix2 (0 : Fin 1) l)) :
    ginRow (x2 (ix2 (0 : Fin 1) (0 : Fin 1))) (fun k => x0 (ix2 p k)) (fun k => x1 (ix2 p k))
        (fun k l => x3 (ix2 k l)) (fun l => x4 (ix2 (0 : Fin 1) l)) (fun k l => x5 (ix2 k l)) (fun l => x6 (ix2 (0 : Fin 1) l))
        (fun l => x7 (ix2 (0 : Fin 1) l)) (fun l => x8 (ix2 (0 : Fin 1) l)) (fun l => x9 (ix2 (0 : Fin 1) l)) (fun l => x10 (ix2 (0 : Fin 1) l)) q
      = ginG H A E W1 B1 W2 B2 Ga Be Me Va i := by
  unfold ginG
  rw [h2, hq, funext h0, funext h1, funext h4, funext h6, funext h7, funext h8, funext h9, funext h10,
    (funext fun k => funext (h3 k) : (fun k l => x3 (ix2 k l)) = fun k l => W1 (ix2 k l)),
    (funext fun k => funext (h5 k) : (fun k l => x5 (ix2 k l)) = fun k l => W2 (ix2 k l))]

end Cert.Bridge

end
-- ==== Proof.StepGinArr4.lean ====
/- Kernel side of layer 1's node update: the array after the call is the node-update function of the arrays on entry. -/
import proofs.«400244_j19808389169615_3_alg».proof.Proof.Gen.KernelIdeal.Frame
import proofs.«400244_j19808389169615_3_alg».proof.Proof.StepGinPay
import Idealize.ShloMosaic.Lib.ValueIdx
import Idealize.ShloMosaic.Lib.Pipeline.Value

noncomputable section

open scoped BigOperators

namespace Cert.Bridge

open Idealize.ShloMosaic Idealize.ShloMosaic.TcCoe Idealize.SL.Sem Idealize.ShloMosaic.ValueIdx
open Cert.KernelIdeal Cert.KernelIdeal.Gen

theorem gin4_hz : (![0, 0] : Fin 2 → Nat) = fun _ => 0 := funext fun a => by fin_cases a <;> rfl

theorem gin4_idx_rows : ∀ t : Fin cfg4.N,
    win4_0.index t (0 : Fin 2) = t.val ∧ win4_0.index t (1 : Fin 2) = 0
    ∧ win4_1.index t (0 : Fin 2) = t.val ∧ win4_1.index t (1 : Fin 2) = 0
    ∧ win4_11.index t (0 : Fin 2) = t.val ∧ win4_11.index t (1 : Fin 2) = 0 :=
  (by decide +kernel : ∀ t : Fin grid4.N, _)

theorem gin4_idx_mlp : ∀ t : Fin cfg4.N,
    win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

theorem gin4_idx_norm : ∀ t : Fin cfg4.N,
    win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0
    ∧ win4_10.index t (0 : Fin 2) = 0 ∧ win4_10.index t (1 : Fin 2) = 0 :=
  (by decide +kernel : ∀ t : Fin grid4.N, _)

section
variable (V : (c : Dev nD) → (b : Ref sig .tc) → Buf (Elt Ideal) ((c : Thread nD τ).loc b))

theorem gin4_col (t : Fin cfg4.N) (p : Fin 5000) (q : Fin 96) :
    q = (⟨((((cfg4.win 11).blk t).view.emb (ix2 p q)) 1).val, idx2_lt1 _⟩ : Fin 96) := by
  obtain ⟨_, _, _, _, _, e1⟩ := gin4_idx_rows t
  refine Fin.ext ?_
  show q.val = win4_11.index t (1 : Fin 2) * 96 + 1 * q.val; omega

theorem gin4_blk_h (c : Dev nD) (t : Fin cfg4.N) (p : Fin 5000) (q k : Fin 96) :
    iblk4 V c 0 t (ix2 p k)
      = V c main_v39 (ix2 (⟨((((cfg4.win 11).blk t).view.emb (ix2 p q)) 0).val, idx2_lt0 _⟩ : Fin 50000) k) := by
  obtain ⟨a0, a1, _, _, r0, _⟩ := gin4_idx_rows t
  show V c main_v39 (((cfg4.win 0).blk t).view.emb (ix2 p k)) = V c main_v39 _
  refine congrArg (V c main_v39) (funext fun a => Fin.ext ?_)
  match a with
  | ⟨0, _⟩ => show win4_0.index t (0 : Fin 2) * 5000 + 1 * p.val = win4_11.index t (0 : Fin 2) * 5000 + 1 * p.val; omega
  | ⟨1, _⟩ => show win4_0.index t (1 : Fin 2) * 96 + 1 * k.val = k.val; omega

theorem gin4_blk_agg (c : Dev nD) (t : Fin cfg4.N) (p : Fin 5000) (q k : Fin 96) :
    iblk4 V c 1 t (ix2 p k)
      = V c main_v54 (ix2 (⟨((((cfg4.win 11).blk t).view.emb (ix2 p q)) 0).val, idx2_lt0 _⟩ : Fin 50000) k) := by
  obtain ⟨_, _, a0, a1, r0, _⟩ := gin4_idx_rows t
  show V c main_v54 (((cfg4.win 1).blk t).view.emb (ix2 p k)) = V c main_v54 _
  refine congrArg (V c main_v54) (funext fun a => Fin.ext ?_)
  match a with
  | ⟨0, _⟩ => show win4_1.index t (0 : Fin 2) * 5000 + 1 * p.val = win4_11.index t (0 : Fin 2) * 5000 + 1 * p.val; omega
  | ⟨1, _⟩ => show win4_1.index t (1 : Fin 2) * 96 + 1 * k.val = k.val; omega

theorem gin4_blk_eps (c : Dev nD) (t : Fin cfg4.N) :
    iblk4 V c 2 t (ix2 (0 : Fin 1) (0 : Fin 1)) = V c main_v73 (ix2 (0 : Fin 1) (0 : Fin 1)) := by
  obtain ⟨a0, a1, _⟩ := gin4_idx_mlp t
  show V c main_v73 (((cfg4.win 2).blk t).view.emb (ix2 (0 : Fin 1) (0 : Fin 1))) = V c main_v73 _
  refine congrArg (V c main_v73) (funext fun a => Fin.ext ?_)
  match a with
  | ⟨0, _⟩ => show win4_2.index t (0 : Fin 2) * 1 + 1 * 0 = 0; omega
  | ⟨1, _⟩ => show win4_2.index t (1 : Fin 2) * 1 + 1 * 0 = 0; omega

theorem gin4_blk_w1 (c : Dev nD) (t : Fin cfg4.N) (k l : Fin 96) :
    iblk4 V c 3 t (ix2 k l) = V c main_v58 (ix2 k l) := by
  obtain ⟨_, _, a0, a1, _⟩ := gin4_idx_mlp t
  show V c main_v58 (((cfg4.win 3).blk t).view.emb (ix2 k l)) = V c main_v58 _
  refine congrArg (V c main_v58) (funext fun a => Fin.ext ?_)
  match a with
  | ⟨0, _⟩ => show win4_3.index t (0 : Fin 2) * 96 + 1 * k.val = k.val; omega
  | ⟨1, _⟩ => show win4_3.index t (1 : Fin 2) * 96 + 1 * l.val = l.val; omega

theorem gin4_blk_b1 (c : Dev nD) (t : Fin cfg4.N) (l : Fin 96) :
    iblk4 V c 4 t (ix2 (0 : Fin 1) l) = V c main_v74 (ix2 (0 : Fin 1) l) := by
  obtain ⟨_, _, _, _, a0, a1, _⟩ := gin4_idx_mlp t
  show V c main_v74 (((cfg4.win 4).blk t).view.emb (ix2 (0 : Fin 1) l)) = V c main_v74 _
  refine congrArg (V c main_v74) (funext fun a => Fin.ext ?_)
  match a with
  | ⟨0, _⟩ => show win4_4.index t (0 : Fin 2) * 1 + 1 * 0 = 0; omega
  | ⟨1, _⟩ => show win4_4.index t (1 : Fin 2) * 96 + 1 * l.val = l.val; omega

theorem gin4_blk_w2 (c : Dev nD) (t : Fin cfg4.N) (k l : Fin 96) :
    iblk4 V c 5 t (ix2 k l) = V c main_v62 (ix2 k l) := by
  obtain ⟨_, _, _, _, _, _, a0, a1, _⟩ := gin4_idx_mlp t
  show V c main_v62 (((cfg4.win 5).blk t).view.emb (ix2 k l)) = V c main_v62 _
  refine congrArg (V c main_v62) (funext fun a => Fin.ext ?_)
  match a with
  | ⟨0, _⟩ => show win4_5.index t (0 : Fin 2) * 96 + 1 * k.val = k.val; omega
  | ⟨1, _⟩ => show win4_5.index t (1 : Fin 2) * 96 + 1 * l.val = l.val; omega

theorem gin4_blk_b2 (c : Dev nD) (t : Fin cfg4.N) (l : Fin 96) :
    iblk4 V c 6 t (ix2 (0 : Fin 1) l) = V c main_v75 (ix2 (0 : Fin 1) l) := by
  obtain ⟨_, _, _, _, _, _, _, _, a0, a1⟩ := gin4_idx_mlp t
  show V c main_v75 (((cfg4.win 6).blk t).view.emb (ix2 (0 : Fin 1) l)) = V c main_v75 _
  refine congrArg (V c main_v75) (funext fun a => Fin.ext ?_)
  match a with
  | ⟨0, _⟩ => show win4_6.index t (0 : Fin 2) * 1 + 1 * 0 = 0; omega
  | ⟨1, _⟩ => show win4_6.index t (1 : Fin 2) * 96 + 1 * l.val = l.val; omega

theorem gin4_blk_gamma (c : Dev nD) (t : Fin cfg4.N) (l : Fin 96) :
    iblk4 V c 7 t (ix2 (0 : Fin 1) l) = V c main_v76 (ix2 (0 : Fin 1) l) := by
  obtain ⟨a0, a1, _⟩ := gin4_idx_norm t
  show V c main_v76 (((cfg4.win 7).blk t).view.emb (ix2 (0 : Fin 1) l)) = V c main_v76 _
  refine congrArg (V c main_v76) (funext fun a => Fin.ext ?_)
  match a with
  | ⟨0, _⟩ => show win4_7.index t (0 : Fin 2) * 1 + 1 * 0 = 0; omega
  | ⟨1, _⟩ => show win4_7.index t (1 : Fin 2) * 96 + 1 * l.val = l.val; omega

theorem gin4_blk_beta (c : Dev nD) (t : Fin cfg4.N) (l : Fin 96) :
    iblk4 V c 8 t (ix2 (0 : Fin 1) l) = V c main_v77 (ix2 (0 : Fin 1) l) := by
  obtain ⟨_, _, a0, a1, _⟩ := gin4_idx_norm t
  show V c main_v77 (((cfg4.win 8).blk t).view.emb (ix2 (0 : Fin 1) l)) = V c main_v77 _
  refine congrArg (V c main_v77) (funext fun a => Fin.ext ?_)
  match a with
  | ⟨0, _⟩ => show win4_8.index t (0 : Fin 2) * 1 + 1 * 0 = 0; omega
  | ⟨1, _⟩ => show win4_8.index t (1 : Fin 2) * 96 + 1 * l.val = l.val; omega

theorem gin4_blk_mean (c : Dev nD) (t : Fin cfg4.N) (l : Fin 96) :
    iblk4 V c 9 t (ix2 (0 : Fin 1) l) = V c main_v78 (ix2 (0 : Fin 1) l) := by
  obtain ⟨_, _, _, _, a0, a1, _⟩ := gin4_idx_norm t
  show V c main_v78 (((cfg4.win 9).blk t).view.emb (ix2 (0 : Fin 1) l)) = V c main_v78 _
  refine congrArg (V c main_v78) (funext fun a => Fin.ext ?_)
  match a with
  | ⟨0, _⟩ => show win4_9.index t (0 : Fin 2) * 1 + 1 * 0 = 0; omega
  | ⟨1, _⟩ => show win4_9.index t (1 : Fin 2) * 96 + 1 * l.val = l.val; omega

theorem gin4_blk_var (c : Dev nD) (t : Fin cfg4.N) (l : Fin 96) :
    iblk4 V c 10 t (ix2 (0 : Fin 1) l) = V c main_v79 (ix2 (0 : Fin 1) l) := by
  obtain ⟨_, _, _, _, _, _, a0, a1⟩ := gin4_idx_norm t
  show V c main_v79 (((cfg4.win 10).blk t).view.emb (ix2 (0 : Fin 1) l)) = V c main_v79 _
  refine congrArg (V c main_v79) (funext fun a => Fin.ext ?_)
  match a with
  | ⟨0, _⟩ => show win4_10.index t (0 : Fin 2) * 1 + 1 * 0 = 0; omega
  | ⟨1, _⟩ => show win4_10.index t (1 : Fin 2) * 96 + 1 * l.val = l.val; omega

theorem gin4_flushed_eq (c : Dev nD) (t : Fin cfg4.N) :
    (dat4 (F := Ideal) V c).flushed 11 t
      = ((cfg4.win 11).blk t).view.read (Elt Ideal) (ginG (V c main_v39) (V c main_v54) (V c main_v73) (V c main_v58) (V c main_v74)
          (V c main_v62) (V c main_v75) (V c main_v76) (V c main_v77) (V c main_v78) (V c main_v79)) := by
  show (cfg4.win 11).cut (grid4.coords t) ((dat4 V c).after 11 t) = _
  rw [after4_11]
  unfold out4_11
  rw [View.canon_unit_zero gin4_hz]
  simp only [View.ld_unit_zero (S := S5000x96) gin4_hz, View.ld_unit_zero (S := S1x1) gin4_hz, View.ld_unit_zero (S := S96x96) gin4_hz, View.ld_unit_zero (S := S1x96) gin4_hz]
  funext j
  obtain ⟨p, q, rfl⟩ : ∃ (p : Fin 5000) (q : Fin 96), j = ix2 p q := ⟨j 0, j 1, eq_ix2 j⟩
  refine (gin_pay_apply (iblk4 V c 0 t) (iblk4 V c 1 t) (iblk4 V c 2 t) (iblk4 V c 3 t) (iblk4 V c 4 t) (iblk4 V c 5 t)
    (iblk4 V c 6 t) (iblk4 V c 7 t) (iblk4 V c 8 t) (iblk4 V c 9 t) (iblk4 V c 10 t) p q).trans ?_
  exact gin_point (V c main_v39) (V c main_v54) (V c main_v73) (V c main_v58) (V c main_v74) (V c main_v62) (V c main_v75)
    (V c main_v76) (V c main_v77) (V c main_v78) (V c main_v79)
    (iblk4 V c 0 t) (iblk4 V c 1 t) (iblk4 V c 2 t) (iblk4 V c 3 t) (iblk4 V c 4 t) (iblk4 V c 5 t)
    (iblk4 V c 6 t) (iblk4 V c 7 t) (iblk4 V c 8 t) (iblk4 V c 9 t) (iblk4 V c 10 t) p q
    (((cfg4.win 11).blk t).view.emb (ix2 p q)) (gin4_col t p q)
    (fun k => gin4_blk_h V c t p q k) (fun k => gin4_blk_agg V c t p q k) (gin4_blk_eps V c t)
    (fun k l => gin4_blk_w1 V c t k l) (fun l => gin4_blk_b1 V c t l) (fun k l => gin4_blk_w2 V c t k l) (fun l => gin4_blk_b2 V c t l)
    (fun l => gin4_blk_gamma V c t l) (fun l => gin4_blk_beta V c t l) (fun l => gin4_blk_mean V c t l) (fun l => gin4_blk_var V c t l)

theorem gin4_mem_blk (t : Fin cfg4.N) (i : S50000x96.Idx) :
    i ∈ ((cfg4.win 11).blk t).view.set ↔ ∀ a : Fin 2, win4_11.index t a * S5000x96.size a ≤ (i a).val ∧ (i a).val < win4_11.index t a * S5000x96.size a + S5000x96.size a := by
  show i ∈ ((View.whole main_v80).slice (win4_11.rect t)).set ↔ _
  rw [View.set_slice_whole, Rect.mem_set_unit]
  exact Iff.rfl

theorem gin4_cover (i : S50000x96.Idx) : ∃ t : Fin cfg4.N, (cfg4.win 11).flush t = true ∧ i ∈ ((cfg4.win 11).blk t).view.set := by
  have hi0 : (i 0).val < 50000 := idx2_lt0 i
  have hi1 : (i 1).val < 96 := idx2_lt1 i
  have hN : grid4.N = 10 := N_4
  have ht : (i 0).val / 5000 < grid4.N := by omega
  obtain ⟨_, _, _, _, e0, e1⟩ := gin4_idx_rows ⟨(i 0).val / 5000, ht⟩
  refine ⟨⟨(i 0).val / 5000, ht⟩, flush4_11 _, ?_⟩
  rw [gin4_mem_blk]
  intro a
  match a with
  | ⟨0, _⟩ =>
    show win4_11.index ⟨(i 0).val / 5000, ht⟩ (0 : Fin 2) * 5000 ≤ (i 0).val ∧ (i 0).val < win4_11.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_11.index ⟨(i 0).val / 5000, ht⟩ (1 : Fin 2) * 96 ≤ (i 1).val ∧ (i 1).val < win4_11.index ⟨(i 0).val / 5000, ht⟩ (1 : Fin 2) * 96 + 96
    rw [e1]; omega

theorem gin4_arr (c : Dev nD) :
    (dat4 (F := Ideal) V c).arrAt 11 cfg4.N
      = ginG (V c main_v39) (V c main_v54) (V c main_v73) (V c main_v58) (V c main_v74) (V c main_v62) (V c main_v75)
          (V c main_v76) (V c main_v77) (V c main_v78) (V c main_v79) :=
  (dat4 V c).arrAt_eq_of_cover 11 _ (fun t _ => gin4_flushed_eq V c t) gin4_cover

end

end Cert.Bridge

end
-- ==== Proof.StepGinWalk.lean ====
/- The stacked node-update parameters are unchanged from the start when each layer slices them. -/
import proofs.«400244_j19808389169615_3_alg».proof.Proof.Gen.KernelIdeal.Frame
import proofs.«400244_j19808389169615_3_alg».proof.Proof.Walk
import Idealize.ShloMosaic.PureOps.Ideal

noncomputable section

namespace Cert.Bridge

open Idealize.ShloMosaic Idealize.ShloMosaic.TcCoe Idealize.SL.Sem
open Cert.KernelIdeal Cert.KernelIdeal.Gen

macro "launch_walk13 " m:term:max ρ:term:max c:term:max r:term:max : tactic => `(tactic| exact
  calc W13 $m $ρ $c (Proc.devRef .tc $r)
    _ = W12 $m $ρ $c (Proc.devRef .tc $r) := W13_of_ne $m $ρ $c $r (by decide)
    _ = W11 $m $ρ $c (Proc.devRef .tc $r) := by skip_host hostOps3_1
    _ = W10 $m $ρ $c (Proc.devRef .tc $r) := by skip_host hostOps3
    _ = W9 $m $ρ $c (Proc.devRef .tc $r) := W10_of_ne $m $ρ $c $r (by decide)
    _ = W8 $m $ρ $c (Proc.devRef .tc $r) := by skip_host hostOps2
    _ = W7 $m $ρ $c (Proc.devRef .tc $r) := W8_of_ne $m $ρ $c $r (by decide)
    _ = W6 $m $ρ $c (Proc.devRef .tc $r) := by skip_host hostOps1_1
    _ = W5 $m $ρ $c (Proc.devRef .tc $r) := by skip_host hostOps1
    _ = W4 $m $ρ $c (Proc.devRef .tc $r) := W5_of_ne $m $ρ $c $r (by decide)
    _ = W3 $m $ρ $c (Proc.devRef .tc $r) := by skip_host hostOps0_3
    _ = W2 $m $ρ $c (Proc.devRef .tc $r) := by skip_host hostOps0_2
    _ = W1 $m $ρ $c (Proc.devRef .tc $r) := by skip_host hostOps0_1
    _ = W0 $m $ρ $c (Proc.devRef .tc $r) := by skip_host hostOps0
    _ = $m ((($c : Dev nD) : Thread nD τ).loc $r) := rfl)

macro "launch_walk18 " m:term:max ρ:term:max c:term:max r:term:max : tactic => `(tactic| exact
  calc W18 $m $ρ $c (Proc.devRef .tc $r)
    _ = W17 $m $ρ $c (Proc.devRef .tc $r) := W18_of_ne $m $ρ $c $r (by decide)
    _ = W16 $m $ρ $c (Proc.devRef .tc $r) := by skip_host hostOps5_1
    _ = W15 $m $ρ $c (Proc.devRef .tc $r) := by skip_host hostOps5
    _ = W14 $m $ρ $c (Proc.devRef .tc $r) := W15_of_ne $m $ρ $c $r (by decide)
    _ = W13 $m $ρ $c (Proc.devRef .tc $r) := by skip_host hostOps4
    _ = $m ((($c : Dev nD) : Thread nD τ).loc $r) := by launch_walk13 $m $ρ $c $r)

variable (m : (ℓ : Loc nD τ sig) → Buf (Elt Ideal) ℓ) (ρ : Dev nD → PrngReg) (c : Dev nD)

theorem walk13_arg14 : W13 m ρ c (Proc.devRef .tc main_arg14) = m ((c : Thread nD τ).loc main_arg14) := by
  launch_walk13 m ρ c main_arg14

theorem walk13_arg15 : W13 m ρ c (Proc.devRef .tc main_arg15) = m ((c : Thread nD τ).loc main_arg15) := by
  launch_walk13 m ρ c main_arg15

theorem walk13_arg16 : W13 m ρ c (Proc.devRef .tc main_arg16) = m ((c : Thread nD τ).loc main_arg16) := by
  launch_walk13 m ρ c main_arg16

theorem walk13_arg17 : W13 m ρ c (Proc.devRef .tc main_arg17) = m ((c : Thread nD τ).loc main_arg17) := by
  launch_walk13 m ρ c main_arg17

theorem walk13_arg18 : W13 m ρ c (Proc.devRef .tc main_arg18) = m ((c : Thread nD τ).loc main_arg18) := by
  launch_walk13 m ρ c main_arg18

theorem walk13_arg19 : W13 m ρ c (Proc.devRef .tc main_arg19) = m ((c : Thread nD τ).loc main_arg19) := by
  launch_walk13 m ρ c main_arg19

theorem walk13_arg20 : W13 m ρ c (Proc.devRef .tc main_arg20) = m ((c : Thread nD τ).loc main_arg20) := by
  launch_walk13 m ρ c main_arg20

theorem walk13_arg21 : W13 m ρ c (Proc.devRef .tc main_arg21) = m ((c : Thread nD τ).loc main_arg21) := by
  launch_walk13 m ρ c main_arg21

theorem walk13_arg22 : W13 m ρ c (Proc.devRef .tc main_arg22) = m ((c : Thread nD τ).loc main_arg22) := by
  launch_walk13 m ρ c main_arg22

theorem walk18_arg14 : W18 m ρ c (Proc.devRef .tc main_arg14) = m ((c : Thread nD τ).loc main_arg14) := by
  launch_walk18 m ρ c main_arg14

theorem walk18_arg15 : W18 m ρ c (Proc.devRef .tc main_arg15) = m ((c : Thread nD τ).loc main_arg15) := by
  launch_walk18 m ρ c main_arg15

theorem walk18_arg16 : W18 m ρ c (Proc.devRef .tc main_arg16) = m ((c : Thread nD τ).loc main_arg16) := by
  launch_walk18 m ρ c main_arg16

theorem walk18_arg17 : W18 m ρ c (Proc.devRef .tc main_arg17) = m ((c : Thread nD τ).loc main_arg17) := by
  launch_walk18 m ρ c main_arg17

theorem walk18_arg18 : W18 m ρ c (Proc.devRef .tc main_arg18) = m ((c : Thread nD τ).loc main_arg18) := by
  launch_walk18 m ρ c main_arg18

theorem walk18_arg19 : W18 m ρ c (Proc.devRef .tc main_arg19) = m ((c : Thread nD τ).loc main_arg19) := by
  launch_walk18 m ρ c main_arg19

theorem walk18_arg20 : W18 m ρ c (Proc.devRef .tc main_arg20) = m ((c : Thread nD τ).loc main_arg20) := by
  launch_walk18 m ρ c main_arg20

theorem walk18_arg21 : W18 m ρ c (Proc.devRef .tc main_arg21) = m ((c : Thread nD τ).loc main_arg21) := by
  launch_walk18 m ρ c main_arg21

theorem walk18_arg22 : W18 m ρ c (Proc.devRef .tc main_arg22) = m ((c : Thread nD τ).loc main_arg22) := by
  launch_walk18 m ρ c main_arg22

end Cert.Bridge

end
-- ==== Proof.StepGinEntry4.lean ====
/- Kernel side of layer 1's node update: the arrays on entry are earlier results and the layer's slices of the stacked parameters. -/
import proofs.«400244_j19808389169615_3_alg».proof.Proof.Gen.KernelIdeal.Frame
import proofs.«400244_j19808389169615_3_alg».proof.Proof.Walk
import proofs.«400244_j19808389169615_3_alg».proof.Proof.StepGinWalk
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal

noncomputable section

namespace Cert.Bridge

open Idealize.ShloMosaic Idealize.ShloMosaic.TcCoe Idealize.SL.Sem Idealize.ShloMosaic.ValueIdx
open Cert.KernelIdeal Cert.KernelIdeal.Gen

theorem gin4_lay_eps (x : FVec Ideal S2 .f32) :
    shapeCast S1x1 (shapeCast S_ (extractStridedSlice S1 ![0] x slices_S2_S1_0) shapeCasts_S1_S_) shapeCasts_S_S1x1
        (ix2 (0 : Fin 1) (0 : Fin 1)) = x (ix1 (0 : Fin 2)) := by
  rw [shapeCast_apply _ shapeCasts_S_S1x1 (ix2 (0 : Fin 1) (0 : Fin 1)) ix0
      ((Shape.rowMajorPi_zero _ _).trans (by rw [Shape.rowMajor_val_two]; rfl)),
    shapeCast_apply _ shapeCasts_S1_S_ ix0 (ix1 (0 : Fin 1))
      ((Shape.rowMajor_val_one _).trans (Shape.rowMajorPi_zero _ _).symm),
    extractStridedSlice_apply ![0] x slices_S2_S1_0 (ix1 (0 : Fin 1)) (ix1 (0 : Fin 2)) (fun a => match a with
      | ⟨0, _⟩ => rfl)]

theorem gin4_lay_mat (x : FVec Ideal S2x96x96 .f32) (k l : Fin 96) :
    shapeCast S96x96 (extractStridedSlice S1x96x96 ![0, 0, 0] x slices_S2x96x96_S1x96x96_0_0_0) shapeCasts_S1x96x96_S96x96 (ix2 k l)
      = x (ix3 (0 : Fin 2) k l) := by
  rw [shapeCast_1ab_ab_apply,
    extractStridedSlice_apply ![0, 0, 0] x slices_S2x96x96_S1x96x96_0_0_0 (ix3 (0 : Fin 1) k l) (ix3 (0 : Fin 2) k l) (fun a => match a with
      | ⟨0, _⟩ => rfl
      | ⟨1, _⟩ => by show k.val = 0 + k.val; omega
      | ⟨2, _⟩ => by show l.val = 0 + l.val; omega)]

theorem gin4_lay_bias (x : FVec Ideal S2x96 .f32) (l : Fin 96) :
    shapeCast S1x96 (shapeCast S96 (extractStridedSlice S1x96 ![0, 0] x slices_S2x96_S1x96_0_0) shapeCasts_S1x96_S96) shapeCasts_S96_S1x96
        (ix2 (0 : Fin 1) l) = x (ix2 (0 : Fin 2) l) := by
  rw [shapeCast_a_1a_apply, shapeCast_1a_a_apply,
    extractStridedSlice_apply ![0, 0] x slices_S2x96_S1x96_0_0 (ix2 (0 : Fin 1) l) (ix2 (0 : Fin 2) l) (fun a => match a with
      | ⟨0, _⟩ => rfl
      | ⟨1, _⟩ => by show l.val = 0 + l.val; omega)]

theorem gin4_lay_norm (x : FVec Ideal S3x96 .f32) (l : Fin 96) :
    shapeCast S1x96 (shapeCast S96 (extractStridedSlice S1x96 ![1, 0] x slices_S3x96_S1x96_1_0) shapeCasts_S1x96_S96) shapeCasts_S96_S1x96
        (ix2 (0 : Fin 1) l) = x (ix2 (1 : Fin 3) l) := by
  rw [shapeCast_a_1a_apply, shapeCast_1a_a_apply,
    extractStridedSlice_apply ![1, 0] x slices_S3x96_S1x96_1_0 (ix2 (0 : Fin 1) l) (ix2 (1 : Fin 3) l) (fun a => match a with
      | ⟨0, _⟩ => rfl
      | ⟨1, _⟩ => by show l.val = 0 + l.val; omega)]

section
variable (V13 : Valuation τ sig (Elt Ideal))

theorem gin4_host_eps : StableHlo.after hostOps4 V13 (Proc.devRef .tc main_v73)
    = shapeCast S1x1 (shapeCast S_ (extractStridedSlice S1 ![0] (V13 (Proc.devRef .tc main_arg18)) slices_S2_S1_0) shapeCasts_S1_S_) shapeCasts_S_S1x1 := by
  after_results
  rfl
theorem gin4_host_w1 : StableHlo.after hostOps4 V13 (Proc.devRef .tc main_v58)
    = shapeCast S96x96 (extractStridedSlice S1x96x96 ![0, 0, 0] (V13 (Proc.devRef .tc main_arg14)) slices_S2x96x96_S1x96x96_0_0_0) shapeCasts_S1x96x96_S96x96 := by
  after_results
  rfl
theorem gin4_host_b1 : StableHlo.after hostOps4 V13 (Proc.devRef .tc main_v74)
    = shapeCast S1x96 (shapeCast S96 (extractStridedSlice S1x96 ![0, 0] (V13 (Proc.devRef .tc main_arg15)) slices_S2x96_S1x96_0_0) shapeCasts_S1x96_S96) shapeCasts_S96_S1x96 := by
  after_results
  rfl
theorem gin4_host_w2 : StableHlo.after hostOps4 V13 (Proc.devRef .tc main_v62)
    = shapeCast S96x96 (extractStridedSlice S1x96x96 ![0, 0, 0] (V13 (Proc.devRef .tc main_arg16)) slices_S2x96x96_S1x96x96_0_0_0) shapeCasts_S1x96x96_S96x96 := by
  after_results
  rfl
theorem gin4_host_b2 : StableHlo.after hostOps4 V13 (Proc.devRef .tc main_v75)
    = shapeCast S1x96 (shapeCast S96 (extractStridedSlice S1x96 ![0, 0] (V13 (Proc.devRef .tc main_arg17)) slices_S2x96_S1x96_0_0) shapeCasts_S1x96_S96) shapeCasts_S96_S1x96 := by
  after_results
  rfl
theorem gin4_host_gamma : StableHlo.after hostOps4 V13 (Proc.devRef .tc main_v76)
    = shapeCast S1x96 (shapeCast S96 (extractStridedSlice S1x96 ![1, 0] (V13 (Proc.devRef .tc main_arg19)) slices_S3x96_S1x96_1_0) shapeCasts_S1x96_S96) shapeCasts_S96_S1x96 := by
  after_results
  rfl
theorem gin4_host_beta : StableHlo.after hostOps4 V13 (Proc.devRef .tc main_v77)
    = shapeCast S1x96 (shapeCast S96 (extractStridedSlice S1x96 ![1, 0] (V13 (Proc.devRef .tc main_arg20)) slices_S3x96_S1x96_1_0) shapeCasts_S1x96_S96) shapeCasts_S96_S1x96 := by
  after_results
  rfl
theorem gin4_host_mean : StableHlo.after hostOps4 V13 (Proc.devRef .tc main_v78)
    = shapeCast S1x96 (shapeCast S96 (extractStridedSlice S1x96 ![1, 0] (V13 (Proc.devRef .tc main_arg21)) slices_S3x96_S1x96_1_0) shapeCasts_S1x96_S96) shapeCasts_S96_S1x96 := by
  after_results
  rfl
theorem gin4_host_var : StableHlo.after hostOps4 V13 (Proc.devRef .tc main_v79)
    = shapeCast S1x96 (shapeCast S96 (extractStridedSlice S1x96 ![1, 0] (V13 (Proc.devRef .tc main_arg22)) slices_S3x96_S1x96_1_0) shapeCasts_S1x96_S96) shapeCasts_S96_S1x96 := by
  after_results
  rfl

end

variable (m : (ℓ : Loc nD τ sig) → Buf (Elt Ideal) ℓ) (ρ : Dev nD → PrngReg) (c : Dev nD)

theorem gin4_entry_h : V14 m ρ c main_v39 = W10 m ρ c (Proc.devRef .tc main_v39) :=
  calc W14 m ρ c (Proc.devRef .tc main_v39)
    _ = W13 m ρ c (Proc.devRef .tc main_v39) := by skip_host hostOps4
    _ = W12 m ρ c (Proc.devRef .tc main_v39) := W13_of_ne m ρ c main_v39 (by decide)
    _ = W11 m ρ c (Proc.devRef .tc main_v39) := by skip_host hostOps3_1
    _ = W10 m ρ c (Proc.devRef .tc main_v39) := by skip_host hostOps3

theorem gin4_entry_eps : V14 m ρ c main_v73 (ix2 (0 : Fin 1) (0 : Fin 1)) = m ((c : Thread nD τ).loc main_arg18) (ix1 (0 : Fin 2)) := by
  show StableHlo.after hostOps4 (W13 m ρ c) (Proc.devRef .tc main_v73) _ = _
  rw [gin4_host_eps, walk13_arg18]
  exact gin4_lay_eps _
theorem gin4_entry_w1 (k l : Fin 96) : V14 m ρ c main_v58 (ix2 k l) = m ((c : Thread nD τ).loc main_arg14) (ix3 (0 : Fin 2) k l) := by
  show StableHlo.after hostOps4 (W13 m ρ c) (Proc.devRef .tc main_v58) _ = _
  rw [gin4_host_w1, walk13_arg14]
  exact gin4_lay_mat _ k l
theorem gin4_entry_b1 (l : Fin 96) : V14 m ρ c main_v74 (ix2 (0 : Fin 1) l) = m ((c : Thread nD τ).loc main_arg15) (ix2 (0 : Fin 2) l) := by
  show StableHlo.after hostOps4 (W13 m ρ c) (Proc.devRef .tc main_v74) _ = _
  rw [gin4_host_b1, walk13_arg15]
  exact gin4_lay_bias _ l
theorem gin4_entry_w2 (k l : Fin 96) : V14 m ρ c main_v62 (ix2 k l) = m ((c : Thread nD τ).loc main_arg16) (ix3 (0 : Fin 2) k l) := by
  show StableHlo.after hostOps4 (W13 m ρ c) (Proc.devRef .tc main_v62) _ = _
  rw [gin4_host_w2, walk13_arg16]
  exact gin4_lay_mat _ k l
theorem gin4_entry_b2 (l : Fin 96) : V14 m ρ c main_v75 (ix2 (0 : Fin 1) l) = m ((c : Thread nD τ).loc main_arg17) (ix2 (0 : Fin 2) l) := by
  show StableHlo.after hostOps4 (W13 m ρ c) (Proc.devRef .tc main_v75) _ = _
  rw [gin4_host_b2, walk13_arg17]
  exact gin4_lay_bias _ l
theorem gin4_entry_gamma (l : Fin 96) : V14 m ρ c main_v76 (ix2 (0 : Fin 1) l) = m ((c : Thread nD τ).loc main_arg19) (ix2 (1 : Fin 3) l) := by
  show StableHlo.after hostOps4 (W13 m ρ c) (Proc.devRef .tc main_v76) _ = _
  rw [gin4_host_gamma, walk13_arg19]
  exact gin4_lay_norm _ l
theorem gin4_entry_beta (l : Fin 96) : V14 m ρ c main_v77 (ix2 (0 : Fin 1) l) = m ((c : Thread nD τ).loc main_arg20) (ix2 (1 : Fin 3) l) := by
  show StableHlo.after hostOps4 (W13 m ρ c) (Proc.devRef .tc main_v77) _ = _
  rw [gin4_host_beta, walk13_arg20]
  exact gin4_lay_norm _ l
theorem gin4_entry_mean (l : Fin 96) : V14 m ρ c main_v78 (ix2 (0 : Fin 1) l) = m ((c : Thread nD τ).loc main_arg21) (ix2 (1 : Fin 3) l) := by
  show StableHlo.after hostOps4 (W13 m ρ c) (Proc.devRef .tc main_v78) _ = _
  rw [gin4_host_mean, walk13_arg21]
  exact gin4_lay_norm _ l
theorem gin4_entry_var (l : Fin 96) : V14 m ρ c main_v79 (ix2 (0 : Fin 1) l) = m ((c : Thread nD τ).loc main_arg22) (ix2 (1 : Fin 3) l) := by
  show StableHlo.after hostOps4 (W13 m ρ c) (Proc.devRef .tc main_v79) _ = _
  rw [gin4_host_var, walk13_arg22]
  exact gin4_lay_norm _ l

end Cert.Bridge

end
-- ==== Proof.StepGinRef1.lean ====
/- Reference side of layer 1's node update at an index: the row function of the node's own row and its summed messages. -/
import proofs.«400244_j19808389169615_3_alg».proof.Proof.RefRead
import proofs.«400244_j19808389169615_3_alg».proof.Proof.StepGinSpec
import Idealize.ShloMosaic.Lib.ValueIdx

noncomputable section

open scoped BigOperators

namespace Cert.Bridge

open Idealize.ShloMosaic Idealize.ShloMosaic.ValueIdx
open Cert.ReferenceIdeal Cert.ReferenceIdeal.Gen Cert.ReferenceIdeal.Read

section
variable (x0 : (⟨S50000x128, .f32⟩ : BufTy).Contents (Elt Ideal))
  (x1 : (⟨S2x800000, .i32⟩ : BufTy).Contents (Elt Ideal))
  (x2 : (⟨S800000x16, .f32⟩ : BufTy).Contents (Elt Ideal))
  (x3 : (⟨S128x96, .f32⟩ : BufTy).Contents (Elt Ideal))
  (x4 : (⟨S96, .f32⟩ : BufTy).Contents (Elt Ideal))
  (x5 : (⟨S1x96, .f32⟩ : BufTy).Contents (Elt Ideal))
  (x6 : (⟨S16x96, .f32⟩ : BufTy).Contents (Elt Ideal))
  (x7 : (⟨S96, .f32⟩ : BufTy).Contents (Elt Ideal))
  (x8 : (⟨S96x96, .f32⟩ : BufTy).Contents (Elt Ideal))
  (x9 : (⟨S96, .f32⟩ : BufTy).Contents (Elt Ideal))
  (x10 : (⟨S2x16x96, .f32⟩ : BufTy).Contents (Elt Ideal))
  (x11 : (⟨S2x96, .f32⟩ : BufTy).Contents (Elt Ideal))
  (x12 : (⟨S2x96x96, .f32⟩ : BufTy).Contents (Elt Ideal))
  (x13 : (⟨S2x96, .f32⟩ : BufTy).Contents (Elt Ideal))
  (x14 : (⟨S2x96x96, .f32⟩ : BufTy).Contents (Elt Ideal))
  (x15 : (⟨S2x96, .f32⟩ : BufTy).Contents (Elt Ideal))
  (x16 : (⟨S2x96x96, .f32⟩ : BufTy).Contents (Elt Ideal))
  (x17 : (⟨S2x96, .f32⟩ : BufTy).Contents (Elt Ideal))
  (x18 : (⟨S2, .f32⟩ : BufTy).Contents (Elt Ideal))
  (x19 : (⟨S3x96, .f32⟩ : BufTy).Contents (Elt Ideal))
  (x20 : (⟨S3x96, .f32⟩ : BufTy).Contents (Elt Ideal))
  (x21 : (⟨S3x96, .f32⟩ : BufTy).Contents (Elt Ideal))
  (x22 : (⟨S3x96, .f32⟩ : BufTy).Contents (Elt Ideal))

theorem ref1_eps (j : S50000x96.Idx) :
    val_main_v117 (F := Ideal) x18 j = Ideal.ofBits .f32 0x3F800000#32 + x18 (ix1 (0 : Fin 2)) := by
  rw [val_main_v117_apply, val_main_v116_apply, val_main_cst_12_apply]
  unfold val_main_v115
  rw [shapeCast_apply (val_main_v114 (F := Ideal) x18) shapeCasts_S1_S_ (idx_main_v117 j) (ix1 (0 : Fin 1))
    ((Shape.rowMajor_val_one _).trans (Shape.rowMajorPi_zero _ _).symm), val_main_v114_apply]
  exact congrArg (fun z => Ideal.ofBits .f32 0x3F800000#32 + x18 z) (funext fun a => Fin.ext (by match a with | ⟨0, _⟩ => rfl))

theorem ref1_w1 (k l : Fin 96) : val_main_v121 (F := Ideal) x14 (ix2 k l) = x14 (ix3 (0 : Fin 2) k l) := by
  rw [val_main_v121_apply, val_main_v120_apply]
  refine congrArg x14 (funext fun a => Fin.ext ?_)
  have hk := k.isLt; have hl := l.isLt
  match a with
  | ⟨0, _⟩ => rfl
  | ⟨1, _⟩ => show (k.val * 96 + l.val) / 96 % 96 = k.val; omega
  | ⟨2, _⟩ => show (k.val * 96 + l.val) % 96 = l.val; omega

theorem ref1_w2 (k l : Fin 96) : val_main_v130 (F := Ideal) x16 (ix2 k l) = x16 (ix3 (0 : Fin 2) k l) := by
  rw [val_main_v130_apply, val_main_v129_apply]
  refine congrArg x16 (funext fun a => Fin.ext ?_)
  have hk := k.isLt; have hl := l.isLt
  match a with
  | ⟨0, _⟩ => rfl
  | ⟨1, _⟩ => show (k.val * 96 + l.val) / 96 % 96 = k.val; omega
  | ⟨2, _⟩ => show (k.val * 96 + l.val) % 96 = l.val; omega

theorem ref1_b1 (P : Fin 50000) (l : Fin 96) :
    val_main_v126 (F := Ideal) x15 (ix2 P l) = x15 (ix2 (0 : Fin 2) l) := by
  rw [val_main_v126_apply, val_main_v125_apply, val_main_v124_apply, val_main_v123_apply]
  refine congrArg x15 (funext fun a => Fin.ext ?_)
  have hl := l.isLt
  match a with
  | ⟨0, _⟩ => rfl
  | ⟨1, _⟩ => show l.val % 96 = l.val; omega

theorem ref1_b2 (P : Fin 50000) (l : Fin 96) :
    val_main_v135 (F := Ideal) x17 (ix2 P l) = x17 (ix2 (0 : Fin 2) l) := by
  rw [val_main_v135_apply, val_main_v134_apply, val_main_v133_apply, val_main_v132_apply]
  refine congrArg x17 (funext fun a => Fin.ext ?_)
  have hl := l.isLt
  match a with
  | ⟨0, _⟩ => rfl
  | ⟨1, _⟩ => show l.val % 96 = l.val; omega

theorem ref1_gamma (P : Fin 50000) (l : Fin 96) :
    val_main_v156 (F := Ideal) x19 (ix2 P l) = x19 (ix2 (1 : Fin 3) l) := by
  rw [val_main_v156_apply, val_main_v155_apply, val_main_v139_apply, val_main_v138_apply]
  refine congrArg x19 (funext fun a => Fin.ext ?_)
  have hl := l.isLt
  match a with
  | ⟨0, _⟩ => rfl
  | ⟨1, _⟩ => show l.val % 96 = l.val; omega

theorem ref1_beta (P : Fin 50000) (l : Fin 96) :
    val_main_v159 (F := Ideal) x20 (ix2 P l) = x20 (ix2 (1 : Fin 3) l) := by
  rw [val_main_v159_apply, val_main_v158_apply, val_main_v141_apply, val_main_v140_apply]
  refine congrArg x20 (funext fun a => Fin.ext ?_)
  have hl := l.isLt
  match a with
  | ⟨0, _⟩ => rfl
  | ⟨1, _⟩ => show l.val % 96 = l.val; omega

theorem ref1_mean (P : Fin 50000) (l : Fin 96) :
    val_main_v147 (F := Ideal) x21 (ix2 P l) = x21 (ix2 (1 : Fin 3) l) := by
  rw [val_main_v147_apply, val_main_v146_apply, val_main_v143_apply, val_main_v142_apply]
  refine congrArg x21 (funext fun a => Fin.ext ?_)
  have hl := l.isLt
  match a with
  | ⟨0, _⟩ => rfl
  | ⟨1, _⟩ => show l.val % 96 = l.val; omega

theorem ref1_rstd (P : Fin 50000) (l : Fin 96) :
    val_main_v153 (F := Ideal) x22 (ix2 P l)
      = Ideal.rsqrt (x22 (ix2 (1 : Fin 3) l) + Ideal.ofBits .f32 0x3727C5AC#32) := by
  rw [val_main_v153_apply, val_main_v152_apply, val_main_v151_apply, val_main_v150_apply, val_main_v149_apply,
    val_main_cst_13_apply, val_main_v145_apply, val_main_v144_apply]
  refine congrArg (fun z => Ideal.rsqrt (x22 z + Ideal.ofBits .f32 0x3727C5AC#32)) (funext fun a => Fin.ext ?_)
  have hl := l.isLt
  match a with
  | ⟨0, _⟩ => rfl
  | ⟨1, _⟩ => show l.val % 96 = l.val; omega

theorem ref1_z (P : Fin 50000) (k : Fin 96) :
    val_main_v119 (F := Ideal) x0 x1 x2 x3 x4 x5 x6 x7 x8 x9 x10 x11 x12 x13 x18 x19 x20 x21 x22 (ix2 P k)
      = ginZ (x18 (ix1 (0 : Fin 2))) (fun k => val_main_v84 (F := Ideal) x0 x1 x2 x3 x4 x5 x6 x7 x8 x9 x19 x20 x21 x22 (ix2 P k)) (fun k => val_main_v113 (F := Ideal) x0 x1 x2 x3 x4 x5 x6 x7 x8 x9 x10 x11 x12 x13 x19 x20 x21 x22 (ix2 P k)) k := by
  rw [val_main_v119_apply, val_main_v118_apply, ref1_eps]
  rfl

theorem ref1_y1 (P : Fin 50000) (l : Fin 96) :
    val_main_v128 (F := Ideal) x0 x1 x2 x3 x4 x5 x6 x7 x8 x9 x10 x11 x12 x13 x14 x15 x18 x19 x20 x21 x22 (ix2 P l)
      = ginLayer (ginZ (x18 (ix1 (0 : Fin 2))) (fun k => val_main_v84 (F := Ideal) x0 x1 x2 x3 x4 x5 x6 x7 x8 x9 x19 x20 x21 x22 (ix2 P k)) (fun k => val_main_v113 (F := Ideal) x0 x1 x2 x3 x4 x5 x6 x7 x8 x9 x10 x11 x12 x13 x19 x20 x21 x22 (ix2 P k))) (fun k l => x14 (ix3 (0 : Fin 2) k l)) (fun l => x15 (ix2 (0 : Fin 2) l)) l := by
  rw [val_main_v128_apply, val_main_v127_apply, val_main_v122_apply, ref1_b1, val_main_call6_v0_apply, val_main_call6_cst_apply]
  unfold ginLayer
  refine congrArg (fun s => max (s + x15 (ix2 (0 : Fin 2) l)) (Ideal.ofBits .f32 0x00000000#32)) (Finset.sum_congr rfl fun k _ => ?_)
  have el : lidx_main_v122 (ix2 P l) k = ix2 P k := funext fun a => by match a with | ⟨0, _⟩ => rfl | ⟨1, _⟩ => rfl
  have er : ridx_main_v122 (ix2 P l) k = ix2 k l := funext fun a => by match a with | ⟨0, _⟩ => rfl | ⟨1, _⟩ => rfl
  rw [el, er, ref1_z, ref1_w1]

theorem ref1_y2 (P : Fin 50000) (q : Fin 96) :
    val_main_v137 (F := Ideal) x0 x1 x2 x3 x4 x5 x6 x7 x8 x9 x10 x11 x12 x13 x14 x15 x16 x17 x18 x19 x20 x21 x22 (ix2 P q)
      = ginLayer (ginLayer (ginZ (x18 (ix1 (0 : Fin 2))) (fun k => val_main_v84 (F := Ideal) x0 x1 x2 x3 x4 x5 x6 x7 x8 x9 x19 x20 x21 x22 (ix2 P k)) (fun k => val_main_v113 (F := Ideal) x0 x1 x2 x3 x4 x5 x6 x7 x8 x9 x10 x11 x12 x13 x19 x20 x21 x22 (ix2 P k))) (fun k l => x14 (ix3 (0 : Fin 2) k l)) (fun l => x15 (ix2 (0 : Fin 2) l))) (fun k l => x16 (ix3 (0 : Fin 2) k l)) (fun l => x17 (ix2 (0 : Fin 2) l)) q := by
  rw [val_main_v137_apply, val_main_v136_apply, val_main_v131_apply, ref1_b2, val_main_call7_v0_apply, val_main_call7_cst_apply]
  unfold ginLayer
  refine congrArg (fun s => max (s + x17 (ix2 (0 : Fin 2) q)) (Ideal.ofBits .f32 0x00000000#32)) (Finset.sum_congr rfl fun k _ => ?_)
  have el : lidx_main_v131 (ix2 P q) k = ix2 P k := funext fun a => by match a with | ⟨0, _⟩ => rfl | ⟨1, _⟩ => rfl
  have er : ridx_main_v131 (ix2 P q) k = ix2 k q := funext fun a => by match a with | ⟨0, _⟩ => rfl | ⟨1, _⟩ => rfl
  rw [el, er, ref1_y1, ref1_w2]
  rfl

theorem ref1_row (P : Fin 50000) (q : Fin 96) :
    val_main_v160 (F := Ideal) x0 x1 x2 x3 x4 x5 x6 x7 x8 x9 x10 x11 x12 x13 x14 x15 x16 x17 x18 x19 x20 x21 x22 (ix2 P q)
      = ginRow (x18 (ix1 (0 : Fin 2))) (fun k => val_main_v84 (F := Ideal) x0 x1 x2 x3 x4 x5 x6 x7 x8 x9 x19 x20 x21 x22 (ix2 P k)) (fun k => val_main_v113 (F := Ideal) x0 x1 x2 x3 x4 x5 x6 x7 x8 x9 x10 x11 x12 x13 x19 x20 x21 x22 (ix2 P k))
          (fun k l => x14 (ix3 (0 : Fin 2) k l)) (fun l => x15 (ix2 (0 : Fin 2) l)) (fun k l => x16 (ix3 (0 : Fin 2) k l)) (fun l => x17 (ix2 (0 : Fin 2) l))
          (fun l => x19 (ix2 (1 : Fin 3) l)) (fun l => x20 (ix2 (1 : Fin 3) l)) (fun l => x21 (ix2 (1 : Fin 3) l)) (fun l => x22 (ix2 (1 : Fin 3) l)) q := by
  rw [val_main_v160_apply, val_main_v157_apply, val_main_v154_apply, val_main_v148_apply, ref1_y2, ref1_mean, ref1_rstd, ref1_gamma, ref1_beta]
  rfl

end

end Cert.Bridge

end
-- ==== Proof.StepGin1.lean ====
/- Layer 1's node update agrees: (1 + eps)·h plus the summed messages through two dense layers, the clamp and the normalisation. -/
import proofs.«400244_j19808389169615_3_alg».proof.Proof.Stages
import proofs.«400244_j19808389169615_3_alg».proof.Proof.StepGinArr4
import proofs.«400244_j19808389169615_3_alg».proof.Proof.StepGinEntry4
import proofs.«400244_j19808389169615_3_alg».proof.Proof.StepGinRef1

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

theorem h2_eq (hh : kH1 m ρ c = rH1 m c) (ha : kAgg1 m ρ c = rAgg1 m c) : kH2 m ρ c = rH2 m c := by
  have harr : kH2 m ρ c = ginG (V14 m ρ c main_v39) (V14 m ρ c main_v54) (V14 m ρ c main_v73) (V14 m ρ c main_v58)
      (V14 m ρ c main_v74) (V14 m ρ c main_v62) (V14 m ρ c main_v75) (V14 m ρ c main_v76) (V14 m ρ c main_v77)
      (V14 m ρ c main_v78) (V14 m ρ c main_v79) :=
    (W15_arr m ρ c 11).trans (gin4_arr (V14 m ρ) c)
  rw [harr]
  funext i
  obtain ⟨P, q, rfl⟩ : ∃ (P : Fin 50000) (q : Fin 96), i = ix2 P q := ⟨i 0, i 1, eq_ix2 i⟩
  unfold rH2
  rw [ref1_row]

  have eh : ∀ k : Fin 96, V14 m ρ c main_v39 (ix2 P k)
      = Cert.ReferenceIdeal.Read.val_main_v84 (F := Ideal) (a0 m c) (a1 m c) (a2 m c) (a3 m c) (a4 m c) (a5 m c) (a6 m c) (a7 m c) (a8 m c) (a9 m c) (a19 m c) (a20 m c) (a21 m c) (a22 m c) (ix2 P k) := fun k => by
    rw [gin4_entry_h]
    exact congrFun hh (ix2 P k)
  have eagg : ∀ k : Fin 96, V14 m ρ c main_v54 (ix2 P k)
      = Cert.ReferenceIdeal.Read.val_main_v113 (F := Ideal) (a0 m c) (a1 m c) (a2 m c) (a3 m c) (a4 m c) (a5 m c) (a6 m c) (a7 m c) (a8 m c) (a9 m c) (a10 m c) (a11 m c) (a12 m c) (a13 m c) (a19 m c) (a20 m c) (a21 m c) (a22 m c) (ix2 P k) := fun k =>
    congrFun ha (ix2 P k)
  show ginRow (V14 m ρ c main_v73 (ix2 (0 : Fin 1) (0 : Fin 1))) (fun k => V14 m ρ c main_v39 (ix2 P k)) (fun k => V14 m ρ c main_v54 (ix2 P k))
      (fun k l => V14 m ρ c main_v58 (ix2 k l)) (fun l => V14 m ρ c main_v74 (ix2 (0 : Fin 1) l))
      (fun k l => V14 m ρ c main_v62 (ix2 k l)) (fun l => V14 m ρ c main_v75 (ix2 (0 : Fin 1) l))
      (fun l => V14 m ρ c main_v76 (ix2 (0 : Fin 1) l)) (fun l => V14 m ρ c main_v77 (ix2 (0 : Fin 1) l))
      (fun l => V14 m ρ c main_v78 (ix2 (0 : Fin 1) l)) (fun l => V14 m ρ c main_v79 (ix2 (0 : Fin 1) l)) q = _
  rw [gin4_entry_eps, funext eh, funext eagg,
    (funext fun k => funext fun l => gin4_entry_w1 m ρ c k l : (fun k l => V14 m ρ c main_v58 (ix2 k l)) = _),
    funext (gin4_entry_b1 m ρ c),
    (funext fun k => funext fun l => gin4_entry_w2 m ρ c k l : (fun k l => V14 m ρ c main_v62 (ix2 k l)) = _),
    funext (gin4_entry_b2 m ρ c), funext (gin4_entry_gamma m ρ c), funext (gin4_entry_beta m ρ c),
    funext (gin4_entry_mean m ρ c), funext (gin4_entry_var m ρ c)]

end Cert.Bridge

end
-- ==== Proof.StepGinArr6.lean ====
/-
  Layer 2's node update on the kernel side: the array the region leaves, as the node-update function of the eleven
  arrays it finds (h, the summed messages, eps, two weight matrices, two biases, four normalisation rows).
-/
import proofs.«400244_j19808389169615_3_alg».proof.Proof.Gen.KernelIdeal.Frame
import proofs.«400244_j19808389169615_3_alg».proof.Proof.StepGinPay
import Idealize.ShloMosaic.Lib.ValueIdx
import Idealize.ShloMosaic.Lib.Pipeline.Value

noncomputable section

open scoped BigOperators

namespace Cert.Bridge

open Idealize.ShloMosaic Idealize.ShloMosaic.TcCoe Idealize.SL.Sem Idealize.ShloMosaic.ValueIdx
open Cert.KernelIdeal Cert.KernelIdeal.Gen

/-! ## From blocks to the array: ten blocks of 5000 rows tile the 50000 nodes -/

theorem gin6_hz : (![0, 0] : Fin 2 → Nat) = fun _ => 0 := funext fun a => by fin_cases a <;> rfl

/-- The row blocks (h, the summed messages, the result) move with the grid point along the rows. -/
theorem gin6_idx_rows : ∀ t : Fin cfg6.N,
    win6_0.index t (0 : Fin 2) = t.val ∧ win6_0.index t (1 : Fin 2) = 0
    ∧ win6_1.index t (0 : Fin 2) = t.val ∧ win6_1.index t (1 : Fin 2) = 0
    ∧ win6_11.index t (0 : Fin 2) = t.val ∧ win6_11.index t (1 : Fin 2) = 0 :=
  (by decide +kernel : ∀ t : Fin grid6.N, _)

/-- Eps, the two weight matrices and the two biases stay put. -/
theorem gin6_idx_mlp : ∀ t : Fin cfg6.N,
    win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

/-- The four normalisation rows stay put. -/
theorem gin6_idx_norm : ∀ t : Fin cfg6.N,
    win6_7.index t (0 : Fin 2) = 0 ∧ win6_7.index t (1 : Fin 2) = 0
    ∧ win6_8.index t (0 : Fin 2) = 0 ∧ win6_8.index t (1 : Fin 2) = 0
    ∧ win6_9.index t (0 : Fin 2) = 0 ∧ win6_9.index t (1 : Fin 2) = 0
    ∧ win6_10.index t (0 : Fin 2) = 0 ∧ win6_10.index t (1 : Fin 2) = 0 :=
  (by decide +kernel : ∀ t : Fin grid6.N, _)

section
variable (V : (c : Dev nD) → (b : Ref sig .tc) → Buf (Elt Ideal) ((c : Thread nD τ).loc b))

/-! ### Each window's block at grid point t, read where the result's block (p, q) sits in the array -/

/-- Column q of the result's block is column q of the array. -/
theorem gin6_col (t : Fin cfg6.N) (p : Fin 5000) (q : Fin 96) :
    q = (⟨((((cfg6.win 11).blk t).view.emb (ix2 p q)) 1).val, idx2_lt1 _⟩ : Fin 96) := by
  obtain ⟨_, _, _, _, _, e1⟩ := gin6_idx_rows t
  refine Fin.ext ?_
  show q.val = win6_11.index t (1 : Fin 2) * 96 + 1 * q.val; omega

/-- Row p of the block of h is the array's row where the result's row p sits. -/
theorem gin6_blk_h (c : Dev nD) (t : Fin cfg6.N) (p : Fin 5000) (q k : Fin 96) :
    iblk6 V c 0 t (ix2 p k)
      = V c main_v80 (ix2 (⟨((((cfg6.win 11).blk t).view.emb (ix2 p q)) 0).val, idx2_lt0 _⟩ : Fin 50000) k) := by
  obtain ⟨a0, a1, _, _, r0, _⟩ := gin6_idx_rows t
  show V c main_v80 (((cfg6.win 0).blk t).view.emb (ix2 p k)) = V c main_v80 _
  refine congrArg (V c main_v80) (funext fun a => Fin.ext ?_)
  match a with
  | ⟨0, _⟩ => show win6_0.index t (0 : Fin 2) * 5000 + 1 * p.val = win6_11.index t (0 : Fin 2) * 5000 + 1 * p.val; omega
  | ⟨1, _⟩ => show win6_0.index t (1 : Fin 2) * 96 + 1 * k.val = k.val; omega

/-- Row p of the block of summed messages is the array's row where the result's row p sits. -/
theorem gin6_blk_agg (c : Dev nD) (t : Fin cfg6.N) (p : Fin 5000) (q k : Fin 96) :
    iblk6 V c 1 t (ix2 p k)
      = V c main_v95 (ix2 (⟨((((cfg6.win 11).blk t).view.emb (ix2 p q)) 0).val, idx2_lt0 _⟩ : Fin 50000) k) := by
  obtain ⟨_, _, a0, a1, r0, _⟩ := gin6_idx_rows t
  show V c main_v95 (((cfg6.win 1).blk t).view.emb (ix2 p k)) = V c main_v95 _
  refine congrArg (V c main_v95) (funext fun a => Fin.ext ?_)
  match a with
  | ⟨0, _⟩ => show win6_1.index t (0 : Fin 2) * 5000 + 1 * p.val = win6_11.index t (0 : Fin 2) * 5000 + 1 * p.val; omega
  | ⟨1, _⟩ => show win6_1.index t (1 : Fin 2) * 96 + 1 * k.val = k.val; omega

/-- The block of eps is the one-entry array. -/
theorem gin6_blk_eps (c : Dev nD) (t : Fin cfg6.N) :
    iblk6 V c 2 t (ix2 (0 : Fin 1) (0 : Fin 1)) = V c main_v114 (ix2 (0 : Fin 1) (0 : Fin 1)) := by
  obtain ⟨a0, a1, _⟩ := gin6_idx_mlp t
  show V c main_v114 (((cfg6.win 2).blk t).view.emb (ix2 (0 : Fin 1) (0 : Fin 1))) = V c main_v114 _
  refine congrArg (V c main_v114) (funext fun a => Fin.ext ?_)
  match a with
  | ⟨0, _⟩ => show win6_2.index t (0 : Fin 2) * 1 + 1 * 0 = 0; omega
  | ⟨1, _⟩ => show win6_2.index t (1 : Fin 2) * 1 + 1 * 0 = 0; omega

/-- The block of the first weight matrix is the matrix. -/
theorem gin6_blk_w1 (c : Dev nD) (t : Fin cfg6.N) (k l : Fin 96) :
    iblk6 V c 3 t (ix2 k l) = V c main_v99 (ix2 k l) := by
  obtain ⟨_, _, a0, a1, _⟩ := gin6_idx_mlp t
  show V c main_v99 (((cfg6.win 3).blk t).view.emb (ix2 k l)) = V c main_v99 _
  refine congrArg (V c main_v99) (funext fun a => Fin.ext ?_)
  match a with
  | ⟨0, _⟩ => show win6_3.index t (0 : Fin 2) * 96 + 1 * k.val = k.val; omega
  | ⟨1, _⟩ => show win6_3.index t (1 : Fin 2) * 96 + 1 * l.val = l.val; omega

/-- The block of the first bias is the bias row. -/
theorem gin6_blk_b1 (c : Dev nD) (t : Fin cfg6.N) (l : Fin 96) :
    iblk6 V c 4 t (ix2 (0 : Fin 1) l) = V c main_v115 (ix2 (0 : Fin 1) l) := by
  obtain ⟨_, _, _, _, a0, a1, _⟩ := gin6_idx_mlp t
  show V c main_v115 (((cfg6.win 4).blk t).view.emb (ix2 (0 : Fin 1) l)) = V c main_v115 _
  refine congrArg (V c main_v115) (funext fun a => Fin.ext ?_)
  match a with
  | ⟨0, _⟩ => show win6_4.index t (0 : Fin 2) * 1 + 1 * 0 = 0; omega
  | ⟨1, _⟩ => show win6_4.index t (1 : Fin 2) * 96 + 1 * l.val = l.val; omega

/-- The block of the second weight matrix is the matrix. -/
theorem gin6_blk_w2 (c : Dev nD) (t : Fin cfg6.N) (k l : Fin 96) :
    iblk6 V c 5 t (ix2 k l) = V c main_v103 (ix2 k l) := by
  obtain ⟨_, _, _, _, _, _, a0, a1, _⟩ := gin6_idx_mlp t
  show V c main_v103 (((cfg6.win 5).blk t).view.emb (ix2 k l)) = V c main_v103 _
  refine congrArg (V c main_v103) (funext fun a => Fin.ext ?_)
  match a with
  | ⟨0, _⟩ => show win6_5.index t (0 : Fin 2) * 96 + 1 * k.val = k.val; omega
  | ⟨1, _⟩ => show win6_5.index t (1 : Fin 2) * 96 + 1 * l.val = l.val; omega

/-- The block of the second bias is the bias row. -/
theorem gin6_blk_b2 (c : Dev nD) (t : Fin cfg6.N) (l : Fin 96) :
    iblk6 V c 6 t (ix2 (0 : Fin 1) l) = V c main_v116 (ix2 (0 : Fin 1) l) := by
  obtain ⟨_, _, _, _, _, _, _, _, a0, a1⟩ := gin6_idx_mlp t
  show V c main_v116 (((cfg6.win 6).blk t).view.emb (ix2 (0 : Fin 1) l)) = V c main_v116 _
  refine congrArg (V c main_v116) (funext fun a => Fin.ext ?_)
  match a with
  | ⟨0, _⟩ => show win6_6.index t (0 : Fin 2) * 1 + 1 * 0 = 0; omega
  | ⟨1, _⟩ => show win6_6.index t (1 : Fin 2) * 96 + 1 * l.val = l.val; omega

/-- The block of the scale row is the row. -/
theorem gin6_blk_gamma (c : Dev nD) (t : Fin cfg6.N) (l : Fin 96) :
    iblk6 V c 7 t (ix2 (0 : Fin 1) l) = V c main_v117 (ix2 (0 : Fin 1) l) := by
  obtain ⟨a0, a1, _⟩ := gin6_idx_norm t
  show V c main_v117 (((cfg6.win 7).blk t).view.emb (ix2 (0 : Fin 1) l)) = V c main_v117 _
  refine congrArg (V c main_v117) (funext fun a => Fin.ext ?_)
  match a with
  | ⟨0, _⟩ => show win6_7.index t (0 : Fin 2) * 1 + 1 * 0 = 0; omega
  | ⟨1, _⟩ => show win6_7.index t (1 : Fin 2) * 96 + 1 * l.val = l.val; omega

/-- The block of the shift row is the row. -/
theorem gin6_blk_beta (c : Dev nD) (t : Fin cfg6.N) (l : Fin 96) :
    iblk6 V c 8 t (ix2 (0 : Fin 1) l) = V c main_v118 (ix2 (0 : Fin 1) l) := by
  obtain ⟨_, _, a0, a1, _⟩ := gin6_idx_norm t
  show V c main_v118 (((cfg6.win 8).blk t).view.emb (ix2 (0 : Fin 1) l)) = V c main_v118 _
  refine congrArg (V c main_v118) (funext fun a => Fin.ext ?_)
  match a with
  | ⟨0, _⟩ => show win6_8.index t (0 : Fin 2) * 1 + 1 * 0 = 0; omega
  | ⟨1, _⟩ => show win6_8.index t (1 : Fin 2) * 96 + 1 * l.val = l.val; omega

/-- The block of the mean row is the row. -/
theorem gin6_blk_mean (c : Dev nD) (t : Fin cfg6.N) (l : Fin 96) :
    iblk6 V c 9 t (ix2 (0 : Fin 1) l) = V c main_v119 (ix2 (0 : Fin 1) l) := by
  obtain ⟨_, _, _, _, a0, a1, _⟩ := gin6_idx_norm t
  show V c main_v119 (((cfg6.win 9).blk t).view.emb (ix2 (0 : Fin 1) l)) = V c main_v119 _
  refine congrArg (V c main_v119) (funext fun a => Fin.ext ?_)
  match a with
  | ⟨0, _⟩ => show win6_9.index t (0 : Fin 2) * 1 + 1 * 0 = 0; omega
  | ⟨1, _⟩ => show win6_9.index t (1 : Fin 2) * 96 + 1 * l.val = l.val; omega

/-- The block of the variance row is the row. -/
theorem gin6_blk_var (c : Dev nD) (t : Fin cfg6.N) (l : Fin 96) :
    iblk6 V c 10 t (ix2 (0 : Fin 1) l) = V c main_v120 (ix2 (0 : Fin 1) l) := by
  obtain ⟨_, _, _, _, _, _, a0, a1⟩ := gin6_idx_norm t
  show V c main_v120 (((cfg6.win 10).blk t).view.emb (ix2 (0 : Fin 1) l)) = V c main_v120 _
  refine congrArg (V c main_v120) (funext fun a => Fin.ext ?_)
  match a with
  | ⟨0, _⟩ => show win6_10.index t (0 : Fin 2) * 1 + 1 * 0 = 0; omega
  | ⟨1, _⟩ => show win6_10.index t (1 : Fin 2) * 96 + 1 * l.val = l.val; omega

/-! ### What a grid point writes back, the cover, the array -/

/-- What grid point t writes back is block t of the node update of the arrays as the region finds them. -/
theorem gin6_flushed_eq (c : Dev nD) (t : Fin cfg6.N) :
    (dat6 (F := Ideal) V c).flushed 11 t
      = ((cfg6.win 11).blk t).view.read (Elt Ideal) (ginG (V c main_v80) (V c main_v95) (V c main_v114) (V c main_v99) (V c main_v115)
          (V c main_v103) (V c main_v116) (V c main_v117) (V c main_v118) (V c main_v119) (V c main_v120)) := by
  show (cfg6.win 11).cut (grid6.coords t) ((dat6 V c).after 11 t) = _
  rw [after6_11]
  unfold out6_11
  rw [View.canon_unit_zero gin6_hz]
  simp only [View.ld_unit_zero (S := S5000x96) gin6_hz, View.ld_unit_zero (S := S1x1) gin6_hz, View.ld_unit_zero (S := S96x96) gin6_hz, View.ld_unit_zero (S := S1x96) gin6_hz]
  funext j
  obtain ⟨p, q, rfl⟩ : ∃ (p : Fin 5000) (q : Fin 96), j = ix2 p q := ⟨j 0, j 1, eq_ix2 j⟩
  refine (gin_pay6_apply (iblk6 V c 0 t) (iblk6 V c 1 t) (iblk6 V c 2 t) (iblk6 V c 3 t) (iblk6 V c 4 t) (iblk6 V c 5 t)
    (iblk6 V c 6 t) (iblk6 V c 7 t) (iblk6 V c 8 t) (iblk6 V c 9 t) (iblk6 V c 10 t) p q).trans ?_
  exact gin_point (V c main_v80) (V c main_v95) (V c main_v114) (V c main_v99) (V c main_v115) (V c main_v103) (V c main_v116)
    (V c main_v117) (V c main_v118) (V c main_v119) (V c main_v120)
    (iblk6 V c 0 t) (iblk6 V c 1 t) (iblk6 V c 2 t) (iblk6 V c 3 t) (iblk6 V c 4 t) (iblk6 V c 5 t)
    (iblk6 V c 6 t) (iblk6 V c 7 t) (iblk6 V c 8 t) (iblk6 V c 9 t) (iblk6 V c 10 t) p q
    (((cfg6.win 11).blk t).view.emb (ix2 p q)) (gin6_col t p q)
    (fun k => gin6_blk_h V c t p q k) (fun k => gin6_blk_agg V c t p q k) (gin6_blk_eps V c t)
    (fun k l => gin6_blk_w1 V c t k l) (fun l => gin6_blk_b1 V c t l) (fun k l => gin6_blk_w2 V c t k l) (fun l => gin6_blk_b2 V c t l)
    (fun l => gin6_blk_gamma V c t l) (fun l => gin6_blk_beta V c t l) (fun l => gin6_blk_mean V c t l) (fun l => gin6_blk_var V c t l)

/-- An index of the result array is in grid point t's block iff each coordinate is in the block's range on its axis. -/
theorem gin6_mem_blk (t : Fin cfg6.N) (i : S50000x96.Idx) :
    i ∈ ((cfg6.win 11).blk t).view.set ↔ ∀ a : Fin 2, win6_11.index t a * S5000x96.size a ≤ (i a).val ∧ (i a).val < win6_11.index t a * S5000x96.size a + S5000x96.size a := by
  show i ∈ ((View.whole main_v121).slice (win6_11.rect t)).set ↔ _
  rw [View.set_slice_whole, Rect.mem_set_unit]
  exact Iff.rfl

/-- Node r's row lies in the block of grid point r / 5000. -/
theorem gin6_cover (i : S50000x96.Idx) : ∃ t : Fin cfg6.N, (cfg6.win 11).flush t = true ∧ i ∈ ((cfg6.win 11).blk t).view.set := by
  have hi0 : (i 0).val < 50000 := idx2_lt0 i
  have hi1 : (i 1).val < 96 := idx2_lt1 i
  have hN : grid6.N = 10 := N_6
  have ht : (i 0).val / 5000 < grid6.N := by omega
  obtain ⟨_, _, _, _, e0, e1⟩ := gin6_idx_rows ⟨(i 0).val / 5000, ht⟩
  refine ⟨⟨(i 0).val / 5000, ht⟩, flush6_11 _, ?_⟩
  rw [gin6_mem_blk]
  intro a
  match a with
  | ⟨0, _⟩ =>
    show win6_11.index ⟨(i 0).val / 5000, ht⟩ (0 : Fin 2) * 5000 ≤ (i 0).val ∧ (i 0).val < win6_11.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win6_11.index ⟨(i 0).val / 5000, ht⟩ (1 : Fin 2) * 96 ≤ (i 1).val ∧ (i 1).val < win6_11.index ⟨(i 0).val / 5000, ht⟩ (1 : Fin 2) * 96 + 96
    rw [e1]; omega

/-- The result array after the region: the node update of the eleven arrays as the region finds them. -/
theorem gin6_arr (c : Dev nD) :
    (dat6 (F := Ideal) V c).arrAt 11 cfg6.N
      = ginG (V c main_v80) (V c main_v95) (V c main_v114) (V c main_v99) (V c main_v115) (V c main_v103) (V c main_v116)
          (V c main_v117) (V c main_v118) (V c main_v119) (V c main_v120) :=
  (dat6 V c).arrAt_eq_of_cover 11 _ (fun t _ => gin6_flushed_eq V c t) gin6_cover

end

end Cert.Bridge

end
-- ==== Proof.StepGinEntry6.lean ====
/-
  Layer 2's node update on the kernel side: what the region finds on entry. The previous layer's output and the summed
  messages are as the earlier segments left them; the nine parameter arrays are the layer's slice of the stacked
  launch arrays (slice 1 of the weights, biases and eps; row 2 of the four normalisation tables), each laid out as the
  kernel wants it.
-/
import proofs.«400244_j19808389169615_3_alg».proof.Proof.Gen.KernelIdeal.Frame
import proofs.«400244_j19808389169615_3_alg».proof.Proof.Walk
import proofs.«400244_j19808389169615_3_alg».proof.Proof.StepGinWalk
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal

noncomputable section

namespace Cert.Bridge

open Idealize.ShloMosaic Idealize.ShloMosaic.TcCoe Idealize.SL.Sem Idealize.ShloMosaic.ValueIdx
open Cert.KernelIdeal Cert.KernelIdeal.Gen

/-! ## The layouts, read at an index -/

/-- Entry 1 of a pair, taken as a one-entry vector, then as a scalar, then as a 1 × 1 array: at (0, 0), entry 1. -/
theorem gin6_lay_eps (x : FVec Ideal S2 .f32) :
    shapeCast S1x1 (shapeCast S_ (extractStridedSlice S1 ![1] x slices_S2_S1_1) shapeCasts_S1_S_) shapeCasts_S_S1x1
        (ix2 (0 : Fin 1) (0 : Fin 1)) = x (ix1 (1 : Fin 2)) := by
  rw [shapeCast_apply _ shapeCasts_S_S1x1 (ix2 (0 : Fin 1) (0 : Fin 1)) ix0
      ((Shape.rowMajorPi_zero _ _).trans (by rw [Shape.rowMajor_val_two]; rfl)),
    shapeCast_apply _ shapeCasts_S1_S_ ix0 (ix1 (0 : Fin 1))
      ((Shape.rowMajor_val_one _).trans (Shape.rowMajorPi_zero _ _).symm),
    extractStridedSlice_apply ![1] x slices_S2_S1_1 (ix1 (0 : Fin 1)) (ix1 (1 : Fin 2)) (fun a => match a with
      | ⟨0, _⟩ => rfl)]

/-- Slice 1 of a stack of two 96 × 96 matrices, as a matrix: at (k, l), the stack at (1, k, l). -/
theorem gin6_lay_mat (x : FVec Ideal S2x96x96 .f32) (k l : Fin 96) :
    shapeCast S96x96 (extractStridedSlice S1x96x96 ![1, 0, 0] x slices_S2x96x96_S1x96x96_1_0_0) shapeCasts_S1x96x96_S96x96 (ix2 k l)
      = x (ix3 (1 : Fin 2) k l) := by
  rw [shapeCast_1ab_ab_apply,
    extractStridedSlice_apply ![1, 0, 0] x slices_S2x96x96_S1x96x96_1_0_0 (ix3 (0 : Fin 1) k l) (ix3 (1 : Fin 2) k l) (fun a => match a with
      | ⟨0, _⟩ => rfl
      | ⟨1, _⟩ => by show k.val = 0 + k.val; omega
      | ⟨2, _⟩ => by show l.val = 0 + l.val; omega)]

/-- Row 1 of a stack of two rows of 96, as a vector and then as one row: at (0, l), the stack at (1, l). -/
theorem gin6_lay_bias (x : FVec Ideal S2x96 .f32) (l : Fin 96) :
    shapeCast S1x96 (shapeCast S96 (extractStridedSlice S1x96 ![1, 0] x slices_S2x96_S1x96_1_0) shapeCasts_S1x96_S96) shapeCasts_S96_S1x96
        (ix2 (0 : Fin 1) l) = x (ix2 (1 : Fin 2) l) := by
  rw [shapeCast_a_1a_apply, shapeCast_1a_a_apply,
    extractStridedSlice_apply ![1, 0] x slices_S2x96_S1x96_1_0 (ix2 (0 : Fin 1) l) (ix2 (1 : Fin 2) l) (fun a => match a with
      | ⟨0, _⟩ => rfl
      | ⟨1, _⟩ => by show l.val = 0 + l.val; omega)]

/-- Row 2 of a table of three rows of 96, as a vector and then as one row: at (0, l), the table at (2, l). -/
theorem gin6_lay_norm (x : FVec Ideal S3x96 .f32) (l : Fin 96) :
    shapeCast S1x96 (shapeCast S96 (extractStridedSlice S1x96 ![2, 0] x slices_S3x96_S1x96_2_0) shapeCasts_S1x96_S96) shapeCasts_S96_S1x96
        (ix2 (0 : Fin 1) l) = x (ix2 (2 : Fin 3) l) := by
  rw [shapeCast_a_1a_apply, shapeCast_1a_a_apply,
    extractStridedSlice_apply ![2, 0] x slices_S3x96_S1x96_2_0 (ix2 (0 : Fin 1) l) (ix2 (2 : Fin 3) l) (fun a => match a with
      | ⟨0, _⟩ => rfl
      | ⟨1, _⟩ => by show l.val = 0 + l.val; omega)]

/-! ## What the host stretch ahead of the region leaves, from any contents -/

section
variable (V18 : Valuation τ sig (Elt Ideal))

theorem gin6_host_eps : StableHlo.after hostOps6 V18 (Proc.devRef .tc main_v114)
    = shapeCast S1x1 (shapeCast S_ (extractStridedSlice S1 ![1] (V18 (Proc.devRef .tc main_arg18)) slices_S2_S1_1) shapeCasts_S1_S_) shapeCasts_S_S1x1 := by
  after_results
  rfl
theorem gin6_host_w1 : StableHlo.after hostOps6 V18 (Proc.devRef .tc main_v99)
    = shapeCast S96x96 (extractStridedSlice S1x96x96 ![1, 0, 0] (V18 (Proc.devRef .tc main_arg14)) slices_S2x96x96_S1x96x96_1_0_0) shapeCasts_S1x96x96_S96x96 := by
  after_results
  rfl
theorem gin6_host_b1 : StableHlo.after hostOps6 V18 (Proc.devRef .tc main_v115)
    = shapeCast S1x96 (shapeCast S96 (extractStridedSlice S1x96 ![1, 0] (V18 (Proc.devRef .tc main_arg15)) slices_S2x96_S1x96_1_0) shapeCasts_S1x96_S96) shapeCasts_S96_S1x96 := by
  after_results
  rfl
theorem gin6_host_w2 : StableHlo.after hostOps6 V18 (Proc.devRef .tc main_v103)
    = shapeCast S96x96 (extractStridedSlice S1x96x96 ![1, 0, 0] (V18 (Proc.devRef .tc main_arg16)) slices_S2x96x96_S1x96x96_1_0_0) shapeCasts_S1x96x96_S96x96 := by
  after_results
  rfl
theorem gin6_host_b2 : StableHlo.after hostOps6 V18 (Proc.devRef .tc main_v116)
    = shapeCast S1x96 (shapeCast S96 (extractStridedSlice S1x96 ![1, 0] (V18 (Proc.devRef .tc main_arg17)) slices_S2x96_S1x96_1_0) shapeCasts_S1x96_S96) shapeCasts_S96_S1x96 := by
  after_results
  rfl
theorem gin6_host_gamma : StableHlo.after hostOps6 V18 (Proc.devRef .tc main_v117)
    = shapeCast S1x96 (shapeCast S96 (extractStridedSlice S1x96 ![2, 0] (V18 (Proc.devRef .tc main_arg19)) slices_S3x96_S1x96_2_0) shapeCasts_S1x96_S96) shapeCasts_S96_S1x96 := by
  after_results
  rfl
theorem gin6_host_beta : StableHlo.after hostOps6 V18 (Proc.devRef .tc main_v118)
    = shapeCast S1x96 (shapeCast S96 (extractStridedSlice S1x96 ![2, 0] (V18 (Proc.devRef .tc main_arg20)) slices_S3x96_S1x96_2_0) shapeCasts_S1x96_S96) shapeCasts_S96_S1x96 := by
  after_results
  rfl
theorem gin6_host_mean : StableHlo.after hostOps6 V18 (Proc.devRef .tc main_v119)
    = shapeCast S1x96 (shapeCast S96 (extractStridedSlice S1x96 ![2, 0] (V18 (Proc.devRef .tc main_arg21)) slices_S3x96_S1x96_2_0) shapeCasts_S1x96_S96) shapeCasts_S96_S1x96 := by
  after_results
  rfl
theorem gin6_host_var : StableHlo.after hostOps6 V18 (Proc.devRef .tc main_v120)
    = shapeCast S1x96 (shapeCast S96 (extractStridedSlice S1x96 ![2, 0] (V18 (Proc.devRef .tc main_arg22)) slices_S3x96_S1x96_2_0) shapeCasts_S1x96_S96) shapeCasts_S96_S1x96 := by
  after_results
  rfl

end

/-! ## The region's entry arrays, at an index -/

variable (m : (ℓ : Loc nD τ sig) → Buf (Elt Ideal) ℓ) (ρ : Dev nD → PrngReg) (c : Dev nD)

/-- The previous layer's output on entry is as region 4 left it: nothing in between writes it. -/
theorem gin6_entry_h : V19 m ρ c main_v80 = W15 m ρ c (Proc.devRef .tc main_v80) :=
  calc W19 m ρ c (Proc.devRef .tc main_v80)
    _ = W18 m ρ c (Proc.devRef .tc main_v80) := by skip_host hostOps6
    _ = W17 m ρ c (Proc.devRef .tc main_v80) := W18_of_ne m ρ c main_v80 (by decide)
    _ = W16 m ρ c (Proc.devRef .tc main_v80) := by skip_host hostOps5_1
    _ = W15 m ρ c (Proc.devRef .tc main_v80) := by skip_host hostOps5

theorem gin6_entry_eps : V19 m ρ c main_v114 (ix2 (0 : Fin 1) (0 : Fin 1)) = m ((c : Thread nD τ).loc main_arg18) (ix1 (1 : Fin 2)) := by
  show StableHlo.after hostOps6 (W18 m ρ c) (Proc.devRef .tc main_v114) _ = _
  rw [gin6_host_eps, walk18_arg18]
  exact gin6_lay_eps _
theorem gin6_entry_w1 (k l : Fin 96) : V19 m ρ c main_v99 (ix2 k l) = m ((c : Thread nD τ).loc main_arg14) (ix3 (1 : Fin 2) k l) := by
  show StableHlo.after hostOps6 (W18 m ρ c) (Proc.devRef .tc main_v99) _ = _
  rw [gin6_host_w1, walk18_arg14]
  exact gin6_lay_mat _ k l
theorem gin6_entry_b1 (l : Fin 96) : V19 m ρ c main_v115 (ix2 (0 : Fin 1) l) = m ((c : Thread nD τ).loc main_arg15) (ix2 (1 : Fin 2) l) := by
  show StableHlo.after hostOps6 (W18 m ρ c) (Proc.devRef .tc main_v115) _ = _
  rw [gin6_host_b1, walk18_arg15]
  exact gin6_lay_bias _ l
theorem gin6_entry_w2 (k l : Fin 96) : V19 m ρ c main_v103 (ix2 k l) = m ((c : Thread nD τ).loc main_arg16) (ix3 (1 : Fin 2) k l) := by
  show StableHlo.after hostOps6 (W18 m ρ c) (Proc.devRef .tc main_v103) _ = _
  rw [gin6_host_w2, walk18_arg16]
  exact gin6_lay_mat _ k l
theorem gin6_entry_b2 (l : Fin 96) : V19 m ρ c main_v116 (ix2 (0 : Fin 1) l) = m ((c : Thread nD τ).loc main_arg17) (ix2 (1 : Fin 2) l) := by
  show StableHlo.after hostOps6 (W18 m ρ c) (Proc.devRef .tc main_v116) _ = _
  rw [gin6_host_b2, walk18_arg17]
  exact gin6_lay_bias _ l
theorem gin6_entry_gamma (l : Fin 96) : V19 m ρ c main_v117 (ix2 (0 : Fin 1) l) = m ((c : Thread nD τ).loc main_arg19) (ix2 (2 : Fin 3) l) := by
  show StableHlo.after hostOps6 (W18 m ρ c) (Proc.devRef .tc main_v117) _ = _
  rw [gin6_host_gamma, walk18_arg19]
  exact gin6_lay_norm _ l
theorem gin6_entry_beta (l : Fin 96) : V19 m ρ c main_v118 (ix2 (0 : Fin 1) l) = m ((c : Thread nD τ).loc main_arg20) (ix2 (2 : Fin 3) l) := by
  show StableHlo.after hostOps6 (W18 m ρ c) (Proc.devRef .tc main_v118) _ = _
  rw [gin6_host_beta, walk18_arg20]
  exact gin6_lay_norm _ l
theorem gin6_entry_mean (l : Fin 96) : V19 m ρ c main_v119 (ix2 (0 : Fin 1) l) = m ((c : Thread nD τ).loc main_arg21) (ix2 (2 : Fin 3) l) := by
  show StableHlo.after hostOps6 (W18 m ρ c) (Proc.devRef .tc main_v119) _ = _
  rw [gin6_host_mean, walk18_arg21]
  exact gin6_lay_norm _ l
theorem gin6_entry_var (l : Fin 96) : V19 m ρ c main_v120 (ix2 (0 : Fin 1) l) = m ((c : Thread nD τ).loc main_arg22) (ix2 (2 : Fin 3) l) := by
  show StableHlo.after hostOps6 (W18 m ρ c) (Proc.devRef .tc main_v120) _ = _
  rw [gin6_host_var, walk18_arg22]
  exact gin6_lay_norm _ l

end Cert.Bridge

end
-- ==== Proof.StepGinRef2.lean ====
/-
  Layer 2's node update on the reference side, read at an index: the reference's stages from the scaled sum of a node's
  own features and its summed messages through the two dense layers and the normalisation are the node-update row
  function of the previous layer's output row and the summed messages' row, with the layer's parameters read out of
  the stacked parameter arrays at the layer's slice.
-/
import proofs.«400244_j19808389169615_3_alg».proof.Proof.RefRead
import proofs.«400244_j19808389169615_3_alg».proof.Proof.StepGinSpec
import Idealize.ShloMosaic.Lib.ValueIdx

noncomputable section

open scoped BigOperators

namespace Cert.Bridge

open Idealize.ShloMosaic Idealize.ShloMosaic.ValueIdx
open Cert.ReferenceIdeal Cert.ReferenceIdeal.Gen Cert.ReferenceIdeal.Read

section
variable (x0 : (⟨S50000x128, .f32⟩ : BufTy).Contents (Elt Ideal))
  (x1 : (⟨S2x800000, .i32⟩ : BufTy).Contents (Elt Ideal))
  (x2 : (⟨S800000x16, .f32⟩ : BufTy).Contents (Elt Ideal))
  (x3 : (⟨S128x96, .f32⟩ : BufTy).Contents (Elt Ideal))
  (x4 : (⟨S96, .f32⟩ : BufTy).Contents (Elt Ideal))
  (x5 : (⟨S1x96, .f32⟩ : BufTy).Contents (Elt Ideal))
  (x6 : (⟨S16x96, .f32⟩ : BufTy).Contents (Elt Ideal))
  (x7 : (⟨S96, .f32⟩ : BufTy).Contents (Elt Ideal))
  (x8 : (⟨S96x96, .f32⟩ : BufTy).Contents (Elt Ideal))
  (x9 : (⟨S96, .f32⟩ : BufTy).Contents (Elt Ideal))
  (x10 : (⟨S2x16x96, .f32⟩ : BufTy).Contents (Elt Ideal))
  (x11 : (⟨S2x96, .f32⟩ : BufTy).Contents (Elt Ideal))
  (x12 : (⟨S2x96x96, .f32⟩ : BufTy).Contents (Elt Ideal))
  (x13 : (⟨S2x96, .f32⟩ : BufTy).Contents (Elt Ideal))
  (x14 : (⟨S2x96x96, .f32⟩ : BufTy).Contents (Elt Ideal))
  (x15 : (⟨S2x96, .f32⟩ : BufTy).Contents (Elt Ideal))
  (x16 : (⟨S2x96x96, .f32⟩ : BufTy).Contents (Elt Ideal))
  (x17 : (⟨S2x96, .f32⟩ : BufTy).Contents (Elt Ideal))
  (x18 : (⟨S2, .f32⟩ : BufTy).Contents (Elt Ideal))
  (x19 : (⟨S3x96, .f32⟩ : BufTy).Contents (Elt Ideal))
  (x20 : (⟨S3x96, .f32⟩ : BufTy).Contents (Elt Ideal))
  (x21 : (⟨S3x96, .f32⟩ : BufTy).Contents (Elt Ideal))
  (x22 : (⟨S3x96, .f32⟩ : BufTy).Contents (Elt Ideal))

/-! ## The layer's parameters, read out of the stacked arrays at slice 1 (row 2 of the normalisation tables) -/

/-- One plus eps, formed on a scalar and spread over the array: at every index, one plus entry 1 of the eps pair. -/
theorem ref2_eps (j : S50000x96.Idx) :
    val_main_v193 (F := Ideal) x18 j = Ideal.ofBits .f32 0x3F800000#32 + x18 (ix1 (1 : Fin 2)) := by
  rw [val_main_v193_apply, val_main_v192_apply, val_main_cst_17_apply]
  unfold val_main_v191
  rw [shapeCast_apply (val_main_v190 (F := Ideal) x18) shapeCasts_S1_S_ (idx_main_v193 j) (ix1 (0 : Fin 1))
    ((Shape.rowMajor_val_one _).trans (Shape.rowMajorPi_zero _ _).symm), val_main_v190_apply]
  exact congrArg (fun z => Ideal.ofBits .f32 0x3F800000#32 + x18 z) (funext fun a => Fin.ext (by match a with | ⟨0, _⟩ => rfl))

/-- The first weight matrix: slice 1 of the stacked matrices. -/
theorem ref2_w1 (k l : Fin 96) : val_main_v197 (F := Ideal) x14 (ix2 k l) = x14 (ix3 (1 : Fin 2) k l) := by
  rw [val_main_v197_apply, val_main_v196_apply]
  refine congrArg x14 (funext fun a => Fin.ext ?_)
  have hk := k.isLt; have hl := l.isLt
  match a with
  | ⟨0, _⟩ => rfl
  | ⟨1, _⟩ => show (k.val * 96 + l.val) / 96 % 96 = k.val; omega
  | ⟨2, _⟩ => show (k.val * 96 + l.val) % 96 = l.val; omega

/-- The second weight matrix: slice 1 of the stacked matrices. -/
theorem ref2_w2 (k l : Fin 96) : val_main_v206 (F := Ideal) x16 (ix2 k l) = x16 (ix3 (1 : Fin 2) k l) := by
  rw [val_main_v206_apply, val_main_v205_apply]
  refine congrArg x16 (funext fun a => Fin.ext ?_)
  have hk := k.isLt; have hl := l.isLt
  match a with
  | ⟨0, _⟩ => rfl
  | ⟨1, _⟩ => show (k.val * 96 + l.val) / 96 % 96 = k.val; omega
  | ⟨2, _⟩ => show (k.val * 96 + l.val) % 96 = l.val; omega

/-- The first bias spread over the rows: at (P, l), entry l of row 1 of the stacked biases. -/
theorem ref2_b1 (P : Fin 50000) (l : Fin 96) :
    val_main_v202 (F := Ideal) x15 (ix2 P l) = x15 (ix2 (1 : Fin 2) l) := by
  rw [val_main_v202_apply, val_main_v201_apply, val_main_v200_apply, val_main_v199_apply]
  refine congrArg x15 (funext fun a => Fin.ext ?_)
  have hl := l.isLt
  match a with
  | ⟨0, _⟩ => rfl
  | ⟨1, _⟩ => show l.val % 96 = l.val; omega

/-- The second bias spread over the rows: at (P, l), entry l of row 1 of the stacked biases. -/
theorem ref2_b2 (P : Fin 50000) (l : Fin 96) :
    val_main_v211 (F := Ideal) x17 (ix2 P l) = x17 (ix2 (1 : Fin 2) l) := by
  rw [val_main_v211_apply, val_main_v210_apply, val_main_v209_apply, val_main_v208_apply]
  refine congrArg x17 (funext fun a => Fin.ext ?_)
  have hl := l.isLt
  match a with
  | ⟨0, _⟩ => rfl
  | ⟨1, _⟩ => show l.val % 96 = l.val; omega

/-- The scale row spread over the rows: at (P, l), entry l of row 2 of the scale table. -/
theorem ref2_gamma (P : Fin 50000) (l : Fin 96) :
    val_main_v232 (F := Ideal) x19 (ix2 P l) = x19 (ix2 (2 : Fin 3) l) := by
  rw [val_main_v232_apply, val_main_v231_apply, val_main_v215_apply, val_main_v214_apply]
  refine congrArg x19 (funext fun a => Fin.ext ?_)
  have hl := l.isLt
  match a with
  | ⟨0, _⟩ => rfl
  | ⟨1, _⟩ => show l.val % 96 = l.val; omega

/-- The shift row spread over the rows: at (P, l), entry l of row 2 of the shift table. -/
theorem ref2_beta (P : Fin 50000) (l : Fin 96) :
    val_main_v235 (F := Ideal) x20 (ix2 P l) = x20 (ix2 (2 : Fin 3) l) := by
  rw [val_main_v235_apply, val_main_v234_apply, val_main_v217_apply, val_main_v216_apply]
  refine congrArg x20 (funext fun a => Fin.ext ?_)
  have hl := l.isLt
  match a with
  | ⟨0, _⟩ => rfl
  | ⟨1, _⟩ => show l.val % 96 = l.val; omega

/-- The mean row spread over the rows: at (P, l), entry l of row 2 of the mean table. -/
theorem ref2_mean (P : Fin 50000) (l : Fin 96) :
    val_main_v223 (F := Ideal) x21 (ix2 P l) = x21 (ix2 (2 : Fin 3) l) := by
  rw [val_main_v223_apply, val_main_v222_apply, val_main_v219_apply, val_main_v218_apply]
  refine congrArg x21 (funext fun a => Fin.ext ?_)
  have hl := l.isLt
  match a with
  | ⟨0, _⟩ => rfl
  | ⟨1, _⟩ => show l.val % 96 = l.val; omega

/-- The inverse root of the variance plus 1e-5, formed on the row and spread over the rows: at (P, l), that of entry l
    of row 2 of the variance table. -/
theorem ref2_rstd (P : Fin 50000) (l : Fin 96) :
    val_main_v229 (F := Ideal) x22 (ix2 P l)
      = Ideal.rsqrt (x22 (ix2 (2 : Fin 3) l) + Ideal.ofBits .f32 0x3727C5AC#32) := by
  rw [val_main_v229_apply, val_main_v228_apply, val_main_v227_apply, val_main_v226_apply, val_main_v225_apply,
    val_main_cst_18_apply, val_main_v221_apply, val_main_v220_apply]
  refine congrArg (fun z => Ideal.rsqrt (x22 z + Ideal.ofBits .f32 0x3727C5AC#32)) (funext fun a => Fin.ext ?_)
  have hl := l.isLt
  match a with
  | ⟨0, _⟩ => rfl
  | ⟨1, _⟩ => show l.val % 96 = l.val; omega

/-! ## The stages, at (P, q): node P's row through the row function -/

/-- The combined input at (P, k). -/
theorem ref2_z (P : Fin 50000) (k : Fin 96) :
    val_main_v195 (F := Ideal) x0 x1 x2 x3 x4 x5 x6 x7 x8 x9 x10 x11 x12 x13 x14 x15 x16 x17 x18 x19 x20 x21 x22 (ix2 P k)
      = ginZ (x18 (ix1 (1 : Fin 2))) (fun k => val_main_v160 (F := Ideal) x0 x1 x2 x3 x4 x5 x6 x7 x8 x9 x10 x11 x12 x13 x14 x15 x16 x17 x18 x19 x20 x21 x22 (ix2 P k)) (fun k => val_main_v189 (F := Ideal) x0 x1 x2 x3 x4 x5 x6 x7 x8 x9 x10 x11 x12 x13 x14 x15 x16 x17 x18 x19 x20 x21 x22 (ix2 P k)) k := by
  rw [val_main_v195_apply, val_main_v194_apply, ref2_eps]
  rfl

/-- The first dense layer with its rectifier, at (P, l). -/
theorem ref2_y1 (P : Fin 50000) (l : Fin 96) :
    val_main_v204 (F := Ideal) x0 x1 x2 x3 x4 x5 x6 x7 x8 x9 x10 x11 x12 x13 x14 x15 x16 x17 x18 x19 x20 x21 x22 (ix2 P l)
      = ginLayer (ginZ (x18 (ix1 (1 : Fin 2))) (fun k => val_main_v160 (F := Ideal) x0 x1 x2 x3 x4 x5 x6 x7 x8 x9 x10 x11 x12 x13 x14 x15 x16 x17 x18 x19 x20 x21 x22 (ix2 P k)) (fun k => val_main_v189 (F := Ideal) x0 x1 x2 x3 x4 x5 x6 x7 x8 x9 x10 x11 x12 x13 x14 x15 x16 x17 x18 x19 x20 x21 x22 (ix2 P k))) (fun k l => x14 (ix3 (1 : Fin 2) k l)) (fun l => x15 (ix2 (1 : Fin 2) l)) l := by
  rw [val_main_v204_apply, val_main_v203_apply, val_main_v198_apply, ref2_b1, val_main_call10_v0_apply, val_main_call10_cst_apply]
  unfold ginLayer
  refine congrArg (fun s => max (s + x15 (ix2 (1 : Fin 2) l)) (Ideal.ofBits .f32 0x00000000#32)) (Finset.sum_congr rfl fun k _ => ?_)
  have el : lidx_main_v198 (ix2 P l) k = ix2 P k := funext fun a => by match a with | ⟨0, _⟩ => rfl | ⟨1, _⟩ => rfl
  have er : ridx_main_v198 (ix2 P l) k = ix2 k l := funext fun a => by match a with | ⟨0, _⟩ => rfl | ⟨1, _⟩ => rfl
  rw [el, er, ref2_z, ref2_w1]

/-- The second dense layer with its rectifier, at (P, q). -/
theorem ref2_y2 (P : Fin 50000) (q : Fin 96) :
    val_main_v213 (F := Ideal) x0 x1 x2 x3 x4 x5 x6 x7 x8 x9 x10 x11 x12 x13 x14 x15 x16 x17 x18 x19 x20 x21 x22 (ix2 P q)
      = ginLayer (ginLayer (ginZ (x18 (ix1 (1 : Fin 2))) (fun k => val_main_v160 (F := Ideal) x0 x1 x2 x3 x4 x5 x6 x7 x8 x9 x10 x11 x12 x13 x14 x15 x16 x17 x18 x19 x20 x21 x22 (ix2 P k)) (fun k => val_main_v189 (F := Ideal) x0 x1 x2 x3 x4 x5 x6 x7 x8 x9 x10 x11 x12 x13 x14 x15 x16 x17 x18 x19 x20 x21 x22 (ix2 P k))) (fun k l => x14 (ix3 (1 : Fin 2) k l)) (fun l => x15 (ix2 (1 : Fin 2) l))) (fun k l => x16 (ix3 (1 : Fin 2) k l)) (fun l => x17 (ix2 (1 : Fin 2) l)) q := by
  rw [val_main_v213_apply, val_main_v212_apply, val_main_v207_apply, ref2_b2, val_main_call11_v0_apply, val_main_call11_cst_apply]
  unfold ginLayer
  refine congrArg (fun s => max (s + x17 (ix2 (1 : Fin 2) q)) (Ideal.ofBits .f32 0x00000000#32)) (Finset.sum_congr rfl fun k _ => ?_)
  have el : lidx_main_v207 (ix2 P q) k = ix2 P k := funext fun a => by match a with | ⟨0, _⟩ => rfl | ⟨1, _⟩ => rfl
  have er : ridx_main_v207 (ix2 P q) k = ix2 k q := funext fun a => by match a with | ⟨0, _⟩ => rfl | ⟨1, _⟩ => rfl
  rw [el, er, ref2_y1, ref2_w2]
  rfl

/-- Layer 2's output at (P, q): the node-update row function of row P of the previous layer's output and of the summed
    messages, with slice 1 of the stacked parameters and row 2 of the normalisation tables. -/
theorem ref2_row (P : Fin 50000) (q : Fin 96) :
    val_main_v236 (F := Ideal) x0 x1 x2 x3 x4 x5 x6 x7 x8 x9 x10 x11 x12 x13 x14 x15 x16 x17 x18 x19 x20 x21 x22 (ix2 P q)
      = ginRow (x18 (ix1 (1 : Fin 2))) (fun k => val_main_v160 (F := Ideal) x0 x1 x2 x3 x4 x5 x6 x7 x8 x9 x10 x11 x12 x13 x14 x15 x16 x17 x18 x19 x20 x21 x22 (ix2 P k)) (fun k => val_main_v189 (F := Ideal) x0 x1 x2 x3 x4 x5 x6 x7 x8 x9 x10 x11 x12 x13 x14 x15 x16 x17 x18 x19 x20 x21 x22 (ix2 P k))
          (fun k l => x14 (ix3 (1 : Fin 2) k l)) (fun l => x15 (ix2 (1 : Fin 2) l)) (fun k l => x16 (ix3 (1 : Fin 2) k l)) (fun l => x17 (ix2 (1 : Fin 2) l))
          (fun l => x19 (ix2 (2 : Fin 3) l)) (fun l => x20 (ix2 (2 : Fin 3) l)) (fun l => x21 (ix2 (2 : Fin 3) l)) (fun l => x22 (ix2 (2 : Fin 3) l)) q := by
  rw [val_main_v236_apply, val_main_v233_apply, val_main_v230_apply, val_main_v224_apply, ref2_y2, ref2_mean, ref2_rstd, ref2_gamma, ref2_beta]
  rfl

end

end Cert.Bridge

end
-- ==== Proof.StepGin2.lean ====
/-
  Layer 2's node update: (1 + eps)·h + sum of messages through the two-layer network, relu and the normalisation.
-/
import proofs.«400244_j19808389169615_3_alg».proof.Proof.Stages
import proofs.«400244_j19808389169615_3_alg».proof.Proof.StepGinArr6
import proofs.«400244_j19808389169615_3_alg».proof.Proof.StepGinEntry6
import proofs.«400244_j19808389169615_3_alg».proof.Proof.StepGinRef2

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

theorem h3_eq (hh : kH2 m ρ c = rH2 m c) (ha : kAgg2 m ρ c = rAgg2 m c) : kH3 m ρ c = rH3 m c := by
  have harr : kH3 m ρ c = ginG (V19 m ρ c main_v80) (V19 m ρ c main_v95) (V19 m ρ c main_v114) (V19 m ρ c main_v99)
      (V19 m ρ c main_v115) (V19 m ρ c main_v103) (V19 m ρ c main_v116) (V19 m ρ c main_v117) (V19 m ρ c main_v118)
      (V19 m ρ c main_v119) (V19 m ρ c main_v120) :=
    (W20_arr m ρ c 11).trans (gin6_arr (V19 m ρ) c)
  rw [harr]
  funext i
  obtain ⟨P, q, rfl⟩ : ∃ (P : Fin 50000) (q : Fin 96), i = ix2 P q := ⟨i 0, i 1, eq_ix2 i⟩
  unfold rH3
  rw [ref2_row]
  -- the two row arrays: what the region finds is what the earlier segments left, which the hypotheses identify
  have eh : ∀ k : Fin 96, V19 m ρ c main_v80 (ix2 P k)
      = Cert.ReferenceIdeal.Read.val_main_v160 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (ix2 P k) := fun k => by
    rw [gin6_entry_h]
    exact congrFun hh (ix2 P k)
  have eagg : ∀ k : Fin 96, V19 m ρ c main_v95 (ix2 P k)
      = Cert.ReferenceIdeal.Read.val_main_v189 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (ix2 P k) := fun k =>
    congrFun ha (ix2 P k)
  show ginRow (V19 m ρ c main_v114 (ix2 (0 : Fin 1) (0 : Fin 1))) (fun k => V19 m ρ c main_v80 (ix2 P k)) (fun k => V19 m ρ c main_v95 (ix2 P k))
      (fun k l => V19 m ρ c main_v99 (ix2 k l)) (fun l => V19 m ρ c main_v115 (ix2 (0 : Fin 1) l))
      (fun k l => V19 m ρ c main_v103 (ix2 k l)) (fun l => V19 m ρ c main_v116 (ix2 (0 : Fin 1) l))
      (fun l => V19 m ρ c main_v117 (ix2 (0 : Fin 1) l)) (fun l => V19 m ρ c main_v118 (ix2 (0 : Fin 1) l))
      (fun l => V19 m ρ c main_v119 (ix2 (0 : Fin 1) l)) (fun l => V19 m ρ c main_v120 (ix2 (0 : Fin 1) l)) q = _
  rw [gin6_entry_eps, funext eh, funext eagg,
    (funext fun k => funext fun l => gin6_entry_w1 m ρ c k l : (fun k l => V19 m ρ c main_v99 (ix2 k l)) = _),
    funext (gin6_entry_b1 m ρ c),
    (funext fun k => funext fun l => gin6_entry_w2 m ρ c k l : (fun k l => V19 m ρ c main_v103 (ix2 k l)) = _),
    funext (gin6_entry_b2 m ρ c), funext (gin6_entry_gamma m ρ c), funext (gin6_entry_beta m ρ c),
    funext (gin6_entry_mean m ρ c), funext (gin6_entry_var m ρ c)]

end Cert.Bridge

end
-- ==== Proof.HeadSpec.lean ====
/- One node's head (three 96-row weight blocks, a bias, the clamp at zero, a second matrix), and a 288-term sum as three 96-term sums. -/
import Idealize.ShloMosaic.Lib.ValueIdx
import Idealize.ShloMosaic.Lib.Pipeline.Value
import Mathlib.Algebra.BigOperators.Fin

noncomputable section

open scoped BigOperators

namespace Cert.Bridge

open Idealize.ShloMosaic Idealize.ShloMosaic.ValueIdx

def headHidden (r1 r2 r3 : Fin 96 → EReal) (Wa Wb Wc : Fin 96 → Fin 96 → EReal) (B1 : Fin 96 → EReal) (l : Fin 96) : EReal :=
  max (((∑ k : Fin 96, r1 k * Wa k l) + (∑ k : Fin 96, r2 k * Wb k l) + ∑ k : Fin 96, r3 k * Wc k l) + B1 l)
    (Ideal.ofBits .f32 0x00000000#32)

def headRow (r1 r2 r3 : Fin 96 → EReal) (Wa Wb Wc : Fin 96 → Fin 96 → EReal) (B1 : Fin 96 → EReal)
    (W2 : Fin 96 → Fin 64 → EReal) (B2 : Fin 64 → EReal) (q : Fin 64) : EReal :=
  (∑ l : Fin 96, headHidden r1 r2 r3 Wa Wb Wc B1 l * W2 l q) + B2 q

theorem sum_fin288 {M : Type*} [AddCommMonoid M] (f : Fin 288 → M) :
    ∑ k : Fin 288, f k
      = (∑ k : Fin 96, f ⟨k.val, by omega⟩) + (∑ k : Fin 96, f ⟨96 + k.val, by omega⟩)
        + ∑ k : Fin 96, f ⟨192 + k.val, by omega⟩ := by
  show ∑ k : Fin (96 + 96 + 96), f k = _
  rw [Fin.sum_univ_add, Fin.sum_univ_add]
  rfl

section Joined
variable {α : Type}

theorem joined_first (y1 y2 y3 : (⟨2, ![50000, 96]⟩ : Shape).Idx → α)
    (h : Shape.Concatenates [(⟨2, ![50000, 96]⟩ : Shape), ⟨2, ![50000, 96]⟩, ⟨2, ![50000, 96]⟩] ⟨2, ![50000, 288]⟩ 1)
    (p : Fin 50000) (k : Fin 96) :
    concatenate (⟨2, ![50000, 288]⟩ : Shape) 1 [⟨⟨2, ![50000, 96]⟩, y1⟩, ⟨⟨2, ![50000, 96]⟩, y2⟩, ⟨⟨2, ![50000, 96]⟩, y3⟩] h
      (ix2 p ⟨k.val, by omega⟩) = y1 (ix2 p k) :=
  concatenate_apply_piece (t := ⟨2, ![50000, 288]⟩) 1 [⟨⟨2, ![50000, 96]⟩, y1⟩, ⟨⟨2, ![50000, 96]⟩, y2⟩, ⟨⟨2, ![50000, 96]⟩, y3⟩] h _ 0 (by show 0 < 3; omega) ⟨2, ![50000, 96]⟩ y1 rfl rfl 0 rfl (ix2 p k)
    (fun b hb => match b with
      | ⟨0, _⟩ => rfl
      | ⟨1, _⟩ => absurd rfl hb)
    (by show 0 + k.val = k.val; omega)

theorem joined_second (y1 y2 y3 : (⟨2, ![50000, 96]⟩ : Shape).Idx → α)
    (h : Shape.Concatenates [(⟨2, ![50000, 96]⟩ : Shape), ⟨2, ![50000, 96]⟩, ⟨2, ![50000, 96]⟩] ⟨2, ![50000, 288]⟩ 1)
    (p : Fin 50000) (k : Fin 96) :
    concatenate (⟨2, ![50000, 288]⟩ : Shape) 1 [⟨⟨2, ![50000, 96]⟩, y1⟩, ⟨⟨2, ![50000, 96]⟩, y2⟩, ⟨⟨2, ![50000, 96]⟩, y3⟩] h
      (ix2 p ⟨96 + k.val, by omega⟩) = y2 (ix2 p k) :=
  concatenate_apply_piece (t := ⟨2, ![50000, 288]⟩) 1 [⟨⟨2, ![50000, 96]⟩, y1⟩, ⟨⟨2, ![50000, 96]⟩, y2⟩, ⟨⟨2, ![50000, 96]⟩, y3⟩] h _ 1 (by show 1 < 3; omega) ⟨2, ![50000, 96]⟩ y2 rfl rfl 96 rfl (ix2 p k)
    (fun b hb => match b with
      | ⟨0, _⟩ => rfl
      | ⟨1, _⟩ => absurd rfl hb)
    rfl

theorem joined_third (y1 y2 y3 : (⟨2, ![50000, 96]⟩ : Shape).Idx → α)
    (h : Shape.Concatenates [(⟨2, ![50000, 96]⟩ : Shape), ⟨2, ![50000, 96]⟩, ⟨2, ![50000, 96]⟩] ⟨2, ![50000, 288]⟩ 1)
    (p : Fin 50000) (k : Fin 96) :
    concatenate (⟨2, ![50000, 288]⟩ : Shape) 1 [⟨⟨2, ![50000, 96]⟩, y1⟩, ⟨⟨2, ![50000, 96]⟩, y2⟩, ⟨⟨2, ![50000, 96]⟩, y3⟩] h
      (ix2 p ⟨192 + k.val, by omega⟩) = y3 (ix2 p k) :=
  concatenate_apply_piece (t := ⟨2, ![50000, 288]⟩) 1 [⟨⟨2, ![50000, 96]⟩, y1⟩, ⟨⟨2, ![50000, 96]⟩, y2⟩, ⟨⟨2, ![50000, 96]⟩, y3⟩] h _ 2 (by show 2 < 3; omega) ⟨2, ![50000, 96]⟩ y3 rfl rfl 192 rfl (ix2 p k)
    (fun b hb => match b with
      | ⟨0, _⟩ => rfl
      | ⟨1, _⟩ => absurd rfl hb)
    rfl

end Joined

end Cert.Bridge

end
-- ==== Proof.HeadKernel.lean ====
/- Kernel side of the head: the body at an index, and the array after the call. -/
import proofs.«400244_j19808389169615_3_alg».proof.Proof.Gen.KernelIdeal.Frame
import proofs.«400244_j19808389169615_3_alg».proof.Proof.HeadSpec
import proofs.«400244_j19808389169615_3_alg».proof.Proof.LibMatmul
import Idealize.ShloMosaic.Lib.ValueIdx
import Idealize.ShloMosaic.Lib.Pipeline.Value
import Idealize.ShloMosaic.Lib.ValueLayout
import Idealize.ShloMosaic.PureOps.Ideal.Laws

noncomputable section

namespace Cert.Bridge

open Idealize.ShloMosaic Idealize.ShloMosaic.TcCoe Idealize.SL.Sem Idealize.ShloMosaic.ValueIdx
open Cert.KernelIdeal Cert.KernelIdeal.Gen

theorem head_mm2_lhs_0 (i : S5000x64.Idx) (q : dot_S5000x96_S96x64_S5000x64_1_0_0_1_n_n.contr.Idx) :
    (dot_S5000x96_S96x64_S5000x64_1_0_0_1_n_n.lhsIdx i q 0).val = (i 0).val := by
  unfold DotDims.lhsIdx
  rw [dif_neg (show ¬(0 : Fin S5000x96.rank) ∈ dot_S5000x96_S96x64_S5000x64_1_0_0_1_n_n.lhsBatch by decide), dif_pos (show (0 : Fin S5000x96.rank) ∈ dot_S5000x96_S96x64_S5000x64_1_0_0_1_n_n.lhsNonContracting by decide)]
  rfl
theorem head_mm2_lhs_1 (i : S5000x64.Idx) (q : dot_S5000x96_S96x64_S5000x64_1_0_0_1_n_n.contr.Idx) :
    (dot_S5000x96_S96x64_S5000x64_1_0_0_1_n_n.lhsIdx i q 1).val = (q ⟨0, by decide⟩).val :=
  dot_S5000x96_S96x64_S5000x64_1_0_0_1_n_n.lhsIdx_val_of_single rfl i q
theorem head_mm2_rhs_0 (i : S5000x64.Idx) (q : dot_S5000x96_S96x64_S5000x64_1_0_0_1_n_n.contr.Idx) :
    (dot_S5000x96_S96x64_S5000x64_1_0_0_1_n_n.rhsIdx i q 0).val = (q ⟨0, by decide⟩).val :=
  dot_S5000x96_S96x64_S5000x64_1_0_0_1_n_n.rhsIdx_val_of_single rfl i q
theorem head_mm2_rhs_1 (i : S5000x64.Idx) (q : dot_S5000x96_S96x64_S5000x64_1_0_0_1_n_n.contr.Idx) :
    (dot_S5000x96_S96x64_S5000x64_1_0_0_1_n_n.rhsIdx i q 1).val = (i 1).val := by
  unfold DotDims.rhsIdx
  rw [dif_neg (show ¬(1 : Fin S96x64.rank) ∈ dot_S5000x96_S96x64_S5000x64_1_0_0_1_n_n.rhsBatch by decide), dif_pos (show (1 : Fin S96x64.rank) ∈ dot_S5000x96_S96x64_S5000x64_1_0_0_1_n_n.rhsNonContracting by decide)]
  rfl

theorem head_mm2_apply {φ₁ φ₂ : FTy} (l : FVec Ideal S5000x96 φ₁) (r : FVec Ideal S96x64 φ₂) (p : Fin 5000) (q : Fin 64) :
    FloatOps.matmul dot_S5000x96_S96x64_S5000x64_1_0_0_1_n_n none l r (constant (F := Ideal) S5000x64 .f32 0x00000000#32) (ix2 p q)
      = ∑ k : Fin 96, l (ix2 p k) * r (ix2 k q) := by
  rw [Ideal.matmul_constant_zero_apply, ← Equiv.sum_comp (contrEquiv1 dot_S5000x96_S96x64_S5000x64_1_0_0_1_n_n 96 rfl rfl).symm]
  refine Finset.sum_congr rfl fun k _ => ?_
  have hk := contrEquiv1_symm_val dot_S5000x96_S96x64_S5000x64_1_0_0_1_n_n 96 rfl rfl k
  have el : dot_S5000x96_S96x64_S5000x64_1_0_0_1_n_n.lhsIdx (ix2 p q) ((contrEquiv1 dot_S5000x96_S96x64_S5000x64_1_0_0_1_n_n 96 rfl rfl).symm k) = ix2 p k := funext fun a => Fin.ext (by
    match a with
    | ⟨0, _⟩ => exact head_mm2_lhs_0 _ _
    | ⟨1, _⟩ => exact (head_mm2_lhs_1 _ _).trans hk)
  have er : dot_S5000x96_S96x64_S5000x64_1_0_0_1_n_n.rhsIdx (ix2 p q) ((contrEquiv1 dot_S5000x96_S96x64_S5000x64_1_0_0_1_n_n 96 rfl rfl).symm k) = ix2 k q := funext fun a => Fin.ext (by
    match a with
    | ⟨0, _⟩ => exact (head_mm2_rhs_0 _ _).trans hk
    | ⟨1, _⟩ => exact head_mm2_rhs_1 _ _)
  rw [el, er]

theorem head_bias1_apply (b : FVec Ideal S1x96 .f32) (p : Fin 5000) (l : Fin 96) :
    broadcastTo S5000x96 b broadcasts_S1x96_S5000x96 (ix2 p l) = b (ix2 (0 : Fin 1) l) :=
  broadcastTo_1b_ab_apply b broadcasts_S1x96_S5000x96 p l

theorem head_bias2_apply (b : FVec Ideal S1x64 .f32) (p : Fin 5000) (q : Fin 64) :
    broadcastTo S5000x64 b broadcasts_S1x64_S5000x64 (ix2 p q) = b (ix2 (0 : Fin 1) q) :=
  broadcastTo_1b_ab_apply b broadcasts_S1x64_S5000x64 p q

theorem head_hidden_apply (x0 x1 x2 : Vec Ideal S5000x96 .f32) (x3 x4 x5 : Vec Ideal S96x96 .f32) (x6 : Vec Ideal S1x96 .f32)
    (p : Fin 5000) (l : Fin 96) :
    maximumf (F := Ideal)
        (addf
          (addf
            (addf
              (matmul dot_S5000x96_S96x96_S5000x96_1_0_0_1_n_n none (truncf .bf16 x0 bitsLt_bf16_f32) (truncf .bf16 x3 bitsLt_bf16_f32) (constant (F := Ideal) S5000x96 .f32 0x00000000#32))
              (matmul dot_S5000x96_S96x96_S5000x96_1_0_0_1_n_n none (truncf .bf16 x1 bitsLt_bf16_f32) (truncf .bf16 x4 bitsLt_bf16_f32) (constant (F := Ideal) S5000x96 .f32 0x00000000#32)))
            (matmul dot_S5000x96_S96x96_S5000x96_1_0_0_1_n_n none (truncf .bf16 x2 bitsLt_bf16_f32) (truncf .bf16 x5 bitsLt_bf16_f32) (constant (F := Ideal) S5000x96 .f32 0x00000000#32)))
          (broadcastTo S5000x96 x6 broadcasts_S1x96_S5000x96))
        (broadcast S5000x96 (Scalar.ofBits (F := Ideal) .f32 0x00000000#32)) (ix2 p l)
      = headHidden (fun k => x0 (ix2 p k)) (fun k => x1 (ix2 p k)) (fun k => x2 (ix2 p k))
          (fun k l => x3 (ix2 k l)) (fun k l => x4 (ix2 k l)) (fun k l => x5 (ix2 k l)) (fun l => x6 (ix2 (0 : Fin 1) l)) l := by
  rw [maximumf_apply, addf_apply, addf_apply, addf_apply, head_bias1_apply, mm96_apply, mm96_apply, mm96_apply]
  rfl

theorem head_pay_apply (x0 x1 x2 : Vec Ideal S5000x96 .f32) (x3 x4 x5 : Vec Ideal S96x96 .f32) (x6 : Vec Ideal S1x96 .f32)
    (x7 : Vec Ideal S96x64 .f32) (x8 : Vec Ideal S1x64 .f32) (p : Fin 5000) (q : Fin 64) :
    (k7_pay1 (F := Ideal) (k7_pay2 x0 x1 x2 x3 x4 x5 x6 x7) (k7_pay3 x8)) (ix2 p q)
      = headRow (fun k => x0 (ix2 p k)) (fun k => x1 (ix2 p k)) (fun k => x2 (ix2 p k))
          (fun k l => x3 (ix2 k l)) (fun k l => x4 (ix2 k l)) (fun k l => x5 (ix2 k l)) (fun l => x6 (ix2 (0 : Fin 1) l))
          (fun l q => x7 (ix2 l q)) (fun q => x8 (ix2 (0 : Fin 1) q)) q := by
  unfold k7_pay1 k7_pay2 k7_pay3
  simp only [shapeCast_self]
  rw [addf_apply, head_bias2_apply]
  unfold headRow
  refine congrArg (· + x8 (ix2 (0 : Fin 1) q)) ?_
  refine (head_mm2_apply _ _ p q).trans (Finset.sum_congr rfl fun l _ => ?_)
  rw [truncf_apply, truncf_apply]
  exact congrArg (· * x7 (ix2 l q)) (head_hidden_apply x0 x1 x2 x3 x4 x5 x6 p l)

def headG (H1 H2 H3 : FVec Ideal S50000x96 .f32) (Wa Wb Wc : FVec Ideal S96x96 .f32) (B1 : FVec Ideal S1x96 .f32)
    (W2 : FVec Ideal S96x64 .f32) (B2 : FVec Ideal S1x64 .f32) : FVec Ideal S50000x64 .f32 :=
  fun i => headRow (fun k => H1 (ix2 (⟨(i 0).val, idx2_lt0 i⟩ : Fin 50000) k)) (fun k => H2 (ix2 (⟨(i 0).val, idx2_lt0 i⟩ : Fin 50000) k)) (fun k => H3 (ix2 (⟨(i 0).val, idx2_lt0 i⟩ : Fin 50000) k))
    (fun k l => Wa (ix2 k l)) (fun k l => Wb (ix2 k l)) (fun k l => Wc (ix2 k l)) (fun l => B1 (ix2 (0 : Fin 1) l))
    (fun l q => W2 (ix2 l q)) (fun q => B2 (ix2 (0 : Fin 1) q)) (⟨(i 1).val, idx2_lt1 i⟩ : Fin 64)

theorem head_point (H1 H2 H3 : FVec Ideal S50000x96 .f32) (Wa Wb Wc : FVec Ideal S96x96 .f32) (B1 : FVec Ideal S1x96 .f32)
    (W2 : FVec Ideal S96x64 .f32) (B2 : FVec Ideal S1x64 .f32)
    (x0 x1 x2 : Vec Ideal S5000x96 .f32) (x3 x4 x5 : Vec Ideal S96x96 .f32) (x6 : Vec Ideal S1x96 .f32)
    (x7 : Vec Ideal S96x64 .f32) (x8 : Vec Ideal S1x64 .f32)
    (p : Fin 5000) (q : Fin 64) (i : S50000x64.Idx)
    (h0 : ∀ k : Fin 96, x0 (ix2 p k) = H1 (ix2 (⟨(i 0).val, idx2_lt0 i⟩ : Fin 50000) k))
    (h1 : ∀ k : Fin 96, x1 (ix2 p k) = H2 (ix2 (⟨(i 0).val, idx2_lt0 i⟩ : Fin 50000) k))
    (h2 : ∀ k : Fin 96, x2 (ix2 p k) = H3 (ix2 (⟨(i 0).val, idx2_lt0 i⟩ : Fin 50000) k))
    (h3 : ∀ k l : Fin 96, x3 (ix2 k l) = Wa (ix2 k l))
    (h4 : ∀ k l : Fin 96, x4 (ix2 k l) = Wb (ix2 k l))
    (h5 : ∀ k l : Fin 96, x5 (ix2 k l) = Wc (ix2 k l))
    (h6 : ∀ l : Fin 96, x6 (ix2 (0 : Fin 1) l) = B1 (ix2 (0 : Fin 1) l))
    (h7 : ∀ (l : Fin 96) (q' : Fin 64), x7 (ix2 l q') = W2 (ix2 l q'))
    (h8 : ∀ q' : Fin 64, x8 (ix2 (0 : Fin 1) q') = B2 (ix2 (0 : Fin 1) q'))
    (hq : q = (⟨(i 1).val, idx2_lt1 i⟩ : Fin 64)) :
    (k7_pay1 (F := Ideal) (k7_pay2 x0 x1 x2 x3 x4 x5 x6 x7) (k7_pay3 x8)) (ix2 p q)
      = headG H1 H2 H3 Wa Wb Wc B1 W2 B2 i := by
  rw [head_pay_apply]
  unfold headG
  rw [← hq, funext h0, funext h1, funext h2,
    (funext fun k => funext fun l => h3 k l : (fun k l => x3 (ix2 k l)) = fun k l => Wa (ix2 k l)),
    (funext fun k => funext fun l => h4 k l : (fun k l => x4 (ix2 k l)) = fun k l => Wb (ix2 k l)),
    (funext fun k => funext fun l => h5 k l : (fun k l => x5 (ix2 k l)) = fun k l => Wc (ix2 k l)),
    funext h6,
    (funext fun l => funext fun q' => h7 l q' : (fun l q' => x7 (ix2 l q')) = fun l q' => W2 (ix2 l q')),
    funext h8]

theorem head_hz : (![0, 0] : Fin 2 → Nat) = fun _ => 0 := funext fun a => by fin_cases a <;> rfl

theorem head_idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0
    ∧ win7_8.index t (0 : Fin 2) = 0 ∧ win7_8.index t (1 : Fin 2) = 0
    ∧ win7_9.index t (0 : Fin 2) = t.val ∧ win7_9.index t (1 : Fin 2) = 0 :=
  (by decide +kernel : ∀ t : Fin grid7.N, _)

section
variable (V : (c : Dev nD) → (b : Ref sig .tc) → Buf (Elt Ideal) ((c : Thread nD τ).loc b))

theorem head_flushed_eq (c : Dev nD) (t : Fin cfg7.N) :
    (dat7 (F := Ideal) V c).flushed 9 t
      = ((cfg7.win 9).blk t).view.read (Elt Ideal) (headG (V c main_v39) (V c main_v80) (V c main_v121) (V c main_v122) (V c main_v123) (V c main_v124) (V c main_v125) (V c main_arg25) (V c main_v126)) := by
  show (cfg7.win 9).cut (grid7.coords t) ((dat7 V c).after 9 t) = _
  rw [after7_9]
  unfold out7_9
  rw [View.canon_unit_zero head_hz]
  simp only [View.ld_unit_zero (S := S5000x96) head_hz, View.ld_unit_zero (S := S96x96) head_hz, View.ld_unit_zero (S := S1x96) head_hz,
    View.ld_unit_zero (S := S96x64) head_hz, View.ld_unit_zero (S := S1x64) head_hz]
  obtain ⟨e00, e01, e10, e11, e20, e21, e30, e31, e40, e41, e50, e51, e60, e61, e70, e71, e80, e81, e90, e91⟩ := head_idx_facts t
  funext j
  obtain ⟨p, q, rfl⟩ : ∃ (p : Fin 5000) (q : Fin 64), j = ix2 p q := ⟨j 0, j 1, eq_ix2 j⟩
  refine head_point (V c main_v39) (V c main_v80) (V c main_v121) (V c main_v122) (V c main_v123) (V c main_v124) (V c main_v125) (V c main_arg25) (V c main_v126)
    (iblk7 V c 0 t) (iblk7 V c 1 t) (iblk7 V c 2 t) (iblk7 V c 3 t) (iblk7 V c 4 t) (iblk7 V c 5 t) (iblk7 V c 6 t) (iblk7 V c 7 t) (iblk7 V c 8 t)
    p q (((cfg7.win 9).blk t).view.emb (ix2 p q)) ?_ ?_ ?_ ?_ ?_ ?_ ?_ ?_ ?_ ?_
  · intro k
    show V c main_v39 (((cfg7.win 0).blk t).view.emb (ix2 p k)) = V c main_v39 _
    refine congrArg (V c main_v39) (funext fun a => Fin.ext ?_)
    match a with
    | ⟨0, _⟩ => show win7_0.index t (0 : Fin 2) * 5000 + 1 * p.val = win7_9.index t (0 : Fin 2) * 5000 + 1 * p.val; omega
    | ⟨1, _⟩ => show win7_0.index t (1 : Fin 2) * 96 + 1 * k.val = k.val; omega
  · intro k
    show V c main_v80 (((cfg7.win 1).blk t).view.emb (ix2 p k)) = V c main_v80 _
    refine congrArg (V c main_v80) (funext fun a => Fin.ext ?_)
    match a with
    | ⟨0, _⟩ => show win7_1.index t (0 : Fin 2) * 5000 + 1 * p.val = win7_9.index t (0 : Fin 2) * 5000 + 1 * p.val; omega
    | ⟨1, _⟩ => show win7_1.index t (1 : Fin 2) * 96 + 1 * k.val = k.val; omega
  · intro k
    show V c main_v121 (((cfg7.win 2).blk t).view.emb (ix2 p k)) = V c main_v121 _
    refine congrArg (V c main_v121) (funext fun a => Fin.ext ?_)
    match a with
    | ⟨0, _⟩ => show win7_2.index t (0 : Fin 2) * 5000 + 1 * p.val = win7_9.index t (0 : Fin 2) * 5000 + 1 * p.val; omega
    | ⟨1, _⟩ => show win7_2.index t (1 : Fin 2) * 96 + 1 * k.val = k.val; omega
  · intro k l
    show V c main_v122 (((cfg7.win 3).blk t).view.emb (ix2 k l)) = V c main_v122 _
    refine congrArg (V c main_v122) (funext fun a => Fin.ext ?_)
    match a with
    | ⟨0, _⟩ => show win7_3.index t (0 : Fin 2) * 96 + 1 * k.val = k.val; omega
    | ⟨1, _⟩ => show win7_3.index t (1 : Fin 2) * 96 + 1 * l.val = l.val; omega
  · intro k l
    show V c main_v123 (((cfg7.win 4).blk t).view.emb (ix2 k l)) = V c main_v123 _
    refine congrArg (V c main_v123) (funext fun a => Fin.ext ?_)
    match a with
    | ⟨0, _⟩ => show win7_4.index t (0 : Fin 2) * 96 + 1 * k.val = k.val; omega
    | ⟨1, _⟩ => show win7_4.index t (1 : Fin 2) * 96 + 1 * l.val = l.val; omega
  · intro k l
    show V c main_v124 (((cfg7.win 5).blk t).view.emb (ix2 k l)) = V c main_v124 _
    refine congrArg (V c main_v124) (funext fun a => Fin.ext ?_)
    match a with
    | ⟨0, _⟩ => show win7_5.index t (0 : Fin 2) * 96 + 1 * k.val = k.val; omega
    | ⟨1, _⟩ => show win7_5.index t (1 : Fin 2) * 96 + 1 * l.val = l.val; omega
  · intro l
    show V c main_v125 (((cfg7.win 6).blk t).view.emb (ix2 (0 : Fin 1) l)) = V c main_v125 _
    refine congrArg (V c main_v125) (funext fun a => Fin.ext ?_)
    match a with
    | ⟨0, _⟩ => show win7_6.index t (0 : Fin 2) * 1 + 1 * 0 = 0; omega
    | ⟨1, _⟩ => show win7_6.index t (1 : Fin 2) * 96 + 1 * l.val = l.val; omega
  · intro l q'
    show V c main_arg25 (((cfg7.win 7).blk t).view.emb (ix2 l q')) = V c main_arg25 _
    refine congrArg (V c main_arg25) (funext fun a => Fin.ext ?_)
    match a with
    | ⟨0, _⟩ => show win7_7.index t (0 : Fin 2) * 96 + 1 * l.val = l.val; omega
    | ⟨1, _⟩ => show win7_7.index t (1 : Fin 2) * 64 + 1 * q'.val = q'.val; omega
  · intro q'
    show V c main_v126 (((cfg7.win 8).blk t).view.emb (ix2 (0 : Fin 1) q')) = V c main_v126 _
    refine congrArg (V c main_v126) (funext fun a => Fin.ext ?_)
    match a with
    | ⟨0, _⟩ => show win7_8.index t (0 : Fin 2) * 1 + 1 * 0 = 0; omega
    | ⟨1, _⟩ => show win7_8.index t (1 : Fin 2) * 64 + 1 * q'.val = q'.val; omega
  · refine Fin.ext ?_
    show q.val = win7_9.index t (1 : Fin 2) * 64 + 1 * q.val
    omega

theorem head_mem_blk (t : Fin cfg7.N) (i : S50000x64.Idx) :
    i ∈ ((cfg7.win 9).blk t).view.set ↔ ∀ a : Fin 2, win7_9.index t a * S5000x64.size a ≤ (i a).val ∧ (i a).val < win7_9.index t a * S5000x64.size a + S5000x64.size a := by
  show i ∈ ((View.whole main_v127).slice (win7_9.rect t)).set ↔ _
  rw [View.set_slice_whole, Rect.mem_set_unit]
  exact Iff.rfl

theorem head_cover (i : S50000x64.Idx) : ∃ t : Fin cfg7.N, (cfg7.win 9).flush t = true ∧ i ∈ ((cfg7.win 9).blk t).view.set := by
  have hi0 : (i 0).val < 50000 := idx2_lt0 i
  have hi1 : (i 1).val < 64 := idx2_lt1 i
  have hN : grid7.N = 10 := N_7
  have ht : (i 0).val / 5000 < grid7.N := by omega
  obtain ⟨_, _, _, _, _, _, _, _, _, _, _, _, _, _, _, _, _, _, e90, e91⟩ := head_idx_facts ⟨(i 0).val / 5000, ht⟩
  refine ⟨⟨(i 0).val / 5000, ht⟩, flush7_9 _, ?_⟩
  rw [head_mem_blk]
  intro a
  match a with
  | ⟨0, _⟩ =>
    show win7_9.index ⟨(i 0).val / 5000, ht⟩ (0 : Fin 2) * 5000 ≤ (i 0).val ∧ (i 0).val < win7_9.index ⟨(i 0).val / 5000, ht⟩ (0 : Fin 2) * 5000 + 5000
    rw [e90]; show (i 0).val / 5000 * 5000 ≤ (i 0).val ∧ (i 0).val < (i 0).val / 5000 * 5000 + 5000; omega
  | ⟨1, _⟩ =>
    show win7_9.index ⟨(i 0).val / 5000, ht⟩ (1 : Fin 2) * 64 ≤ (i 1).val ∧ (i 1).val < win7_9.index ⟨(i 0).val / 5000, ht⟩ (1 : Fin 2) * 64 + 64
    rw [e91]; omega

theorem head_arr (c : Dev nD) :
    (dat7 (F := Ideal) V c).arrAt 9 cfg7.N = headG (V c main_v39) (V c main_v80) (V c main_v121) (V c main_v122) (V c main_v123) (V c main_v124) (V c main_v125) (V c main_arg25) (V c main_v126) :=
  (dat7 V c).arrAt_eq_of_cover 9 _ (fun t _ => head_flushed_eq V c t) head_cover

end

end Cert.Bridge

end
-- ==== Proof.HeadRef.lean ====
/- Reference side of the head at an index, the joined 288-column array read in its thirds. -/
import proofs.«400244_j19808389169615_3_alg».proof.Proof.RefRead
import proofs.«400244_j19808389169615_3_alg».proof.Proof.HeadSpec

noncomputable section

namespace Cert.Bridge

open Idealize.ShloMosaic Idealize.ShloMosaic.TcCoe Idealize.SL.Sem Idealize.ShloMosaic.ValueIdx
open Cert.ReferenceIdeal Cert.ReferenceIdeal.Read

variable (x0 : (⟨S50000x128, .f32⟩ : BufTy).Contents (Elt Ideal))
  (x1 : (⟨S2x800000, .i32⟩ : BufTy).Contents (Elt Ideal))
  (x2 : (⟨S800000x16, .f32⟩ : BufTy).Contents (Elt Ideal))
  (x3 : (⟨S128x96, .f32⟩ : BufTy).Contents (Elt Ideal))
  (x4 : (⟨S96, .f32⟩ : BufTy).Contents (Elt Ideal))
  (x5 : (⟨S1x96, .f32⟩ : BufTy).Contents (Elt Ideal))
  (x6 : (⟨S16x96, .f32⟩ : BufTy).Contents (Elt Ideal))
  (x7 : (⟨S96, .f32⟩ : BufTy).Contents (Elt Ideal))
  (x8 : (⟨S96x96, .f32⟩ : BufTy).Contents (Elt Ideal))
  (x9 : (⟨S96, .f32⟩ : BufTy).Contents (Elt Ideal))
  (x10 : (⟨S2x16x96, .f32⟩ : BufTy).Contents (Elt Ideal))
  (x11 : (⟨S2x96, .f32⟩ : BufTy).Contents (Elt Ideal))
  (x12 : (⟨S2x96x96, .f32⟩ : BufTy).Contents (Elt Ideal))
  (x13 : (⟨S2x96, .f32⟩ : BufTy).Contents (Elt Ideal))
  (x14 : (⟨S2x96x96, .f32⟩ : BufTy).Contents (Elt Ideal))
  (x15 : (⟨S2x96, .f32⟩ : BufTy).Contents (Elt Ideal))
  (x16 : (⟨S2x96x96, .f32⟩ : BufTy).Contents (Elt Ideal))
  (x17 : (⟨S2x96, .f32⟩ : BufTy).Contents (Elt Ideal))
  (x18 : (⟨S2, .f32⟩ : BufTy).Contents (Elt Ideal))
  (x19 x20 x21 x22 : (⟨S3x96, .f32⟩ : BufTy).Contents (Elt Ideal))
  (x23 : (⟨S288x96, .f32⟩ : BufTy).Contents (Elt Ideal))
  (x24 : (⟨S96, .f32⟩ : BufTy).Contents (Elt Ideal))
  (x25 : (⟨S96x64, .f32⟩ : BufTy).Contents (Elt Ideal))
  (x26 : (⟨S64, .f32⟩ : BufTy).Contents (Elt Ideal))

theorem head_ref_joined (p : Fin 50000) (l k : Fin 96) :
    val_main_v237 (F := Ideal) x0 x1 x2 x3 x4 x5 x6 x7 x8 x9 x10 x11 x12 x13 x14 x15 x16 x17 x18 x19 x20 x21 x22 (lidx_main_v238 (ix2 p l) (⟨k.val, by omega⟩ : Fin 288))
        = val_main_v84 (F := Ideal) x0 x1 x2 x3 x4 x5 x6 x7 x8 x9 x19 x20 x21 x22 (ix2 p k)
    ∧ val_main_v237 (F := Ideal) x0 x1 x2 x3 x4 x5 x6 x7 x8 x9 x10 x11 x12 x13 x14 x15 x16 x17 x18 x19 x20 x21 x22 (lidx_main_v238 (ix2 p l) (⟨96 + k.val, by omega⟩ : Fin 288))
        = val_main_v160 (F := Ideal) x0 x1 x2 x3 x4 x5 x6 x7 x8 x9 x10 x11 x12 x13 x14 x15 x16 x17 x18 x19 x20 x21 x22 (ix2 p k)
    ∧ val_main_v237 (F := Ideal) x0 x1 x2 x3 x4 x5 x6 x7 x8 x9 x10 x11 x12 x13 x14 x15 x16 x17 x18 x19 x20 x21 x22 (lidx_main_v238 (ix2 p l) (⟨192 + k.val, by omega⟩ : Fin 288))
        = val_main_v236 (F := Ideal) x0 x1 x2 x3 x4 x5 x6 x7 x8 x9 x10 x11 x12 x13 x14 x15 x16 x17 x18 x19 x20 x21 x22 (ix2 p k) := by
  unfold val_main_v237
  generalize val_main_v84 (F := Ideal) x0 x1 x2 x3 x4 x5 x6 x7 x8 x9 x19 x20 x21 x22 = y1
  generalize val_main_v160 (F := Ideal) x0 x1 x2 x3 x4 x5 x6 x7 x8 x9 x10 x11 x12 x13 x14 x15 x16 x17 x18 x19 x20 x21 x22 = y2
  generalize val_main_v236 (F := Ideal) x0 x1 x2 x3 x4 x5 x6 x7 x8 x9 x10 x11 x12 x13 x14 x15 x16 x17 x18 x19 x20 x21 x22 = y3
  have e (k' : Fin 288) : lidx_main_v238 (ix2 p l) k' = ix2 p k' := funext fun a => Fin.ext (by
    match a with
    | ⟨0, _⟩ => rfl
    | ⟨1, _⟩ => rfl)
  rw [e, e, e]
  exact ⟨joined_first y1 y2 y3 _ p k, joined_second y1 y2 y3 _ p k, joined_third y1 y2 y3 _ p k⟩

theorem head_ref_hidden (p : Fin 50000) (l : Fin 96) :
    val_main_v242 (F := Ideal) x0 x1 x2 x3 x4 x5 x6 x7 x8 x9 x10 x11 x12 x13 x14 x15 x16 x17 x18 x19 x20 x21 x22 x23 x24 (ix2 p l)
      = headHidden (fun k => val_main_v84 (F := Ideal) x0 x1 x2 x3 x4 x5 x6 x7 x8 x9 x19 x20 x21 x22 (ix2 p k)) (fun k => val_main_v160 (F := Ideal) x0 x1 x2 x3 x4 x5 x6 x7 x8 x9 x10 x11 x12 x13 x14 x15 x16 x17 x18 x19 x20 x21 x22 (ix2 p k)) (fun k => val_main_v236 (F := Ideal) x0 x1 x2 x3 x4 x5 x6 x7 x8 x9 x10 x11 x12 x13 x14 x15 x16 x17 x18 x19 x20 x21 x22 (ix2 p k))
          (fun k l => x23 (ix2 (⟨k.val, by omega⟩ : Fin 288) l)) (fun k l => x23 (ix2 (⟨96 + k.val, by omega⟩ : Fin 288) l)) (fun k l => x23 (ix2 (⟨192 + k.val, by omega⟩ : Fin 288) l))
          (fun l => x24 (ix1 l)) l := by
  rw [val_main_v242_apply, val_main_v241_apply, val_main_v238_apply, val_main_v240_apply, val_main_v239_apply,
    val_main_call12_v0_apply, val_main_call12_cst_apply, Ideal.maximumf_def, Ideal.addf_def, Ideal.ofBits_def, sum_fin288]
  have er (k' : Fin 288) : ridx_main_v238 (ix2 p l) k' = ix2 k' l := funext fun a => Fin.ext (by
    match a with
    | ⟨0, _⟩ => rfl
    | ⟨1, _⟩ => rfl)
  have eb : idx_main_v239 (idx_main_v240 (ix2 p l)) = ix1 l := funext fun a => Fin.ext (by
    match a with
    | ⟨0, _⟩ => rfl)
  rw [eb]
  unfold headHidden
  refine congrArg (fun s => max (s + x24 (ix1 l)) (Ideal.ofBits .f32 0x00000000#32)) ?_
  refine congrArg₂ (· + ·) (congrArg₂ (· + ·) ?_ ?_) ?_
  · refine Finset.sum_congr rfl fun k _ => ?_
    rw [er, (head_ref_joined x0 x1 x2 x3 x4 x5 x6 x7 x8 x9 x10 x11 x12 x13 x14 x15 x16 x17 x18 x19 x20 x21 x22 p l k).1]
  · refine Finset.sum_congr rfl fun k _ => ?_
    rw [er, (head_ref_joined x0 x1 x2 x3 x4 x5 x6 x7 x8 x9 x10 x11 x12 x13 x14 x15 x16 x17 x18 x19 x20 x21 x22 p l k).2.1]
  · refine Finset.sum_congr rfl fun k _ => ?_
    rw [er, (head_ref_joined x0 x1 x2 x3 x4 x5 x6 x7 x8 x9 x10 x11 x12 x13 x14 x15 x16 x17 x18 x19 x20 x21 x22 p l k).2.2]

theorem head_ref_apply (p : Fin 50000) (q : Fin 64) :
    val_main_v246 (F := Ideal) x0 x1 x2 x3 x4 x5 x6 x7 x8 x9 x10 x11 x12 x13 x14 x15 x16 x17 x18 x19 x20 x21 x22 x23 x24 x25 x26 (ix2 p q)
      = headRow (fun k => val_main_v84 (F := Ideal) x0 x1 x2 x3 x4 x5 x6 x7 x8 x9 x19 x20 x21 x22 (ix2 p k)) (fun k => val_main_v160 (F := Ideal) x0 x1 x2 x3 x4 x5 x6 x7 x8 x9 x10 x11 x12 x13 x14 x15 x16 x17 x18 x19 x20 x21 x22 (ix2 p k)) (fun k => val_main_v236 (F := Ideal) x0 x1 x2 x3 x4 x5 x6 x7 x8 x9 x10 x11 x12 x13 x14 x15 x16 x17 x18 x19 x20 x21 x22 (ix2 p k))
          (fun k l => x23 (ix2 (⟨k.val, by omega⟩ : Fin 288) l)) (fun k l => x23 (ix2 (⟨96 + k.val, by omega⟩ : Fin 288) l)) (fun k l => x23 (ix2 (⟨192 + k.val, by omega⟩ : Fin 288) l))
          (fun l => x24 (ix1 l)) (fun l q => x25 (ix2 l q)) (fun q => x26 (ix1 q)) q := by
  rw [val_main_v246_apply, val_main_v243_apply, val_main_v245_apply, val_main_v244_apply, Ideal.addf_def]
  have eb : idx_main_v244 (idx_main_v245 (ix2 p q)) = ix1 q := funext fun a => Fin.ext (by
    match a with
    | ⟨0, _⟩ => rfl)
  rw [eb]
  unfold headRow
  refine congrArg (· + x26 (ix1 q)) (Finset.sum_congr rfl fun l _ => ?_)
  have el : lidx_main_v243 (ix2 p q) l = ix2 p l := funext fun a => Fin.ext (by
    match a with
    | ⟨0, _⟩ => rfl
    | ⟨1, _⟩ => rfl)
  have er : ridx_main_v243 (ix2 p q) l = ix2 l q := funext fun a => Fin.ext (by
    match a with
    | ⟨0, _⟩ => rfl
    | ⟨1, _⟩ => rfl)
  rw [el, er, head_ref_hidden]

theorem head_ref :
    val_main_v246 (F := Ideal) x0 x1 x2 x3 x4 x5 x6 x7 x8 x9 x10 x11 x12 x13 x14 x15 x16 x17 x18 x19 x20 x21 x22 x23 x24 x25 x26
      = fun i => headRow (fun k => val_main_v84 (F := Ideal) x0 x1 x2 x3 x4 x5 x6 x7 x8 x9 x19 x20 x21 x22 (ix2 (⟨(i 0).val, idx2_lt0 i⟩ : Fin 50000) k)) (fun k => val_main_v160 (F := Ideal) x0 x1 x2 x3 x4 x5 x6 x7 x8 x9 x10 x11 x12 x13 x14 x15 x16 x17 x18 x19 x20 x21 x22 (ix2 (⟨(i 0).val, idx2_lt0 i⟩ : Fin 50000) k)) (fun k => val_main_v236 (F := Ideal) x0 x1 x2 x3 x4 x5 x6 x7 x8 x9 x10 x11 x12 x13 x14 x15 x16 x17 x18 x19 x20 x21 x22 (ix2 (⟨(i 0).val, idx2_lt0 i⟩ : Fin 50000) k))
          (fun k l => x23 (ix2 (⟨k.val, by omega⟩ : Fin 288) l)) (fun k l => x23 (ix2 (⟨96 + k.val, by omega⟩ : Fin 288) l)) (fun k l => x23 (ix2 (⟨192 + k.val, by omega⟩ : Fin 288) l))
          (fun l => x24 (ix1 l)) (fun l q => x25 (ix2 l q)) (fun q => x26 (ix1 q)) (⟨(i 1).val, idx2_lt1 i⟩ : Fin 64) := by
  funext i
  obtain ⟨p, q, rfl⟩ : ∃ (p : Fin 50000) (q : Fin 64), i = ix2 p q := ⟨i 0, i 1, eq_ix2 i⟩
  exact head_ref_apply x0 x1 x2 x3 x4 x5 x6 x7 x8 x9 x10 x11 x12 x13 x14 x15 x16 x17 x18 x19 x20 x21 x22 x23 x24 x25 x26 p q

end Cert.Bridge

end
-- ==== Proof.StepHead.lean ====
/- The head agrees: the reference's sum over the 288 joined columns is the kernel's three sums over 96. -/
import proofs.«400244_j19808389169615_3_alg».proof.Proof.Stages
import proofs.«400244_j19808389169615_3_alg».proof.Proof.Walk
import proofs.«400244_j19808389169615_3_alg».proof.Proof.HeadKernel
import proofs.«400244_j19808389169615_3_alg».proof.Proof.HeadRef
import Idealize.ShloMosaic.Lib.StableHlo.Run

noncomputable section

namespace Cert.Bridge

open Idealize.ShloMosaic Idealize.ShloMosaic.TcCoe Idealize.SL.Sem Idealize.ShloMosaic.ValueIdx
open Cert.KernelIdeal Cert.KernelIdeal.Gen

theorem head_slice_a_apply (A23 : FVec Ideal S288x96 .f32) (k l : Fin 96) :
    extractStridedSlice S96x96 ![0, 0] A23 slices_S288x96_S96x96_0_0 (ix2 k l) = A23 (ix2 (⟨k.val, by omega⟩ : Fin 288) l) :=
  extractStridedSlice_apply ![0, 0] A23 slices_S288x96_S96x96_0_0 (ix2 k l) (ix2 (⟨k.val, by omega⟩ : Fin 288) l) (fun a => match a with
    | ⟨0, _⟩ => by show k.val = 0 + k.val; omega
    | ⟨1, _⟩ => by show l.val = 0 + l.val; omega)

theorem head_slice_b_apply (A23 : FVec Ideal S288x96 .f32) (k l : Fin 96) :
    extractStridedSlice S96x96 ![96, 0] A23 slices_S288x96_S96x96_96_0 (ix2 k l) = A23 (ix2 (⟨96 + k.val, by omega⟩ : Fin 288) l) :=
  extractStridedSlice_apply ![96, 0] A23 slices_S288x96_S96x96_96_0 (ix2 k l) (ix2 (⟨96 + k.val, by omega⟩ : Fin 288) l) (fun a => match a with
    | ⟨0, _⟩ => by show 96 + k.val = 96 + k.val; omega
    | ⟨1, _⟩ => by show l.val = 0 + l.val; omega)

theorem head_slice_c_apply (A23 : FVec Ideal S288x96 .f32) (k l : Fin 96) :
    extractStridedSlice S96x96 ![192, 0] A23 slices_S288x96_S96x96_192_0 (ix2 k l) = A23 (ix2 (⟨192 + k.val, by omega⟩ : Fin 288) l) :=
  extractStridedSlice_apply ![192, 0] A23 slices_S288x96_S96x96_192_0 (ix2 k l) (ix2 (⟨192 + k.val, by omega⟩ : Fin 288) l) (fun a => match a with
    | ⟨0, _⟩ => by show 192 + k.val = 192 + k.val; omega
    | ⟨1, _⟩ => by show l.val = 0 + l.val; omega)

theorem head_row1_apply (A24 : FVec Ideal S96 .f32) (l : Fin 96) :
    shapeCast S1x96 A24 shapeCasts_S96_S1x96 (ix2 (0 : Fin 1) l) = A24 (ix1 l) :=
  shapeCast_apply A24 shapeCasts_S96_S1x96 (ix2 (0 : Fin 1) l) (ix1 l)
    (by rewrite [Shape.rowMajor_val_one, Shape.rowMajor_val_two]; show l.val = 0 * 96 + l.val; omega)

theorem head_row2_apply (A26 : FVec Ideal S64 .f32) (q : Fin 64) :
    shapeCast S1x64 A26 shapeCasts_S64_S1x64 (ix2 (0 : Fin 1) q) = A26 (ix1 q) :=
  shapeCast_apply A26 shapeCasts_S64_S1x64 (ix2 (0 : Fin 1) q) (ix1 q)
    (by rewrite [Shape.rowMajor_val_one, Shape.rowMajor_val_two]; show q.val = 0 * 64 + q.val; omega)

theorem headG_launch (H1 H2 H3 : FVec Ideal S50000x96 .f32) (A23 : FVec Ideal S288x96 .f32) (A24 : FVec Ideal S96 .f32)
    (A25 : FVec Ideal S96x64 .f32) (A26 : FVec Ideal S64 .f32) :
    headG H1 H2 H3 (extractStridedSlice S96x96 ![0, 0] A23 slices_S288x96_S96x96_0_0) (extractStridedSlice S96x96 ![96, 0] A23 slices_S288x96_S96x96_96_0) (extractStridedSlice S96x96 ![192, 0] A23 slices_S288x96_S96x96_192_0)
        (shapeCast S1x96 A24 shapeCasts_S96_S1x96) A25 (shapeCast S1x64 A26 shapeCasts_S64_S1x64)
      = fun i => headRow (fun k => H1 (ix2 (⟨(i 0).val, idx2_lt0 i⟩ : Fin 50000) k)) (fun k => H2 (ix2 (⟨(i 0).val, idx2_lt0 i⟩ : Fin 50000) k)) (fun k => H3 (ix2 (⟨(i 0).val, idx2_lt0 i⟩ : Fin 50000) k))
          (fun k l => A23 (ix2 (⟨k.val, by omega⟩ : Fin 288) l)) (fun k l => A23 (ix2 (⟨96 + k.val, by omega⟩ : Fin 288) l))
          (fun k l => A23 (ix2 (⟨192 + k.val, by omega⟩ : Fin 288) l))
          (fun l => A24 (ix1 l)) (fun l q => A25 (ix2 l q)) (fun q => A26 (ix1 q)) (⟨(i 1).val, idx2_lt1 i⟩ : Fin 64) := by
  unfold headG
  funext i
  rw [(funext fun k => funext fun l => head_slice_a_apply A23 k l :
      (fun k l : Fin 96 => extractStridedSlice S96x96 ![0, 0] A23 slices_S288x96_S96x96_0_0 (ix2 k l)) = fun k l => A23 (ix2 (⟨k.val, by omega⟩ : Fin 288) l)),
    (funext fun k => funext fun l => head_slice_b_apply A23 k l :
      (fun k l : Fin 96 => extractStridedSlice S96x96 ![96, 0] A23 slices_S288x96_S96x96_96_0 (ix2 k l)) = fun k l => A23 (ix2 (⟨96 + k.val, by omega⟩ : Fin 288) l)),
    (funext fun k => funext fun l => head_slice_c_apply A23 k l :
      (fun k l : Fin 96 => extractStridedSlice S96x96 ![192, 0] A23 slices_S288x96_S96x96_192_0 (ix2 k l)) = fun k l => A23 (ix2 (⟨192 + k.val, by omega⟩ : Fin 288) l)),
    (funext fun l => head_row1_apply A24 l :
      (fun l : Fin 96 => shapeCast S1x96 A24 shapeCasts_S96_S1x96 (ix2 (0 : Fin 1) l)) = fun l => A24 (ix1 l)),
    (funext fun q => head_row2_apply A26 q :
      (fun q : Fin 64 => shapeCast S1x64 A26 shapeCasts_S64_S1x64 (ix2 (0 : Fin 1) q)) = fun q => A26 (ix1 q))]

variable (m : (ℓ : Loc nD τ sig) → Buf (Elt Ideal) ℓ) (ρ : Dev nD → PrngReg) (c : Dev nD)

theorem head_entry_h1 : V21 m ρ c main_v39 = kH1 m ρ c :=
  calc W21 m ρ c (Proc.devRef .tc main_v39)
    _ = W20 m ρ c (Proc.devRef .tc main_v39) := by skip_host hostOps7
    _ = W19 m ρ c (Proc.devRef .tc main_v39) := W20_of_ne m ρ c main_v39 (by decide)
    _ = W18 m ρ c (Proc.devRef .tc main_v39) := by skip_host hostOps6
    _ = W17 m ρ c (Proc.devRef .tc main_v39) := W18_of_ne m ρ c main_v39 (by decide)
    _ = W16 m ρ c (Proc.devRef .tc main_v39) := by skip_host hostOps5_1
    _ = W15 m ρ c (Proc.devRef .tc main_v39) := by skip_host hostOps5
    _ = W14 m ρ c (Proc.devRef .tc main_v39) := (W15_arr m ρ c 0).trans (((dat4 (V14 m ρ) c).arrAt_in 0 rfl _).trans (A_eq4 (V14 m ρ) c 0))
    _ = W13 m ρ c (Proc.devRef .tc main_v39) := by skip_host hostOps4
    _ = W12 m ρ c (Proc.devRef .tc main_v39) := W13_of_ne m ρ c main_v39 (by decide)
    _ = W11 m ρ c (Proc.devRef .tc main_v39) := by skip_host hostOps3_1
    _ = W10 m ρ c (Proc.devRef .tc main_v39) := by skip_host hostOps3

theorem head_entry_h2 : V21 m ρ c main_v80 = kH2 m ρ c :=
  calc W21 m ρ c (Proc.devRef .tc main_v80)
    _ = W20 m ρ c (Proc.devRef .tc main_v80) := by skip_host hostOps7
    _ = W19 m ρ c (Proc.devRef .tc main_v80) := (W20_arr m ρ c 0).trans (((dat6 (V19 m ρ) c).arrAt_in 0 rfl _).trans (A_eq6 (V19 m ρ) c 0))
    _ = W18 m ρ c (Proc.devRef .tc main_v80) := by skip_host hostOps6
    _ = W17 m ρ c (Proc.devRef .tc main_v80) := W18_of_ne m ρ c main_v80 (by decide)
    _ = W16 m ρ c (Proc.devRef .tc main_v80) := by skip_host hostOps5_1
    _ = W15 m ρ c (Proc.devRef .tc main_v80) := by skip_host hostOps5

theorem head_entry_h3 : V21 m ρ c main_v121 = kH3 m ρ c := by
  show W21 m ρ c (Proc.devRef .tc main_v121) = W20 m ρ c (Proc.devRef .tc main_v121)
  skip_host hostOps7

theorem head_arg23 : W20 m ρ c (Proc.devRef .tc main_arg23) = a23 m c :=
  calc W20 m ρ c (Proc.devRef .tc main_arg23)
    _ = W21 m ρ c (Proc.devRef .tc main_arg23) := Eq.symm (by skip_host hostOps7)
    _ = W22 m ρ c (Proc.devRef .tc main_arg23) := (W22_of_ne m ρ c main_arg23 (by decide)).symm
    _ = a23 m c := W22_main_arg23 m ρ c

theorem head_arg24 : W20 m ρ c (Proc.devRef .tc main_arg24) = a24 m c :=
  calc W20 m ρ c (Proc.devRef .tc main_arg24)
    _ = W21 m ρ c (Proc.devRef .tc main_arg24) := Eq.symm (by skip_host hostOps7)
    _ = W22 m ρ c (Proc.devRef .tc main_arg24) := (W22_of_ne m ρ c main_arg24 (by decide)).symm
    _ = a24 m c := W22_main_arg24 m ρ c

theorem head_arg26 : W20 m ρ c (Proc.devRef .tc main_arg26) = a26 m c :=
  calc W20 m ρ c (Proc.devRef .tc main_arg26)
    _ = W21 m ρ c (Proc.devRef .tc main_arg26) := Eq.symm (by skip_host hostOps7)
    _ = W22 m ρ c (Proc.devRef .tc main_arg26) := (W22_of_ne m ρ c main_arg26 (by decide)).symm
    _ = a26 m c := W22_main_arg26 m ρ c

theorem head_entry_w2 : V21 m ρ c main_arg25 = a25 m c :=
  calc W21 m ρ c (Proc.devRef .tc main_arg25)
    _ = W22 m ρ c (Proc.devRef .tc main_arg25) := ((W22_arr m ρ c 7).trans (((dat7 (V21 m ρ) c).arrAt_in 7 rfl _).trans (A_eq7 (V21 m ρ) c 7))).symm
    _ = a25 m c := W22_main_arg25 m ρ c

theorem head_stretch_wa (V20 : Valuation τ sig (Elt Ideal)) (A : FVec Ideal S288x96 .f32) (hA : V20 (Proc.devRef .tc main_arg23) = A) :
    StableHlo.after hostOps7 V20 (Proc.devRef .tc main_v122) = extractStridedSlice S96x96 ![0, 0] A slices_S288x96_S96x96_0_0 := by
  subst hA
  after_results

theorem head_stretch_wb (V20 : Valuation τ sig (Elt Ideal)) (A : FVec Ideal S288x96 .f32) (hA : V20 (Proc.devRef .tc main_arg23) = A) :
    StableHlo.after hostOps7 V20 (Proc.devRef .tc main_v123) = extractStridedSlice S96x96 ![96, 0] A slices_S288x96_S96x96_96_0 := by
  subst hA
  after_results

theorem head_stretch_wc (V20 : Valuation τ sig (Elt Ideal)) (A : FVec Ideal S288x96 .f32) (hA : V20 (Proc.devRef .tc main_arg23) = A) :
    StableHlo.after hostOps7 V20 (Proc.devRef .tc main_v124) = extractStridedSlice S96x96 ![192, 0] A slices_S288x96_S96x96_192_0 := by
  subst hA
  after_results

theorem head_stretch_b1 (V20 : Valuation τ sig (Elt Ideal)) (B : FVec Ideal S96 .f32) (hB : V20 (Proc.devRef .tc main_arg24) = B) :
    StableHlo.after hostOps7 V20 (Proc.devRef .tc main_v125) = shapeCast S1x96 B shapeCasts_S96_S1x96 := by
  subst hB
  after_results
  rfl

theorem head_stretch_b2 (V20 : Valuation τ sig (Elt Ideal)) (B : FVec Ideal S64 .f32) (hB : V20 (Proc.devRef .tc main_arg26) = B) :
    StableHlo.after hostOps7 V20 (Proc.devRef .tc main_v126) = shapeCast S1x64 B shapeCasts_S64_S1x64 := by
  subst hB
  after_results
  rfl

theorem head_entry_wa : V21 m ρ c main_v122 = extractStridedSlice S96x96 ![0, 0] (a23 m c : FVec Ideal S288x96 .f32) slices_S288x96_S96x96_0_0 :=
  head_stretch_wa (W20 m ρ c) (a23 m c) (head_arg23 m ρ c)

theorem head_entry_wb : V21 m ρ c main_v123 = extractStridedSlice S96x96 ![96, 0] (a23 m c : FVec Ideal S288x96 .f32) slices_S288x96_S96x96_96_0 :=
  head_stretch_wb (W20 m ρ c) (a23 m c) (head_arg23 m ρ c)

theorem head_entry_wc : V21 m ρ c main_v124 = extractStridedSlice S96x96 ![192, 0] (a23 m c : FVec Ideal S288x96 .f32) slices_S288x96_S96x96_192_0 :=
  head_stretch_wc (W20 m ρ c) (a23 m c) (head_arg23 m ρ c)

theorem head_entry_b1 : V21 m ρ c main_v125 = shapeCast S1x96 (a24 m c : FVec Ideal S96 .f32) shapeCasts_S96_S1x96 :=
  head_stretch_b1 (W20 m ρ c) (a24 m c) (head_arg24 m ρ c)

theorem head_entry_b2 : V21 m ρ c main_v126 = shapeCast S1x64 (a26 m c : FVec Ideal S64 .f32) shapeCasts_S64_S1x64 :=
  head_stretch_b2 (W20 m ρ c) (a26 m c) (head_arg26 m ρ c)

theorem out_eq (h1 : kH1 m ρ c = rH1 m c) (h2 : kH2 m ρ c = rH2 m c) (h3 : kH3 m ρ c = rH3 m c) : kOut m ρ c = rOut m c := by
  have hk : kOut m ρ c = headG (V21 m ρ c main_v39) (V21 m ρ c main_v80) (V21 m ρ c main_v121) (V21 m ρ c main_v122)
      (V21 m ρ c main_v123) (V21 m ρ c main_v124) (V21 m ρ c main_v125) (V21 m ρ c main_arg25) (V21 m ρ c main_v126) :=
    (W22_arr m ρ c 9).trans (head_arr (V21 m ρ) c)
  rw [hk, head_entry_h1, head_entry_h2, head_entry_h3, h1, h2, h3, head_entry_wa, head_entry_wb, head_entry_wc, head_entry_b1,
    head_entry_w2, head_entry_b2, headG_launch]
  unfold rOut
  rw [head_ref]
  rfl

end Cert.Bridge

end
-- ==== Proof.Assemble.lean ====
/- The two results are one array: equality carried stage by stage from the degree to the head. -/
import proofs.«400244_j19808389169615_3_alg».proof.Defs
import proofs.«400244_j19808389169615_3_alg».proof.Proof.Gen.Pre_finite_inputs
import proofs.«400244_j19808389169615_3_alg».proof.Proof.RefRun
import proofs.«400244_j19808389169615_3_alg».proof.Proof.RefRead
import proofs.«400244_j19808389169615_3_alg».proof.Proof.KRun
import proofs.«400244_j19808389169615_3_alg».proof.Proof.StepIdx
import proofs.«400244_j19808389169615_3_alg».proof.Proof.StepScatter
import proofs.«400244_j19808389169615_3_alg».proof.Proof.StepLin
import proofs.«400244_j19808389169615_3_alg».proof.Proof.StepGcn
import proofs.«400244_j19808389169615_3_alg».proof.Proof.StepMsg0
import proofs.«400244_j19808389169615_3_alg».proof.Proof.StepMsg1
import proofs.«400244_j19808389169615_3_alg».proof.Proof.StepMsg2
import proofs.«400244_j19808389169615_3_alg».proof.Proof.StepGin1
import proofs.«400244_j19808389169615_3_alg».proof.Proof.StepGin2
import proofs.«400244_j19808389169615_3_alg».proof.Proof.StepHead

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

theorem out_eq_of_pre (hpre : Cert.Pre_KernelIdeal m) : kOut m ρ c = rOut m c := by
  have hr := rowOk_of_pre m ρ c hpre
  have hdeg := deg_eq m ρ c
  have hdinv := dinv_eq m ρ c
  have h0 := h0_eq m ρ c
  have hrow0 := hrow0_eq m ρ c hr h0
  have hagg0 := agg0_eq m ρ c fun e hc q =>
    msg0_eq m ρ c hrow0 e (ea17_norm m ρ c hr hdinv e hc) (fun l => ea17_attr m ρ c e l) q
  have h1 := h1_eq m ρ c hagg0 hdeg h0
  have hrow1 := hrow1_eq m ρ c hr h1
  have hagg1 := agg1_eq m ρ c (msg1_eq m ρ c hrow1)
  have h2 := h2_eq m ρ c h1 hagg1
  have hrow2 := hrow2_eq m ρ c hr h2
  have hagg2 := agg2_eq m ρ c (msg2_eq m ρ c hrow2)
  have h3 := h3_eq m ρ c h2 hagg2
  exact out_eq m ρ c h1 h2 h3

theorem algebraic : Cert.algebraic_KernelIdeal_ReferenceIdeal := by
  intro m ρ m' ρ' hpre hagree
  refine ⟨fun c => W22 m ρ c (Proc.devRef .tc main_v127), Cert.KernelIdeal.KRun.run (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9, e10, e11, e12, e13, e14, e15, e16, e17, e18, e19, e20, e21, e22, e23, e24, e25, e26⟩ := hagree c
  rw [e0, e1, e2, e3, e4, e5, e6, e7, e8, e9, e10, e11, e12, e13, e14, e15, e16, e17, e18, e19, e20, e21, e22, e23, e24, e25, e26]
  exact (out_eq_of_pre m ρ c hpre).symm

end Cert.Bridge

end
-- ==== Proof.lean ====
/- The certificate: both kernel programs' generated frames, the reference's frame read off its run, an empty ledger, and the value claim. -/
import proofs.«400244_j19808389169615_3_alg».proof.Defs
import proofs.«400244_j19808389169615_3_alg».proof.Proof.Gen.Kernel
import proofs.«400244_j19808389169615_3_alg».proof.Proof.Gen.Kernel.Frame
import proofs.«400244_j19808389169615_3_alg».proof.Proof.Gen.KernelIdeal
import proofs.«400244_j19808389169615_3_alg».proof.Proof.Gen.KernelIdeal.Frame
import proofs.«400244_j19808389169615_3_alg».proof.Proof.Gen.ReferenceIdeal
import proofs.«400244_j19808389169615_3_alg».proof.Proof.RefRun
import proofs.«400244_j19808389169615_3_alg».proof.Proof.Gen.Pre_finite_inputs
import proofs.«400244_j19808389169615_3_alg».proof.Proof.Assemble
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefRun.run (F := Ideal) m ρ),
  trivial,
  Cert.Bridge.algebraic⟩

end Cert.Proof

end
